-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_inputs_ReferenceIdeal.lean ====
abbrev S2048x8192 : Shape := ⟨2, ![2048, 8192]⟩
abbrev S8192x2048 : Shape := ⟨2, ![8192, 2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2048x8192 .f32) (main_arg1 : FVec F S8192x2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S2048x1024 : Shape := ⟨2, ![2048, 1024]⟩
abbrev S1024x2048 : Shape := ⟨2, ![1024, 2048]⟩
abbrev S256x2048 : Shape := ⟨2, ![256, 2048]⟩
abbrev S4x96x2048 : Shape := ⟨3, ![4, 96, 2048]⟩
abbrev S7x96x2048 : Shape := ⟨3, ![7, 96, 2048]⟩
abbrev S4x80x2048 : Shape := ⟨3, ![4, 80, 2048]⟩
abbrev S7x80x2048 : Shape := ⟨3, ![7, 80, 2048]⟩
abbrev S7 : Shape := ⟨1, ![7]⟩
abbrev S_ : Shape := ⟨0, ![]⟩
abbrev S96x1024 : Shape := ⟨2, ![96, 1024]⟩
abbrev S96x2048 : Shape := ⟨2, ![96, 2048]⟩
abbrev S1x96x2048 : Shape := ⟨3, ![1, 96, 2048]⟩
abbrev S1 : Shape := ⟨1, ![1]⟩
abbrev S80x1024 : Shape := ⟨2, ![80, 1024]⟩
abbrev S80x2048 : Shape := ⟨2, ![80, 2048]⟩
abbrev S1x80x2048 : Shape := ⟨3, ![1, 80, 2048]⟩

abbrev nBuf : Space → Nat
  | .hbm => 3
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S256x2048, .f32⟩
  | .local _ .vmem, ⟨0, _⟩ => ⟨S2048x1024, .f32⟩
  | .local _ .vmem, ⟨1, _⟩ => ⟨S1024x2048, .f32⟩
  | .local _ .vmem, ⟨2, _⟩ => ⟨S256x2048, .f32⟩
  | .local _ .vmem, ⟨3, _⟩ => ⟨S4x96x2048, .bf16⟩
  | .local _ .vmem, ⟨4, _⟩ => ⟨S7x96x2048, .bf16⟩
  | .local _ .vmem, ⟨5, _⟩ => ⟨S4x80x2048, .bf16⟩
  | .local _ .vmem, ⟨6, _⟩ => ⟨S7x80x2048, .bf16⟩
  | .local _ .vmem, ⟨7, _⟩ => ⟨S4x80x2048, .bf16⟩
  | .local _ .vmem, ⟨8, _⟩ => ⟨S7x80x2048, .bf16⟩
  | .local _ .vmem, ⟨9, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.xori v2 c1_i32_3
  let c1_i32_5 : BitVec 32 := 1#32
  let v11 : BitVec 32 := Scalar.muli v10 c1_i32_5
  let v12 : BitVec 32 := Scalar.addi c0_i32 v11
  v12.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_7 : BitVec 32 := 1#32
  let v14 : BitVec 32 := Scalar.muli v13 c1_i32_7
  let v15 : BitVec 32 := Scalar.addi c0_i32_8 v14
  v15.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_10 : BitVec 32 := 1#32
  let v17 : BitVec 32 := Scalar.muli v16 c1_i32_10
  let v18 : BitVec 32 := Scalar.addi c0_i32_11 v17
  v18.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : BitVec 32 := Scalar.xori v2 c2_i32
  let c256_i32 : BitVec 32 := 256#32
  let v20 : BitVec 32 := Scalar.muli v19 c256_i32
  let c0_i32_13 : BitVec 32 := 0#32
  let v21 : BitVec 32 := Scalar.addi v20 c0_i32_13
  let v22 : Index := Scalar.indexCast v21
  let c0_14 : Index := 0#32
  ![v22.toNat, 0]
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v32 : BitVec 32 := Scalar.xori v2 c1_i32_19
  let c1_i32_24 : BitVec 32 := 1#32
  let v33 : BitVec 32 := Scalar.muli v32 c1_i32_24
  let v34 : BitVec 32 := Scalar.addi c0_i32_25 v33
  v34.toNat
def k0_off2 (d0 : Dev nD) (c7_i32 : BitVec 32) (c96_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.xori v2 c7_i32
  let c256_i32_30 : BitVec 32 := 256#32
  let v44 : BitVec 32 := Scalar.muli v43 c256_i32_30
  let v45 : BitVec 32 := Scalar.addi v44 c96_i32
  let v46 : Index := Scalar.indexCast v45
  let c0_31 : Index := 0#32
  ![v46.toNat, 0]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_38 : BitVec 32 := 3#32
  let v56 : BitVec 32 := Scalar.xori v2 c3_i32_38
  let c1_i32_43 : BitVec 32 := 1#32
  let v57 : BitVec 32 := Scalar.muli v56 c1_i32_43
  let v58 : BitVec 32 := Scalar.addi c0_i32_44 v57
  v58.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v80 : BitVec 32 := Scalar.xori v2 c4_i32_57
  let c1_i32_62 : BitVec 32 := 1#32
  let v81 : BitVec 32 := Scalar.muli v80 c1_i32_62
  let v82 : BitVec 32 := Scalar.addi c0_i32_63 v81
  v82.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v104 : BitVec 32 := Scalar.xori v2 c1_i32_76
  let c1_i32_81 : BitVec 32 := 1#32
  let v105 : BitVec 32 := Scalar.muli v104 c1_i32_81
  let v106 : BitVec 32 := Scalar.addi c0_i32_82 v105
  v106.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v128 : BitVec 32 := Scalar.xori v2 c3_i32_97
  let c1_i32_102 : BitVec 32 := 1#32
  let v129 : BitVec 32 := Scalar.muli v128 c1_i32_102
  let v130 : BitVec 32 := Scalar.addi c0_i32_103 v129
  v130.toNat
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v152 : BitVec 32 := Scalar.xori v2 c4_i32_118
  let c1_i32_123 : BitVec 32 := 1#32
  let v153 : BitVec 32 := Scalar.muli v152 c1_i32_123
  let v154 : BitVec 32 := Scalar.addi c0_i32_124 v153
  v154.toNat
def k0_dev10 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_138 : BitVec 32 := 1#32
  let v176 : BitVec 32 := Scalar.xori v2 c1_i32_138
  let c1_i32_143 : BitVec 32 := 1#32
  let v177 : BitVec 32 := Scalar.muli v176 c1_i32_143
  let v178 : BitVec 32 := Scalar.addi c0_i32_144 v177
  v178.toNat
def k0_dev11 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_159 : BitVec 32 := 3#32
  let v200 : BitVec 32 := Scalar.xori v2 c3_i32_159
  let c1_i32_164 : BitVec 32 := 1#32
  let v201 : BitVec 32 := Scalar.muli v200 c1_i32_164
  let v202 : BitVec 32 := Scalar.addi c0_i32_165 v201
  v202.toNat
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_180 : BitVec 32 := 4#32
  let v224 : BitVec 32 := Scalar.xori v2 c4_i32_180
  let c1_i32_185 : BitVec 32 := 1#32
  let v225 : BitVec 32 := Scalar.muli v224 c1_i32_185
  let v226 : BitVec 32 := Scalar.addi c0_i32_186 v225
  v226.toNat
def k0_dev13 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_201 : BitVec 32 := 1#32
  let v248 : BitVec 32 := Scalar.xori v2 c1_i32_201
  let c1_i32_206 : BitVec 32 := 1#32
  let v249 : BitVec 32 := Scalar.muli v248 c1_i32_206
  let v250 : BitVec 32 := Scalar.addi c0_i32_207 v249
  v250.toNat
def k0_dev14 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v272 : BitVec 32 := Scalar.xori v2 c3_i32_222
  let c1_i32_227 : BitVec 32 := 1#32
  let v273 : BitVec 32 := Scalar.muli v272 c1_i32_227
  let v274 : BitVec 32 := Scalar.addi c0_i32_228 v273
  v274.toNat
def k0_dev15 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_243 : BitVec 32 := 4#32
  let v296 : BitVec 32 := Scalar.xori v2 c4_i32_243
  let c1_i32_248 : BitVec 32 := 1#32
  let v297 : BitVec 32 := Scalar.muli v296 c1_i32_248
  let v298 : BitVec 32 := Scalar.addi c0_i32_249 v297
  v298.toNat
def k0_dev16 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_392 : BitVec 32 := 3#32
  let v451 : BitVec 32 := Scalar.xori v2 c3_i32_392
  let c1_i32_397 : BitVec 32 := 1#32
  let v452 : BitVec 32 := Scalar.muli v451 c1_i32_397
  let v453 : BitVec 32 := Scalar.addi c0_i32_398 v452
  v453.toNat
def k0_dev17 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_403 : BitVec 32 := 3#32
  let v462 : BitVec 32 := Scalar.xori v2 c3_i32_403
  let c1_i32_408 : BitVec 32 := 1#32
  let v463 : BitVec 32 := Scalar.muli v462 c1_i32_408
  let v464 : BitVec 32 := Scalar.addi c0_i32_409 v463
  v464.toNat
def k0_dev18 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_414 : BitVec 32 := 4#32
  let v473 : BitVec 32 := Scalar.xori v2 c4_i32_414
  let c1_i32_419 : BitVec 32 := 1#32
  let v474 : BitVec 32 := Scalar.muli v473 c1_i32_419
  let v475 : BitVec 32 := Scalar.addi c0_i32_420 v474
  v475.toNat
def k0_dev19 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_425 : BitVec 32 := 4#32
  let v484 : BitVec 32 := Scalar.xori v2 c4_i32_425
  let c1_i32_430 : BitVec 32 := 1#32
  let v485 : BitVec 32 := Scalar.muli v484 c1_i32_430
  let v486 : BitVec 32 := Scalar.addi c0_i32_431 v485
  v486.toNat
def k0_dev20 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v495 : BitVec 32 := Scalar.xori v2 c1_i32_436
  let c1_i32_441 : BitVec 32 := 1#32
  let v496 : BitVec 32 := Scalar.muli v495 c1_i32_441
  let v497 : BitVec 32 := Scalar.addi c0_i32_442 v496
  v497.toNat
def k0_dev21 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_447 : BitVec 32 := 1#32
  let v506 : BitVec 32 := Scalar.xori v2 c1_i32_447
  let c1_i32_452 : BitVec 32 := 1#32
  let v507 : BitVec 32 := Scalar.muli v506 c1_i32_452
  let v508 : BitVec 32 := Scalar.addi c0_i32_453 v507
  v508.toNat
def k0_dev22 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_493 : BitVec 32 := 4#32
  let v552 : BitVec 32 := Scalar.xori v2 c4_i32_493
  let c1_i32_498 : BitVec 32 := 1#32
  let v553 : BitVec 32 := Scalar.muli v552 c1_i32_498
  let v554 : BitVec 32 := Scalar.addi c0_i32_499 v553
  v554.toNat
def k0_dev23 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_540 : BitVec 32 := 1#32
  let v598 : BitVec 32 := Scalar.xori v2 c1_i32_540
  let c1_i32_545 : BitVec 32 := 1#32
  let v599 : BitVec 32 := Scalar.muli v598 c1_i32_545
  let v600 : BitVec 32 := Scalar.addi c0_i32_546 v599
  v600.toNat
def k0_dev24 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_587 : BitVec 32 := 3#32
  let v644 : BitVec 32 := Scalar.xori v2 c3_i32_587
  let c1_i32_592 : BitVec 32 := 1#32
  let v645 : BitVec 32 := Scalar.muli v644 c1_i32_592
  let v646 : BitVec 32 := Scalar.addi c0_i32_593 v645
  v646.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  hamt_1 : (1#32 : BitVec 32).msb = false
  hamt_3 : (3#32 : BitVec 32).msb = false
  h_S96x1024 : 0 < S96x1024.numel
  shapeCasts_S96x1024_S96x1024 : S96x1024.ShapeCasts S96x1024
  inb_S4x96x2048_S1x96x2048_1_0_0 : ∀ a, (![1, 0, 0] : Fin 3 → Nat) a + S1x96x2048.size a ≤ S4x96x2048.size a
  h_S1x96x2048 : 0 < S1x96x2048.numel
  shapeCasts_S1x96x2048_S96x2048 : S1x96x2048.ShapeCasts S96x2048
  shapeCasts_S96x2048_S1x96x2048 : S96x2048.ShapeCasts S1x96x2048
  packedbf16_S4x96x2048_S1x96x2048_1_0_0 : (Rect.unit (s := S4x96x2048) ![1, 0, 0] S1x96x2048.size inb_S4x96x2048_S1x96x2048_1_0_0).PackedRows (EltTy.packing .bf16)
  inb_S7_S1_1 : ∀ a, (![1] : Fin 1 → Nat) a + S1.size a ≤ S7.size a
  squeezes_S1_S_ : S1.Squeezes S_
  inb_S7x96x2048_S1x96x2048_1_0_0 : ∀ a, (![1, 0, 0] : Fin 3 → Nat) a + S1x96x2048.size a ≤ S7x96x2048.size a
  squeezes_S1x96x2048_S96x2048 : S1x96x2048.Squeezes S96x2048
  wordsbf16_S4x96x2048_S1x96x2048_1_0_0 : (Rect.unit (s := S4x96x2048) ![1, 0, 0] S1x96x2048.size inb_S4x96x2048_S1x96x2048_1_0_0).WholeWords (EltTy.packing .bf16)
  wordsbf16_S7x96x2048_S1x96x2048_1_0_0 : (Rect.unit (s := S7x96x2048) ![1, 0, 0] S1x96x2048.size inb_S7x96x2048_S1x96x2048_1_0_0).WholeWords (EltTy.packing .bf16)
  h_S80x1024 : 0 < S80x1024.numel
  shapeCasts_S80x1024_S80x1024 : S80x1024.ShapeCasts S80x1024
  inb_S4x80x2048_S1x80x2048_1_0_0 : ∀ a, (![1, 0, 0] : Fin 3 → Nat) a + S1x80x2048.size a ≤ S4x80x2048.size a
  h_S1x80x2048 : 0 < S1x80x2048.numel
  shapeCasts_S1x80x2048_S80x2048 : S1x80x2048.ShapeCasts S80x2048
  shapeCasts_S80x2048_S1x80x2048 : S80x2048.ShapeCasts S1x80x2048
  packedbf16_S4x80x2048_S1x80x2048_1_0_0 : (Rect.unit (s := S4x80x2048) ![1, 0, 0] S1x80x2048.size inb_S4x80x2048_S1x80x2048_1_0_0).PackedRows (EltTy.packing .bf16)
  inb_S7x80x2048_S1x80x2048_1_0_0 : ∀ a, (![1, 0, 0] : Fin 3 → Nat) a + S1x80x2048.size a ≤ S7x80x2048.size a
  squeezes_S1x80x2048_S80x2048 : S1x80x2048.Squeezes S80x2048
  wordsbf16_S4x80x2048_S1x80x2048_1_0_0 : (Rect.unit (s := S4x80x2048) ![1, 0, 0] S1x80x2048.size inb_S4x80x2048_S1x80x2048_1_0_0).WholeWords (EltTy.packing .bf16)
  wordsbf16_S7x80x2048_S1x80x2048_1_0_0 : (Rect.unit (s := S7x80x2048) ![1, 0, 0] S1x80x2048.size inb_S7x80x2048_S1x80x2048_1_0_0).WholeWords (EltTy.packing .bf16)
  inb_S4x96x2048_S1x96x2048_3_0_0 : ∀ a, (![3, 0, 0] : Fin 3 → Nat) a + S1x96x2048.size a ≤ S4x96x2048.size a
  packedbf16_S4x96x2048_S1x96x2048_3_0_0 : (Rect.unit (s := S4x96x2048) ![3, 0, 0] S1x96x2048.size inb_S4x96x2048_S1x96x2048_3_0_0).PackedRows (EltTy.packing .bf16)
  inb_S7_S1_3 : ∀ a, (![3] : Fin 1 → Nat) a + S1.size a ≤ S7.size a
  inb_S7x96x2048_S1x96x2048_3_0_0 : ∀ a, (![3, 0, 0] : Fin 3 → Nat) a + S1x96x2048.size a ≤ S7x96x2048.size a
  wordsbf16_S4x96x2048_S1x96x2048_3_0_0 : (Rect.unit (s := S4x96x2048) ![3, 0, 0] S1x96x2048.size inb_S4x96x2048_S1x96x2048_3_0_0).WholeWords (EltTy.packing .bf16)
  wordsbf16_S7x96x2048_S1x96x2048_3_0_0 : (Rect.unit (s := S7x96x2048) ![3, 0, 0] S1x96x2048.size inb_S7x96x2048_S1x96x2048_3_0_0).WholeWords (EltTy.packing .bf16)
  inb_S4x80x2048_S1x80x2048_3_0_0 : ∀ a, (![3, 0, 0] : Fin 3 → Nat) a + S1x80x2048.size a ≤ S4x80x2048.size a
  packedbf16_S4x80x2048_S1x80x2048_3_0_0 : (Rect.unit (s := S4x80x2048) ![3, 0, 0] S1x80x2048.size inb_S4x80x2048_S1x80x2048_3_0_0).PackedRows (EltTy.packing .bf16)
  inb_S7x80x2048_S1x80x2048_3_0_0 : ∀ a, (![3, 0, 0] : Fin 3 → Nat) a + S1x80x2048.size a ≤ S7x80x2048.size a
  wordsbf16_S4x80x2048_S1x80x2048_3_0_0 : (Rect.unit (s := S4x80x2048) ![3, 0, 0] S1x80x2048.size inb_S4x80x2048_S1x80x2048_3_0_0).WholeWords (EltTy.packing .bf16)
  wordsbf16_S7x80x2048_S1x80x2048_3_0_0 : (Rect.unit (s := S7x80x2048) ![3, 0, 0] S1x80x2048.size inb_S7x80x2048_S1x80x2048_3_0_0).WholeWords (EltTy.packing .bf16)
  inb_S4x96x2048_S1x96x2048_2_0_0 : ∀ a, (![2, 0, 0] : Fin 3 → Nat) a + S1x96x2048.size a ≤ S4x96x2048.size a
  packedbf16_S4x96x2048_S1x96x2048_2_0_0 : (Rect.unit (s := S4x96x2048) ![2, 0, 0] S1x96x2048.size inb_S4x96x2048_S1x96x2048_2_0_0).PackedRows (EltTy.packing .bf16)
  inb_S7_S1_2 : ∀ a, (![2] : Fin 1 → Nat) a + S1.size a ≤ S7.size a
  inb_S7x96x2048_S1x96x2048_2_0_0 : ∀ a, (![2, 0, 0] : Fin 3 → Nat) a + S1x96x2048.size a ≤ S7x96x2048.size a
  wordsbf16_S4x96x2048_S1x96x2048_2_0_0 : (Rect.unit (s := S4x96x2048) ![2, 0, 0] S1x96x2048.size inb_S4x96x2048_S1x96x2048_2_0_0).WholeWords (EltTy.packing .bf16)
  wordsbf16_S7x96x2048_S1x96x2048_2_0_0 : (Rect.unit (s := S7x96x2048) ![2, 0, 0] S1x96x2048.size inb_S7x96x2048_S1x96x2048_2_0_0).WholeWords (EltTy.packing .bf16)
  inb_S4x80x2048_S1x80x2048_2_0_0 : ∀ a, (![2, 0, 0] : Fin 3 → Nat) a + S1x80x2048.size a ≤ S4x80x2048.size a
  packedbf16_S4x80x2048_S1x80x2048_2_0_0 : (Rect.unit (s := S4x80x2048) ![2, 0, 0] S1x80x2048.size inb_S4x80x2048_S1x80x2048_2_0_0).PackedRows (EltTy.packing .bf16)
  inb_S7x80x2048_S1x80x2048_2_0_0 : ∀ a, (![2, 0, 0] : Fin 3 → Nat) a + S1x80x2048.size a ≤ S7x80x2048.size a
  wordsbf16_S4x80x2048_S1x80x2048_2_0_0 : (Rect.unit (s := S4x80x2048) ![2, 0, 0] S1x80x2048.size inb_S4x80x2048_S1x80x2048_2_0_0).WholeWords (EltTy.packing .bf16)
  wordsbf16_S7x80x2048_S1x80x2048_2_0_0 : (Rect.unit (s := S7x80x2048) ![2, 0, 0] S1x80x2048.size inb_S7x80x2048_S1x80x2048_2_0_0).WholeWords (EltTy.packing .bf16)
  inb_S4x96x2048_S1x96x2048_0_0_0 : ∀ a, (![0, 0, 0] : Fin 3 → Nat) a + S1x96x2048.size a ≤ S4x96x2048.size a
  packedbf16_S4x96x2048_S1x96x2048_0_0_0 : (Rect.unit (s := S4x96x2048) ![0, 0, 0] S1x96x2048.size inb_S4x96x2048_S1x96x2048_0_0_0).PackedRows (EltTy.packing .bf16)
  inb_S7_S1_0 : ∀ a, (![0] : Fin 1 → Nat) a + S1.size a ≤ S7.size a
  inb_S7x96x2048_S1x96x2048_0_0_0 : ∀ a, (![0, 0, 0] : Fin 3 → Nat) a + S1x96x2048.size a ≤ S7x96x2048.size a
  wordsbf16_S4x96x2048_S1x96x2048_0_0_0 : (Rect.unit (s := S4x96x2048) ![0, 0, 0] S1x96x2048.size inb_S4x96x2048_S1x96x2048_0_0_0).WholeWords (EltTy.packing .bf16)
  wordsbf16_S7x96x2048_S1x96x2048_0_0_0 : (Rect.unit (s := S7x96x2048) ![0, 0, 0] S1x96x2048.size inb_S7x96x2048_S1x96x2048_0_0_0).WholeWords (EltTy.packing .bf16)
  inb_S4x80x2048_S1x80x2048_0_0_0 : ∀ a, (![0, 0, 0] : Fin 3 → Nat) a + S1x80x2048.size a ≤ S4x80x2048.size a
  packedbf16_S4x80x2048_S1x80x2048_0_0_0 : (Rect.unit (s := S4x80x2048) ![0, 0, 0] S1x80x2048.size inb_S4x80x2048_S1x80x2048_0_0_0).PackedRows (EltTy.packing .bf16)
  inb_S7x80x2048_S1x80x2048_0_0_0 : ∀ a, (![0, 0, 0] : Fin 3 → Nat) a + S1x80x2048.size a ≤ S7x80x2048.size a
  wordsbf16_S4x80x2048_S1x80x2048_0_0_0 : (Rect.unit (s := S4x80x2048) ![0, 0, 0] S1x80x2048.size inb_S4x80x2048_S1x80x2048_0_0_0).WholeWords (EltTy.packing .bf16)
  wordsbf16_S7x80x2048_S1x80x2048_0_0_0 : (Rect.unit (s := S7x80x2048) ![0, 0, 0] S1x80x2048.size inb_S7x80x2048_S1x80x2048_0_0_0).WholeWords (EltTy.packing .bf16)
  packedbf16_S7x96x2048_S1x96x2048_1_0_0 : (Rect.unit (s := S7x96x2048) ![1, 0, 0] S1x96x2048.size inb_S7x96x2048_S1x96x2048_1_0_0).PackedRows (EltTy.packing .bf16)
  packedbf16_S7x80x2048_S1x80x2048_1_0_0 : (Rect.unit (s := S7x80x2048) ![1, 0, 0] S1x80x2048.size inb_S7x80x2048_S1x80x2048_1_0_0).PackedRows (EltTy.packing .bf16)
  packedbf16_S7x96x2048_S1x96x2048_3_0_0 : (Rect.unit (s := S7x96x2048) ![3, 0, 0] S1x96x2048.size inb_S7x96x2048_S1x96x2048_3_0_0).PackedRows (EltTy.packing .bf16)
  packedbf16_S7x80x2048_S1x80x2048_3_0_0 : (Rect.unit (s := S7x80x2048) ![3, 0, 0] S1x80x2048.size inb_S7x80x2048_S1x80x2048_3_0_0).PackedRows (EltTy.packing .bf16)
  inb_S7_S1_5 : ∀ a, (![5] : Fin 1 → Nat) a + S1.size a ≤ S7.size a
  inb_S7x96x2048_S1x96x2048_5_0_0 : ∀ a, (![5, 0, 0] : Fin 3 → Nat) a + S1x96x2048.size a ≤ S7x96x2048.size a
  wordsbf16_S7x96x2048_S1x96x2048_5_0_0 : (Rect.unit (s := S7x96x2048) ![5, 0, 0] S1x96x2048.size inb_S7x96x2048_S1x96x2048_5_0_0).WholeWords (EltTy.packing .bf16)
  inb_S7_S1_4 : ∀ a, (![4] : Fin 1 → Nat) a + S1.size a ≤ S7.size a
  inb_S7x96x2048_S1x96x2048_4_0_0 : ∀ a, (![4, 0, 0] : Fin 3 → Nat) a + S1x96x2048.size a ≤ S7x96x2048.size a
  wordsbf16_S7x96x2048_S1x96x2048_4_0_0 : (Rect.unit (s := S7x96x2048) ![4, 0, 0] S1x96x2048.size inb_S7x96x2048_S1x96x2048_4_0_0).WholeWords (EltTy.packing .bf16)
  inb_S7x80x2048_S1x80x2048_5_0_0 : ∀ a, (![5, 0, 0] : Fin 3 → Nat) a + S1x80x2048.size a ≤ S7x80x2048.size a
  wordsbf16_S7x80x2048_S1x80x2048_5_0_0 : (Rect.unit (s := S7x80x2048) ![5, 0, 0] S1x80x2048.size inb_S7x80x2048_S1x80x2048_5_0_0).WholeWords (EltTy.packing .bf16)
  inb_S7x80x2048_S1x80x2048_4_0_0 : ∀ a, (![4, 0, 0] : Fin 3 → Nat) a + S1x80x2048.size a ≤ S7x80x2048.size a
  wordsbf16_S7x80x2048_S1x80x2048_4_0_0 : (Rect.unit (s := S7x80x2048) ![4, 0, 0] S1x80x2048.size inb_S7x80x2048_S1x80x2048_4_0_0).WholeWords (EltTy.packing .bf16)
  packedbf16_S7x96x2048_S1x96x2048_2_0_0 : (Rect.unit (s := S7x96x2048) ![2, 0, 0] S1x96x2048.size inb_S7x96x2048_S1x96x2048_2_0_0).PackedRows (EltTy.packing .bf16)
  inb_S7_S1_6 : ∀ a, (![6] : Fin 1 → Nat) a + S1.size a ≤ S7.size a
  inb_S7x96x2048_S1x96x2048_6_0_0 : ∀ a, (![6, 0, 0] : Fin 3 → Nat) a + S1x96x2048.size a ≤ S7x96x2048.size a
  wordsbf16_S7x96x2048_S1x96x2048_6_0_0 : (Rect.unit (s := S7x96x2048) ![6, 0, 0] S1x96x2048.size inb_S7x96x2048_S1x96x2048_6_0_0).WholeWords (EltTy.packing .bf16)
  packedbf16_S7x80x2048_S1x80x2048_2_0_0 : (Rect.unit (s := S7x80x2048) ![2, 0, 0] S1x80x2048.size inb_S7x80x2048_S1x80x2048_2_0_0).PackedRows (EltTy.packing .bf16)
  inb_S7x80x2048_S1x80x2048_6_0_0 : ∀ a, (![6, 0, 0] : Fin 3 → Nat) a + S1x80x2048.size a ≤ S7x80x2048.size a
  wordsbf16_S7x80x2048_S1x80x2048_6_0_0 : (Rect.unit (s := S7x80x2048) ![6, 0, 0] S1x80x2048.size inb_S7x80x2048_S1x80x2048_6_0_0).WholeWords (EltTy.packing .bf16)
  packedbf16_S7x96x2048_S1x96x2048_0_0_0 : (Rect.unit (s := S7x96x2048) ![0, 0, 0] S1x96x2048.size inb_S7x96x2048_S1x96x2048_0_0_0).PackedRows (EltTy.packing .bf16)
  packedbf16_S7x80x2048_S1x80x2048_0_0_0 : (Rect.unit (s := S7x80x2048) ![0, 0, 0] S1x80x2048.size inb_S7x80x2048_S1x80x2048_0_0_0).PackedRows (EltTy.packing .bf16)
  inb_S256x2048_S96x2048_0_0 : ∀ a, (![0, 0] : Fin 2 → Nat) a + S96x2048.size a ≤ S256x2048.size a
  h_S96x2048 : 0 < S96x2048.numel
  inb_S256x2048_S80x2048_96_0 : ∀ a, (![96, 0] : Fin 2 → Nat) a + S80x2048.size a ≤ S256x2048.size a
  h_S80x2048 : 0 < S80x2048.numel
  inb_S256x2048_S80x2048_176_0 : ∀ a, (![176, 0] : Fin 2 → Nat) a + S80x2048.size a ≤ S256x2048.size a
  dot_S96x1024_S1024x2048_S96x2048_1_0_0_1_n_n_wf : DotDims.WF S96x1024 S1024x2048 S96x2048 [1] [0] [0] [1] [] []
  dot_S80x1024_S1024x2048_S80x2048_1_0_0_1_n_n_wf : DotDims.WF S80x1024 S1024x2048 S80x2048 [1] [0] [0] [1] [] []
  hcc0_scratch7 : 3 + S7.numel ≤ 45
  hcc0_scratch8 : 10 + S7.numel ≤ 45
  hcc0_scratch9 : 17 + S7.numel ≤ 45
  hcc0_scratch10 : 24 + S7.numel ≤ 45
  hcc0_scratch11 : 31 + S7.numel ≤ 45
  hcc0_scratch12 : 38 + S7.numel ≤ 45
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 r.val)) a + S96x1024.size a ≤ S2048x1024.size a
  k0_dev4_lt : ∀ d0 : Dev nD, (k0_dev4 d0) < nD
  k0_off2_inb : ∀ d0 : Dev nD, ∀ (r₁ : Fin 8) (r₂ : Fin 2), ∀ a, (k0_off2 d0 (BitVec.ofNat 32 r₁.val) (BitVec.ofNat 32 (96 + 80 * r₂.val))) a + S80x1024.size a ≤ S2048x1024.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  hstage0_0 : ∀ j, (stage0_0 j).IsWhole
  hstage0_1 : ∀ j, (stage0_1 j).IsWhole
  hstage0_2 : ∀ j, (stage0_2 j).IsWhole

variable [Facts₀]

abbrev cc0_scratch7 : DmaSems sig S7 := SemArray.consecutive 3 S7 hcc0_scratch7
abbrev cc0_scratch8 : DmaSems sig S7 := SemArray.consecutive 10 S7 hcc0_scratch8
abbrev cc0_scratch9 : DmaSems sig S7 := SemArray.consecutive 17 S7 hcc0_scratch9
abbrev cc0_scratch10 : DmaSems sig S7 := SemArray.consecutive 24 S7 hcc0_scratch10
abbrev cc0_scratch11 : DmaSems sig S7 := SemArray.consecutive 31 S7 hcc0_scratch11
abbrev cc0_scratch12 : DmaSems sig S7 := SemArray.consecutive 38 S7 hcc0_scratch12
def dot_S96x1024_S1024x2048_S96x2048_1_0_0_1_n_n : DotDims S96x1024 S1024x2048 S96x2048 where
  lhsContracting := [1]
  rhsContracting := [0]
  lhsNonContracting := [0]
  rhsNonContracting := [1]
  lhsBatch := []
  rhsBatch := []
  wf := dot_S96x1024_S1024x2048_S96x2048_1_0_0_1_n_n_wf
def dot_S80x1024_S1024x2048_S80x2048_1_0_0_1_n_n : DotDims S80x1024 S1024x2048 S80x2048 where
  lhsContracting := [1]
  rhsContracting := [0]
  lhsNonContracting := [0]
  rhsNonContracting := [1]
  lhsBatch := []
  rhsBatch := []
  wf := dot_S80x1024_S1024x2048_S80x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x8192_S8192x2048_S2048x2048_1_0_0_1_n_n_wf : DotDims.WF S2048x8192 S8192x2048 S2048x2048 [1] [0] [0] [1] [] []

variable [Facts₀]

def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.Mesh.lean ====
import proofs.«900895_g7700000000000896_dist_matmul_mk_i_outk_m2048_n2048_k1024_v7x_i8_f32_1_alg».proof.Proof.Gen.KernelIdeal

noncomputable section

namespace Cert.KernelIdeal.Mesh

open Idealize.ShloMosaic Cert.KernelIdeal

def mask : Fin 3 → Nat := ![1, 3, 4]

/-- XOR of a device's position with the mask of index x. -/
def peer (x : Fin 3) (c : Dev nD) : Dev nD := ⟨(c.val ^^^ mask x) % 8, Nat.mod_lt _ (by decide)⟩

theorem peer_peer (x : Fin 3) (c : Dev nD) : peer x (peer x c) = c := by revert x c; decide

def peerEquiv (x : Fin 3) : Dev nD ≃ Dev nD := ⟨peer x, peer x, peer_peer x, peer_peer x⟩

/-- XOR of a device's position with a three-bit word. -/
def chunk (q : Fin 8) (c : Dev nD) : Dev nD := ⟨(c.val ^^^ q.val) % 8, Nat.mod_lt _ (by decide)⟩

/-- A device named by a position that is a neighbour's position is that neighbour. -/
theorem mk_eq {f : Dev nD → Nat} {x : Fin 3} (h : ∀ c, f c = (peer x c).val) (c : Dev nD) (hl : f c < nD) :
    (⟨f c, hl⟩ : Dev nD) = peer x c := Fin.ext (h c)

section
variable [Facts]
open Facts₀

theorem dev1_eq (c : Dev nD) : (⟨k0_dev1 c, k0_dev1_lt c⟩ : Dev nD) = peer 0 c := mk_eq (by decide) c _
theorem dev2_eq (c : Dev nD) : (⟨k0_dev2 c, k0_dev2_lt c⟩ : Dev nD) = peer 1 c := mk_eq (by decide) c _
theorem dev3_eq (c : Dev nD) : (⟨k0_dev3 c, k0_dev3_lt c⟩ : Dev nD) = peer 2 c := mk_eq (by decide) c _
theorem dev4_eq (c : Dev nD) : (⟨k0_dev4 c, k0_dev4_lt c⟩ : Dev nD) = peer 0 c := mk_eq (by decide) c _
theorem dev5_eq (c : Dev nD) : (⟨k0_dev5 c, k0_dev5_lt c⟩ : Dev nD) = peer 1 c := mk_eq (by decide) c _
theorem dev6_eq (c : Dev nD) : (⟨k0_dev6 c, k0_dev6_lt c⟩ : Dev nD) = peer 2 c := mk_eq (by decide) c _
theorem dev7_eq (c : Dev nD) : (⟨k0_dev7 c, k0_dev7_lt c⟩ : Dev nD) = peer 0 c := mk_eq (by decide) c _
theorem dev8_eq (c : Dev nD) : (⟨k0_dev8 c, k0_dev8_lt c⟩ : Dev nD) = peer 1 c := mk_eq (by decide) c _
theorem dev9_eq (c : Dev nD) : (⟨k0_dev9 c, k0_dev9_lt c⟩ : Dev nD) = peer 2 c := mk_eq (by decide) c _
theorem dev10_eq (c : Dev nD) : (⟨k0_dev10 c, k0_dev10_lt c⟩ : Dev nD) = peer 0 c := mk_eq (by decide) c _
theorem dev11_eq (c : Dev nD) : (⟨k0_dev11 c, k0_dev11_lt c⟩ : Dev nD) = peer 1 c := mk_eq (by decide) c _
theorem dev12_eq (c : Dev nD) : (⟨k0_dev12 c, k0_dev12_lt c⟩ : Dev nD) = peer 2 c := mk_eq (by decide) c _
theorem dev13_eq (c : Dev nD) : (⟨k0_dev13 c, k0_dev13_lt c⟩ : Dev nD) = peer 0 c := mk_eq (by decide) c _
theorem dev14_eq (c : Dev nD) : (⟨k0_dev14 c, k0_dev14_lt c⟩ : Dev nD) = peer 1 c := mk_eq (by decide) c _
theorem dev15_eq (c : Dev nD) : (⟨k0_dev15 c, k0_dev15_lt c⟩ : Dev nD) = peer 2 c := mk_eq (by decide) c _
theorem dev16_eq (c : Dev nD) : (⟨k0_dev16 c, k0_dev16_lt c⟩ : Dev nD) = peer 1 c := mk_eq (by decide) c _
theorem dev17_eq (c : Dev nD) : (⟨k0_dev17 c, k0_dev17_lt c⟩ : Dev nD) = peer 1 c := mk_eq (by decide) c _
theorem dev18_eq (c : Dev nD) : (⟨k0_dev18 c, k0_dev18_lt c⟩ : Dev nD) = peer 2 c := mk_eq (by decide) c _
theorem dev19_eq (c : Dev nD) : (⟨k0_dev19 c, k0_dev19_lt c⟩ : Dev nD) = peer 2 c := mk_eq (by decide) c _
theorem dev20_eq (c : Dev nD) : (⟨k0_dev20 c, k0_dev20_lt c⟩ : Dev nD) = peer 0 c := mk_eq (by decide) c _
theorem dev21_eq (c : Dev nD) : (⟨k0_dev21 c, k0_dev21_lt c⟩ : Dev nD) = peer 0 c := mk_eq (by decide) c _
theorem dev22_eq (c : Dev nD) : (⟨k0_dev22 c, k0_dev22_lt c⟩ : Dev nD) = peer 2 c := mk_eq (by decide) c _
theorem dev23_eq (c : Dev nD) : (⟨k0_dev23 c, k0_dev23_lt c⟩ : Dev nD) = peer 0 c := mk_eq (by decide) c _
theorem dev24_eq (c : Dev nD) : (⟨k0_dev24 c, k0_dev24_lt c⟩ : Dev nD) = peer 1 c := mk_eq (by decide) c _

end

end Cert.KernelIdeal.Mesh

end
-- ==== Proof.Proto.lean ====
import proofs.«900895_g7700000000000896_dist_matmul_mk_i_outk_m2048_n2048_k1024_v7x_i8_f32_1_alg».proof.Proof.Mesh
import proofs.«900895_g7700000000000896_dist_matmul_mk_i_outk_m2048_n2048_k1024_v7x_i8_f32_1_alg».proof.Proof.Gen.KernelIdeal.Skeleton
import proofs.«900895_g7700000000000896_dist_matmul_mk_i_outk_m2048_n2048_k1024_v7x_i8_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

def slotMask (p : Fin 3) (i : Fin 7) : Fin 3 :=
  if i.val < 4 then p else if i.val < 6 then p + 1 else p + 2

abbrev barS : Sem sig := (SemArray.scalar (sig.barrier 0 rfl) : Sems sig S_).sem

theorem sSem_lt (p : Fin 3) (i : Fin 7) : 3 + 14 * p.val + i.val < sig.nDmaSem := by revert p i; decide
theorem rSem_lt (p : Fin 3) (i : Fin 7) : 10 + 14 * p.val + i.val < sig.nDmaSem := by revert p i; decide

abbrev sSem (p : Fin 3) (i : Fin 7) : DmaSem sig := ⟨3 + 14 * p.val + i.val, sSem_lt p i⟩
abbrev rSem (p : Fin 3) (i : Fin 7) : DmaSem sig := ⟨10 + 14 * p.val + i.val, rSem_lt p i⟩

abbrev barCell (c : Dev nD) : GSem nD τ sig := ((c : Thread nD τ), .reg barS)
abbrev sendCell (c : Dev nD) (p : Fin 3) (i : Fin 7) : GSem nD τ sig := ((c : Thread nD τ), .dma (sSem p i))
abbrev recvCell (c : Dev nD) (p : Fin 3) (i : Fin 7) : GSem nD τ sig := ((c : Thread nD τ), .dma (rSem p i))

abbrev aM : Memref sig .tc .vmem S2048x1024 .f32 := Memref.whole cc0_stg0_0
abbrev bM : Memref sig .tc .vmem S1024x2048 .f32 := Memref.whole cc0_stg1_0
abbrev oM : Memref sig .tc .vmem S256x2048 .f32 := Memref.whole cc0_stg2_0
abbrev b16M : Memref sig .tc .vmem S1024x2048 .bf16 := Memref.whole cc0_scratch6
abbrev sndM0 : Memref sig .tc .vmem S4x96x2048 .bf16 := Memref.whole cc0_scratch0
abbrev rcvM0 : Memref sig .tc .vmem S7x96x2048 .bf16 := Memref.whole cc0_scratch1
abbrev sndM1 : Memref sig .tc .vmem S4x80x2048 .bf16 := Memref.whole cc0_scratch2
abbrev rcvM1 : Memref sig .tc .vmem S7x80x2048 .bf16 := Memref.whole cc0_scratch3
abbrev sndM2 : Memref sig .tc .vmem S4x80x2048 .bf16 := Memref.whole cc0_scratch4
abbrev rcvM2 : Memref sig .tc .vmem S7x80x2048 .bf16 := Memref.whole cc0_scratch5

/-- A part of the body applied to the device's own buffers, each whole, and its six semaphore arrays. -/

abbrev atBufs {α : Type 1} (p : (a0 : Memref sig .tc .vmem S2048x1024 .f32) → a0.IsWhole → (a1 : Memref sig .tc .vmem S1024x2048 .f32) → a1.IsWhole
    → (a2 : Memref sig .tc .vmem S256x2048 .f32) → a2.IsWhole → (a3 : Memref sig .tc .vmem S4x96x2048 .bf16) → a3.IsWhole
    → (a4 : Memref sig .tc .vmem S7x96x2048 .bf16) → a4.IsWhole → (a5 : Memref sig .tc .vmem S4x80x2048 .bf16) → a5.IsWhole
    → (a6 : Memref sig .tc .vmem S7x80x2048 .bf16) → a6.IsWhole → (a7 : Memref sig .tc .vmem S4x80x2048 .bf16) → a7.IsWhole
    → (a8 : Memref sig .tc .vmem S7x80x2048 .bf16) → a8.IsWhole → (a9 : Memref sig .tc .vmem S1024x2048 .bf16) → a9.IsWhole
    → DmaSems sig S7 → DmaSems sig S7 → DmaSems sig S7 → DmaSems sig S7 → DmaSems sig S7 → DmaSems sig S7 → α) : α :=
  p aM (Memref.isWhole_whole _) bM (Memref.isWhole_whole _) oM (Memref.isWhole_whole _) sndM0 (Memref.isWhole_whole _)
    rcvM0 (Memref.isWhole_whole _) sndM1 (Memref.isWhole_whole _) rcvM1 (Memref.isWhole_whole _) sndM2 (Memref.isWhole_whole _)
    rcvM2 (Memref.isWhole_whole _) b16M (Memref.isWhole_whole _) cc0_scratch7 cc0_scratch8 cc0_scratch9 cc0_scratch10 cc0_scratch11
    cc0_scratch12

theorem inbS96 : ∀ (i : Fin 4) a, (![i.val, 0, 0] : Fin 3 → Nat) a + S1x96x2048.size a ≤ S4x96x2048.size a := by decide
theorem inbR96 : ∀ (i : Fin 7) a, (![i.val, 0, 0] : Fin 3 → Nat) a + S1x96x2048.size a ≤ S7x96x2048.size a := by decide
theorem inbS80 : ∀ (i : Fin 4) a, (![i.val, 0, 0] : Fin 3 → Nat) a + S1x80x2048.size a ≤ S4x80x2048.size a := by decide
theorem inbR80 : ∀ (i : Fin 7) a, (![i.val, 0, 0] : Fin 3 → Nat) a + S1x80x2048.size a ≤ S7x80x2048.size a := by decide

abbrev sRect96 (i : Fin 4) : Rect S4x96x2048 := Rect.unit (s := S4x96x2048) ![i.val, 0, 0] S1x96x2048.size (inbS96 i)
abbrev rRect96 (i : Fin 7) : Rect S7x96x2048 := Rect.unit (s := S7x96x2048) ![i.val, 0, 0] S1x96x2048.size (inbR96 i)
abbrev sRect80 (i : Fin 4) : Rect S4x80x2048 := Rect.unit (s := S4x80x2048) ![i.val, 0, 0] S1x80x2048.size (inbS80 i)
abbrev rRect80 (i : Fin 7) : Rect S7x80x2048 := Rect.unit (s := S7x80x2048) ![i.val, 0, 0] S1x80x2048.size (inbR80 i)

abbrev sSlot96 {κ : Kind} (b : Memref sig κ .vmem S4x96x2048 .bf16) (i : Fin 4) : Memref sig κ .vmem S96x2048 .bf16 :=
  (b.slice (sRect96 i) (fun _ => rfl)).squeeze S96x2048 squeezes_S1x96x2048_S96x2048
abbrev rSlot96 {κ : Kind} (b : Memref sig κ .vmem S7x96x2048 .bf16) (i : Fin 7) : Memref sig κ .vmem S96x2048 .bf16 :=
  (b.slice (rRect96 i) (fun _ => rfl)).squeeze S96x2048 squeezes_S1x96x2048_S96x2048
abbrev sSlot80 {κ : Kind} (b : Memref sig κ .vmem S4x80x2048 .bf16) (i : Fin 4) : Memref sig κ .vmem S80x2048 .bf16 :=
  (b.slice (sRect80 i) (fun _ => rfl)).squeeze S80x2048 squeezes_S1x80x2048_S80x2048
abbrev rSlot80 {κ : Kind} (b : Memref sig κ .vmem S7x80x2048 .bf16) (i : Fin 7) : Memref sig κ .vmem S80x2048 .bf16 :=
  (b.slice (rRect80 i) (fun _ => rfl)).squeeze S80x2048 squeezes_S1x80x2048_S80x2048

variable (m : (ℓ : Loc nD τ sig) → Buf (Elt F) ℓ)

def Ablk (c : Dev nD) : (cc0_stg0_0 : Ref sig .tc).ty.Contents (Elt F) :=
  (win0_0.blk (0 : Fin 1)).view.read (Elt F) (m ((c : Thread nD τ).loc main_arg0))
def Bblk (c : Dev nD) : (cc0_stg1_0 : Ref sig .tc).ty.Contents (Elt F) :=
  (win0_1.blk (0 : Fin 1)).view.read (Elt F) (m ((c : Thread nD τ).loc main_arg1))

abbrev wholeB : Rect S1024x2048 := Rect.unit (s := S1024x2048) ![0, 0] S1024x2048.size inb_S1024x2048_S1024x2048_0_0

def b16V (c : Dev nD) : FVec F S1024x2048 .bf16 := k0_pay1 (bM.view.readAt (Elt F) wholeB.toLoadRect (Bblk m c))

def aRows96 (c : Dev nD) (q : Fin 8) : Vec F S96x1024 .f32 :=
  aM.view.readAt (Elt F) (Rect.unit (s := S2048x1024) (k0_off1 c (BitVec.ofNat 32 q.val)) S96x1024.size (k0_off1_inb c q)).toLoadRect (Ablk m c)
def aRows80 (c : Dev nD) (q : Fin 8) (r₂ : Fin 2) : Vec F S80x1024 .f32 :=
  aM.view.readAt (Elt F) (Rect.unit (s := S2048x1024) (k0_off2 c (BitVec.ofNat 32 q.val) (BitVec.ofNat 32 (96 + 80 * r₂.val))) S80x1024.size (k0_off2_inb c q r₂)).toLoadRect (Ablk m c)

def pv96 (c : Dev nD) (q : Fin 8) : FVec F S96x2048 .bf16 := k0_pay21 (aRows96 m c q) (b16V m c)
def pv80 (c : Dev nD) (q : Fin 8) (r₂ : Fin 2) : FVec F S80x2048 .bf16 := k0_pay23 (aRows80 m c q r₂) (b16V m c)

def qS : Fin 3 → Fin 4 → Fin 8 := ![![1, 2, 5, 6], ![3, 7, 2, 6], ![4, 5, 7, 6]]
def qA : Fin 3 → Fin 4 → Fin 8 := ![![0, 3, 4, 7], ![0, 4, 1, 5], ![0, 1, 3, 2]]
def r2 : Fin 3 → Fin 2 := ![0, 0, 1]

def sv96 (x : FVec F S96x2048 .bf16) : FVec F S1x96x2048 .bf16 := shapeCast S1x96x2048 x shapeCasts_S96x2048_S1x96x2048

def L96 (c : Dev nD) (j : Fin 4) : FVec F S1x96x2048 .bf16 := sv96 (pv96 m (peer 0 c) (qS 0 j))
def A1_96 (c : Dev nD) : FVec F S1x96x2048 .bf16 := k0_pay22 (pv96 m c (qA 0 1)) (L96 m c 1)
def A3_96 (c : Dev nD) : FVec F S1x96x2048 .bf16 := k0_pay22 (pv96 m c (qA 0 3)) (L96 m c 3)
def A2_96 (c : Dev nD) : FVec F S1x96x2048 .bf16 := k0_pay28 (pv96 m c (qA 0 2)) (L96 m c 2) (A3_96 m (peer 1 c))
def A0_96 (c : Dev nD) : FVec F S1x96x2048 .bf16 := k0_pay28 (pv96 m c (qA 0 0)) (L96 m c 0) (A1_96 m (peer 1 c))
def O96 (c : Dev nD) : FVec F S96x2048 .f32 := k0_pay39 (A0_96 m c) (A2_96 m (peer 2 c))

def L80 (p : Fin 3) (c : Dev nD) (j : Fin 4) : FVec F S1x80x2048 .bf16 := k0_pay9 (pv80 m (peer p c) (qS p j) (r2 p))
def A1_80 (p : Fin 3) (c : Dev nD) : FVec F S1x80x2048 .bf16 := k0_pay24 (pv80 m c (qA p 1) (r2 p)) (L80 m p c 1)
def A3_80 (p : Fin 3) (c : Dev nD) : FVec F S1x80x2048 .bf16 := k0_pay24 (pv80 m c (qA p 3) (r2 p)) (L80 m p c 3)
def A2_80 (p : Fin 3) (c : Dev nD) : FVec F S1x80x2048 .bf16 := k0_pay32 (pv80 m c (qA p 2) (r2 p)) (L80 m p c 2) (A3_80 m p (peer (p + 1) c))
def A0_80 (p : Fin 3) (c : Dev nD) : FVec F S1x80x2048 .bf16 := k0_pay32 (pv80 m c (qA p 0) (r2 p)) (L80 m p c 0) (A1_80 m p (peer (p + 1) c))
def O80 (p : Fin 3) (c : Dev nD) : FVec F S80x2048 .f32 := k0_pay43 (A0_80 m p c) (A2_80 m p (peer (p + 2) c))

def rFree96 (b : Memref sig .tc .vmem S7x96x2048 .bf16) (c : Dev nD) (i : Fin 7) : sProp 𝕄 :=
  iprop(∃ f, ((rSlot96 b i).view.loc (c : Thread nD τ) ↦[(rSlot96 b i).view.set]{fullShare} f))
def rFree80 (b : Memref sig .tc .vmem S7x80x2048 .bf16) (c : Dev nD) (i : Fin 7) : sProp 𝕄 :=
  iprop(∃ f, ((rSlot80 b i).view.loc (c : Thread nD τ) ↦[(rSlot80 b i).view.set]{fullShare} f))

def sFree96 (b : Memref sig .tc .vmem S4x96x2048 .bf16) (c : Dev nD) (i : Fin 4) : sProp 𝕄 :=
  iprop(∃ f, ((sSlot96 b i).view.loc (c : Thread nD τ) ↦[(sSlot96 b i).view.set]{fullShare} f))
def sFree80 (b : Memref sig .tc .vmem S4x80x2048 .bf16) (c : Dev nD) (i : Fin 4) : sProp 𝕄 :=
  iprop(∃ f, ((sSlot80 b i).view.loc (c : Thread nD τ) ↦[(sSlot80 b i).view.set]{fullShare} f))

def rHolds96 (b : Memref sig .tc .vmem S7x96x2048 .bf16) (c : Dev nD) (i : Fin 7) (w : Vec F S1x96x2048 .bf16) : sProp 𝕄 :=
  iprop(∃ f, ((rSlot96 b i).view.loc (c : Thread nD τ) ↦[(rSlot96 b i).view.set]{fullShare} f)
    ∗ ⌜b.view.readAt (Elt F) (rRect96 i).toLoadRect f = w⌝)
def rHolds80 (b : Memref sig .tc .vmem S7x80x2048 .bf16) (c : Dev nD) (i : Fin 7) (w : Vec F S1x80x2048 .bf16) : sProp 𝕄 :=
  iprop(∃ f, ((rSlot80 b i).view.loc (c : Thread nD τ) ↦[(rSlot80 b i).view.set]{fullShare} f)
    ∗ ⌜b.view.readAt (Elt F) (rRect80 i).toLoadRect f = w⌝)
def sHolds96 (b : Memref sig .tc .vmem S4x96x2048 .bf16) (c : Dev nD) (i : Fin 4) (w : Vec F S1x96x2048 .bf16) : sProp 𝕄 :=
  iprop(∃ f, ((sSlot96 b i).view.loc (c : Thread nD τ) ↦[(sSlot96 b i).view.set]{fullShare} f)
    ∗ ⌜b.view.readAt (Elt F) (sRect96 i).toLoadRect f = w⌝)
def sHolds80 (b : Memref sig .tc .vmem S4x80x2048 .bf16) (c : Dev nD) (i : Fin 4) (w : Vec F S1x80x2048 .bf16) : sProp 𝕄 :=
  iprop(∃ f, ((sSlot80 b i).view.loc (c : Thread nD τ) ↦[(sSlot80 b i).view.set]{fullShare} f)
    ∗ ⌜b.view.readAt (Elt F) (sRect80 i).toLoadRect f = w⌝)

abbrev rcvM80 (p : Fin 3) : Memref sig .tc .vmem S7x80x2048 .bf16 := if p = 2 then rcvM2 else rcvM1
abbrev sndM80 (p : Fin 3) : Memref sig .tc .vmem S4x80x2048 .bf16 := if p = 2 then sndM2 else sndM1

def decode (k : DmaSem sig) : Option (Bool × Fin 3 × Fin 7) :=
  if 3 ≤ k.val then
    some (decide (7 ≤ (k.val - 3) % 14), ⟨((k.val - 3) / 14) % 3, Nat.mod_lt _ (by decide)⟩, ⟨(k.val - 3) % 7, Nat.mod_lt _ (by decide)⟩)
  else none

theorem decode_sSem (p : Fin 3) (i : Fin 7) : decode (sSem p i) = some (false, p, i) := by revert p i; decide
theorem decode_rSem (p : Fin 3) (i : Fin 7) : decode (rSem p i) = some (true, p, i) := by revert p i; decide

abbrev N96 : ℕ := (rSlot96 rcvM0 0).view.dmaCredit
abbrev N80 : ℕ := (rSlot80 rcvM1 0).view.dmaCredit
theorem N96_pos : 0 < N96 := View.dmaCredit_pos _ (by decide)
theorem N80_pos : 0 < N80 := View.dmaCredit_pos _ (by decide)
def Np (p : Fin 3) : ℕ := if p = 0 then N96 else N80

def landed96 (c : Dev nD) : Fin 7 → FVec F S1x96x2048 .bf16 := fun
  | 0 => L96 m c 0 | 1 => L96 m c 1 | 2 => L96 m c 2 | 3 => L96 m c 3
  | 4 => A1_96 m (peer 1 c) | 5 => A3_96 m (peer 1 c) | 6 => A2_96 m (peer 2 c)
  | ⟨_ + 7, h⟩ => absurd h (Nat.not_lt.2 (Nat.le_add_left _ _))
def landed80 (p : Fin 3) (c : Dev nD) : Fin 7 → FVec F S1x80x2048 .bf16 := fun
  | 0 => L80 m p c 0 | 1 => L80 m p c 1 | 2 => L80 m p c 2 | 3 => L80 m p c 3
  | 4 => A1_80 m p (peer (p + 1) c) | 5 => A3_80 m p (peer (p + 1) c) | 6 => A2_80 m p (peer (p + 2) c)
  | ⟨_ + 7, h⟩ => absurd h (Nat.not_lt.2 (Nat.le_add_left _ _))

def recvPay (c : Dev nD) (p : Fin 3) (i : Fin 7) : sProp 𝕄 :=
  if p = 0 then rHolds96 rcvM0 c i (landed96 m c i) else rHolds80 (rcvM80 p) c i (landed80 m p c i)

def sendPay96 (c : Dev nD) : Fin 7 → sProp 𝕄 := fun
  | 0 => sHolds96 sndM0 c 0 (sv96 (pv96 m c (qS 0 0))) | 1 => sHolds96 sndM0 c 1 (sv96 (pv96 m c (qS 0 1)))
  | 2 => sHolds96 sndM0 c 2 (sv96 (pv96 m c (qS 0 2))) | 3 => sHolds96 sndM0 c 3 (sv96 (pv96 m c (qS 0 3)))
  | 4 => rHolds96 rcvM0 c 1 (A1_96 m c) | 5 => rHolds96 rcvM0 c 3 (A3_96 m c) | 6 => rHolds96 rcvM0 c 2 (A2_96 m c)
  | ⟨_ + 7, h⟩ => absurd h (Nat.not_lt.2 (Nat.le_add_left _ _))
def sendPay80 (p : Fin 3) (c : Dev nD) : Fin 7 → sProp 𝕄 := fun
  | 0 => sHolds80 (sndM80 p) c 0 (k0_pay9 (pv80 m c (qS p 0) (r2 p))) | 1 => sHolds80 (sndM80 p) c 1 (k0_pay9 (pv80 m c (qS p 1) (r2 p)))
  | 2 => sHolds80 (sndM80 p) c 2 (k0_pay9 (pv80 m c (qS p 2) (r2 p))) | 3 => sHolds80 (sndM80 p) c 3 (k0_pay9 (pv80 m c (qS p 3) (r2 p)))
  | 4 => rHolds80 (rcvM80 p) c 1 (A1_80 m p c) | 5 => rHolds80 (rcvM80 p) c 3 (A3_80 m p c) | 6 => rHolds80 (rcvM80 p) c 2 (A2_80 m p c)
  | ⟨_ + 7, h⟩ => absurd h (Nat.not_lt.2 (Nat.le_add_left _ _))
def sendPay (c : Dev nD) (p : Fin 3) (i : Fin 7) : sProp 𝕄 := if p = 0 then sendPay96 m c i else sendPay80 m p c i

def freeStage96 (b : Memref sig .tc .vmem S7x96x2048 .bf16) (e : Dev nD) : Fin 3 → sProp 𝕄 := fun
  | 0 => iprop(rFree96 b e 0 ∗ rFree96 b e 1 ∗ rFree96 b e 2 ∗ rFree96 b e 3)
  | 1 => iprop(rFree96 b e 4 ∗ rFree96 b e 5)
  | 2 => rFree96 b e 6
  | ⟨_ + 3, h⟩ => absurd h (Nat.not_lt.2 (Nat.le_add_left _ _))
def freeStage80 (b : Memref sig .tc .vmem S7x80x2048 .bf16) (e : Dev nD) : Fin 3 → sProp 𝕄 := fun
  | 0 => iprop(rFree80 b e 0 ∗ rFree80 b e 1 ∗ rFree80 b e 2 ∗ rFree80 b e 3)
  | 1 => iprop(rFree80 b e 4 ∗ rFree80 b e 5)
  | 2 => rFree80 b e 6
  | ⟨_ + 3, h⟩ => absurd h (Nat.not_lt.2 (Nat.le_add_left _ _))

def barPay (c : Dev nD) (x : Fin 3) : sProp 𝕄 :=
  iprop(freeStage96 rcvM0 (peer x c) x ∗ freeStage80 rcvM1 (peer x c) (x - 1) ∗ freeStage80 rcvM2 (peer x c) (x - 2))

def isXfer : SemLoc sig → Bool | .dma k => decide (3 ≤ k.val) | .reg _ => false

def Rd : Rounds.Schedule (GSem nD τ sig) (Fin 3) 𝕄 where
  duties g r := if r = 0 ∧ g.1.2 = .tc ∧ g.2 = .reg barS then Finset.univ else if r = 0 ∧ g.1.2 = .tc ∧ isXfer g.2 = true then {0} else ∅
  unitless _ := False
  amount g _ _ := match g.2 with | .reg _ => 1 | .dma k => if (k.val - 3) / 14 = 0 then N96 else N80
  payload g _ d := match g.2 with
    | .reg _ => barPay g.1.1 d
    | .dma k => match decode k with
      | some (false, p, i) => sendPay m g.1.1 p i
      | some (true, p, i) => recvPay m g.1.1 p i
      | none => iprop(emp)
  amount_pos g _ _ _ := by
    cases g.2 with
    | reg _ => exact Nat.one_pos
    | dma k => dsimp only; split; exact N96_pos; exact N80_pos

def O₀ (c : Dev nD) : CellTallies nD τ sig Unit :=
  (∑ x : Fin 3, tallyAt (barCell (peer x c)) () 1)
    + ∑ pi : Fin 3 × Fin 7, tallyAt (recvCell (peer (slotMask pi.1 pi.2) c) pi.1 pi.2) () (Np pi.1)

def L (g : GSem nD τ sig) : Finset Unit := if g.1.2 = .tc then {()} else ∅
def lv (g : GSem nD τ sig) (_ : Unit) : ℕ := match g.2 with
  | .reg s => if s = barS then 1 else 0
  | .dma k => match decode k with
    | some (true, _, i) => if i.val < 4 then 2 else if i.val < 6 then 3 else 4
    | _ => 0

abbrev CK : Type := Dev nD × Option (Bool × Fin 3 × Fin 7)
def ksem : Option (Bool × Fin 3 × Fin 7) → SemLoc sig
  | none => .reg barS
  | some (false, p, i) => .dma (sSem p i)
  | some (true, p, i) => .dma (rSem p i)
abbrev kcell (ck : CK) : GSem nD τ sig := ((ck.1 : Thread nD τ), ksem ck.2)

def records (K : CK → ℕ) : sProp 𝕄 :=
  iprop((bigSep Finset.univ fun ck : CK => cellInv ER (Rd m) (K ck) (kcell ck))
    ∗ bigSep Finset.univ fun ck : CK => reached ER (kcell ck) 0)

instance records_persistent (K : CK → ℕ) : BI.Persistent (records m K) := by unfold records; infer_instance

def payToks (c : Dev nD) : sProp 𝕄 :=
  iprop((bigSep Finset.univ fun x : Fin 3 => dutyTok ER (barCell (peer x c)) 0 x)
    ∗ bigSep Finset.univ fun pi : Fin 3 × Fin 7 =>
        iprop(dutyTok ER (sendCell c pi.1 pi.2) 0 (0 : Fin 3) ∗ dutyTok ER (recvCell (peer (slotMask pi.1 pi.2) c) pi.1 pi.2) 0 (0 : Fin 3)))
def positions (c : Dev nD) : sProp 𝕄 :=
  iprop(atPos ER (barCell c) 0 ∅ 0
    ∗ bigSep Finset.univ fun pi : Fin 3 × Fin 7 => iprop(atPos ER (sendCell c pi.1 pi.2) 0 ∅ 0 ∗ atPos ER (recvCell c pi.1 pi.2) 0 ∅ 0))
def ghost (K : CK → ℕ) (c : Dev nD) : sProp 𝕄 := iprop(records m K ∗ positions c ∗ payToks c)

def credits (c : Dev nD) : sProp 𝕄 :=
  iprop(cred (tallyAt (barCell c) () 3) ∗ bigSep Finset.univ fun pi : Fin 3 × Fin 7 => cred (tallyAt (recvCell c pi.1 pi.2) () (Np pi.1)))

def start (c : Dev nD) : sProp 𝕄 := iprop((∃ K, ghost m K c) ∗ credits c ∗ levAts L lv)

def freeBuf {s : Shape} {e : EltTy} (b : Memref sig .tc .vmem s e) (c : Dev nD) : sProp 𝕄 :=
  iprop(∃ f, (b.view.loc (c : Thread nD τ) ↦[b.view.set]{fullShare} f))
def scratch (c : Dev nD) : sProp 𝕄 :=
  iprop(freeBuf sndM0 c ∗ freeBuf rcvM0 c ∗ freeBuf sndM1 c ∗ freeBuf rcvM1 c ∗ freeBuf sndM2 c ∗ freeBuf rcvM2 c ∗ freeBuf b16M c)

def Φ₀ (c : Dev nD) : sProp 𝕄 := iprop(start m c ∗ scratch c)
def Φ₁ (c : Dev nD) : sProp 𝕄 :=
  iprop(scratch c ∗ bigSep Finset.univ fun pi : Fin 3 × Fin 7 => iprop(semVal (sendCell c pi.1 pi.2) 0 ∗ semVal (recvCell c pi.1 pi.2) 0))

abbrev rO0 : Rect S256x2048 := Rect.unit (s := S256x2048) ![0, 0] S96x2048.size inb_S256x2048_S96x2048_0_0
abbrev rO1 : Rect S256x2048 := Rect.unit (s := S256x2048) ![96, 0] S80x2048.size inb_S256x2048_S80x2048_96_0
abbrev rO2 : Rect S256x2048 := Rect.unit (s := S256x2048) ![176, 0] S80x2048.size inb_S256x2048_S80x2048_176_0

def outV (c : Dev nD) : (cc0_stg2_0 : Ref sig .tc).ty.Contents (Elt F) :=
  ((oM.access rO2 : View sig .tc _ _ _)).write (Elt F)
    (((oM.access rO1 : View sig .tc _ _ _)).write (Elt F)
      (((oM.access rO0 : View sig .tc _ _ _)).write (Elt F) (View.junk (Val := Elt F) oM.view) (O96 m c) Finset.univ)
      (O80 m 1 c) Finset.univ)
    (O80 m 2 c) Finset.univ

def dats (_ : Fin 1) (c : Dev nD) : Dat τ (Elt F) Unit ℕ UU ℕ cfg0 c where
  A w := m ((cfg0.win w).arr.view.loc (c : Thread nD τ))
  after w _ := match w with
    | ⟨0, _⟩ => Ablk m c
    | ⟨1, _⟩ => Bblk m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Proto

end
-- ==== Proof.Tables.lean ====
import proofs.«900895_g7700000000000896_dist_matmul_mk_i_outk_m2048_n2048_k1024_v7x_i8_f32_1_alg».proof.Proof.Proto

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance rFree96_storable (b : Memref sig .tc .vmem S7x96x2048 .bf16) (c : Dev nD) (i : Fin 7) :
    BI.Storable (upEmb : UEmb _ 𝕄) (rFree96 (F := F) b c i) := by unfold rFree96; infer_instance
instance rFree80_storable (b : Memref sig .tc .vmem S7x80x2048 .bf16) (c : Dev nD) (i : Fin 7) :
    BI.Storable (upEmb : UEmb _ 𝕄) (rFree80 (F := F) b c i) := by unfold rFree80; infer_instance
instance sFree96_storable (b : Memref sig .tc .vmem S4x96x2048 .bf16) (c : Dev nD) (i : Fin 4) :
    BI.Storable (upEmb : UEmb _ 𝕄) (sFree96 (F := F) b c i) := by unfold sFree96; infer_instance
instance sFree80_storable (b : Memref sig .tc .vmem S4x80x2048 .bf16) (c : Dev nD) (i : Fin 4) :
    BI.Storable (upEmb : UEmb _ 𝕄) (sFree80 (F := F) b c i) := by unfold sFree80; infer_instance
instance rHolds96_storable (b : Memref sig .tc .vmem S7x96x2048 .bf16) (c : Dev nD) (i : Fin 7) (w : Vec F S1x96x2048 .bf16) :
    BI.Storable (upEmb : UEmb _ 𝕄) (rHolds96 b c i w) := by unfold rHolds96; infer_instance
instance rHolds80_storable (b : Memref sig .tc .vmem S7x80x2048 .bf16) (c : Dev nD) (i : Fin 7) (w : Vec F S1x80x2048 .bf16) :
    BI.Storable (upEmb : UEmb _ 𝕄) (rHolds80 b c i w) := by unfold rHolds80; infer_instance
instance sHolds96_storable (b : Memref sig .tc .vmem S4x96x2048 .bf16) (c : Dev nD) (i : Fin 4) (w : Vec F S1x96x2048 .bf16) :
    BI.Storable (upEmb : UEmb _ 𝕄) (sHolds96 b c i w) := by unfold sHolds96; infer_instance
instance sHolds80_storable (b : Memref sig .tc .vmem S4x80x2048 .bf16) (c : Dev nD) (i : Fin 4) (w : Vec F S1x80x2048 .bf16) :
    BI.Storable (upEmb : UEmb _ 𝕄) (sHolds80 b c i w) := by unfold sHolds80; infer_instance

instance freeStage96_storable (b : Memref sig .tc .vmem S7x96x2048 .bf16) (e : Dev nD) (x : Fin 3) :
    BI.Storable (upEmb : UEmb _ 𝕄) (freeStage96 (F := F) b e x) := by
  unfold freeStage96; split <;> first | infer_instance | (exfalso; omega)
instance freeStage80_storable (b : Memref sig .tc .vmem S7x80x2048 .bf16) (e : Dev nD) (x : Fin 3) :
    BI.Storable (upEmb : UEmb _ 𝕄) (freeStage80 (F := F) b e x) := by
  unfold freeStage80; split <;> first | infer_instance | (exfalso; omega)

instance barPay_storable (c : Dev nD) (x : Fin 3) : BI.Storable (upEmb : UEmb _ 𝕄) (barPay (F := F) c x) := by
  unfold barPay; infer_instance

variable (m : (ℓ : Loc nD τ sig) → Buf (Elt F) ℓ)

instance recvPay_storable (c : Dev nD) (p : Fin 3) (i : Fin 7) : BI.Storable (upEmb : UEmb _ 𝕄) (recvPay m c p i) := by
  unfold recvPay; split <;> infer_instance
instance sendPay96_storable (c : Dev nD) (i : Fin 7) : BI.Storable (upEmb : UEmb _ 𝕄) (sendPay96 m c i) := by
  unfold sendPay96; split <;> first | infer_instance | (exfalso; omega)
instance sendPay80_storable (p : Fin 3) (c : Dev nD) (i : Fin 7) : BI.Storable (upEmb : UEmb _ 𝕄) (sendPay80 m p c i) := by
  unfold sendPay80; split <;> first | infer_instance | (exfalso; omega)
instance sendPay_storable (c : Dev nD) (p : Fin 3) (i : Fin 7) : BI.Storable (upEmb : UEmb _ 𝕄) (sendPay m c p i) := by
  unfold sendPay; split <;> infer_instance

instance Rd_payload_storable (g : GSem nD τ sig) (r : ℕ) (d : Fin 3) :
    BI.Storable (upEmb : UEmb _ 𝕄) ((Rd (F := F) m).payload g r d) := by
  dsimp only [Rd]
  (repeat' split) <;> infer_instance

section Sched
variable (c : Dev nD) (p : Fin 3) (i : Fin 7)

theorem duties_bar : (Rd (F := F) m).duties (barCell c) 0 = Finset.univ := by dsimp only [Rd]; exact if_pos ⟨rfl, rfl, rfl⟩
theorem duties_send : (Rd (F := F) m).duties (sendCell c p i) 0 = {0} := by
  dsimp only [Rd]; rw [if_neg (fun h => by cases h.2.2)]; exact if_pos ⟨rfl, rfl, decide_eq_true (by show 3 ≤ 3 + 14 * p.val + i.val; omega)⟩
theorem duties_recv : (Rd (F := F) m).duties (recvCell c p i) 0 = {0} := by
  dsimp only [Rd]; rw [if_neg (fun h => by cases h.2.2)]; exact if_pos ⟨rfl, rfl, decide_eq_true (by show 3 ≤ 10 + 14 * p.val + i.val; omega)⟩
theorem duties_later (g : GSem nD τ sig) (r : ℕ) (hr : 1 ≤ r) : (Rd (F := F) m).duties g r = ∅ := by
  dsimp only [Rd]; rw [if_neg fun h => by omega, if_neg fun h => by omega]

theorem amount_bar (d : Fin 3) : (Rd (F := F) m).amount (barCell c) 0 d = 1 := rfl
theorem amount_send (d : Fin 3) : (Rd (F := F) m).amount (sendCell c p i) 0 d = Np p := if_congr (by revert p i; decide) rfl rfl
theorem amount_recv (d : Fin 3) : (Rd (F := F) m).amount (recvCell c p i) 0 d = Np p := if_congr (by revert p i; decide) rfl rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c p i) 0 = Np p := by
  unfold Schedule.expect Schedule.amountOf; rw [duties_send, Finset.sum_singleton, amount_send]
theorem expect_recv : (Rd (F := F) m).expect (recvCell c p i) 0 = Np p := by
  unfold Schedule.expect Schedule.amountOf; rw [duties_recv, Finset.sum_singleton, amount_recv]

theorem payload_bar (x : Fin 3) : (Rd (F := F) m).payload (barCell c) 0 x = barPay c x := rfl
theorem payload_send (d : Fin 3) : (Rd (F := F) m).payload (sendCell c p i) 0 d = sendPay m c p i := by
  dsimp only [Rd]; rw [decode_sSem]
theorem payload_recv (d : Fin 3) : (Rd (F := F) m).payload (recvCell c p i) 0 d = recvPay m c p i := by
  dsimp only [Rd]; rw [decode_rSem]

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd (F := F) m).duties (sendCell c p i) 0 \ ∅) (fun d => (Rd (F := F) m).payload (sendCell c p i) 0 d)
    = sendPay m c p i := by
  rw [Finset.sdiff_empty, duties_send, bigSep_singleton, payload_send]
theorem rest_recv : bigSep ((Rd (F := F) m).duties (recvCell c p i) 0 \ ∅) (fun d => (Rd (F := F) m).payload (recvCell c p i) 0 d)
    = recvPay m c p i := by
  rw [Finset.sdiff_empty, duties_recv, bigSep_singleton, payload_recv]

end Sched

end Cert.KernelIdeal.Proto

end
-- ==== Proof.LaunchGhost.lean ====
import proofs.«900895_g7700000000000896_dist_matmul_mk_i_outk_m2048_n2048_k1024_v7x_i8_f32_1_alg».proof.Proof.Tables
import Idealize.ShloMosaic.Lib.SparseCore.Stream

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev SK : Type := Bool × Fin 3 × Fin 7

def kdec : SemLoc sig → Option SK
  | .reg _ => none
  | .dma k => decode k

theorem kdec_ksem (k : Option SK) : kdec (ksem k) = k := by
  rcases k with _ | ⟨b, p, i⟩
  · rfl
  · cases b
    · exact decode_sSem p i
    · exact decode_rSem p i

theorem ksem_injective : Function.Injective ksem := Function.LeftInverse.injective kdec_ksem

/-- A cell's key is read back from the cell: its device, and the key of its semaphore. -/
theorem kcell_injective : Function.Injective (kcell : CK → GSem nD τ sig) := fun a b h =>
  Prod.ext (congrArg (fun g : GSem nD τ sig => g.1.1) h) (ksem_injective (congrArg Prod.snd h))

theorem bigSep_bool (Φ : Bool → sProp 𝕄) : bigSep Finset.univ Φ = iprop(Φ false ∗ Φ true) :=
  bigSep_univ_eq_bigSepL [false, true] (by decide) (by decide) Φ

theorem bigSep_option {B : Type} [Fintype B] (Φ : Option B → sProp 𝕄) :
    bigSep Finset.univ Φ = iprop(Φ none ∗ bigSep Finset.univ fun b : B => Φ (some b)) := by
  rw [bigSep_univ_equiv ((Equiv.sumComm Unit B).trans (Equiv.optionEquivSumPUnit B).symm) Φ, bigSep_univ_sum, bigSep_univ_of_subsingleton ()]
  rfl

/-- A product over the cells of device `c`: the barrier cell's factor, then each part and slot's send and receive cells'. -/
abbrev onCells (c : Dev nD) (Φ : GSem nD τ sig → sProp 𝕄) : sProp 𝕄 := bigSep Finset.univ fun k : Option SK => Φ (kcell (c, k))

theorem bigSep_cells (c : Dev nD) (Φ : GSem nD τ sig → sProp 𝕄) :
    onCells c Φ
      = iprop(Φ (barCell c) ∗ bigSep Finset.univ fun pi : Fin 3 × Fin 7 => iprop(Φ (sendCell c pi.1 pi.2) ∗ Φ (recvCell c pi.1 pi.2))) := by
  unfold onCells; rw [bigSep_option, bigSep_univ_prod (α := Bool), bigSep_bool, ← bigSep_sep']
  rfl

def protoCells : Finset (GSem nD τ sig) := Finset.univ.map ⟨kcell, kcell_injective⟩

abbrev TK : Type := Dev nD × (Fin 3 ⊕ SK)
def tokOf (t : TK) : GSem nD τ sig × ℕ × Fin 3 := match t.2 with
  | .inl x => (kcell (t.1, none), 0, x)
  | .inr k => (kcell (t.1, some k), 0, 0)

/-- A token names its cell, hence its device and key, and its duty. -/
theorem tokOf_injective : Function.Injective tokOf := by
  rintro ⟨c, a⟩ ⟨c', a'⟩ h
  have h1 := congrArg Prod.fst h
  have h2 := congrArg (fun t : GSem nD τ sig × ℕ × Fin 3 => t.2.2) h
  rcases a with x | k <;> rcases a' with x' | k' <;> cases kcell_injective h1 <;> first | rfl | (cases h2; rfl)

/-- Who pays a token: the neighbour across the duty's mask for a barrier cell, across the slot's mask for a receive cell, the owner for a send cell. -/
def payer : Fin 3 ⊕ SK → Dev nD ≃ Dev nD
  | .inl x => peerEquiv x
  | .inr (true, p, i) => peerEquiv (slotMask p i)
  | .inr (false, _, _) => Equiv.refl _

/-- The tokens re-indexed by who pays them. -/
def deal : TK ≃ TK := (Equiv.prodComm _ _).trans ((Equiv.prodShear (Equiv.refl _) payer).trans (Equiv.prodComm _ _))

def protoToks : Finset (GSem nD τ sig × ℕ × Fin 3) := Finset.univ.map ⟨tokOf ∘ deal, tokOf_injective.comp deal.injective⟩

def u₀ : UU :=
  (initOf (Pipeline.cells cfgs cellOf_inj) (Pipeline.launchToks cfgs cellOf_inj), initOf protoCells protoToks)

def G (c : Dev nD) : sProp 𝕄 :=
  iprop(onCells c (fun g => roundState ER (Rd m) g 0) ∗ onCells c (fun g => reached ER g 0) ∗ onCells c (fun g => atPos ER g 0 ∅ 0) ∗ payToks c)

/-- After the global step's allocation: each cell's invariant at some name in place of its round state. -/
def G₁ (c : Dev nD) : sProp 𝕄 :=
  iprop(onCells c (fun g => iprop(∃ κ : ℕ, cellInv ER (Rd m) κ g)) ∗ onCells c (fun g => reached ER g 0) ∗ onCells c (fun g => atPos ER g 0 ∅ 0) ∗ payToks c)

def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => onCells c Φ := by
    unfold protoCells; rw [bigSep_map, bigSep_univ_prod]; rfl
  have hT : bigSep protoToks (fun x => (dutyTok ER x.1 x.2.1 x.2.2 : sProp 𝕄)) = bigSep Finset.univ fun c : Dev nD => payToks c := by
    unfold protoToks; rw [bigSep_map, bigSep_univ_prod]
    refine bigSep_congr fun c _ => ?_
    unfold payToks
    rw [bigSep_univ_sum, bigSep_univ_prod (α := Bool), bigSep_bool, ← bigSep_sep']
    rfl
  refine (Rounds.fund ER (Rd m) protoCells protoToks).trans (Laws.bupd_mono (Entails.of_eq ?_))
  unfold G
  rw [hX, hX, hX, hT, bigSep_sep', bigSep_sep', bigSep_sep']

abbrev osem : SK → SemLoc sig := fun k => ksem (some k)

theorem ownSemFacts : Pipeline.OwnSemFacts cfg0.spec osem := by decide

/-- The own semaphores of device `c` at zero. -/
abbrev os0 (c : Dev nD) : sProp 𝕄 := Pipeline.ownSems0 osem c

theorem ownSems0_eq (c : Dev nD) : (os0 c : sProp 𝕄)
    = bigSep Finset.univ fun pi : Fin 3 × Fin 7 => iprop(semVal (sendCell c pi.1 pi.2) 0 ∗ semVal (recvCell c pi.1 pi.2) 0) := by
  unfold os0 Pipeline.ownSems0
  rw [bigSep_univ_prod (α := Bool), bigSep_bool, ← bigSep_sep']
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(os0 c ∗ unscopedSems0 c)
      ⊢ (onCells c (fun g => semVal g 0) : sProp 𝕄) := by
  rw [ownSems0_eq, unscopedSems0_eq, bigSep_cells]
  iintro ⟨HS, HB⟩
  isplitl [HB] <;> iassumption

theorem core_alloc (c : Dev nD) :
    iprop(os0 c ∗ unscopedSems0 c ∗ G m c)
      ⊢ |={Set.univ}=> G₁ m c := by
  unfold G G₁
  iintro ⟨Hos, Hus, Hst, HR⟩
  ihave Hv := (sems0_eq (F := F) c) $$ [Hos Hus]
  · isplitl [Hos] <;> iassumption
  imod (show iprop(onCells c (fun g => semVal g 0) ∗ onCells c (fun g => roundState ER (Rd m) g 0))
      ⊢ (|={Set.univ}=> onCells c (fun g => iprop(∃ κ : ℕ, cellInv ER (Rd m) κ g)) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv] <;> iassumption

theorem ghost_intro (K : CK → ℕ) (c : Dev nD) : iprop(records m K ∗ positions c ∗ payToks c) ⊢ G' m c := by
  unfold G' ghost
  iintro H
  iexists K
  iexact H

/-- The names chosen cell by cell are one function of the cell; the records, persistent, go to every device. -/
theorem regroup : (bigSep Finset.univ (G₁ m) : sProp 𝕄) ⊢ bigSep Finset.univ (G' m) := by
  have hX (Φ : GSem nD τ sig → sProp 𝕄) : (bigSep Finset.univ fun c : Dev nD => onCells c Φ) = bigSep Finset.univ fun ck : CK => Φ (kcell ck) :=
    (bigSep_univ_prod fun ck : CK => Φ (kcell ck)).symm
  unfold G₁
  rw [bigSep_sep', bigSep_sep', bigSep_sep', hX, hX]
  iintro ⟨HI, #HR, Hat, Htok⟩
  ihave HK := (BI.bigSep_exists_pi Finset.univ (fun (ck : CK) (κ : ℕ) => (cellInv ER (Rd m) κ (kcell ck) : sProp 𝕄))) $$ HI
  icases HK with ⟨%K, #HI⟩
  iapply (Transfers.bigSep_mono_pers _ (records m K) _ _ fun c _ => ghost_intro m K c)
  isplitr
  · unfold records; isplitl; · iexact HI
    iexact HR
  · rw [bigSep_sep', show (positions : Dev nD → sProp 𝕄) = fun c => onCells c (fun g => atPos ER g 0 ∅ 0) from
      funext fun c => by unfold positions; rw [bigSep_cells]]
    isplitl [Hat] <;> iassumption

theorem glob : (bigSep Finset.univ fun c => iprop(os0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.Owes.lean ====
import proofs.«900895_g7700000000000896_dist_matmul_mk_i_outk_m2048_n2048_k1024_v7x_i8_f32_1_alg».proof.Proof.Proto

noncomputable section

namespace Cert.KernelIdeal.Proto

open Cert.KernelIdeal Cert.KernelIdeal.Gen Cert.KernelIdeal.Mesh
open Idealize.ShloMosaic
open Idealize.ShloMosaic.TcCoe

inductive Pay where
  | bar (x : Fin 3)
  | slot (p : Fin 3) (i : Fin 7)
deriving DecidableEq

def payCell (c : Dev nD) : Pay → GSem nD τ sig
  | .bar x => barCell (peer x c)
  | .slot p i => recvCell (peer (slotMask p i) c) p i

def payAmt : Pay → ℕ
  | .bar _ => 1
  | .slot p _ => Np p

def payLv : Pay → ℕ
  | .bar _ => 1
  | .slot _ i => if i.val < 4 then 2 else if i.val < 6 then 3 else 4

def payList : List Pay :=
  [.bar 0, .bar 1, .bar 2,
   .slot 0 1, .slot 1 1, .slot 2 1, .slot 0 3, .slot 1 3, .slot 2 3, .slot 0 2, .slot 1 2, .slot 2 2, .slot 0 0, .slot 1 0, .slot 2 0,
   .slot 0 5, .slot 0 4, .slot 1 5, .slot 1 4, .slot 2 5, .slot 2 4,
   .slot 0 6, .slot 1 6, .slot 2 6]

def Ofrom (c : Dev nD) (l : List Pay) : CellTallies nD τ sig Unit :=
  l.foldr (fun t acc => acc + tallyAt (payCell c t) () (payAmt t)) 0

theorem Ofrom_nil (c : Dev nD) : Ofrom c [] = 0 := rfl
theorem Ofrom_cons (c : Dev nD) (t : Pay) (l : List Pay) : Ofrom c (t :: l) = Ofrom c l + tallyAt (payCell c t) () (payAmt t) := rfl

end Cert.KernelIdeal.Proto

end
-- ==== Proof.LaunchCred.lean ====
import proofs.«900895_g7700000000000896_dist_matmul_mk_i_outk_m2048_n2048_k1024_v7x_i8_f32_1_alg».proof.Proof.Proto
import proofs.«900895_g7700000000000896_dist_matmul_mk_i_outk_m2048_n2048_k1024_v7x_i8_f32_1_alg».proof.Proof.Owes

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem O₀_eq (c : Dev nD) : O₀ c = Ofrom c payList := by
  unfold O₀
  simp only [payList, Ofrom_cons, Ofrom_nil, payCell, payAmt, Fintype.sum_prod_type, Fin.sum_univ_three, Fin.sum_univ_seven, zero_add]
  ac_rfl

/-- A fold of one-cell tallies is positive only at the cell of one of its payments. -/
theorem Ofrom_pos {c : Dev nD} {l : List Pay} {g : GSem nD τ sig} {u : Unit} (h : 0 < Ofrom c l g u) :
    ∃ t ∈ l, g = payCell c t := by
  induction l with
  | nil => exact absurd h (Nat.lt_irrefl 0)
  | cons t l ih =>
    rcases Pipeline.add_pos_cases h with h | h
    · obtain ⟨t', ht', hg⟩ := ih h
      exact ⟨t', List.mem_cons_of_mem _ ht', hg⟩
    · exact ⟨t, List.mem_cons_self, (Pipeline.tallyAt_pos h).1⟩

/-- Each payment crosses one mask, an involution of the devices, so the launch credit is dealt payment by payment. -/
theorem creds (c : Dev nD) : (Pipeline.launchCred O₀ c : sProp 𝕄) ⊢ credits c := by
  delta O₀
  rw [Pipeline.launchCred_add, Pipeline.launchCred_sum, Pipeline.launchCred_sum]
  refine BIClass.sep_mono ((bigSep_mono fun x _ => Pipeline.launchCred_tallyAt _ _ _ (peer_peer x) (peer_peer x) () 1 c).trans ?_)
    (bigSep_mono fun pi _ => Pipeline.launchCred_tallyAt _ _ _ (peer_peer _) (peer_peer _) () _ c)
  rw [← Pipeline.cred_finsetSum, Fin.sum_univ_three, tallyAt_add, tallyAt_add]
  exact BI.Entails.refl _

theorem L_tc (c : Dev nD) (sm : SemLoc sig) : L (((c : Thread nD τ), sm) : GSem nD τ sig) = {()} := if_pos rfl

theorem lv_bar_own (c : Dev nD) : lv (((c : Thread nD τ), .reg barS) : GSem nD τ sig) () = 1 := by
  unfold lv; exact if_pos rfl
theorem lv_recv_own (c : Dev nD) (p : Fin 3) (i : Fin 7) :
    lv (((c : Thread nD τ), .dma (rSem p i)) : GSem nD τ sig) () = if i.val < 4 then 2 else if i.val < 6 then 3 else 4 := by
  unfold lv; dsimp only; rw [decode_rSem]
theorem lv_stage_own (c : Dev nD) (q : DmaSem sig) (hq : q.val < 3) : lv (((c : Thread nD τ), .dma q) : GSem nD τ sig) () = 0 := by
  unfold lv; dsimp only; rw [show decode q = none from if_neg (by omega)]

theorem lv_pay (c : Dev nD) (t : Pay) : lv (payCell c t) () = payLv t := by
  cases t with
  | bar x => exact lv_bar_own _
  | slot p i => exact lv_recv_own _ p i

theorem payLv_pos (t : Pay) : 0 < payLv t := by
  cases t with
  | bar x => exact Nat.one_pos
  | slot p i => show 0 < if _ then 2 else if _ then 3 else 4; split <;> [decide; (split <;> decide)]

/-- A wait on an own cell while the payments `l` are still owed is allowed when each of them goes to a cell of a higher level. -/
theorem mayWait_rest (c : Dev nD) (sm : SemLoc sig) (l : List Pay)
    (h : ∀ t ∈ l, lv (((c : Thread nD τ), sm) : GSem nD τ sig) () < payLv t) :
    (levAts L lv : sProp 𝕄) ⊢ MayWait (c : Thread nD τ) sm () (Ofrom c l) :=
  Pipeline.mayWait_of_levAts (L_tc c sm ▸ Finset.mem_singleton_self _) fun g u hg => by
    cases u
    obtain ⟨t, ht, rfl⟩ := Ofrom_pos hg
    exact ⟨by cases t <;> exact L_tc _ _ ▸ Finset.mem_singleton_self _, lv_pay c t ▸ h t ht⟩

end Cert.KernelIdeal.Proto

end
-- ==== Proof.Launch.lean ====
import proofs.«900895_g7700000000000896_dist_matmul_mk_i_outk_m2048_n2048_k1024_v7x_i8_f32_1_alg».proof.Proof.LaunchGhost
import proofs.«900895_g7700000000000896_dist_matmul_mk_i_outk_m2048_n2048_k1024_v7x_i8_f32_1_alg».proof.Proof.LaunchCred

noncomputable section

namespace Cert.KernelIdeal.Proto

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem share_eq (c : Dev nD) (w : Fin cfg0.W) : (dats m 0 c).share w = fullShare := by unfold Dat.share; split <;> rfl

/-- The launch hands the scratch buffers over one by one, each whole with some contents. -/
theorem scratch_eq (c : Dev nD) : (Pipeline.scopedRest cfg0.spec c : sProp 𝕄) = scratch c := by
  rw [scopedRest0_eq]; unfold scratch freeBuf
  simp only [Memref.view_whole, View.set_whole]

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(emp ∗ os0 c ∗ Pipeline.scopedRest cfg0.spec c) := by
  rw [show (dats m 0 c).Φ (Fin.last cfg0.N) = Φ₁ c from rfl, scratch_eq, ownSems0_eq]
  unfold Φ₁
  iintro ⟨Hr, Hz⟩
  isplitr; · iempintro
  isplitl [Hz] <;> iassumption

/-- Level 0 lies below every payment's level; after the first step nothing is owed. -/
theorem waits (c : Dev nD) : (levAts L lv : sProp 𝕄) ⊢ Pipeline.cellsWaits cfgs (dats m) () 0 c :=
  Pipeline.cellsWaits_intro cfgs (dats m) () 0 c fun w s t => by
    have h0 := lv_stage_own c (((cfgs 0).win w).sem s) (by fin_cases w <;> fin_cases s <;> decide)
    rcases t with ⟨_ | _, ht⟩
    · have := mayWait_rest (F := F) c (.dma (((cfgs 0).win w).sem s)) payList fun t _ => h0.le.trans_lt (payLv_pos t)
      rw [← O₀_eq] at this; exact this
    · exact mayWait_rest c _ [] fun _ h => nomatch h

theorem run_main (hbody : ∀ c, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem arrAt_arg0 (c : Dev nD) : (dats (F := F) m 0 c).arrAt (0 : Fin 3) cfg0.N = m ((c : Thread nD τ).loc main_arg0) :=
  (dats (F := F) m 0 c).arrAt_in (0 : Fin 3) rfl _
theorem arrAt_arg1 (c : Dev nD) : (dats (F := F) m 0 c).arrAt (1 : Fin 3) cfg0.N = m ((c : Thread nD τ).loc main_arg1) :=
  (dats (F := F) m 0 c).arrAt_in (1 : Fin 3) rfl _

theorem arrAt_out (c : Dev nD) : (dats (F := F) m 0 c).arrAt 2 cfg0.N = outV (F := F) m c := by
  rw [show cfg0.N = (t0_0 : Fin cfg0.N).val + 1 from rfl, (dats (F := F) m 0 c).arrAt_succ (2 : Fin 3) t0_0]
  rw [show (cfg0.win (2 : Fin 3)).flush t0_0 = true from by decide, if_pos rfl]
  exact Memref.write_access_unit_zero_univ (Elt F) main_v1 (funext fun a => by fin_cases a <;> rfl) _ _ _

end Cert.KernelIdeal.Proto

end
-- ==== Proof.BodyDefs.lean ====
import proofs.«900895_g7700000000000896_dist_matmul_mk_i_outk_m2048_n2048_k1024_v7x_i8_f32_1_alg».proof.Proof.Owes

noncomputable section

namespace Cert.KernelIdeal.Proto

open Cert.KernelIdeal.Gen Cert.KernelIdeal.Mesh Idealize.ShloMosaic Idealize.ShloMosaic.TcCoe
open Idealize.SL Idealize.SL.RA Idealize.SL.BI
open scoped Idealize.SL.BI
open Idealize.SL.BI.BIBase Idealize.ShloMosaic.Rounds

variable {F : FTy → Type} [FloatOps F]
local notation "𝕄" => MT nD τ sig Unit (Elt F) ℕ UU ℕ
variable (m : (ℓ : Loc nD τ sig) → Buf (Elt F) ℓ)

def perSlot (c : Dev nD) (p : Fin 3) (i : Fin 7) : sProp 𝕄 :=
  iprop(atPos ER (sendCell c p i) 0 ∅ 0 ∗ atPos ER (recvCell c p i) 0 ∅ 0 ∗ cred (tallyAt (recvCell c p i) () (Np p))
    ∗ dutyTok ER (sendCell c p i) 0 (0 : Fin 3) ∗ dutyTok ER (recvCell (peer (slotMask p i) c) p i) 0 (0 : Fin 3))

def openedCore (K : CK → ℕ) (c : Dev nD) : sProp 𝕄 :=
  iprop(records m K ∗ levAts L lv
    ∗ atPos ER (barCell c) 0 ∅ 0 ∗ cred (tallyAt (barCell c) () 3)
    ∗ dutyTok ER (barCell (peer 0 c)) 0 (0 : Fin 3) ∗ dutyTok ER (barCell (peer 1 c)) 0 (1 : Fin 3) ∗ dutyTok ER (barCell (peer 2 c)) 0 (2 : Fin 3)
    ∗ perSlot c 0 0
    ∗ perSlot c 0 1
    ∗ perSlot c 0 2
    ∗ perSlot c 0 3
    ∗ perSlot c 0 4
    ∗ perSlot c 0 5
    ∗ perSlot c 0 6
    ∗ perSlot c 1 0
    ∗ perSlot c 1 1
    ∗ perSlot c 1 2
    ∗ perSlot c 1 3
    ∗ perSlot c 1 4
    ∗ perSlot c 1 5
    ∗ perSlot c 1 6
    ∗ perSlot c 2 0
    ∗ perSlot c 2 1
    ∗ perSlot c 2 2
    ∗ perSlot c 2 3
    ∗ perSlot c 2 4
    ∗ perSlot c 2 5
    ∗ perSlot c 2 6
    ∗ sFree96 sndM0 c 0
    ∗ sFree96 sndM0 c 1
    ∗ sFree96 sndM0 c 2
    ∗ sFree96 sndM0 c 3
    ∗ sFree80 sndM1 c 0
    ∗ sFree80 sndM1 c 1
    ∗ sFree80 sndM1 c 2
    ∗ sFree80 sndM1 c 3
    ∗ sFree80 sndM2 c 0
    ∗ sFree80 sndM2 c 1
    ∗ sFree80 sndM2 c 2
    ∗ sFree80 sndM2 c 3
    ∗ rFree96 rcvM0 c 0
    ∗ rFree96 rcvM0 c 1
    ∗ rFree96 rcvM0 c 2
    ∗ rFree96 rcvM0 c 3
    ∗ rFree96 rcvM0 c 4
    ∗ rFree96 rcvM0 c 5
    ∗ rFree96 rcvM0 c 6
    ∗ rFree80 rcvM1 c 0
    ∗ rFree80 rcvM1 c 1
    ∗ rFree80 rcvM1 c 2
    ∗ rFree80 rcvM1 c 3
    ∗ rFree80 rcvM1 c 4
    ∗ rFree80 rcvM1 c 5
    ∗ rFree80 rcvM1 c 6
    ∗ rFree80 rcvM2 c 0
    ∗ rFree80 rcvM2 c 1
    ∗ rFree80 rcvM2 c 2
    ∗ rFree80 rcvM2 c 3
    ∗ rFree80 rcvM2 c 4
    ∗ rFree80 rcvM2 c 5
    ∗ rFree80 rcvM2 c 6
    ∗ freeBuf b16M c)

def closedCore (c : Dev nD) : sProp 𝕄 :=
  iprop(freeBuf b16M c
    ∗ sFree96 sndM0 c 0
    ∗ sFree96 sndM0 c 1
    ∗ sFree96 sndM0 c 2
    ∗ sFree96 sndM0 c 3
    ∗ sFree80 sndM1 c 0
    ∗ sFree80 sndM1 c 1
    ∗ sFree80 sndM1 c 2
    ∗ sFree80 sndM1 c 3
    ∗ sFree80 sndM2 c 0
    ∗ sFree80 sndM2 c 1
    ∗ sFree80 sndM2 c 2
    ∗ sFree80 sndM2 c 3
    ∗ rFree96 rcvM0 c 0
    ∗ rFree96 rcvM0 c 1
    ∗ rFree96 rcvM0 c 2
    ∗ rFree96 rcvM0 c 3
    ∗ rFree96 rcvM0 c 4
    ∗ rFree96 rcvM0 c 5
    ∗ rFree96 rcvM0 c 6
    ∗ rFree80 rcvM1 c 0
    ∗ rFree80 rcvM1 c 1
    ∗ rFree80 rcvM1 c 2
    ∗ rFree80 rcvM1 c 3
    ∗ rFree80 rcvM1 c 4
    ∗ rFree80 rcvM1 c 5
    ∗ rFree80 rcvM1 c 6
    ∗ rFree80 rcvM2 c 0
    ∗ rFree80 rcvM2 c 1
    ∗ rFree80 rcvM2 c 2
    ∗ rFree80 rcvM2 c 3
    ∗ rFree80 rcvM2 c 4
    ∗ rFree80 rcvM2 c 5
    ∗ rFree80 rcvM2 c 6
    ∗ semVal (sendCell c 0 0) 0 ∗ semVal (recvCell c 0 0) 0
    ∗ semVal (sendCell c 0 1) 0 ∗ semVal (recvCell c 0 1) 0
    ∗ semVal (sendCell c 0 2) 0 ∗ semVal (recvCell c 0 2) 0
    ∗ semVal (sendCell c 0 3) 0 ∗ semVal (recvCell c 0 3) 0
    ∗ semVal (sendCell c 0 4) 0 ∗ semVal (recvCell c 0 4) 0
    ∗ semVal (sendCell c 0 5) 0 ∗ semVal (recvCell c 0 5) 0
    ∗ semVal (sendCell c 0 6) 0 ∗ semVal (recvCell c 0 6) 0
    ∗ semVal (sendCell c 1 0) 0 ∗ semVal (recvCell c 1 0) 0
    ∗ semVal (sendCell c 1 1) 0 ∗ semVal (recvCell c 1 1) 0
    ∗ semVal (sendCell c 1 2) 0 ∗ semVal (recvCell c 1 2) 0
    ∗ semVal (sendCell c 1 3) 0 ∗ semVal (recvCell c 1 3) 0
    ∗ semVal (sendCell c 1 4) 0 ∗ semVal (recvCell c 1 4) 0
    ∗ semVal (sendCell c 1 5) 0 ∗ semVal (recvCell c 1 5) 0
    ∗ semVal (sendCell c 1 6) 0 ∗ semVal (recvCell c 1 6) 0
    ∗ semVal (sendCell c 2 0) 0 ∗ semVal (recvCell c 2 0) 0
    ∗ semVal (sendCell c 2 1) 0 ∗ semVal (recvCell c 2 1) 0
    ∗ semVal (sendCell c 2 2) 0 ∗ semVal (recvCell c 2 2) 0
    ∗ semVal (sendCell c 2 3) 0 ∗ semVal (recvCell c 2 3) 0
    ∗ semVal (sendCell c 2 4) 0 ∗ semVal (recvCell c 2 4) 0
    ∗ semVal (sendCell c 2 5) 0 ∗ semVal (recvCell c 2 5) 0
    ∗ semVal (sendCell c 2 6) 0 ∗ semVal (recvCell c 2 6) 0)

end Cert.KernelIdeal.Proto

end
-- ==== Proof.Slots.lean ====
import proofs.«900895_g7700000000000896_dist_matmul_mk_i_outk_m2048_n2048_k1024_v7x_i8_f32_1_alg».proof.Proof.Proto
import Idealize.ShloMosaic.Lib.Ring

namespace Cert.KernelIdeal.Proto

open Cert.KernelIdeal.Gen Idealize.ShloMosaic Idealize.ShloMosaic.TcCoe
open Idealize.SL Idealize.SL.RA Idealize.SL.BI
open scoped Idealize.SL.BI
open Idealize.SL.BI.BIBase Idealize.SL.BI.Laws

variable {F : FTy → Type}

local notation "𝕄" => MT nD τ sig Unit (Elt F) ℕ UU ℕ

section Cover

variable {sh : Shape} {e : EltTy} (b : Memref sig .tc .vmem sh e) (hb : b.view.set = Finset.univ)
  {T : Type} [Fintype T] [DecidableEq T] (r : T → Rect sh)
  (hd : ∀ t t', t ≠ t' → Disjoint (r t).set (r t').set)
  (hcov : (Finset.univ : Finset T).biUnion (fun t => (r t).set) = Finset.univ)

variable [FloatOps F]

include hb hd hcov in
/-- A buffer held whole is each rectangle of a disjoint cover held, and back. -/
theorem cover_eq (c : Dev nD) :
    (freeBuf b c : sProp 𝕄)
      = bigSep Finset.univ fun t => iprop(∃ f, (b.view.loc (c : Thread nD τ) ↦[(b.view.slice (r t)).set]{fullShare} f)) := by
  have hd' : ∀ t t', t ≠ t' → Disjoint (b.view.slice (r t)).set (b.view.slice (r t')).set := fun t t' h => by
    rw [View.set_slice, View.set_slice]; exact (Finset.disjoint_map _).mpr (hd t t' h)
  have hs : b.view.set = (Finset.univ : Finset T).biUnion fun t => (b.view.slice (r t)).set := by
    rw [View.set, Finset.map_eq_image, ← hcov, Finset.biUnion_image]
    simp only [View.set_slice, Finset.map_eq_image]
  unfold freeBuf
  refine equiv_iff.mp ⟨?_, ?_⟩
  · show (_ : sProp 𝕄) ⊢ _
    refine exists_elim fun f => ?_
    rw [hs, pointsTo_biUnion _ _ fun t _ t' _ h => hd' t t' h]
    exact bigSep_mono fun t _ => show (_ : sProp 𝕄) ⊢ _ from exists_intro f
  · rw [hb]
    exact Ring.pointsTo_blocks_join_exists (ℓ := b.view.loc (c : Thread nD τ)) _ hd' (hs.symm.trans hb) (View.junk (Val := Elt F) b.view)

end Cover

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A slot's view is its rectangle's, re-indexed: the same elements. -/
theorem rFree96_eq (b : Memref sig .tc .vmem S7x96x2048 .bf16) (c : Dev nD) (t : Fin 7) :
    (rFree96 b c t : sProp 𝕄) = iprop(∃ f, (b.view.loc (c : Thread nD τ) ↦[(b.view.slice (rRect96 t)).set]{fullShare} f)) := by
  unfold rFree96
  rw [Memref.set_view_squeeze]
theorem sFree96_eq (b : Memref sig .tc .vmem S4x96x2048 .bf16) (c : Dev nD) (t : Fin 4) :
    (sFree96 b c t : sProp 𝕄) = iprop(∃ f, (b.view.loc (c : Thread nD τ) ↦[(b.view.slice (sRect96 t)).set]{fullShare} f)) := by
  unfold sFree96
  rw [Memref.set_view_squeeze]
theorem rFree80_eq (b : Memref sig .tc .vmem S7x80x2048 .bf16) (c : Dev nD) (t : Fin 7) :
    (rFree80 b c t : sProp 𝕄) = iprop(∃ f, (b.view.loc (c : Thread nD τ) ↦[(b.view.slice (rRect80 t)).set]{fullShare} f)) := by
  unfold rFree80
  rw [Memref.set_view_squeeze]
theorem sFree80_eq (b : Memref sig .tc .vmem S4x80x2048 .bf16) (c : Dev nD) (t : Fin 4) :
    (sFree80 b c t : sProp 𝕄) = iprop(∃ f, (b.view.loc (c : Thread nD τ) ↦[(b.view.slice (sRect80 t)).set]{fullShare} f)) := by
  unfold sFree80
  rw [Memref.set_view_squeeze]

variable [FloatOps F]

/-- A receive buffer held whole is its seven slots held, a send buffer its four: the slots are the slabs along the leading axis. -/
theorem r96_eq (b : Memref sig .tc .vmem S7x96x2048 .bf16) (hb : b.view.set = Finset.univ) (c : Dev nD) :
    (freeBuf b c : sProp 𝕄) = iprop(rFree96 b c 0 ∗ rFree96 b c 1 ∗ rFree96 b c 2 ∗ rFree96 b c 3 ∗ rFree96 b c 4 ∗ rFree96 b c 5 ∗ rFree96 b c 6) := by
  rw [cover_eq b hb rRect96 (Ring.lead_disjoint 0 1 _ _ inbR96 (by decide) (by decide))
    (Ring.lead_cover 0 1 _ _ inbR96 (by decide) (by decide) (by decide) (by decide) (by decide)) c, bigSep_fin7]
  simp only [rFree96_eq]
theorem s96_eq (b : Memref sig .tc .vmem S4x96x2048 .bf16) (hb : b.view.set = Finset.univ) (c : Dev nD) :
    (freeBuf b c : sProp 𝕄) = iprop(sFree96 b c 0 ∗ sFree96 b c 1 ∗ sFree96 b c 2 ∗ sFree96 b c 3) := by
  rw [cover_eq b hb sRect96 (Ring.lead_disjoint 0 1 _ _ inbS96 (by decide) (by decide))
    (Ring.lead_cover 0 1 _ _ inbS96 (by decide) (by decide) (by decide) (by decide) (by decide)) c, bigSep_fin4']
  simp only [sFree96_eq]
theorem r80_eq (b : Memref sig .tc .vmem S7x80x2048 .bf16) (hb : b.view.set = Finset.univ) (c : Dev nD) :
    (freeBuf b c : sProp 𝕄) = iprop(rFree80 b c 0 ∗ rFree80 b c 1 ∗ rFree80 b c 2 ∗ rFree80 b c 3 ∗ rFree80 b c 4 ∗ rFree80 b c 5 ∗ rFree80 b c 6) := by
  rw [cover_eq b hb rRect80 (Ring.lead_disjoint 0 1 _ _ inbR80 (by decide) (by decide))
    (Ring.lead_cover 0 1 _ _ inbR80 (by decide) (by decide) (by decide) (by decide) (by decide)) c, bigSep_fin7]
  simp only [rFree80_eq]
theorem s80_eq (b : Memref sig .tc .vmem S4x80x2048 .bf16) (hb : b.view.set = Finset.univ) (c : Dev nD) :
    (freeBuf b c : sProp 𝕄) = iprop(sFree80 b c 0 ∗ sFree80 b c 1 ∗ sFree80 b c 2 ∗ sFree80 b c 3) := by
  rw [cover_eq b hb sRect80 (Ring.lead_disjoint 0 1 _ _ inbS80 (by decide) (by decide))
    (Ring.lead_cover 0 1 _ _ inbS80 (by decide) (by decide) (by decide) (by decide) (by decide)) c, bigSep_fin4']
  simp only [sFree80_eq]

end Cert.KernelIdeal.Proto
-- ==== Proof.BodyGlue.lean ====
import proofs.«900895_g7700000000000896_dist_matmul_mk_i_outk_m2048_n2048_k1024_v7x_i8_f32_1_alg».proof.Proof.Gen.KernelIdeal.Points
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.BodyDefs
import proofs.«900895_g7700000000000896_dist_matmul_mk_i_outk_m2048_n2048_k1024_v7x_i8_f32_1_alg».proof.Proof.Slots

noncomputable section

namespace Cert.KernelIdeal.Proto

open Cert.KernelIdeal.Gen Cert.KernelIdeal.Mesh Idealize.ShloMosaic Idealize.ShloMosaic.TcCoe
open Idealize.SL Idealize.SL.RA Idealize.SL.BI
open scoped Idealize.SL.BI
open Idealize.SL.BI.BIBase Idealize.SL.Sem Idealize.ShloMosaic.Rounds
open Idealize.ShloMosaic.Pipeline (Dat BodyObligation)

variable {F : FTy → Type} [FloatOps F]
local notation "𝕄" => MT nD τ sig Unit (Elt F) ℕ UU ℕ

theorem bigSep_slots (Φ : Fin 3 → Fin 7 → sProp 𝕄) :
    (bigSep Finset.univ fun pi : Fin 3 × Fin 7 => Φ pi.1 pi.2) = iprop(Φ 0 0 ∗ Φ 0 1 ∗ Φ 0 2 ∗ Φ 0 3 ∗ Φ 0 4 ∗ Φ 0 5 ∗ Φ 0 6 ∗ Φ 1 0 ∗ Φ 1 1 ∗ Φ 1 2 ∗ Φ 1 3 ∗ Φ 1 4 ∗ Φ 1 5 ∗ Φ 1 6 ∗ Φ 2 0 ∗ Φ 2 1 ∗ Φ 2 2 ∗ Φ 2 3 ∗ Φ 2 4 ∗ Φ 2 5 ∗ Φ 2 6) :=
  bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide) _

theorem slots_intro (c : Dev nD) :
    iprop((bigSep Finset.univ fun pi : Fin 3 × Fin 7 => iprop(atPos ER (sendCell c pi.1 pi.2) 0 ∅ 0 ∗ atPos ER (recvCell c pi.1 pi.2) 0 ∅ 0))
      ∗ (bigSep Finset.univ fun pi : Fin 3 × Fin 7 => cred (tallyAt (recvCell c pi.1 pi.2) () (Np pi.1)))
      ∗ (bigSep Finset.univ fun pi : Fin 3 × Fin 7 =>
          iprop(dutyTok ER (sendCell c pi.1 pi.2) 0 (0 : Fin 3) ∗ dutyTok ER (recvCell (peer (slotMask pi.1 pi.2) c) pi.1 pi.2) 0 (0 : Fin 3))))
      ⊢ (bigSep Finset.univ fun pi : Fin 3 × Fin 7 => perSlot c pi.1 pi.2 : sProp 𝕄) := by
  rw [← bigSep_sep', ← bigSep_sep']
  refine bigSep_mono fun pi _ => ?_
  show (_ : sProp 𝕄) ⊢ _
  unfold perSlot
  iintro ⟨⟨H1, H2⟩, H3, H4, H5⟩
  iframe

variable (m : (ℓ : Loc nD τ sig) → Buf (Elt F) ℓ)

theorem open_core (c : Dev nD) : iprop(start m c ∗ scratch c) ⊢ iprop(∃ K, openedCore m K c) := by
  unfold start ghost positions payToks credits scratch
  rw [bigSep_W0, s96_eq sndM0 (View.set_whole _) c, r96_eq rcvM0 (View.set_whole _) c, s80_eq sndM1 (View.set_whole _) c,
    r80_eq rcvM1 (View.set_whole _) c, s80_eq sndM2 (View.set_whole _) c, r80_eq rcvM2 (View.set_whole _) c]
  iintro ⟨⟨⟨%K, Hrec, ⟨HatB, HatS⟩, ⟨Ht0, Ht1, Ht2⟩, HtS⟩, ⟨HcB, HcS⟩, Hlev⟩, ⟨A0, A1, A2, A3⟩, ⟨D0, D1, D2, D3, D4, D5, D6⟩, ⟨B0, B1, B2, B3⟩,
    ⟨E0, E1, E2, E3, E4, E5, E6⟩, ⟨C0, C1, C2, C3⟩, ⟨G0, G1, G2, G3, G4, G5, G6⟩, Hb16⟩
  ihave HS := (slots_intro (F := F) c) $$ [HatS HcS HtS]
  · iframe
  ihave HS' := (Entails.of_eq (bigSep_slots (F := F) (perSlot c))) $$ HS
  icases HS' with ⟨P00, P01, P02, P03, P04, P05, P06, P10, P11, P12, P13, P14, P15, P16, P20, P21, P22, P23, P24, P25, P26⟩
  iexists K
  unfold openedCore
  iframe

theorem close_core (c : Dev nD) : (closedCore c : sProp 𝕄) ⊢ Φ₁ c := by
  unfold closedCore Φ₁ scratch
  rw [bigSep_slots (F := F) (fun p i => iprop(semVal (sendCell c p i) 0 ∗ semVal (recvCell c p i) 0)),
    s96_eq sndM0 (View.set_whole _) c, r96_eq rcvM0 (View.set_whole _) c, s80_eq sndM1 (View.set_whole _) c,
    r80_eq rcvM1 (View.set_whole _) c, s80_eq sndM2 (View.set_whole _) c, r80_eq rcvM2 (View.set_whole _) c]
  iintro ⟨Hb16, A0, A1, A2, A3, B0, B1, B2, B3, C0, C1, C2, C3, D0, D1, D2, D3, D4, D5, D6, E0, E1, E2, E3, E4, E5, E6, G0, G1, G2, G3, G4, G5, G6, VS00, VR00, VS01, VR01, VS02, VR02, VS03, VR03, VS04, VR04, VS05, VR05, VS06, VR06, VS10, VR10, VS11, VR11, VS12, VR12, VS13, VR13, VS14, VR14, VS15, VR15, VS16, VR16, VS20, VR20, VS21, VR21, VS22, VR22, VS23, VR23, VS24, VR24, VS25, VR25, VS26, VR26⟩
  iframe

abbrev t₀ : Fin cfg0.N := t0_0

def bodyPre' (c : Dev nD) : sProp 𝕄 :=
  iprop(Φ₀ m c ∗ (dats (F := F) m 0 c).owesAt () t₀.castSucc
    ∗ (∃ d, owns (c : Thread nD τ) aM fullShare ((dats (F := F) m 0 c).before (0 : Fin 3) t₀ d))
    ∗ (∃ d, owns (c : Thread nD τ) bM fullShare ((dats (F := F) m 0 c).before (1 : Fin 3) t₀ d))
    ∗ (∃ d, owns (c : Thread nD τ) oM fullShare ((dats (F := F) m 0 c).before (2 : Fin 3) t₀ d)))

def bodyPost (c : Dev nD) : sProp 𝕄 :=
  iprop(Φ₁ c ∗ (dats (F := F) m 0 c).owesAt () t₀.succ
    ∗ owns (c : Thread nD τ) aM fullShare (Ablk m c)
    ∗ owns (c : Thread nD τ) bM fullShare (Bblk m c)
    ∗ owns (c : Thread nD τ) oM fullShare (outV m c))

set_option maxRecDepth 100000 in
theorem body_obligation_of
    (hsound : ∀ (K : CK → ℕ) (c : Dev nD) (W : Waits sig Unit) (Kt : PUnit → sProp 𝕄),
      iprop(openedCore m K c ∗ owes (c : Thread nD τ) (Ofrom c payList) W
        ∗ (aM.view.loc (c : Thread nD τ) ↦[aM.view.set]{fullShare} Ablk m c)
        ∗ (bM.view.loc (c : Thread nD τ) ↦[bM.view.set]{fullShare} Bblk m c)
        ∗ freeBuf oM c
        ∗ ((closedCore c ∗ (∃ W', owes (c : Thread nD τ) 0 W')
            ∗ (aM.view.loc (c : Thread nD τ) ↦[aM.view.set]{fullShare} Ablk m c)
            ∗ (bM.view.loc (c : Thread nD τ) ↦[bM.view.set]{fullShare} Bblk m c)
            ∗ (oM.view.loc (c : Thread nD τ) ↦[oM.view.set]{fullShare} outV m c)) -∗ Kt ⟨⟩))
      ⊢ wp frame (wpE (defs₀ (F := F)) 𝒱₀ c none) Set.univ (atBufs cc0_body) Kt)
    (c : Dev nD) : BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ c none) Set.univ (atBufs cc0_body) (fun _ => bodyPost m c)
  unfold bodyPre' Φ₀ owns
  iintro ⟨⟨Hstart, Hscr⟩, Ho, ⟨%d0, %g0, %hg0, Ha⟩, ⟨%d1, %g1, %hg1, Hb⟩, ⟨%d2, %g2, %hg2, Hout⟩⟩
  have ha : g0 = Ablk m c := hg0.trans (by unfold Dat.before; rw [if_pos (fetch0_0 t₀)]; rfl)
  have hb : g1 = Bblk m c := hg1.trans (by unfold Dat.before; rw [if_pos (fetch0_1 t₀)]; rfl)
  subst ha; subst hb
  ihave HK := (open_core m c) $$ [Hstart Hscr]
  · iframe
  icases HK with ⟨%K, Hcore⟩
  unfold Dat.owesAt Pipeline.owesWithin
  icases Ho with ⟨%W, %hW, HO⟩
  rw [show (dats (F := F) m 0 c).owed t₀.castSucc = Ofrom c payList from O₀_eq c]
  iapply (hsound K c W fun _ => bodyPost m c)
  iframe Hcore HO Ha Hb
  isplitl [Hout]
  · unfold freeBuf; iexists g2; iexact Hout
  iintro ⟨Hcl, ⟨%W', HO'⟩, Ha, Hb, Hout⟩
  unfold bodyPost Dat.owesAt Pipeline.owesWithin owns
  rw [show (dats (F := F) m 0 c).owed t₀.succ = 0 from rfl]
  isplitl [Hcl]
  · iapply (close_core (F := F) c); iexact Hcl
  isplitl [HO']
  · iexists W'; iframe HO'; ipureintro; exact fun _ _ => Or.inl trivial
  isplitl [Ha]
  · iexists (Ablk m c); iframe Ha; ipureintro; rfl
  isplitl [Hb]
  · iexists (Bblk m c); iframe Hb; ipureintro; rfl
  iexists (outV m c); iframe Hout; ipureintro; rfl

end Cert.KernelIdeal.Proto

end
-- ==== Proof.Steps.lean ====
import proofs.«900895_g7700000000000896_dist_matmul_mk_i_outk_m2048_n2048_k1024_v7x_i8_f32_1_alg».proof.Proof.Proto
import proofs.«900895_g7700000000000896_dist_matmul_mk_i_outk_m2048_n2048_k1024_v7x_i8_f32_1_alg».proof.Proof.Tables

namespace Cert.KernelIdeal.Proto

open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The records hold every keyed cell's invariant, and that its round 0 is reached. -/
theorem inv_at (ck : CK) : (records m K : sProp 𝕄) ⊢ cellInv ER (Rd m) (K ck) (kcell ck) := by
  unfold records; exact sep_elim_left.trans (bigSep_elim (Finset.mem_univ ck))
theorem reached_at (ck : CK) : (records m K : sProp 𝕄) ⊢ reached ER (kcell ck) 0 := by
  unfold records; exact sep_elim_right.trans (bigSep_elim (Finset.mem_univ ck))

omit [FloatOps F] in
theorem Np_zero : Np 0 = N96 := if_pos rfl
omit [FloatOps F] in
theorem Np_of_ne {p : Fin 3} (hp : p ≠ 0) : Np p = N80 := if_neg hp

omit [FloatOps F] in
/-- A slot's credit counts its rows only, so it is the same in every slot of either 80-row buffer. -/
theorem credit80 (p : Fin 3) (i : Fin 7) : (rSlot80 (rcvM80 p) i).view.dmaCredit = N80 := by
  unfold rcvM80; split <;> rfl

end Cert.KernelIdeal.Proto
-- ==== Proof.StepsG.lean ====
import proofs.«900895_g7700000000000896_dist_matmul_mk_i_outk_m2048_n2048_k1024_v7x_i8_f32_1_alg».proof.Proof.Steps

namespace Cert.KernelIdeal.Proto

open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The copy of a 96-row slot into slot i of the neighbour's receive buffer pays both cells' duties. -/
theorem wp_send96' (c n : Dev nD) (i : Fin 7) (hn : n = peer (slotMask 0 i) c) {n₀ : Dev nD} (hn₀ : n₀ = n)
    {ss rs : DmaSem sig} (hss : ss = sSem 0 i) (hrs : rs = rSem 0 i)
    (src : Memref sig .tc .vmem S96x2048 .bf16) {src₀ : Memref sig .tc .vmem S96x2048 .bf16} (hs : src₀ = src)
    {dst : Memref sig (Dev.tc n₀ : Thread nD τ).2.kind .vmem S96x2048 .bf16} (hd : dst = rSlot96 rcvM0 i)
    (fs : Buf (Elt F) (src.view.loc (c : Thread nD τ)))
    (hland : ∀ fd, rcvM0.view.readAt (Elt F) (rRect96 i).toLoadRect ((rSlot96 rcvM0 i).view.write (Elt F) fd (src.view.read (Elt F) fs) Finset.univ) = landed96 m n i)
    (hback : (src.view.loc (c : Thread nD τ) ↦[src.view.set]{fullShare} fs : sProp 𝕄) ⊢ sendPay m c 0 i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop((src.view.loc (c : Thread nD τ) ↦[src.view.set]{fullShare} fs) -∗ rFree96 rcvM0 n i
      -∗ owes (c : Thread nD τ) (O + tallyAt (recvCell n 0 i) () (Np 0)) W
      -∗ dutyTok ER (sendCell c 0 i) 0 (0 : Fin 3) -∗ dutyTok ER (recvCell n 0 i) 0 (0 : Fin 3)
      -∗ ((cred (tallyAt (sendCell c 0 i) () (Np 0)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hn₀ hss hrs hd hs
  unfold rFree96
  iintro #HR Hsrc ⟨%fd, Hdst⟩ HO HtS HtR Hk
  iapply (Rounds.wp_send_pointsTo 𝒱₀ ER (Rd m) (c : Thread nD τ) none (κ₁ := K (c, some (false, 0, i))) (κ₂ := K (n₀, some (true, 0, i))) (sem := .dma (rSem 0 i)) (fd := fd)
      (by rw [duties_send]; exact Finset.mem_singleton_self _) (by rw [duties_recv]; exact Finset.mem_singleton_self _)
      () () (Np 0) Np_zero.symm (amount_send m c 0 i 0) (amount_recv m n₀ 0 i 0) O rfl (W := W)
      (by rw [payload_send]; exact hback)
      (by
        rw [payload_recv]; unfold recvPay; rw [if_pos rfl]; unfold rHolds96
        iintro H; iexists _; iframe
        ipureintro; exact hland fd)) $$ [$Hsrc $Hdst $HO $HtS $HtR] Hk
  isplitr; · iapply (inv_at m K _) $$ HR
  isplitr; · iapply (inv_at m K _) $$ HR
  isplitr; · iapply (reached_at m K (c, some (false, 0, i))) $$ HR
  iapply (reached_at m K (n₀, some (true, 0, i))) $$ HR

/-- The same for an 80-row slot of part p, whose credit is the same in every slot. -/
theorem wp_send80' (c n : Dev nD) (p : Fin 3) (hp : p ≠ 0) (i : Fin 7) (hn : n = peer (slotMask p i) c) {n₀ : Dev nD} (hn₀ : n₀ = n)
    (rb : Memref sig .tc .vmem S7x80x2048 .bf16) (hrb : rb = rcvM80 p)
    {ss rs : DmaSem sig} (hss : ss = sSem p i) (hrs : rs = rSem p i)
    (src : Memref sig .tc .vmem S80x2048 .bf16) {src₀ : Memref sig .tc .vmem S80x2048 .bf16} (hs : src₀ = src)
    {dst : Memref sig (Dev.tc n₀ : Thread nD τ).2.kind .vmem S80x2048 .bf16} (hd : dst = rSlot80 rb i)
    (fs : Buf (Elt F) (src.view.loc (c : Thread nD τ)))
    (hland : ∀ fd, rb.view.readAt (Elt F) (rRect80 i).toLoadRect ((rSlot80 rb i).view.write (Elt F) fd (src.view.read (Elt F) fs) Finset.univ) = landed80 m p n i)
    (hback : (src.view.loc (c : Thread nD τ) ↦[src.view.set]{fullShare} fs : sProp 𝕄) ⊢ sendPay m c p i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop((src.view.loc (c : Thread nD τ) ↦[src.view.set]{fullShare} fs) -∗ rFree80 rb n i
      -∗ owes (c : Thread nD τ) (O + tallyAt (recvCell n p i) () (Np p)) W
      -∗ dutyTok ER (sendCell c p i) 0 (0 : Fin 3) -∗ dutyTok ER (recvCell n p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hn₀ hss hrs hd hs hrb
  unfold rFree80
  iintro #HR Hsrc ⟨%fd, Hdst⟩ HO HtS HtR Hk
  iapply (Rounds.wp_send_pointsTo 𝒱₀ ER (Rd m) (c : Thread nD τ) none (κ₁ := K (c, some (false, p, i))) (κ₂ := K (n₀, some (true, p, i))) (sem := .dma (rSem p i)) (fd := fd)
      (by rw [duties_send]; exact Finset.mem_singleton_self _) (by rw [duties_recv]; exact Finset.mem_singleton_self _)
      () () (Np p) ((credit80 p i).trans (Np_of_ne hp).symm) (amount_send m c p i 0) (amount_recv m n₀ p i 0) O rfl (W := W)
      (by rw [payload_send]; exact hback)
      (by
        rw [payload_recv]; unfold recvPay; rw [if_neg hp]; unfold rHolds80
        iintro H; iexists _; iframe
        ipureintro; exact hland fd)) $$ [$Hsrc $Hdst $HO $HtS $HtR] Hk
  isplitr; · iapply (inv_at m K _) $$ HR
  isplitr; · iapply (inv_at m K _) $$ HR
  isplitr; · iapply (reached_at m K (c, some (false, p, i))) $$ HR
  iapply (reached_at m K (n₀, some (true, p, i))) $$ HR

/-- The wait on a receive cell takes the round's one payload, the slot holding what landed, and closes the cell at zero. -/
theorem wp_waitRecv' (c : Dev nD) (p : Fin 3) (i : Fin 7) (O : CellTallies nD τ sig Unit) (W : Waits sig Unit)
    (hMW : (levAts L lv : sProp 𝕄) ⊢ MayWait (c : Thread nD τ) (.dma (rSem p i)) () O)
    {sm : DmaSem sig} (hsm : sm = rSem p i)
    {sp' : Space} {s' s'' : Shape} {e' e'' : EltTy} {src : Memref sig .tc sp' s' e'} {κ' : Kind} {dst : Memref sig κ' .vmem s'' e''}
    (hcr : dst.view.dmaCredit = Np p) {hsrc : src.view.WordExact} {hdst : dst.view.WordExact}
    {α : Type} {Q : α → sProp 𝕄} {k : PUnit → Prog (TpuEff nD τ sig (Elt F) Λ₀ .tc) α} :
    (records m K : sProp 𝕄) ⊢ iprop(cred (tallyAt (recvCell c p i) () (Np p)) -∗ owes (c : Thread nD τ) O W -∗ levAts L lv
      -∗ atPos ER (recvCell c p i) 0 ∅ 0
      -∗ ((owes (c : Thread nD τ) O (insert (SemLoc.dma (rSem p i), ()) W) ∗ semVal (recvCell c p i) 0 ∗ recvPay m c p i) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src dst hsrc hdst) k) Q) := by
  subst hsm
  rw [← hcr]
  iintro #HR Hc HO #Hlev Hat Hk
  iapply (Rounds.wp_wait_rest_token 𝒱₀ ER (Rd m) (c : Thread nD τ) none (κ := K (c, some (true, p, i)))
      (wpE_waitDma2_eq 𝒱₀ (c : Thread nD τ) none Set.univ) (Set.mem_univ _) () (O := O) (W := W) (R := 0) (m := 0) (T := ∅)
      (by rw [Nat.zero_add, expect_recv, hcr])) $$ [$Hc $HO $Hat]
  · isplitr; · iapply (inv_at m K _) $$ HR
    iapply hMW; iexact Hlev
  rw [rest_recv]
  iintro ⟨HO, Hat, -, Hp⟩
  imod (Rounds.cell_close ER (Rd m) (Set.mem_univ (K (c, some (true, p, i)))) id (R := 0 + 1) (duties_later m _)) $$ [$Hat] with Hz
  · iapply (inv_at m K _) $$ HR
  iapply Hk
  iframe

/-- The wait on a send cell, owing nothing, takes the copy's source back and closes the cell at zero. -/
theorem wp_waitSend' (c : Dev nD) (p : Fin 3) (i : Fin 7) (W : Waits sig Unit)
    {sm : DmaSem sig} (hsm : sm = sSem p i)
    {sp' : Space} {s' s'' : Shape} {e' e'' : EltTy} {src : Memref sig .tc sp' s' e'} {κ' : Kind} {dst : Memref sig κ' .vmem s'' e''}
    (hcr : dst.view.dmaCredit = Np p) {hsrc : src.view.WordExact} {hdst : dst.view.WordExact}
    {α : Type} {Q : α → sProp 𝕄} {k : PUnit → Prog (TpuEff nD τ sig (Elt F) Λ₀ .tc) α} :
    (records m K : sProp 𝕄) ⊢ iprop(cred (tallyAt (sendCell c p i) () (Np p)) -∗ owes (c : Thread nD τ) 0 W
      -∗ atPos ER (sendCell c p i) 0 ∅ 0
      -∗ ((owes (c : Thread nD τ) 0 (insert (SemLoc.dma (sSem p i), ()) W) ∗ semVal (sendCell c p i) 0 ∗ sendPay m c p i) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src dst hsrc hdst) k) Q) := by
  subst hsm
  rw [← hcr]
  iintro #HR Hc HO Hat Hk
  iapply (Rounds.wp_wait_rest_token 𝒱₀ ER (Rd m) (c : Thread nD τ) none (κ := K (c, some (false, p, i)))
      (wpE_waitDma2_eq 𝒱₀ (c : Thread nD τ) none Set.univ) (Set.mem_univ _) () (O := 0) (W := W) (R := 0) (m := 0) (T := ∅)
      (by rw [Nat.zero_add, expect_send, hcr])) $$ [$Hc $HO $Hat]
  · isplitr; · iapply (inv_at m K _) $$ HR
    rw [MayWait_zero]; iempintro
  rw [rest_send]
  iintro ⟨HO, Hat, -, Hp⟩
  imod (Rounds.cell_close ER (Rd m) (Set.mem_univ (K (c, some (false, p, i)))) id (R := 0 + 1) (duties_later m _)) $$ [$Hat] with Hz
  · iapply (inv_at m K _) $$ HR
  iapply Hk
  iframe

end Cert.KernelIdeal.Proto
-- ==== Proof.StepsBar.lean ====
import proofs.«900895_g7700000000000896_dist_matmul_mk_i_outk_m2048_n2048_k1024_v7x_i8_f32_1_alg».proof.Proof.BodyDefs
import proofs.«900895_g7700000000000896_dist_matmul_mk_i_outk_m2048_n2048_k1024_v7x_i8_f32_1_alg».proof.Proof.Steps
import proofs.«900895_g7700000000000896_dist_matmul_mk_i_outk_m2048_n2048_k1024_v7x_i8_f32_1_alg».proof.Proof.LaunchCred

namespace Cert.KernelIdeal.Proto
open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

theorem freeStage96_0 (b : Memref sig .tc .vmem S7x96x2048 .bf16) (e : Dev nD) :
    freeStage96 (F := F) b e 0 = iprop(rFree96 b e 0 ∗ rFree96 b e 1 ∗ rFree96 b e 2 ∗ rFree96 b e 3) := rfl
theorem freeStage96_1 (b : Memref sig .tc .vmem S7x96x2048 .bf16) (e : Dev nD) :
    freeStage96 (F := F) b e 1 = iprop(rFree96 b e 4 ∗ rFree96 b e 5) := rfl
theorem freeStage96_2 (b : Memref sig .tc .vmem S7x96x2048 .bf16) (e : Dev nD) :
    freeStage96 (F := F) b e 2 = rFree96 b e 6 := rfl
theorem freeStage80_0 (b : Memref sig .tc .vmem S7x80x2048 .bf16) (e : Dev nD) :
    freeStage80 (F := F) b e 0 = iprop(rFree80 b e 0 ∗ rFree80 b e 1 ∗ rFree80 b e 2 ∗ rFree80 b e 3) := rfl
theorem freeStage80_1 (b : Memref sig .tc .vmem S7x80x2048 .bf16) (e : Dev nD) :
    freeStage80 (F := F) b e 1 = iprop(rFree80 b e 4 ∗ rFree80 b e 5) := rfl
theorem freeStage80_2 (b : Memref sig .tc .vmem S7x80x2048 .bf16) (e : Dev nD) :
    freeStage80 (F := F) b e 2 = rFree80 b e 6 := rfl
theorem peel_bar (c : Dev nD) (x : Fin 3) (l : List Pay) :
    Ofrom c (Pay.bar x :: l) = Ofrom c l + tallyAt (barCell (peer x c)) () 1 := rfl
theorem peel_slot (c : Dev nD) (p : Fin 3) (i : Fin 7) (x : Fin 3) (hx : slotMask p i = x) (l : List Pay) :
    Ofrom c (Pay.slot p i :: l) = Ofrom c l + tallyAt (recvCell (peer x c) p i) () (Np p) := by subst hx; rfl
theorem f3_01 : (0 - 1 : Fin 3) = 2 := by decide
theorem f3_02 : (0 - 2 : Fin 3) = 1 := by decide
theorem f3_11 : (1 - 1 : Fin 3) = 0 := by decide
theorem f3_12 : (1 - 2 : Fin 3) = 2 := by decide
theorem f3_21 : (2 - 1 : Fin 3) = 1 := by decide
theorem f3_22 : (2 - 2 : Fin 3) = 0 := by decide

/-- The signal to the neighbour across mask x pays duty x of its barrier cell with this device's receive slots that the neighbour writes. -/
theorem wp_sigBar (K : CK → ℕ) (c n : Dev nD) (x : Fin 3) (hn : n = peer x c) (O : CellTallies nD τ sig Unit) (W : Waits sig Unit)
    {k' : ℕ} (hk' : k' = 1) {α : Type} {Q : α → sProp 𝕄} {k : PUnit → Prog (TpuEff nD τ sig (Elt F) Λ₀ .tc) α} :
    records m K ⊢ iprop(owes (c : Thread nD τ) (O + tallyAt (barCell n) () 1) W -∗ dutyTok ER (barCell n) 0 x
      -∗ iprop(freeStage96 rcvM0 c x ∗ freeStage80 rcvM1 c (x - 1) ∗ freeStage80 rcvM2 c (x - 2))
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  subst hn; subst hk'
  iintro #HR HO Htok Hpay Hk
  iapply (Rounds.wp_signal 𝒱₀ ER (Rd m) (c : Thread nD τ) none (dst := (peer x c : Thread nD τ)) (κ := K (peer x c, none))
      (d := x) (by rw [duties_bar]; exact Finset.mem_univ _) (amount_bar m (peer x c) x) () O rfl) $$ [$HO $Htok Hpay] Hk
  isplitr; · iapply (inv_at m K _) $$ HR
  isplitl [Hpay]
  · rw [payload_bar]; unfold barPay; rw [peer_peer]; iexact Hpay
  iapply (reached_at m K (peer x c, none)) $$ HR

/-- The wait on the device's own barrier cell takes the three neighbours' payloads: from each, its receive slots this device writes. -/
theorem wp_waitBar (K : CK → ℕ) (c : Dev nD) (O : CellTallies nD τ sig Unit) (W : Waits sig Unit) {k' : ℕ} (hk' : k' = 3)
    (hMW : (levAts L lv : sProp 𝕄) ⊢ MayWait (c : Thread nD τ) (.reg barS) () O)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) k' Kk)
    {α : Type} {Q : α → sProp 𝕄} {k : PUnit → Prog (TpuEff nD τ sig (Elt F) Λ₀ .tc) α} :
    records m K ⊢ iprop(levAts L lv -∗ cred (tallyAt (barCell c) () 3) -∗ owes (c : Thread nD τ) O W -∗ atPos ER (barCell c) 0 ∅ 0
      -∗ (iprop(owes (c : Thread nD τ) O (insert (SemLoc.reg barS, ()) W)
              ∗ (rFree96 rcvM0 (peer 0 c) 0 ∗ rFree96 rcvM0 (peer 0 c) 1 ∗ rFree96 rcvM0 (peer 0 c) 2 ∗ rFree96 rcvM0 (peer 0 c) 3
                  ∗ rFree80 rcvM1 (peer 0 c) 6 ∗ rFree80 rcvM2 (peer 0 c) 4 ∗ rFree80 rcvM2 (peer 0 c) 5)
              ∗ (rFree96 rcvM0 (peer 1 c) 4 ∗ rFree96 rcvM0 (peer 1 c) 5
                  ∗ rFree80 rcvM1 (peer 1 c) 0 ∗ rFree80 rcvM1 (peer 1 c) 1 ∗ rFree80 rcvM1 (peer 1 c) 2 ∗ rFree80 rcvM1 (peer 1 c) 3
                  ∗ rFree80 rcvM2 (peer 1 c) 6)
              ∗ (rFree96 rcvM0 (peer 2 c) 6 ∗ rFree80 rcvM1 (peer 2 c) 4 ∗ rFree80 rcvM1 (peer 2 c) 5
                  ∗ rFree80 rcvM2 (peer 2 c) 0 ∗ rFree80 rcvM2 (peer 2 c) 1 ∗ rFree80 rcvM2 (peer 2 c) 2 ∗ rFree80 rcvM2 (peer 2 c) 3))
            -∗ wp frame (wpE (defs₀ (F := F)) 𝒱₀ (c : Thread nD τ) none) Set.univ (k ⟨⟩) Q)
      -∗ wp frame (wpE (defs₀ (F := F)) 𝒱₀ (c : Thread nD τ) none) Set.univ (.op w k) Q) := by
  subst hk'
  iintro #HR #Hlev Hc HO Hat Hk
  iapply (Rounds.wp_wait_rest_token 𝒱₀ ER (Rd m) (c : Thread nD τ) none (κ := K (c, none)) hw (Set.mem_univ _) ()
      (O := O) (W := W) (R := 0) (m := 0) (T := ∅) (by rw [expect_bar])) $$ [$Hc $HO $Hat]
  · isplitr; · iapply (inv_at m K _) $$ HR
    iapply hMW; iexact Hlev
  rw [rest_bar]
  iintro ⟨HO, -, -, Hp⟩
  iapply Hk
  unfold barPay
  simp only [freeStage96_0, freeStage96_1, freeStage96_2, freeStage80_0, freeStage80_1, freeStage80_2, f3_01, f3_02, f3_11, f3_12, f3_21, f3_22]
  icases Hp with ⟨⟨⟨a0, a1, a2, a3⟩, a4, a5, a6⟩, ⟨⟨b0, b1⟩, ⟨b2, b3, b4, b5⟩, b6⟩, c0, ⟨c1, c2⟩, c3, c4, c5, c6⟩
  iframe

end Cert.KernelIdeal.Proto
-- ==== Proof.SlotRead.lean ====
import proofs.«900895_g7700000000000896_dist_matmul_mk_i_outk_m2048_n2048_k1024_v7x_i8_f32_1_alg».proof.Proof.Proto

namespace Cert.KernelIdeal.Proto

open Cert.KernelIdeal.Gen Idealize.ShloMosaic

variable {F : FTy → Type}

section Read

variable {κ κ' : Kind} {sp sp' : Space} {s s' : Shape} {e : EltTy}

theorem readAt_write_rect (v : View sig κ sp s e) (r : Rect s) (f : v.ty.Contents (Elt F)) (w : r.shape.Idx → Elt F e) :
    v.readAt (Elt F) r.toLoadRect ((v.slice r).write (Elt F) f w Finset.univ) = w :=
  View.read_write_univ (v := v.slice r) f w

theorem land_reshape (v : View sig κ sp s e) (v₂ : View sig κ' sp' s e) (h h' : s'.numel = s.numel)
    (fd : v.ty.Contents (Elt F)) (fs : v₂.ty.Contents (Elt F)) :
    v.read (Elt F) ((v.reshape s' h).write (Elt F) fd ((v₂.reshape s' h').read (Elt F) fs) Finset.univ) = v₂.read (Elt F) fs := by
  rw [View.write_reshape_univ, View.read_write_univ]
  funext x
  exact congrArg (v₂.read (Elt F) fs) (Equiv.apply_symm_apply (Shape.reshapeEquiv h) x)

end Read

section Slots

variable {κ κ' : Kind}

theorem readAt_write_r96 (b : Memref sig κ .vmem S7x96x2048 .bf16) (i : Fin 7) (f : b.view.ty.Contents (Elt F)) (w : Vec F S1x96x2048 .bf16) :
    b.view.readAt (Elt F) (rRect96 i).toLoadRect (View.write (Elt F) (b.access (rRect96 i)) f w Finset.univ) = w :=
  readAt_write_rect b.view (rRect96 i) f w
theorem readAt_write_r80 (b : Memref sig κ .vmem S7x80x2048 .bf16) (i : Fin 7) (f : b.view.ty.Contents (Elt F)) (w : Vec F S1x80x2048 .bf16) :
    b.view.readAt (Elt F) (rRect80 i).toLoadRect (View.write (Elt F) (b.access (rRect80 i)) f w Finset.univ) = w :=
  readAt_write_rect b.view (rRect80 i) f w
theorem land96 (b : Memref sig κ .vmem S7x96x2048 .bf16) (b' : Memref sig κ' .vmem S4x96x2048 .bf16) (i : Fin 7) (j : Fin 4)
    (fd : (rSlot96 b i).view.ty.Contents (Elt F)) (fs : (sSlot96 b' j).view.ty.Contents (Elt F)) :
    b.view.readAt (Elt F) (rRect96 i).toLoadRect ((rSlot96 b i).view.write (Elt F) fd ((sSlot96 b' j).view.read (Elt F) fs) Finset.univ)
      = b'.view.readAt (Elt F) (sRect96 j).toLoadRect fs :=
  land_reshape (b.view.slice (rRect96 i)) (b'.view.slice (sRect96 j)) _ _ fd fs
theorem land96r (b : Memref sig κ .vmem S7x96x2048 .bf16) (b' : Memref sig κ' .vmem S7x96x2048 .bf16) (i j : Fin 7)
    (fd : (rSlot96 b i).view.ty.Contents (Elt F)) (fs : (rSlot96 b' j).view.ty.Contents (Elt F)) :
    b.view.readAt (Elt F) (rRect96 i).toLoadRect ((rSlot96 b i).view.write (Elt F) fd ((rSlot96 b' j).view.read (Elt F) fs) Finset.univ)
      = b'.view.readAt (Elt F) (rRect96 j).toLoadRect fs :=
  land_reshape (b.view.slice (rRect96 i)) (b'.view.slice (rRect96 j)) _ _ fd fs
theorem land80 (b : Memref sig κ .vmem S7x80x2048 .bf16) (b' : Memref sig κ' .vmem S4x80x2048 .bf16) (i : Fin 7) (j : Fin 4)
    (fd : (rSlot80 b i).view.ty.Contents (Elt F)) (fs : (sSlot80 b' j).view.ty.Contents (Elt F)) :
    b.view.readAt (Elt F) (rRect80 i).toLoadRect ((rSlot80 b i).view.write (Elt F) fd ((sSlot80 b' j).view.read (Elt F) fs) Finset.univ)
      = b'.view.readAt (Elt F) (sRect80 j).toLoadRect fs :=
  land_reshape (b.view.slice (rRect80 i)) (b'.view.slice (sRect80 j)) _ _ fd fs
theorem land80r (b : Memref sig κ .vmem S7x80x2048 .bf16) (b' : Memref sig κ' .vmem S7x80x2048 .bf16) (i j : Fin 7)
    (fd : (rSlot80 b i).view.ty.Contents (Elt F)) (fs : (rSlot80 b' j).view.ty.Contents (Elt F)) :
    b.view.readAt (Elt F) (rRect80 i).toLoadRect ((rSlot80 b i).view.write (Elt F) fd ((rSlot80 b' j).view.read (Elt F) fs) Finset.univ)
      = b'.view.readAt (Elt F) (rRect80 j).toLoadRect fs :=
  land_reshape (b.view.slice (rRect80 i)) (b'.view.slice (rRect80 j)) _ _ fd fs

end Slots

end Cert.KernelIdeal.Proto
-- ==== Proof.Facts.lean ====
import proofs.«900895_g7700000000000896_dist_matmul_mk_i_outk_m2048_n2048_k1024_v7x_i8_f32_1_alg».proof.Proof.SlotRead

namespace Cert.KernelIdeal.Proto

open Cert.KernelIdeal.Gen Cert.KernelIdeal.Mesh Idealize.ShloMosaic Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

variable (m : (ℓ : Loc nD τ sig) → Buf (Elt F) ℓ)

theorem landed96_lt4 (n : Dev nD) (j : Fin 4) (i : Fin 7) (hi : i.val = j.val) : landed96 m n i = L96 m n j := by
  obtain rfl : i = j.castLE (by decide) := Fin.ext hi
  fin_cases j <;> rfl
theorem landed80_lt4 (p : Fin 3) (n : Dev nD) (j : Fin 4) (i : Fin 7) (hi : i.val = j.val) : landed80 m p n i = L80 m p n j := by
  obtain rfl : i = j.castLE (by decide) := Fin.ext hi
  fin_cases j <;> rfl
theorem sendPay96_lt4 (c : Dev nD) (j : Fin 4) (i : Fin 7) (hi : i.val = j.val) :
    sendPay96 m c i = sHolds96 sndM0 c j (sv96 (pv96 m c (qS 0 j))) := by
  obtain rfl : i = j.castLE (by decide) := Fin.ext hi
  fin_cases j <;> rfl
theorem sendPay80_lt4 (p : Fin 3) (c : Dev nD) (j : Fin 4) (i : Fin 7) (hi : i.val = j.val) :
    sendPay80 m p c i = sHolds80 (sndM80 p) c j (k0_pay9 (pv80 m c (qS p j) (r2 p))) := by
  obtain rfl : i = j.castLE (by decide) := Fin.ext hi
  fin_cases j <;> rfl

theorem sendPay_zero (c : Dev nD) (i : Fin 7) : sendPay m c 0 i = sendPay96 m c i := if_pos rfl
theorem sendPay_of_ne (c : Dev nD) {p : Fin 3} (hp : p ≠ 0) (i : Fin 7) : sendPay m c p i = sendPay80 m p c i := if_neg hp

theorem land96_x1 (c : Dev nD) (j : Fin 4) (i : Fin 7) (hi : i.val = j.val) (S : Vec F S1x96x2048 .bf16) (hS : S = sv96 (pv96 m c (qS 0 j)))
    (fs0 : sndM0.view.ty.Contents (Elt F)) (fd : (rSlot96 rcvM0 i).view.ty.Contents (Elt F)) :
    rcvM0.view.readAt (Elt F) (rRect96 i).toLoadRect ((rSlot96 rcvM0 i).view.write (Elt F) fd
        ((sSlot96 sndM0 j).view.read (Elt F) (View.write (Elt F) (sndM0.access (sRect96 j)) fs0 S Finset.univ)) Finset.univ)
      = landed96 m (peer 0 c) i :=
  (land96 rcvM0 sndM0 i j fd _).trans ((readAt_write_rect sndM0.view (sRect96 j) fs0 S).trans (by
    rw [hS, landed96_lt4 m (peer 0 c) j i hi, L96, peer_peer]))

theorem back96_x1 (c : Dev nD) (j : Fin 4) (i : Fin 7) (hi : i.val = j.val) (S : Vec F S1x96x2048 .bf16) (hS : S = sv96 (pv96 m c (qS 0 j)))
    (fs0 : sndM0.view.ty.Contents (Elt F)) :
    ((sSlot96 sndM0 j).view.loc (c : Thread nD τ) ↦[(sSlot96 sndM0 j).view.set]{fullShare}
        View.write (Elt F) (sndM0.access (sRect96 j)) fs0 S Finset.univ : sProp 𝕄) ⊢ sendPay m c 0 i := by
  rw [sendPay_zero, sendPay96_lt4 m c j i hi]
  unfold sHolds96
  iintro H; iexists _; iframe H; ipureintro; exact (readAt_write_rect sndM0.view (sRect96 j) fs0 S).trans hS

theorem land80_x1 (p : Fin 3) (hp : p ≠ 0) (sb : Memref sig .tc .vmem S4x80x2048 .bf16) (hsb : sb = sndM80 p)
    (rb : Memref sig .tc .vmem S7x80x2048 .bf16) (hrb : rb = rcvM80 p)
    (c : Dev nD) (j : Fin 4) (i : Fin 7) (hi : i.val = j.val) (S : Vec F S1x80x2048 .bf16) (hS : S = k0_pay9 (pv80 m c (qS p j) (r2 p)))
    (fs0 : sb.view.ty.Contents (Elt F)) (fd : (rSlot80 rb i).view.ty.Contents (Elt F)) :
    rb.view.readAt (Elt F) (rRect80 i).toLoadRect ((rSlot80 rb i).view.write (Elt F) fd
        ((sSlot80 sb j).view.read (Elt F) (View.write (Elt F) (sb.access (sRect80 j)) fs0 S Finset.univ)) Finset.univ)
      = landed80 m p (peer p c) i :=
  (land80 rb sb i j fd _).trans ((readAt_write_rect sb.view (sRect80 j) fs0 S).trans (by
    rw [hS, landed80_lt4 m p (peer p c) j i hi, L80, peer_peer]))

theorem back80_x1 (p : Fin 3) (hp : p ≠ 0) (sb : Memref sig .tc .vmem S4x80x2048 .bf16) (hsb : sb = sndM80 p)
    (c : Dev nD) (j : Fin 4) (i : Fin 7) (hi : i.val = j.val) (S : Vec F S1x80x2048 .bf16) (hS : S = k0_pay9 (pv80 m c (qS p j) (r2 p)))
    (fs0 : sb.view.ty.Contents (Elt F)) :
    ((sSlot80 sb j).view.loc (c : Thread nD τ) ↦[(sSlot80 sb j).view.set]{fullShare}
        View.write (Elt F) (sb.access (sRect80 j)) fs0 S Finset.univ : sProp 𝕄) ⊢ sendPay m c p i := by
  subst hsb
  rw [sendPay_of_ne m c hp, sendPay80_lt4 m p c j i hi]
  unfold sHolds80
  iintro H; iexists _; iframe H; ipureintro; exact (readAt_write_rect (sndM80 p).view (sRect80 j) fs0 S).trans hS

theorem back96_rr (c : Dev nD) (s : Fin 7) (S : Vec F S1x96x2048 .bf16) (f0 : rcvM0.view.ty.Contents (Elt F)) :
    ((rSlot96 rcvM0 s).view.loc (c : Thread nD τ) ↦[(rSlot96 rcvM0 s).view.set]{fullShare}
        View.write (Elt F) (rcvM0.access (rRect96 s)) f0 S Finset.univ : sProp 𝕄) ⊢ rHolds96 rcvM0 c s S := by
  unfold rHolds96
  iintro H; iexists _; iframe H; ipureintro; exact readAt_write_r96 rcvM0 s f0 S
theorem back80_rr (rb : Memref sig .tc .vmem S7x80x2048 .bf16) (c : Dev nD) (s : Fin 7) (S : Vec F S1x80x2048 .bf16) (f0 : rb.view.ty.Contents (Elt F)) :
    ((rSlot80 rb s).view.loc (c : Thread nD τ) ↦[(rSlot80 rb s).view.set]{fullShare}
        View.write (Elt F) (rb.access (rRect80 s)) f0 S Finset.univ : sProp 𝕄) ⊢ rHolds80 rb c s S := by
  unfold rHolds80
  iintro H; iexists _; iframe H; ipureintro; exact readAt_write_r80 rb s f0 S

theorem back96_x2 (c : Dev nD) (s i : Fin 7) (hsi : (s = 3 ∧ i = 5) ∨ (s = 1 ∧ i = 4)) (S : Vec F S1x96x2048 .bf16)
    (hS : S = if s = 3 then A3_96 m c else A1_96 m c) (f0 : rcvM0.view.ty.Contents (Elt F)) :
    ((rSlot96 rcvM0 s).view.loc (c : Thread nD τ) ↦[(rSlot96 rcvM0 s).view.set]{fullShare}
        View.write (Elt F) (rcvM0.access (rRect96 s)) f0 S Finset.univ : sProp 𝕄) ⊢ sendPay m c 0 i := by
  refine (back96_rr c s S f0).trans (Entails.of_eq ?_)
  rw [sendPay_zero]
  rcases hsi with ⟨rfl, rfl⟩ | ⟨rfl, rfl⟩
  · rw [hS, if_pos rfl]; rfl
  · rw [hS, if_neg (by decide)]; rfl

theorem land96_x3 (c : Dev nD) (S : Vec F S1x96x2048 .bf16) (hS : S = A2_96 m c) (f0 : rcvM0.view.ty.Contents (Elt F))
    (fd : (rSlot96 rcvM0 6).view.ty.Contents (Elt F)) :
    rcvM0.view.readAt (Elt F) (rRect96 6).toLoadRect ((rSlot96 rcvM0 6).view.write (Elt F) fd
        ((rSlot96 rcvM0 2).view.read (Elt F) (View.write (Elt F) (rcvM0.access (rRect96 2)) f0 S Finset.univ)) Finset.univ)
      = landed96 m (peer 2 c) 6 := by
  refine ((land96r rcvM0 rcvM0 6 2 fd _).trans (readAt_write_r96 rcvM0 2 f0 S)).trans ?_
  rw [hS]; show A2_96 m c = A2_96 m (peer 2 (peer 2 c)); rw [peer_peer]
theorem back96_x3 (c : Dev nD) (S : Vec F S1x96x2048 .bf16) (hS : S = A2_96 m c) (f0 : rcvM0.view.ty.Contents (Elt F)) :
    ((rSlot96 rcvM0 2).view.loc (c : Thread nD τ) ↦[(rSlot96 rcvM0 2).view.set]{fullShare}
        View.write (Elt F) (rcvM0.access (rRect96 2)) f0 S Finset.univ : sProp 𝕄) ⊢ sendPay m c 0 6 := by
  refine (back96_rr c 2 S f0).trans (Entails.of_eq ?_)
  rw [sendPay_zero, hS]; rfl

theorem back80_x2 (p : Fin 3) (hp : p ≠ 0) (rb : Memref sig .tc .vmem S7x80x2048 .bf16) (hrb : rb = rcvM80 p)
    (c : Dev nD) (s i : Fin 7) (hsi : (s = 3 ∧ i = 5) ∨ (s = 1 ∧ i = 4)) (S : Vec F S1x80x2048 .bf16)
    (hS : S = if s = 3 then A3_80 m p c else A1_80 m p c) (f0 : rb.view.ty.Contents (Elt F)) :
    ((rSlot80 rb s).view.loc (c : Thread nD τ) ↦[(rSlot80 rb s).view.set]{fullShare}
        View.write (Elt F) (rb.access (rRect80 s)) f0 S Finset.univ : sProp 𝕄) ⊢ sendPay m c p i := by
  subst hrb
  refine (back80_rr (rcvM80 p) c s S f0).trans (Entails.of_eq ?_)
  rw [sendPay_of_ne m c hp]
  rcases hsi with ⟨rfl, rfl⟩ | ⟨rfl, rfl⟩
  · rw [hS, if_pos rfl]; rfl
  · rw [hS, if_neg (by decide)]; rfl
theorem land80_x3 (p : Fin 3) (hp : p ≠ 0) (rb : Memref sig .tc .vmem S7x80x2048 .bf16) (hrb : rb = rcvM80 p)
    (c : Dev nD) (S : Vec F S1x80x2048 .bf16) (hS : S = A2_80 m p c) (f0 : rb.view.ty.Contents (Elt F)) (fd : (rSlot80 rb 6).view.ty.Contents (Elt F)) :
    rb.view.readAt (Elt F) (rRect80 6).toLoadRect ((rSlot80 rb 6).view.write (Elt F) fd
        ((rSlot80 rb 2).view.read (Elt F) (View.write (Elt F) (rb.access (rRect80 2)) f0 S Finset.univ)) Finset.univ)
      = landed80 m p (peer (p + 2) c) 6 := by
  refine ((land80r rb rb 6 2 fd _).trans (readAt_write_r80 rb 2 f0 S)).trans ?_
  rw [hS]; show A2_80 m p c = A2_80 m p (peer (p + 2) (peer (p + 2) c)); rw [peer_peer]
theorem back80_x3 (p : Fin 3) (hp : p ≠ 0) (rb : Memref sig .tc .vmem S7x80x2048 .bf16) (hrb : rb = rcvM80 p)
    (c : Dev nD) (S : Vec F S1x80x2048 .bf16) (hS : S = A2_80 m p c) (f0 : rb.view.ty.Contents (Elt F)) :
    ((rSlot80 rb 2).view.loc (c : Thread nD τ) ↦[(rSlot80 rb 2).view.set]{fullShare}
        View.write (Elt F) (rb.access (rRect80 2)) f0 S Finset.univ : sProp 𝕄) ⊢ sendPay m c p 6 := by
  subst hrb
  refine (back80_rr (rcvM80 p) c 2 S f0).trans (Entails.of_eq ?_)
  rw [sendPay_of_ne m c hp, hS]; rfl

end Cert.KernelIdeal.Proto
-- ==== Proof.PartDefs.lean ====
import proofs.«900895_g7700000000000896_dist_matmul_mk_i_outk_m2048_n2048_k1024_v7x_i8_f32_1_alg».proof.Proof.StepsG
import proofs.«900895_g7700000000000896_dist_matmul_mk_i_outk_m2048_n2048_k1024_v7x_i8_f32_1_alg».proof.Proof.StepsBar
import proofs.«900895_g7700000000000896_dist_matmul_mk_i_outk_m2048_n2048_k1024_v7x_i8_f32_1_alg».proof.Proof.Facts

noncomputable section

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

def b16Holds (c : Dev nD) : sProp 𝕄 :=
  iprop(∃ f, (b16M.view.loc (c : Thread nD τ) ↦[b16M.view.set]{fullShare} f)
    ∗ ⌜b16M.view.readAt (Elt F) wholeB.toLoadRect f = b16V m c⌝)

def v2w (c : Dev nD) : BitVec 32 := Scalar.remsi (Scalar.divsi (Dev.word c) 1#32) 8#32

/-- What has landed in a receive slot, spelt as the slot's contents and the value read from them. -/
theorem recvPay96_open (c : Dev nD) (i : Fin 7) :
    recvPay m c 0 i = iprop(∃ f, ((rSlot96 rcvM0 i).view.loc (c : Thread nD τ) ↦[(rSlot96 rcvM0 i).view.set]{fullShare} f)
      ∗ ⌜rcvM0.view.readAt (Elt F) (rRect96 i).toLoadRect f = landed96 m c i⌝) := by
  unfold recvPay; rw [if_pos rfl]; rfl

theorem recvPay80_open (c : Dev nD) {p : Fin 3} (hp : p ≠ 0) (rb : Memref sig .tc .vmem S7x80x2048 .bf16) (hrb : rb = rcvM80 p) (i : Fin 7) :
    recvPay m c p i = iprop(∃ f, ((rSlot80 rb i).view.loc (c : Thread nD τ) ↦[(rSlot80 rb i).view.set]{fullShare} f)
      ∗ ⌜rb.view.readAt (Elt F) (rRect80 i).toLoadRect f = landed80 m p c i⌝) := by
  subst hrb; unfold recvPay; rw [if_neg hp]; rfl

end Cert.KernelIdeal.Proto

end
-- ==== Proof.Part01.lean ====
import proofs.«900895_g7700000000000896_dist_matmul_mk_i_outk_m2048_n2048_k1024_v7x_i8_f32_1_alg».proof.Proof.PartDefs
import Idealize.ShloMosaic.Lib.Pipeline.Value

noncomputable section

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

local macro "stages" : tactic => `(tactic| simp only [freeStage96_0, freeStage96_1, freeStage96_2, freeStage80_0, freeStage80_1, freeStage80_2, f3_01, f3_02, f3_11, f3_12, f3_21, f3_22])

def slotPays : List Pay :=
  [.slot 0 1, .slot 1 1, .slot 2 1, .slot 0 3, .slot 1 3, .slot 2 3, .slot 0 2, .slot 1 2, .slot 2 2, .slot 0 0, .slot 1 0, .slot 2 0,
   .slot 0 5, .slot 0 4, .slot 1 5, .slot 1 4, .slot 2 5, .slot 2 4,
   .slot 0 6, .slot 1 6, .slot 2 6]
theorem payList_slots : payList = .bar 0 :: .bar 1 :: .bar 2 :: slotPays := rfl

theorem part01_b16 (c : Dev nD) (f16 : Buf (Elt F) (b16M.view.loc (c : Thread nD τ))) :
    (b16M.view.loc (c : Thread nD τ) ↦[b16M.view.set]{fullShare} b16M.view.writes (Elt F) f16
        [⟨wholeB, k0_pay1 (bM.view.readAt (Elt F) wholeB.toLoadRect (Bblk m c))⟩] : sProp 𝕄) ⊢ b16Holds m c := by
  unfold b16Holds
  iintro H
  iexists _
  iframe H
  ipureintro
  rw [View.writes_singleton]
  exact readAt_write_rect b16M.view wholeB f16 (k0_pay1 (bM.view.readAt (Elt F) wholeB.toLoadRect (Bblk m c)))

theorem part01_v26 (c : Dev nD) :
    b16M.view.readCov [(⟨wholeB, k0_pay1 (bM.view.readAt (Elt F) wholeB.toLoadRect (Bblk m c))⟩ : View.Piece (Elt F) S1024x2048 .bf16)]
        wholeB.toLoadRect = b16V m c :=
  View.readCov_unit_zero (Val := Elt F) b16M.view (funext fun a => by fin_cases a <;> rfl) inb_S1024x2048_S1024x2048_0_0
    (k0_pay1 (bM.view.readAt (Elt F) wholeB.toLoadRect (Bblk m c)))

theorem part01_v25 (c : Dev nD) :
    k0_pay2 (aM.view.readAt (Elt F) (Rect.unit (s := S2048x1024) (k0_off1 c 2#32) S96x1024.size (k0_off1_inb c 2)).toLoadRect (Ablk m c))
      = k0_pay2 (aRows96 m c 2) := rfl

theorem part01 (K : CK → ℕ) (c : Dev nD) (W : Waits sig Unit) :
    iprop(records m K ∗ levAts L lv ∗ atPos ER (barCell c) 0 ∅ 0 ∗ cred (tallyAt (barCell c) () 3)
        ∗ dutyTok ER (barCell (peer 0 c)) 0 (0 : Fin 3) ∗ dutyTok ER (barCell (peer 1 c)) 0 (1 : Fin 3) ∗ dutyTok ER (barCell (peer 2 c)) 0 (2 : Fin 3)
        ∗ owes (c : Thread nD τ) (Ofrom c payList) W
        ∗ rFree96 rcvM0 c 0 ∗ rFree96 rcvM0 c 1 ∗ rFree96 rcvM0 c 2 ∗ rFree96 rcvM0 c 3 ∗ rFree96 rcvM0 c 4 ∗ rFree96 rcvM0 c 5 ∗ rFree96 rcvM0 c 6 ∗ rFree80 rcvM1 c 0 ∗ rFree80 rcvM1 c 1 ∗ rFree80 rcvM1 c 2 ∗ rFree80 rcvM1 c 3 ∗ rFree80 rcvM1 c 4 ∗ rFree80 rcvM1 c 5 ∗ rFree80 rcvM1 c 6 ∗ rFree80 rcvM2 c 0 ∗ rFree80 rcvM2 c 1 ∗ rFree80 rcvM2 c 2 ∗ rFree80 rcvM2 c 3 ∗ rFree80 rcvM2 c 4 ∗ rFree80 rcvM2 c 5 ∗ rFree80 rcvM2 c 6
        ∗ freeBuf b16M c
        ∗ (aM.view.loc (c : Thread nD τ) ↦[aM.view.set]{fullShare} Ablk m c)
        ∗ (bM.view.loc (c : Thread nD τ) ↦[bM.view.set]{fullShare} Bblk m c))
      ⊢ wp frame (wpE (defs₀ (F := F)) 𝒱₀ c none) Set.univ
          (atBufs k0_part1)
          (fun r => iprop(owes (c : Thread nD τ) (Ofrom c slotPays) (insert (SemLoc.reg barS, ()) W)
            ∗ rFree96 rcvM0 (peer 0 c) 0 ∗ rFree96 rcvM0 (peer 0 c) 1 ∗ rFree96 rcvM0 (peer 0 c) 2 ∗ rFree96 rcvM0 (peer 0 c) 3 ∗ rFree80 rcvM1 (peer 0 c) 6 ∗ rFree80 rcvM2 (peer 0 c) 4 ∗ rFree80 rcvM2 (peer 0 c) 5 ∗ rFree96 rcvM0 (peer 1 c) 4 ∗ rFree96 rcvM0 (peer 1 c) 5 ∗ rFree80 rcvM1 (peer 1 c) 0 ∗ rFree80 rcvM1 (peer 1 c) 1 ∗ rFree80 rcvM1 (peer 1 c) 2 ∗ rFree80 rcvM1 (peer 1 c) 3 ∗ rFree80 rcvM2 (peer 1 c) 6 ∗ rFree96 rcvM0 (peer 2 c) 6 ∗ rFree80 rcvM1 (peer 2 c) 4 ∗ rFree80 rcvM1 (peer 2 c) 5 ∗ rFree80 rcvM2 (peer 2 c) 0 ∗ rFree80 rcvM2 (peer 2 c) 1 ∗ rFree80 rcvM2 (peer 2 c) 2 ∗ rFree80 rcvM2 (peer 2 c) 3
            ∗ b16Holds m c
            ∗ (aM.view.loc (c : Thread nD τ) ↦[aM.view.set]{fullShare} Ablk m c)
            ∗ (bM.view.loc (c : Thread nD τ) ↦[bM.view.set]{fullShare} Bblk m c)
            ∗ (∃ (v2' : BitVec 32) (v25' : FVec F S96x1024 .bf16) (v26' : Vec F S1024x2048 .bf16) (cst' : FVec F S96x2048 .f32), ⌜r = ⟨c, v2', v25', v26', cst'⟩ ∧ v25' = k0_pay2 (aRows96 m c 2) ∧ v26' = b16V m c ∧ cst' = constant S96x2048 .f32 0x00000000#32⌝))) := by
  unfold freeBuf
  iintro ⟨#HR, #Hlev, HatB, HcB, HtB0, HtB1, HtB2, HO, Hr00, Hr01, Hr02, Hr03, Hr04, Hr05, Hr06, Hr10, Hr11, Hr12, Hr13, Hr14, Hr15, Hr16, Hr20, Hr21, Hr22, Hr23, Hr24, Hr25, Hr26, ⟨%f16, H16⟩, HA, HB⟩
  rw [k0_part1_eq_skeleton]; unfold atBufs k0_part1_skel
  sl_exec
  sl_rw [dev1_eq c]
  rw [payList_slots, peel_bar]
  iapply (wp_sigBar m K c (peer 0 c) 0 rfl _ W rfl) $$ HR HO HtB0 [Hr00 Hr01 Hr02 Hr03 Hr16 Hr24 Hr25]
  · stages; iframe
  iintro HO
  sl_exec
  sl_rw [dev2_eq c]
  rw [peel_bar]
  iapply (wp_sigBar m K c (peer 1 c) 1 rfl _ W rfl) $$ HR HO HtB1 [Hr04 Hr05 Hr10 Hr11 Hr12 Hr13 Hr26]
  · stages; iframe
  iintro HO
  sl_exec
  sl_rw [dev3_eq c]
  rw [peel_bar]
  iapply (wp_sigBar m K c (peer 2 c) 2 rfl _ W rfl) $$ HR HO HtB2 [Hr06 Hr14 Hr15 Hr20 Hr21 Hr22 Hr23]
  · stages; iframe
  iintro HO
  sl_exec
  iapply (wp_waitBar m K c _ W rfl (mayWait_rest c (.reg barS) _ (by rw [lv_bar_own]; decide)) (wpE_semWait_eq 𝒱₀ (c : Thread nD τ) none Set.univ)) $$ HR Hlev HcB HO HatB
  iintro ⟨HO, ⟨Hq00, Hq01, Hq02, Hq03, Hq16, Hq24, Hq25⟩, ⟨Hq04, Hq05, Hq10, Hq11, Hq12, Hq13, Hq26⟩, Hq06, Hq14, Hq15, Hq20, Hq21, Hq22, Hq23⟩
  sl_exec
  rw [wp_ret]; imodintro
  ihave Hb := (part01_b16 m c f16) $$ H16
  iframe
  iexists (part01.sl.v2 c), _, (part01.sl.v26 m c), (part01.sl.cst)
  ipureintro
  exact ⟨rfl, part01_v25 m c, part01_v26 m c, rfl⟩

end Cert.KernelIdeal.Proto

end
-- ==== Proof.Part02.lean ====
import proofs.«900895_g7700000000000896_dist_matmul_mk_i_outk_m2048_n2048_k1024_v7x_i8_f32_1_alg».proof.Proof.PartDefs

namespace Cert.KernelIdeal.Proto
open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part02 (K : CK → ℕ) (c : Dev nD) (W : Waits sig Unit) (l : List Pay) (v2 : BitVec 32) (v25 : FVec F S96x1024 .bf16)
    (v26 : Vec F S1024x2048 .bf16) (cst : FVec F S96x2048 .f32) (hv25 : v25 = k0_pay2 (aRows96 m c 2)) (hv26 : v26 = b16V m c)
    (hcst : cst = constant S96x2048 .f32 0x00000000#32) :
    iprop(records m K ∗ sFree96 sndM0 c 1 ∗ rFree96 rcvM0 (peer 0 c) 1 ∗ owes (c : Thread nD τ) (Ofrom c (Pay.slot 0 1 :: l)) W
        ∗ dutyTok ER (sendCell c 0 1) 0 (0 : Fin 3) ∗ dutyTok ER (recvCell (peer 0 c) 0 1) 0 (0 : Fin 3)
        ∗ (aM.view.loc (c : Thread nD τ) ↦[aM.view.set]{fullShare} Ablk m c) ∗ b16Holds m c ∗ sFree80 sndM1 c 1)
      ⊢ wp frame (wpE (defs₀ (F := F)) 𝒱₀ c none) Set.univ
          (atBufs k0_part2 c v2 v25 v26 cst)
          (fun r => iprop(cred (tallyAt (sendCell c 0 1) () (Np 0)) ∗ owes (c : Thread nD τ) (Ofrom c l) W
            ∗ (aM.view.loc (c : Thread nD τ) ↦[aM.view.set]{fullShare} Ablk m c) ∗ b16Holds m c ∗ sendPay m c 1 1)) := by
  unfold sFree96 sFree80 b16Holds
  iintro ⟨#HR, ⟨%fs, Hs⟩, Hq, HO, HtS, HtR, HA, ⟨%f16, H16, %h16⟩, ⟨%fs1, Hs1⟩⟩
  rw [k0_part2_eq_skeleton]; unfold atBufs k0_part2_skel
  sl_exec

  have hS : k0_pay3 v25 v26 cst = sv96 (pv96 m c (qS 0 1)) := by subst hv25 hv26 hcst; rfl
  rw [peel_slot c 0 1 0 rfl]
  iapply (wp_send96' m K c (peer 0 c) 1 rfl (dev4_eq c) rfl rfl (sSlot96 sndM0 1) rfl rfl _ (land96_x1 m c 1 1 rfl _ hS fs) (back96_x1 m c 1 1 rfl _ hS fs) _ W) $$ HR [Hs] Hq HO HtS HtR
  · iexact Hs
  iintro ⟨HcS, HO⟩
  sl_exec

  ihave Hsp1 := (back80_x1 m 1 (by decide) sndM1 rfl c 1 1 rfl _ rfl fs1) $$ [Hs1]
  · iexact Hs1
  rw [wp_ret]; imodintro
  iframe
  iexists f16; iframe H16 %h16

end Cert.KernelIdeal.Proto
-- ==== Proof.StepsH.lean ====
import proofs.«900895_g7700000000000896_dist_matmul_mk_i_outk_m2048_n2048_k1024_v7x_i8_f32_1_alg».proof.Proof.StepsG
import proofs.«900895_g7700000000000896_dist_matmul_mk_i_outk_m2048_n2048_k1024_v7x_i8_f32_1_alg».proof.Proof.Facts

namespace Cert.KernelIdeal.Proto

open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The first exchange of an 80-row part: the source is send slot j = i, holding the product the neighbour's slot i is to hold. -/
theorem wp_sendH80x1' (c : Dev nD) (p : Fin 3) (hp : p ≠ 0) (j : Fin 4) (i : Fin 7) (hi : i.val = j.val) {n₀ : Dev nD} (hn₀ : n₀ = peer p c)
    (sb : Memref sig .tc .vmem S4x80x2048 .bf16) (hsb : sb = sndM80 p) (rb : Memref sig .tc .vmem S7x80x2048 .bf16) (hrb : rb = rcvM80 p)
    {ss rs : DmaSem sig} (hss : ss = sSem p i) (hrs : rs = rSem p i)
    {src₀ : Memref sig .tc .vmem S80x2048 .bf16} (hs : src₀ = sSlot80 sb j)
    {dst : Memref sig (Dev.tc n₀ : Thread nD τ).2.kind .vmem S80x2048 .bf16} (hd : dst = rSlot80 rb i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c p i -∗ rFree80 rb (peer p c) i
      -∗ owes (c : Thread nD τ) (O + tallyAt (recvCell (peer p c) p i) () (Np p)) W
      -∗ dutyTok ER (sendCell c p i) 0 (0 : Fin 3) -∗ dutyTok ER (recvCell (peer p c) p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hsb
  have hm : slotMask p i = p := by
    unfold slotMask; rw [if_pos (by have := j.isLt; omega)]
  have hpay : sendPay m c p i = sHolds80 (sndM80 p) c j (k0_pay9 (pv80 m c (qS p j) (r2 p))) := by
    rw [sendPay_of_ne m c hp, sendPay80_lt4 m p c j i hi]
  rw [hpay]
  unfold sHolds80
  iintro #HR ⟨%fs, Hsrc, %h⟩
  iapply (wp_send80' m K c (peer p c) p hp i (by rw [hm]) hn₀ rb hrb hss hrs (sSlot80 (sndM80 p) j) hs hd fs
    (fun fd => (land80 rb (sndM80 p) i j fd fs).trans (h.trans (by rw [landed80_lt4 m p (peer p c) j i hi, L80, peer_peer])))
    (by
      rw [hpay]; unfold sHolds80
      iintro H; iexists fs; iframe
      ipureintro; exact h) O W) $$ HR Hsrc

end Cert.KernelIdeal.Proto
-- ==== Proof.Part03.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.StepsH

namespace Cert.KernelIdeal.Proto
open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part03 (K : CK → ℕ) (c : Dev nD) (W : Waits sig Unit) (l : List Pay) (v2 v56 : BitVec 32) :
    iprop(records m K ∗ sendPay m c 1 1 ∗ rFree80 rcvM1 (peer 1 c) 1 ∗ owes (c : Thread nD τ) (Ofrom c (Pay.slot 1 1 :: l)) W
        ∗ dutyTok ER (sendCell c 1 1) 0 (0 : Fin 3) ∗ dutyTok ER (recvCell (peer 1 c) 1 1) 0 (0 : Fin 3)
        ∗ (aM.view.loc (c : Thread nD τ) ↦[aM.view.set]{fullShare} Ablk m c) ∗ b16Holds m c ∗ sFree80 sndM2 c 1)
      ⊢ wp frame (wpE (defs₀ (F := F)) 𝒱₀ c none) Set.univ
          (atBufs k0_part3 c v2 v56)
          (fun r => iprop(cred (tallyAt (sendCell c 1 1) () (Np 1)) ∗ owes (c : Thread nD τ) (Ofrom c l) W
            ∗ (aM.view.loc (c : Thread nD τ) ↦[aM.view.set]{fullShare} Ablk m c) ∗ b16Holds m c ∗ sendPay m c 2 1)) := by
  unfold sFree80 b16Holds
  iintro ⟨#HR, Hsp, Hq, HO, HtS, HtR, HA, ⟨%f16, H16, %h16⟩, ⟨%fs2, Hs2⟩⟩
  rw [k0_part3_eq_skeleton]; unfold atBufs k0_part3_skel
  sl_exec
  rw [peel_slot c 1 1 1 rfl]
  iapply (wp_sendH80x1' m K c 1 (by decide) 1 1 rfl (dev5_eq c) sndM1 rfl rcvM1 rfl rfl rfl rfl rfl _ W) $$ HR Hsp Hq HO HtS HtR
  iintro ⟨HcS, HO⟩
  sl_exec

  ihave Hsp2 := (back80_x1 m 2 (by decide) sndM2 rfl c 1 1 rfl _ rfl fs2) $$ [Hs2]
  · iexact Hs2
  rw [wp_ret]; imodintro
  iframe
  iexists f16; iframe H16 %h16

end Cert.KernelIdeal.Proto
-- ==== Proof.Part04.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.StepsH

namespace Cert.KernelIdeal.Proto
open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part04 (K : CK → ℕ) (c : Dev nD) (W : Waits sig Unit) (l : List Pay) (v2 : BitVec 32) :
    iprop(records m K ∗ sendPay m c 2 1 ∗ rFree80 rcvM2 (peer 2 c) 1 ∗ owes (c : Thread nD τ) (Ofrom c (Pay.slot 2 1 :: Pay.slot 0 3 :: l)) W
        ∗ dutyTok ER (sendCell c 2 1) 0 (0 : Fin 3) ∗ dutyTok ER (recvCell (peer 2 c) 2 1) 0 (0 : Fin 3)
        ∗ dutyTok ER (sendCell c 0 3) 0 (0 : Fin 3) ∗ dutyTok ER (recvCell (peer 0 c) 0 3) 0 (0 : Fin 3)
        ∗ (aM.view.loc (c : Thread nD τ) ↦[aM.view.set]{fullShare} Ablk m c) ∗ b16Holds m c ∗ sFree96 sndM0 c 3 ∗ rFree96 rcvM0 (peer 0 c) 3)
      ⊢ wp frame (wpE (defs₀ (F := F)) 𝒱₀ c none) Set.univ
          (atBufs k0_part4 c v2)
          (fun r => iprop(cred (tallyAt (sendCell c 2 1) () (Np 2)) ∗ cred (tallyAt (sendCell c 0 3) () (Np 0))
            ∗ owes (c : Thread nD τ) (Ofrom c l) W
            ∗ (aM.view.loc (c : Thread nD τ) ↦[aM.view.set]{fullShare} Ablk m c) ∗ b16Holds m c)) := by
  unfold sFree96 b16Holds
  iintro ⟨#HR, Hsp, Hq, HO, HtS, HtR, HtS3, HtR3, HA, ⟨%f16, H16, %h16⟩, ⟨%fs3, Hs3⟩, Hq3⟩
  rw [k0_part4_eq_skeleton]; unfold atBufs k0_part4_skel
  sl_exec
  rw [peel_slot c 2 1 2 rfl]
  iapply (wp_sendH80x1' m K c 2 (by decide) 1 1 rfl (dev6_eq c) sndM2 rfl rcvM2 rfl rfl rfl rfl rfl _ W) $$ HR Hsp Hq HO HtS HtR
  iintro ⟨HcS, HO⟩
  sl_exec

  rw [peel_slot c 0 3 0 rfl]
  iapply (wp_send96' m K c (peer 0 c) 3 rfl (dev7_eq c) rfl rfl (sSlot96 sndM0 3) rfl rfl _ (land96_x1 m c 3 3 rfl _ rfl fs3)
      (back96_x1 m c 3 3 rfl _ rfl fs3) _ W) $$ HR [Hs3] Hq3 HO HtS3 HtR3
  · iexact Hs3
  iintro ⟨HcS3, HO⟩
  sl_exec
  rw [wp_ret]; imodintro
  iframe
  iexists f16; iframe H16 %h16

end Cert.KernelIdeal.Proto
-- ==== Proof.Part05.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part05 (K : CK → ℕ) (c : Dev nD) (W : Waits sig Unit) (l : List Pay) (v2 : BitVec 32) :
    iprop(records m K ∗ sFree80 sndM1 c 3 ∗ rFree80 rcvM1 (peer 1 c) 3 ∗ owes (c : Thread nD τ) (Ofrom c (Pay.slot 1 3 :: l)) W
        ∗ dutyTok ER (sendCell c 1 3) 0 (0 : Fin 3) ∗ dutyTok ER (recvCell (peer 1 c) 1 3) 0 (0 : Fin 3)
        ∗ (aM.view.loc (c : Thread nD τ) ↦[aM.view.set]{fullShare} Ablk m c) ∗ b16Holds m c)
      ⊢ wp frame (wpE (defs₀ (F := F)) 𝒱₀ c none) Set.univ
          (atBufs k0_part5 c v2)
          (fun r => iprop(cred (tallyAt (sendCell c 1 3) () (Np 1)) ∗ owes (c : Thread nD τ) (Ofrom c l) W
            ∗ (aM.view.loc (c : Thread nD τ) ↦[aM.view.set]{fullShare} Ablk m c) ∗ b16Holds m c
            ∗ ⌜r.2 = pv80 m c 6 1⌝)) := by
  unfold sFree80 b16Holds
  iintro ⟨#HR, ⟨%fs, Hs⟩, Hq, HO, HtS, HtR, HA, ⟨%f16, H16, %h16⟩⟩
  rw [k0_part5_eq_skeleton]; unfold atBufs k0_part5_skel
  sl_exec
  rw [peel_slot c 1 3 1 rfl]
  iapply (wp_send80' m K c (peer 1 c) 1 (by decide) 3 rfl (dev8_eq c) rcvM1 rfl rfl rfl (sSlot80 sndM1 3) rfl rfl _
      (land80_x1 m 1 (by decide) sndM1 rfl rcvM1 rfl c 3 3 rfl _ rfl fs) (back80_x1 m 1 (by decide) sndM1 rfl c 3 3 rfl _ rfl fs) _ W) $$ HR [Hs] Hq HO HtS HtR
  · iexact Hs
  iintro ⟨HcS, HO⟩
  sl_exec
  rw [wp_ret]; imodintro
  iframe
  isplitl [H16]; · iexists f16; iframe H16 %h16
  ipureintro; rfl

end Cert.KernelIdeal.Proto
-- ==== Proof.Part06.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part06 (K : CK → ℕ) (c : Dev nD) (W : Waits sig Unit) (l : List Pay) (v2 : BitVec 32) (v148 : FVec F S80x2048 .bf16)
    (hv148 : v148 = pv80 m c 6 1) :
    iprop(records m K ∗ sFree80 sndM2 c 3 ∗ rFree80 rcvM2 (peer 2 c) 3 ∗ owes (c : Thread nD τ) (Ofrom c (Pay.slot 2 3 :: l)) W
        ∗ dutyTok ER (sendCell c 2 3) 0 (0 : Fin 3) ∗ dutyTok ER (recvCell (peer 2 c) 2 3) 0 (0 : Fin 3)
        ∗ (aM.view.loc (c : Thread nD τ) ↦[aM.view.set]{fullShare} Ablk m c) ∗ b16Holds m c ∗ sFree96 sndM0 c 2)
      ⊢ wp frame (wpE (defs₀ (F := F)) 𝒱₀ c none) Set.univ
          (atBufs k0_part6 c v2 v148)
          (fun r => iprop(cred (tallyAt (sendCell c 2 3) () (Np 2)) ∗ owes (c : Thread nD τ) (Ofrom c l) W
            ∗ (aM.view.loc (c : Thread nD τ) ↦[aM.view.set]{fullShare} Ablk m c) ∗ b16Holds m c ∗ sendPay m c 0 2)) := by
  unfold sFree80 sFree96 b16Holds
  iintro ⟨#HR, ⟨%fs, Hs⟩, Hq, HO, HtS, HtR, HA, ⟨%f16, H16, %h16⟩, ⟨%fs0, Hs0⟩⟩
  rw [k0_part6_eq_skeleton]; unfold atBufs k0_part6_skel
  sl_exec
  have hS : k0_pay9 v148 = k0_pay9 (pv80 m c (qS 2 3) (r2 2)) := by subst hv148; rfl
  rw [peel_slot c 2 3 2 rfl]
  iapply (wp_send80' m K c (peer 2 c) 2 (by decide) 3 rfl (dev9_eq c) rcvM2 rfl rfl rfl (sSlot80 sndM2 3) rfl rfl _
      (land80_x1 m 2 (by decide) sndM2 rfl rcvM2 rfl c 3 3 rfl _ hS fs) (back80_x1 m 2 (by decide) sndM2 rfl c 3 3 rfl _ hS fs) _ W) $$ HR [Hs] Hq HO HtS HtR
  · iexact Hs
  iintro ⟨HcS, HO⟩
  sl_exec
  ihave Hsp0 := (back96_x1 m c 2 2 rfl _ rfl fs0) $$ [Hs0]
  · iexact Hs0
  rw [wp_ret]; imodintro
  iframe
  iexists f16; iframe H16 %h16

end Cert.KernelIdeal.Proto
-- ==== Proof.Part07.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part07 (K : CK → ℕ) (c : Dev nD) (W : Waits sig Unit) (l : List Pay) (v2 v177 c0 : BitVec 32) :
    iprop(records m K ∗ sendPay m c 0 2 ∗ rFree96 rcvM0 (peer 0 c) 2 ∗ owes (c : Thread nD τ) (Ofrom c (Pay.slot 0 2 :: l)) W
        ∗ dutyTok ER (sendCell c 0 2) 0 (0 : Fin 3) ∗ dutyTok ER (recvCell (peer 0 c) 0 2) 0 (0 : Fin 3)
        ∗ (aM.view.loc (c : Thread nD τ) ↦[aM.view.set]{fullShare} Ablk m c) ∗ b16Holds m c ∗ sFree80 sndM1 c 2)
      ⊢ wp frame (wpE (defs₀ (F := F)) 𝒱₀ c none) Set.univ
          (atBufs k0_part7 c v2 v177 c0)
          (fun r => iprop(cred (tallyAt (sendCell c 0 2) () (Np 0)) ∗ owes (c : Thread nD τ) (Ofrom c l) W
            ∗ (aM.view.loc (c : Thread nD τ) ↦[aM.view.set]{fullShare} Ablk m c) ∗ b16Holds m c ∗ sendPay m c 1 2)) := by
  rw [sendPay_zero, sendPay96_lt4 m c 2 2 rfl]
  unfold sHolds96 sFree80 b16Holds
  iintro ⟨#HR, ⟨%fs, Hs, %hfs⟩, Hq, HO, HtS, HtR, HA, ⟨%f16, H16, %h16⟩, ⟨%fs1, Hs1⟩⟩
  rw [k0_part7_eq_skeleton]; unfold atBufs k0_part7_skel
  sl_exec

  have hland : ∀ fd, rcvM0.view.readAt (Elt F) (rRect96 2).toLoadRect ((rSlot96 rcvM0 2).view.write (Elt F) fd
      ((sSlot96 sndM0 2).view.read (Elt F) fs) Finset.univ) = landed96 m (peer 0 c) 2 := fun fd =>
    (land96 rcvM0 sndM0 2 2 fd fs).trans (hfs.trans (by rw [landed96_lt4 m (peer 0 c) 2 2 rfl, L96, peer_peer]))
  have hback : ((sSlot96 sndM0 2).view.loc (c : Thread nD τ) ↦[(sSlot96 sndM0 2).view.set]{fullShare} fs : sProp 𝕄) ⊢ sendPay m c 0 2 := by
    rw [sendPay_zero, sendPay96_lt4 m c 2 2 rfl]; unfold sHolds96
    iintro H; iexists fs
    isplitl [H]; · iexact H
    ipureintro; exact hfs
  rw [peel_slot c 0 2 0 rfl]
  iapply (wp_send96' m K c (peer 0 c) 2 rfl (dev10_eq c) rfl rfl (sSlot96 sndM0 2) rfl rfl fs hland hback _ W) $$ HR Hs Hq HO HtS HtR
  iintro ⟨HcS, HO⟩
  sl_exec

  ihave Hsp1 := (back80_x1 m 1 (by decide) sndM1 rfl c 2 2 rfl _ rfl fs1) $$ [Hs1]
  · iexact Hs1
  rw [wp_ret]; imodintro
  iframe
  iexists f16; iframe H16 %h16

end Cert.KernelIdeal.Proto
-- ==== Proof.Part08.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part08_src (c : Dev nD) : sendPay m c 1 2
    = iprop(∃ f, ((sSlot80 sndM1 2).view.loc (c : Thread nD τ) ↦[(sSlot80 sndM1 2).view.set]{fullShare} f)
        ∗ ⌜sndM1.view.readAt (Elt F) (sRect80 2).toLoadRect f = k0_pay9 (pv80 m c (qS 1 2) (r2 1))⌝) := by
  rw [sendPay_of_ne m c (by decide), sendPay80_lt4 m 1 c 2 2 rfl]; rfl

theorem part08 (K : CK → ℕ) (c : Dev nD) (W : Waits sig Unit) (l : List Pay) (v2 : BitVec 32) :
    iprop(records m K ∗ sendPay m c 1 2 ∗ rFree80 rcvM1 (peer 1 c) 2 ∗ owes (c : Thread nD τ) (Ofrom c (Pay.slot 1 2 :: Pay.slot 2 2 :: l)) W
        ∗ dutyTok ER (sendCell c 1 2) 0 (0 : Fin 3) ∗ dutyTok ER (recvCell (peer 1 c) 1 2) 0 (0 : Fin 3)
        ∗ (aM.view.loc (c : Thread nD τ) ↦[aM.view.set]{fullShare} Ablk m c) ∗ b16Holds m c ∗ sFree80 sndM2 c 2 ∗ rFree80 rcvM2 (peer 2 c) 2
        ∗ dutyTok ER (sendCell c 2 2) 0 (0 : Fin 3) ∗ dutyTok ER (recvCell (peer 2 c) 2 2) 0 (0 : Fin 3))
      ⊢ wp frame (wpE (defs₀ (F := F)) 𝒱₀ c none) Set.univ
          (atBufs k0_part8 c v2)
          (fun r => iprop(cred (tallyAt (sendCell c 1 2) () (Np 1)) ∗ cred (tallyAt (sendCell c 2 2) () (Np 2))
            ∗ owes (c : Thread nD τ) (Ofrom c l) W
            ∗ (aM.view.loc (c : Thread nD τ) ↦[aM.view.set]{fullShare} Ablk m c) ∗ b16Holds m c
            ∗ ⌜r.2 = k0_pay13 (aRows96 m c 1)⌝)) := by
  rw [part08_src]
  unfold sFree80 b16Holds
  iintro ⟨#HR, ⟨%fs, Hs, %hfs⟩, Hq, HO, HtS, HtR, HA, ⟨%f16, H16, %h16⟩, ⟨%fs2, Hs2⟩, Hq2, HtS2, HtR2⟩
  rw [k0_part8_eq_skeleton]; unfold atBufs k0_part8_skel
  sl_exec

  have hland : ∀ fd, rcvM1.view.readAt (Elt F) (rRect80 2).toLoadRect ((rSlot80 rcvM1 2).view.write (Elt F) fd
      ((sSlot80 sndM1 2).view.read (Elt F) fs) Finset.univ) = landed80 m 1 (peer 1 c) 2 := fun fd =>
    (land80 rcvM1 sndM1 2 2 fd fs).trans (hfs.trans (by rw [landed80_lt4 m 1 (peer 1 c) 2 2 rfl, L80, peer_peer]))
  have hback : ((sSlot80 sndM1 2).view.loc (c : Thread nD τ) ↦[(sSlot80 sndM1 2).view.set]{fullShare} fs : sProp 𝕄) ⊢ sendPay m c 1 2 := by
    rw [part08_src]
    iintro H; iexists fs
    isplitl [H]; · iexact H
    ipureintro; exact hfs
  rw [peel_slot c 1 2 1 rfl]
  iapply (wp_send80' m K c (peer 1 c) 1 (by decide) 2 rfl (dev11_eq c) rcvM1 rfl rfl rfl (sSlot80 sndM1 2) rfl rfl fs hland hback _ W) $$ HR Hs Hq HO HtS HtR
  iintro ⟨HcS, HO⟩
  sl_exec

  rw [peel_slot c 2 2 2 rfl]
  iapply (wp_send80' m K c (peer 2 c) 2 (by decide) 2 rfl (dev12_eq c) rcvM2 rfl rfl rfl (sSlot80 sndM2 2) rfl rfl _
    (land80_x1 m 2 (by decide) sndM2 rfl rcvM2 rfl c 2 2 rfl _ rfl fs2) (back80_x1 m 2 (by decide) sndM2 rfl c 2 2 rfl _ rfl fs2) _ W) $$ HR [Hs2] Hq2 HO HtS2 HtR2
  · iexact Hs2
  iintro ⟨HcS2, HO⟩
  sl_exec
  rw [wp_ret]; imodintro
  iframe
  isplitl [H16]; · iexists f16; iframe H16 %h16
  ipureintro; rfl

end Cert.KernelIdeal.Proto
-- ==== Proof.Part09.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part09 (K : CK → ℕ) (c : Dev nD) (W : Waits sig Unit) (l : List Pay) (v2 : BitVec 32) (v241 : FVec F S96x1024 .bf16)
    (hv241 : v241 = k0_pay13 (aRows96 m c 1)) :
    iprop(records m K ∗ sFree96 sndM0 c 0 ∗ rFree96 rcvM0 (peer 0 c) 0 ∗ owes (c : Thread nD τ) (Ofrom c (Pay.slot 0 0 :: l)) W
        ∗ dutyTok ER (sendCell c 0 0) 0 (0 : Fin 3) ∗ dutyTok ER (recvCell (peer 0 c) 0 0) 0 (0 : Fin 3)
        ∗ (aM.view.loc (c : Thread nD τ) ↦[aM.view.set]{fullShare} Ablk m c) ∗ b16Holds m c ∗ sFree80 sndM1 c 0)
      ⊢ wp frame (wpE (defs₀ (F := F)) 𝒱₀ c none) Set.univ
          (atBufs k0_part9 c v2 v241)
          (fun r => iprop(cred (tallyAt (sendCell c 0 0) () (Np 0)) ∗ owes (c : Thread nD τ) (Ofrom c l) W
            ∗ (aM.view.loc (c : Thread nD τ) ↦[aM.view.set]{fullShare} Ablk m c) ∗ b16Holds m c ∗ sendPay m c 1 0)) := by
  unfold sFree96 sFree80 b16Holds
  iintro ⟨#HR, ⟨%fs, Hs⟩, Hq, HO, HtS, HtR, HA, ⟨%f16, H16, %h16⟩, ⟨%fs1, Hs1⟩⟩
  rw [k0_part9_eq_skeleton]; unfold atBufs k0_part9_skel
  sl_exec

  have hS : k0_pay14 v241 (b16V m c) = sv96 (pv96 m c (qS 0 0)) := by subst hv241; rfl
  rw [peel_slot c 0 0 0 rfl]
  iapply (wp_send96' m K c (peer 0 c) 0 rfl (dev13_eq c) rfl rfl (sSlot96 sndM0 0) rfl rfl _ (land96_x1 m c 0 0 rfl _ hS fs) (back96_x1 m c 0 0 rfl _ hS fs) _ W) $$ HR [Hs] Hq HO HtS HtR
  · iexact Hs
  iintro ⟨HcS, HO⟩
  sl_exec

  ihave Hsp1 := (back80_x1 m 1 (by decide) sndM1 rfl c 0 0 rfl _ rfl fs1) $$ [Hs1]
  · iexact Hs1
  rw [wp_ret]; imodintro
  iframe
  iexists f16; iframe H16 %h16

end Cert.KernelIdeal.Proto
-- ==== Proof.Part10.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part10_src (c : Dev nD) : sendPay m c 1 0
    = iprop(∃ f, ((sSlot80 sndM1 0).view.loc (c : Thread nD τ) ↦[(sSlot80 sndM1 0).view.set]{fullShare} f)
        ∗ ⌜sndM1.view.readAt (Elt F) (sRect80 0).toLoadRect f = k0_pay9 (pv80 m c (qS 1 0) (r2 1))⌝) := by
  rw [sendPay_of_ne m c (by decide), sendPay80_lt4 m 1 c 0 0 rfl]; rfl

theorem part10 (K : CK → ℕ) (c : Dev nD) (W : Waits sig Unit) (l : List Pay) (v2 c3 : BitVec 32) :
    iprop(records m K ∗ sendPay m c 1 0 ∗ rFree80 rcvM1 (peer 1 c) 0 ∗ owes (c : Thread nD τ) (Ofrom c (Pay.slot 1 0 :: l)) W
        ∗ dutyTok ER (sendCell c 1 0) 0 (0 : Fin 3) ∗ dutyTok ER (recvCell (peer 1 c) 1 0) 0 (0 : Fin 3)
        ∗ (aM.view.loc (c : Thread nD τ) ↦[aM.view.set]{fullShare} Ablk m c) ∗ b16Holds m c ∗ sFree80 sndM2 c 0)
      ⊢ wp frame (wpE (defs₀ (F := F)) 𝒱₀ c none) Set.univ
          (atBufs k0_part10 c v2 c3)
          (fun r => iprop(cred (tallyAt (sendCell c 1 0) () (Np 1)) ∗ owes (c : Thread nD τ) (Ofrom c l) W
            ∗ (aM.view.loc (c : Thread nD τ) ↦[aM.view.set]{fullShare} Ablk m c) ∗ b16Holds m c ∗ sendPay m c 2 0)) := by
  rw [part10_src]
  unfold sFree80 b16Holds
  iintro ⟨#HR, ⟨%fs, Hs, %hfs⟩, Hq, HO, HtS, HtR, HA, ⟨%f16, H16, %h16⟩, ⟨%fs2, Hs2⟩⟩
  rw [k0_part10_eq_skeleton]; unfold atBufs k0_part10_skel
  sl_exec

  have hland : ∀ fd, rcvM1.view.readAt (Elt F) (rRect80 0).toLoadRect ((rSlot80 rcvM1 0).view.write (Elt F) fd
      ((sSlot80 sndM1 0).view.read (Elt F) fs) Finset.univ) = landed80 m 1 (peer 1 c) 0 := fun fd =>
    (land80 rcvM1 sndM1 0 0 fd fs).trans (hfs.trans (by rw [landed80_lt4 m 1 (peer 1 c) 0 0 rfl, L80, peer_peer]))
  have hback : ((sSlot80 sndM1 0).view.loc (c : Thread nD τ) ↦[(sSlot80 sndM1 0).view.set]{fullShare} fs : sProp 𝕄) ⊢ sendPay m c 1 0 := by
    rw [part10_src]
    iintro H; iexists fs
    isplitl [H]; · iexact H
    ipureintro; exact hfs
  rw [peel_slot c 1 0 1 rfl]
  iapply (wp_send80' m K c (peer 1 c) 1 (by decide) 0 rfl (dev14_eq c) rcvM1 rfl rfl rfl (sSlot80 sndM1 0) rfl rfl fs hland hback _ W) $$ HR Hs Hq HO HtS HtR
  iintro ⟨HcS, HO⟩
  sl_exec

  ihave Hsp2 := (back80_x1 m 2 (by decide) sndM2 rfl c 0 0 rfl _ rfl fs2) $$ [Hs2]
  · iexact Hs2
  rw [wp_ret]; imodintro
  iframe
  iexists f16; iframe H16 %h16

end Cert.KernelIdeal.Proto
-- ==== Proof.Part11.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.StepsH

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part11 (K : CK → ℕ) (c : Dev nD) (W : Waits sig Unit) (l : List Pay) (hl : ∀ t ∈ l, 2 < payLv t) (v2 v32 : BitVec 32) :
    iprop(records m K ∗ levAts L lv
        ∗ owes (c : Thread nD τ) (Ofrom c (Pay.slot 2 0 :: l)) W
        ∗ sendPay m c 2 0 ∗ rFree80 rcvM2 (peer 2 c) 0
        ∗ dutyTok ER (sendCell c 2 0) 0 (0 : Fin 3) ∗ dutyTok ER (recvCell (peer 2 c) 2 0) 0 (0 : Fin 3)
        ∗ (aM.view.loc (c : Thread nD τ) ↦[aM.view.set]{fullShare} Ablk m c)
        ∗ b16Holds m c
        ∗ cred (tallyAt (recvCell c 0 1) () (Np 0)) ∗ atPos ER (recvCell c 0 1) 0 ∅ 0)
      ⊢ wp frame (wpE (defs₀ (F := F)) 𝒱₀ c none) Set.univ
          (atBufs k0_part11 c v2 v32)
          (fun r => iprop((∃ W', owes (c : Thread nD τ) (Ofrom c l) W')
            ∗ cred (tallyAt (sendCell c 2 0) () (Np 2))
            ∗ (aM.view.loc (c : Thread nD τ) ↦[aM.view.set]{fullShare} Ablk m c)
            ∗ b16Holds m c
            ∗ semVal (recvCell c 0 1) 0 ∗ sendPay m c 0 4
            ∗ ⌜r = Scalar.xori v2 4#32⌝)) := by
  unfold b16Holds
  iintro ⟨#HR, #Hlev, HO, Hsp0, Hfree, HtS, HtR, HA, ⟨%f16, H16, %h16⟩, Hc, Hat⟩
  rw [k0_part11_eq_skeleton]; unfold atBufs k0_part11_skel
  sl_exec
  rw [peel_slot c 2 0 2 rfl]
  iapply (wp_sendH80x1' m K c 2 (by decide) 0 0 rfl (dev15_eq c) sndM2 rfl rcvM2 rfl rfl rfl rfl rfl (Ofrom c l) W) $$ HR Hsp0 Hfree HO HtS HtR
  iintro ⟨HcS, HO⟩
  sl_exec
  iapply (wp_waitRecv' m K c 0 1 (Ofrom c l) W (mayWait_rest c (.dma (rSem 0 1)) l (fun t ht => by rw [lv_recv_own]; exact hl t ht)) ?hsm ?hcr) $$ HR Hc HO Hlev Hat
  case hsm => rfl
  case hcr => exact Np_zero.symm
  iintro ⟨HO, Hz, Hrp⟩
  icases (Entails.of_eq (recvPay96_open m c 1)) $$ Hrp with ⟨%fr, Hr, %hfr⟩
  sl_exec
  ihave Hsp := (back96_x2 m c 1 4 (Or.inr ⟨rfl, rfl⟩) (A1_96 m c) (if_neg (by decide)).symm fr) $$ [Hr]
  · iexact Hr
  rw [wp_ret]; imodintro
  iframe
  isplitl [HO]; · iexists _; iexact HO
  isplitl [H16]; · iexists f16; iframe H16 %h16
  ipureintro; rfl

end Cert.KernelIdeal.Proto
-- ==== Proof.Part12.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part12 (K : CK → ℕ) (c : Dev nD) (W : Waits sig Unit) (l : List Pay) (hl : ∀ t ∈ l, 2 < payLv t) (v2 v56 v331 : BitVec 32) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 1 1) () (Np 1)) ∗ atPos ER (recvCell c 1 1) 0 ∅ 0)
      ⊢ wp frame (wpE (defs₀ (F := F)) 𝒱₀ c none) Set.univ
          (atBufs k0_part12 c v2 v56 v331)
          (fun r => iprop((∃ W', owes (c : Thread nD τ) (Ofrom c l) W')
            ∗ (aM.view.loc (c : Thread nD τ) ↦[aM.view.set]{fullShare} Ablk m c)
            ∗ b16Holds m c
            ∗ semVal (recvCell c 1 1) 0 ∗ sendPay m c 1 4
            ∗ ⌜r = k0_pay19 (aRows80 m c 1 1)⌝)) := by
  unfold b16Holds
  iintro ⟨#HR, #Hlev, HO, HA, ⟨%f16, H16, %h16⟩, Hc, Hat⟩
  rw [k0_part12_eq_skeleton]; unfold atBufs k0_part12_skel
  sl_exec
  iapply (wp_waitRecv' m K c 1 1 (Ofrom c l) W (mayWait_rest c (.dma (rSem 1 1)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM1 rfl 1)) $$ Hrp with ⟨%fr, Hr, %hfr⟩
  sl_exec
  ihave Hsp := (back80_x2 m 1 (by decide) rcvM1 rfl c 1 4 (Or.inr ⟨rfl, rfl⟩) (A1_80 m 1 c) (if_neg (by decide)).symm fr) $$ [Hr]
  · iexact Hr
  rw [wp_ret]; imodintro
  iframe
  isplitl [HO]; · iexists _; iexact HO
  isplitl [H16]; · iexists f16; iframe H16 %h16
  ipureintro; rfl

end Cert.KernelIdeal.Proto
-- ==== Proof.Part13.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part13 (K : CK → ℕ) (c : Dev nD) (W : Waits sig Unit) (l : List Pay) (hl : ∀ t ∈ l, 2 < payLv t) (v2 v80 v104 : BitVec 32)
    (v361 : FVec F S80x1024 .bf16) (hv361 : v361 = k0_pay19 (aRows80 m c 1 1)) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 2 1) () (Np 2)) ∗ atPos ER (recvCell c 2 1) 0 ∅ 0)
      ⊢ wp frame (wpE (defs₀ (F := F)) 𝒱₀ c none) Set.univ
          (atBufs k0_part13 c v2 v80 v104 v361)
          (fun r => iprop((∃ W', owes (c : Thread nD τ) (Ofrom c l) W')
            ∗ (aM.view.loc (c : Thread nD τ) ↦[aM.view.set]{fullShare} Ablk m c)
            ∗ b16Holds m c
            ∗ semVal (recvCell c 2 1) 0 ∗ sendPay m c 2 4
            ∗ ⌜r.1 = pv96 m c 7 ∧ r.2.1 = Scalar.muli v104 1#32 ∧ r.2.2 = 0#32⌝)) := by
  subst hv361
  unfold b16Holds
  iintro ⟨#HR, #Hlev, HO, HA, ⟨%f16, H16, %h16⟩, Hc, Hat⟩
  rw [k0_part13_eq_skeleton]; unfold atBufs k0_part13_skel
  sl_exec
  iapply (wp_waitRecv' m K c 2 1 (Ofrom c l) W (mayWait_rest c (.dma (rSem 2 1)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM2 rfl 1)) $$ Hrp with ⟨%fr, Hr, %hfr⟩
  sl_exec
  ihave Hsp := (back80_x2 m 2 (by decide) rcvM2 rfl c 1 4 (Or.inr ⟨rfl, rfl⟩) (A1_80 m 2 c) (if_neg (by decide)).symm fr) $$ [Hr]
  · iexact Hr
  rw [wp_ret]; imodintro
  iframe
  isplitl [HO]; · iexists _; iexact HO
  isplitl [H16]; · iexists f16; iframe H16 %h16
  ipureintro; exact ⟨rfl, rfl, rfl⟩

end Cert.KernelIdeal.Proto
-- ==== Proof.Part14.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part14 (K : CK → ℕ) (c : Dev nD) (W : Waits sig Unit) (l : List Pay) (hl : ∀ t ∈ l, 2 < payLv t) (v2 v128 v389 c0_i32_335 : BitVec 32)
    (v388 : FVec F S96x2048 .bf16) (hv388 : v388 = pv96 m c 7) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 0 3) () (Np 0)) ∗ atPos ER (recvCell c 0 3) 0 ∅ 0)
      ⊢ wp frame (wpE (defs₀ (F := F)) 𝒱₀ c none) Set.univ
          (atBufs k0_part14 c v2 v128 v388 v389 c0_i32_335)
          (fun r => iprop((∃ W', owes (c : Thread nD τ) (Ofrom c l) W')
            ∗ (aM.view.loc (c : Thread nD τ) ↦[aM.view.set]{fullShare} Ablk m c)
            ∗ b16Holds m c
            ∗ semVal (recvCell c 0 3) 0 ∗ sendPay m c 0 5
            ∗ ⌜r = pv80 m c 5 0⌝)) := by
  subst hv388
  unfold b16Holds
  iintro ⟨#HR, #Hlev, HO, HA, ⟨%f16, H16, %h16⟩, Hc, Hat⟩
  rw [k0_part14_eq_skeleton]; unfold atBufs k0_part14_skel
  sl_exec
  iapply (wp_waitRecv' m K c 0 3 (Ofrom c l) W (mayWait_rest c (.dma (rSem 0 3)) l (fun t ht => by rw [lv_recv_own]; exact hl t ht)) ?hsm ?hcr) $$ HR Hc HO Hlev Hat
  case hsm => rfl
  case hcr => exact Np_zero.symm
  iintro ⟨HO, Hz, Hrp⟩
  icases (Entails.of_eq (recvPay96_open m c 3)) $$ Hrp with ⟨%fr, Hr, %hfr⟩
  sl_exec
  ihave Hsp := (back96_x2 m c 3 5 (Or.inl ⟨rfl, rfl⟩) (A3_96 m c) (if_pos rfl).symm fr) $$ [Hr]
  · iexact Hr
  rw [wp_ret]; imodintro
  iframe
  isplitl [HO]; · iexists _; iexact HO
  isplitl [H16]; · iexists f16; iframe H16 %h16
  ipureintro; rfl

end Cert.KernelIdeal.Proto
-- ==== Proof.Part15.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part15 (K : CK → ℕ) (c : Dev nD) (W : Waits sig Unit) (l : List Pay) (hl : ∀ t ∈ l, 2 < payLv t) (v2 v152 : BitVec 32)
    (v412 : FVec F S80x2048 .bf16) (hv412 : v412 = pv80 m c 5 0) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 1 3) () (Np 1)) ∗ atPos ER (recvCell c 1 3) 0 ∅ 0
        ∗ cred (tallyAt (recvCell c 2 3) () (Np 2)) ∗ atPos ER (recvCell c 2 3) 0 ∅ 0)
      ⊢ wp frame (wpE (defs₀ (F := F)) 𝒱₀ c none) Set.univ
          (atBufs k0_part15 c v2 v152 v412)
          (fun r => iprop((∃ W', owes (c : Thread nD τ) (Ofrom c l) W')
            ∗ (aM.view.loc (c : Thread nD τ) ↦[aM.view.set]{fullShare} Ablk m c)
            ∗ b16Holds m c
            ∗ semVal (recvCell c 1 3) 0 ∗ sendPay m c 1 5
            ∗ semVal (recvCell c 2 3) 0 ∗ recvPay m c 2 3
            ∗ ⌜r.1 = k0_pay25 (aRows80 m c 2 1) (b16V m c) (landed80 m 2 c 3) ∧ r.2 = landed80 m 2 c 3⌝)) := by
  subst hv412
  unfold b16Holds
  iintro ⟨#HR, #Hlev, HO, HA, ⟨%f16, H16, %h16⟩, Hc, Hat, Hc2, Hat2⟩
  rw [k0_part15_eq_skeleton]; unfold atBufs k0_part15_skel
  sl_exec
  iapply (wp_waitRecv' m K c 1 3 (Ofrom c l) W (mayWait_rest c (.dma (rSem 1 3)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM1 rfl 3)) $$ Hrp with ⟨%fr, Hr, %hfr⟩
  sl_exec
  iapply (wp_waitRecv' m K c 2 3 (Ofrom c l) _ (mayWait_rest c (.dma (rSem 2 3)) l (fun t ht => by rw [lv_recv_own]; exact hl t ht)) rfl (by rw [Np_of_ne (by decide)])) $$ HR Hc2 HO Hlev Hat2
  iintro ⟨HO, Hz2, Hrp2⟩
  icases (Entails.of_eq (recvPay80_open m c (by decide) rcvM2 rfl 3)) $$ Hrp2 with ⟨%fr2, Hr2, %hfr2⟩
  sl_exec
  ihave Hsp := (back80_x2 m 1 (by decide) rcvM1 rfl c 3 5 (Or.inl ⟨rfl, rfl⟩) (A3_80 m 1 c) (if_pos rfl).symm fr) $$ [Hr]
  · iexact Hr
  rw [wp_ret]; imodintro
  iframe
  isplitl [HO]; · iexists _; iexact HO
  isplitl [H16]; · iexists f16; iframe H16 %h16
  isplitl [Hr2]; · iapply (Entails.of_eq (recvPay80_open m c (by decide) rcvM2 rfl 3).symm); iexists fr2; iframe Hr2 %hfr2
  ipureintro; exact ⟨rfl, rfl⟩

end Cert.KernelIdeal.Proto
-- ==== Proof.StepsL.lean ====
import proofs.«900895_g7700000000000896_dist_matmul_mk_i_outk_m2048_n2048_k1024_v7x_i8_f32_1_alg».proof.Proof.StepsH

namespace Cert.KernelIdeal.Proto

open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

theorem sendPay_0_4 (c : Dev nD) : sendPay m c 0 4 = rHolds96 rcvM0 c 1 (A1_96 m c) := by rw [sendPay_zero]; rfl
theorem sendPay_0_5 (c : Dev nD) : sendPay m c 0 5 = rHolds96 rcvM0 c 3 (A3_96 m c) := by rw [sendPay_zero]; rfl
theorem sendPay_p_4 (c : Dev nD) {p : Fin 3} (hp : p ≠ 0) : sendPay m c p 4 = rHolds80 (rcvM80 p) c 1 (A1_80 m p c) := by
  rw [sendPay_of_ne m c hp]; rfl
theorem sendPay_p_5 (c : Dev nD) {p : Fin 3} (hp : p ≠ 0) : sendPay m c p 5 = rHolds80 (rcvM80 p) c 3 (A3_80 m p c) := by
  rw [sendPay_of_ne m c hp]; rfl

/-- A later exchange: the source is receive slot s holding the partial sum V, which is what the neighbour's slot i is to hold. -/
theorem wp_sendH96r' (c n : Dev nD) (s i : Fin 7) (V : Vec F S1x96x2048 .bf16) (hn : n = peer (slotMask 0 i) c)
    (hpay : sendPay m c 0 i = rHolds96 rcvM0 c s V) (hV : V = landed96 m n i) {n₀ : Dev nD} (hn₀ : n₀ = n)
    {ss rs : DmaSem sig} (hss : ss = sSem 0 i) (hrs : rs = rSem 0 i)
    {src₀ : Memref sig .tc .vmem S96x2048 .bf16} (hs : src₀ = rSlot96 rcvM0 s)
    {dst : Memref sig (Dev.tc n₀ : Thread nD τ).2.kind .vmem S96x2048 .bf16} (hd : dst = rSlot96 rcvM0 i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c 0 i -∗ rFree96 rcvM0 n i
      -∗ owes (c : Thread nD τ) (O + tallyAt (recvCell n 0 i) () (Np 0)) W
      -∗ dutyTok ER (sendCell c 0 i) 0 (0 : Fin 3) -∗ dutyTok ER (recvCell n 0 i) 0 (0 : Fin 3)
      -∗ ((cred (tallyAt (sendCell c 0 i) () (Np 0)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  rw [hpay]
  unfold rHolds96
  iintro #HR ⟨%fs, Hsrc, %h⟩
  iapply (wp_send96' m K c n i hn hn₀ hss hrs (rSlot96 rcvM0 s) hs hd fs
    (fun fd => (land96r rcvM0 rcvM0 i s fd fs).trans (h.trans hV))
    (by
      rw [hpay]; unfold rHolds96
      iintro H; iexists fs; iframe
      ipureintro; exact h) O W) $$ HR Hsrc

theorem wp_sendH80r' (c n : Dev nD) (p : Fin 3) (hp : p ≠ 0) (s i : Fin 7) (V : Vec F S1x80x2048 .bf16) (hn : n = peer (slotMask p i) c)
    (rb : Memref sig .tc .vmem S7x80x2048 .bf16) (hrb : rb = rcvM80 p)
    (hpay : sendPay m c p i = rHolds80 rb c s V) (hV : V = landed80 m p n i) {n₀ : Dev nD} (hn₀ : n₀ = n)
    {ss rs : DmaSem sig} (hss : ss = sSem p i) (hrs : rs = rSem p i)
    {src₀ : Memref sig .tc .vmem S80x2048 .bf16} (hs : src₀ = rSlot80 rb s)
    {dst : Memref sig (Dev.tc n₀ : Thread nD τ).2.kind .vmem S80x2048 .bf16} (hd : dst = rSlot80 rb i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c p i -∗ rFree80 rb n i
      -∗ owes (c : Thread nD τ) (O + tallyAt (recvCell n p i) () (Np p)) W
      -∗ dutyTok ER (sendCell c p i) 0 (0 : Fin 3) -∗ dutyTok ER (recvCell n p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  rw [hpay]
  unfold rHolds80
  iintro #HR ⟨%fs, Hsrc, %h⟩
  iapply (wp_send80' m K c n p hp i hn hn₀ rb hrb hss hrs (rSlot80 rb s) hs hd fs
    (fun fd => (land80r rb rb i s fd fs).trans (h.trans hV))
    (by
      rw [hpay]; unfold rHolds80
      iintro H; iexists fs; iframe
      ipureintro; exact h) O W) $$ HR Hsrc

end Cert.KernelIdeal.Proto
-- ==== Proof.Part16.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto
open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part16 (K : CK → ℕ) (c : Dev nD) (W : Waits sig Unit) (l : List Pay) (v2 : BitVec 32)
    (v447 : FVec F S80x2048 .bf16) (v448 : Vec F S1x80x2048 .bf16) (hS : k0_pay26 v447 = A3_80 m 2 c) :
    iprop(records m K ∗ rFree80 rcvM2 c 3
        ∗ sendPay m c 0 5 ∗ rFree96 rcvM0 (peer 1 c) 5 ∗ dutyTok ER (sendCell c 0 5) 0 (0 : Fin 3) ∗ dutyTok ER (recvCell (peer 1 c) 0 5) 0 (0 : Fin 3)
        ∗ sendPay m c 0 4 ∗ rFree96 rcvM0 (peer 1 c) 4 ∗ dutyTok ER (sendCell c 0 4) 0 (0 : Fin 3) ∗ dutyTok ER (recvCell (peer 1 c) 0 4) 0 (0 : Fin 3)
        ∗ owes (c : Thread nD τ) (Ofrom c (Pay.slot 0 5 :: Pay.slot 0 4 :: l)) W)
      ⊢ wp frame (wpE (defs₀ (F := F)) 𝒱₀ c none) Set.univ
          (atBufs k0_part16 c v2 v447 v448)
          (fun r => iprop(sendPay m c 2 5 ∗ cred (tallyAt (sendCell c 0 5) () (Np 0)) ∗ cred (tallyAt (sendCell c 0 4) () (Np 0))
            ∗ owes (c : Thread nD τ) (Ofrom c l) W)) := by
  unfold rFree80
  iintro ⟨#HR, ⟨%f0, Hq0⟩, Hs1, Hq1, HtS1, HtR1, Hs2, Hq2, HtS2, HtR2, HO⟩
  rw [k0_part16_eq_skeleton]; unfold atBufs k0_part16_skel
  sl_exec
  ihave Hsp := (back80_rr rcvM2 c 3 (k0_pay26 v447) f0) $$ [Hq0]
  · iexact Hq0
  rw [hS]
  rw [peel_slot c 0 5 1 rfl]
  iapply (wp_sendH96r' m K c (peer 1 c) 3 5 (A3_96 m c) rfl (sendPay_0_5 m c)
    (congrArg _ (peer_peer 1 c).symm) (dev16_eq c) ?hss ?hrs ?hs ?hd _ W) $$ HR Hs1 Hq1 HO HtS1 HtR1
  case hss | hrs | hs | hd => rfl
  iintro ⟨Hc1, HO⟩
  sl_exec
  rw [peel_slot c 0 4 1 rfl]
  iapply (wp_sendH96r' m K c (peer 1 c) 1 4 (A1_96 m c) rfl (sendPay_0_4 m c)
    (congrArg _ (peer_peer 1 c).symm) (dev17_eq c) ?hss ?hrs ?hs ?hd _ W) $$ HR Hs2 Hq2 HO HtS2 HtR2
  case hss | hrs | hs | hd => rfl
  iintro ⟨Hc2, HO⟩
  sl_exec
  rw [wp_ret]; imodintro
  iframe
  rw [sendPay_p_5 m c (by decide : (2 : Fin 3) ≠ 0)]
  iexact Hsp

end Cert.KernelIdeal.Proto
-- ==== Proof.Part17.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto
open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part17 (K : CK → ℕ) (c : Dev nD) (W : Waits sig Unit) (l : List Pay) (v2 : BitVec 32) :
    iprop(records m K
        ∗ sendPay m c 1 5 ∗ rFree80 rcvM1 (peer 2 c) 5 ∗ dutyTok ER (sendCell c 1 5) 0 (0 : Fin 3) ∗ dutyTok ER (recvCell (peer 2 c) 1 5) 0 (0 : Fin 3)
        ∗ sendPay m c 1 4 ∗ rFree80 rcvM1 (peer 2 c) 4 ∗ dutyTok ER (sendCell c 1 4) 0 (0 : Fin 3) ∗ dutyTok ER (recvCell (peer 2 c) 1 4) 0 (0 : Fin 3)
        ∗ sendPay m c 2 5 ∗ rFree80 rcvM2 (peer 0 c) 5 ∗ dutyTok ER (sendCell c 2 5) 0 (0 : Fin 3) ∗ dutyTok ER (recvCell (peer 0 c) 2 5) 0 (0 : Fin 3)
        ∗ owes (c : Thread nD τ) (Ofrom c (Pay.slot 1 5 :: Pay.slot 1 4 :: Pay.slot 2 5 :: l)) W)
      ⊢ wp frame (wpE (defs₀ (F := F)) 𝒱₀ c none) Set.univ
          (atBufs k0_part17 c v2)
          (fun r => iprop(cred (tallyAt (sendCell c 1 5) () (Np 1)) ∗ cred (tallyAt (sendCell c 1 4) () (Np 1))
            ∗ cred (tallyAt (sendCell c 2 5) () (Np 2)) ∗ owes (c : Thread nD τ) (Ofrom c l) W)) := by
  iintro ⟨#HR, Hs1, Hq1, HtS1, HtR1, Hs2, Hq2, HtS2, HtR2, Hs3, Hq3, HtS3, HtR3, HO⟩
  rw [k0_part17_eq_skeleton]; unfold atBufs k0_part17_skel
  sl_exec
  rw [peel_slot c 1 5 2 rfl]
  iapply (wp_sendH80r' m K c (peer 2 c) 1 (by decide) 3 5 (A3_80 m 1 c) rfl rcvM1 rfl (sendPay_p_5 m c (by decide))
    (congrArg _ (peer_peer 2 c).symm) (dev18_eq c) ?hss ?hrs ?hs ?hd _ W) $$ HR Hs1 Hq1 HO HtS1 HtR1
  case hss | hrs | hs | hd => rfl
  iintro ⟨Hc1, HO⟩
  sl_exec
  rw [peel_slot c 1 4 2 rfl]
  iapply (wp_sendH80r' m K c (peer 2 c) 1 (by decide) 1 4 (A1_80 m 1 c) rfl rcvM1 rfl (sendPay_p_4 m c (by decide))
    (congrArg _ (peer_peer 2 c).symm) (dev19_eq c) ?hss ?hrs ?hs ?hd _ W) $$ HR Hs2 Hq2 HO HtS2 HtR2
  case hss | hrs | hs | hd => rfl
  iintro ⟨Hc2, HO⟩
  sl_exec
  rw [peel_slot c 2 5 0 rfl]
  iapply (wp_sendH80r' m K c (peer 0 c) 2 (by decide) 3 5 (A3_80 m 2 c) rfl rcvM2 rfl (sendPay_p_5 m c (by decide))
    (congrArg _ (peer_peer 0 c).symm) (dev20_eq c) ?hss ?hrs ?hs ?hd _ W) $$ HR Hs3 Hq3 HO HtS3 HtR3
  case hss | hrs | hs | hd => rfl
  iintro ⟨Hc3, HO⟩
  sl_exec
  rw [wp_ret]; imodintro
  iframe

end Cert.KernelIdeal.Proto
-- ==== Proof.Part18.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part18 (K : CK → ℕ) (c : Dev nD) (W : Waits sig Unit) (v2 v176 v506 : BitVec 32) :
    iprop(records m K ∗ levAts L lv
        ∗ sendPay m c 2 4 ∗ rFree80 rcvM2 (peer 0 c) 4 ∗ dutyTok ER (sendCell c 2 4) 0 (0 : Fin 3) ∗ dutyTok ER (recvCell (peer 0 c) 2 4) 0 (0 : Fin 3)
        ∗ owes (c : Thread nD τ) (Ofrom c [Pay.slot 2 4, Pay.slot 0 6, Pay.slot 1 6, Pay.slot 2 6]) W
        ∗ (aM.view.loc (c : Thread nD τ) ↦[aM.view.set]{fullShare} Ablk m c) ∗ b16Holds m c
        ∗ cred (tallyAt (recvCell c 0 2) () (Np 0)) ∗ atPos ER (recvCell c 0 2) 0 ∅ 0)
      ⊢ wp frame (wpE (defs₀ (F := F)) 𝒱₀ c none) Set.univ
          (atBufs k0_part18 c v2 v176 v506)
          (fun r => iprop(cred (tallyAt (sendCell c 2 4) () (Np 2))
            ∗ (∃ W', owes (c : Thread nD τ) (Ofrom c [Pay.slot 0 6, Pay.slot 1 6, Pay.slot 2 6]) W')
            ∗ (aM.view.loc (c : Thread nD τ) ↦[aM.view.set]{fullShare} Ablk m c) ∗ b16Holds m c
            ∗ semVal (recvCell c 0 2) 0 ∗ recvPay m c 0 2 ∗ ⌜r = pv96 m c 4⌝)) := by
  unfold b16Holds
  iintro ⟨#HR, #Hlev, Hs1, Hq1, HtS1, HtR1, HO, HA, ⟨%f16, H16, %h16⟩, Hcr, Hat⟩
  rw [k0_part18_eq_skeleton]; unfold atBufs k0_part18_skel
  sl_exec
  rw [peel_slot c 2 4 0 rfl]
  iapply (wp_sendH80r' m K c (peer 0 c) 2 (by decide) 1 4 (A1_80 m 2 c) rfl rcvM2 rfl (sendPay_p_4 m c (by decide))
    (congrArg _ (peer_peer 0 c).symm) (dev21_eq c) ?hss ?hrs ?hs ?hd _ W) $$ HR Hs1 Hq1 HO HtS1 HtR1
  case hss | hrs | hs | hd => rfl
  iintro ⟨Hc1, HO⟩
  sl_exec
  iapply (wp_waitRecv' m K c 0 2 _ W (mayWait_rest c (.dma (rSem 0 2)) [Pay.slot 0 6, Pay.slot 1 6, Pay.slot 2 6] (by rw [lv_recv_own]; decide)) ?hsm ?hcr) $$ HR Hcr HO Hlev Hat
  case hsm => rfl
  case hcr => exact Np_zero.symm
  iintro ⟨HO, Hz, Hpay⟩
  sl_exec
  rw [wp_ret]; imodintro
  iframe
  isplitl [HO]; · iexists _; iexact HO
  isplitl [H16]; · iexists f16; iframe H16 %h16
  ipureintro; rfl

end Cert.KernelIdeal.Proto
-- ==== Proof.Part19.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto
open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
local notation "𝕄" => MT nD τ sig Unit (Elt F) ℕ UU ℕ
variable (m : (ℓ : Loc nD τ sig) → Buf (Elt F) ℓ)

theorem part19 (K : CK → ℕ) (c : Dev nD) (W : Waits sig Unit) (v2 v451 : BitVec 32) (v526 : FVec F S96x2048 .bf16)
    (hv526 : v526 = pv96 m c 4) :
    iprop(records m K ∗ levAts L lv
        ∗ cred (tallyAt (recvCell c 0 5) () (Np 0)) ∗ atPos ER (recvCell c 0 5) 0 ∅ 0
        ∗ recvPay m c 0 2 ∗ rFree96 rcvM0 (peer 2 c) 6 ∗ dutyTok ER (sendCell c 0 6) 0 (0 : Fin 3) ∗ dutyTok ER (recvCell (peer 2 c) 0 6) 0 (0 : Fin 3)
        ∗ owes (c : Thread nD τ) (Ofrom c [Pay.slot 0 6, Pay.slot 1 6, Pay.slot 2 6]) W)
      ⊢ wp frame (wpE (defs₀ (F := F)) 𝒱₀ c none) Set.univ
          (atBufs k0_part19 c v2 v451 v526)
          (fun r => iprop(cred (tallyAt (sendCell c 0 6) () (Np 0))
            ∗ (∃ W', owes (c : Thread nD τ) (Ofrom c [Pay.slot 1 6, Pay.slot 2 6]) W')
            ∗ semVal (recvCell c 0 5) 0 ∗ recvPay m c 0 5)) := by
  rw [recvPay96_open m c 2]
  iintro ⟨#HR, #Hlev, Hcr, Hat, ⟨%f2, H2, %h2⟩, Hq, HtS, HtR, HO⟩
  rw [k0_part19_eq_skeleton]; unfold atBufs k0_part19_skel
  sl_exec
  iapply (wp_waitRecv' m K c 0 5 _ W (mayWait_rest c (.dma (rSem 0 5)) [Pay.slot 0 6, Pay.slot 1 6, Pay.slot 2 6] (by rw [lv_recv_own]; decide)) ?hsm ?hcr) $$ HR Hcr HO Hlev Hat
  case hsm => rfl
  case hcr => exact Np_zero.symm
  rw [recvPay96_open m c 5]
  iintro ⟨HO, Hz, ⟨%f5, H5, %h5⟩⟩
  sl_exec
  have hS : k0_pay28 v526 (landed96 m c 2) (landed96 m c 5) = A2_96 m c := by subst hv526; rfl
  rw [peel_slot c 0 6 2 rfl]
  iapply (wp_send96' m K c (peer 2 c) 6 rfl (dev22_eq c) ?hss ?hrs (rSlot96 rcvM0 2) ?hs ?hd _ (land96_x3 m c _ hS f2) (back96_x3 m c _ hS f2) _ _) $$ HR [H2] Hq HO HtS HtR
  case hss | hrs | hs | hd => rfl
  · iexact H2
  iintro ⟨Hc1, HO⟩
  sl_exec
  rw [wp_ret]; imodintro
  iframe
  isplitl [HO]; · iexists _; iexact HO
  iexists f5; iframe H5 %h5

end Cert.KernelIdeal.Proto
-- ==== Proof.Part20.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto

open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part20 (K : CK → ℕ) (c : Dev nD) (W : Waits sig Unit) (v200 v473 v563 : BitVec 32) :
    iprop(records m K ∗ levAts L lv
        ∗ (aM.view.loc (c : Thread nD τ) ↦[aM.view.set]{fullShare} Ablk m c) ∗ b16Holds m c
        ∗ cred (tallyAt (recvCell c 1 2) () (Np 1)) ∗ atPos ER (recvCell c 1 2) 0 ∅ 0
        ∗ cred (tallyAt (recvCell c 1 5) () (Np 1)) ∗ atPos ER (recvCell c 1 5) 0 ∅ 0
        ∗ owes (c : Thread nD τ) (Ofrom c [Pay.slot 1 6, Pay.slot 2 6]) W)
      ⊢ wp frame (wpE (defs₀ (F := F)) 𝒱₀ c none) Set.univ
          (atBufs k0_part20 c v200 v473 v563)
          (fun r => iprop((aM.view.loc (c : Thread nD τ) ↦[aM.view.set]{fullShare} Ablk m c) ∗ b16Holds m c
            ∗ semVal (recvCell c 1 2) 0 ∗ semVal (recvCell c 1 5) 0 ∗ recvPay m c 1 2 ∗ recvPay m c 1 5
            ∗ (∃ W', owes (c : Thread nD τ) (Ofrom c [Pay.slot 1 6, Pay.slot 2 6]) W')
            ∗ ⌜r = k0_pay29 (aRows80 m c 1 0) (b16V m c) (landed80 m 1 c 2)⌝)) := by
  unfold b16Holds
  iintro ⟨#HR, #Hlev, HA, ⟨%f16, H16, %h16⟩, Hc2, Ha2, Hc5, Ha5, HO⟩
  rw [k0_part20_eq_skeleton]; unfold atBufs k0_part20_skel
  sl_exec
  iapply (wp_waitRecv' m K c 1 2 _ W (mayWait_rest c (.dma (rSem 1 2)) [Pay.slot 1 6, Pay.slot 2 6] (by rw [lv_recv_own]; decide)) ?hsm ?hcr) $$ HR Hc2 HO Hlev Ha2
  case hsm => rfl
  case hcr => rw [Np_of_ne (by decide)]
  rw [recvPay80_open m c (p := 1) (by decide) rcvM1 rfl 2]
  iintro ⟨HO, Hs2, ⟨%f2, Hb2, %hf2⟩⟩
  sl_exec
  iapply (wp_waitRecv' m K c 1 5 _ _ (mayWait_rest c (.dma (rSem 1 5)) [Pay.slot 1 6, Pay.slot 2 6] (by rw [lv_recv_own]; decide)) ?hsm ?hcr) $$ HR Hc5 HO Hlev Ha5
  case hsm => rfl
  case hcr => rw [Np_of_ne (by decide)]
  iintro ⟨HO, Hs5, Hp5⟩
  sl_exec
  rw [wp_ret]; imodintro
  iframe
  isplitl [H16]; · iexists f16; iframe H16 %h16
  isplitl [Hb2]; · iexists f2; iframe Hb2 %hf2
  isplitl [HO]; · iexists _; iexact HO
  ipureintro; rfl

end Cert.KernelIdeal.Proto
-- ==== Proof.Part21.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.Tables
import proofs.«900895_g7700000000000896_dist_matmul_mk_i_outk_m2048_n2048_k1024_v7x_i8_f32_1_alg».proof.Proof.LaunchCred
import proofs.«900895_g7700000000000896_dist_matmul_mk_i_outk_m2048_n2048_k1024_v7x_i8_f32_1_alg».proof.Proof.StepsL

namespace Cert.KernelIdeal.Proto

open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part21 (K : CK → ℕ) (c : Dev nD) (W : Waits sig Unit) (l : List Pay) (v2 v224 : BitVec 32) (v591 : FVec F S80x2048 .bf16)
    (hv591 : v591 = k0_pay29 (aRows80 m c 1 0) (b16V m c) (landed80 m 1 c 2)) :
    iprop(records m K ∗ recvPay m c 1 2 ∗ recvPay m c 1 5 ∗ rFree80 rcvM1 (peer 0 c) 6
        ∗ dutyTok ER (sendCell c 1 6) 0 (0 : Fin 3) ∗ dutyTok ER (recvCell (peer 0 c) 1 6) 0 (0 : Fin 3)
        ∗ owes (c : Thread nD τ) (Ofrom c (Pay.slot 1 6 :: l)) W
        ∗ (aM.view.loc (c : Thread nD τ) ↦[aM.view.set]{fullShare} Ablk m c) ∗ b16Holds m c)
      ⊢ wp frame (wpE (defs₀ (F := F)) 𝒱₀ c none) Set.univ
          (atBufs k0_part21 c v2 v224 v591)
          (fun r => iprop(cred (tallyAt (sendCell c 1 6) () (Np 1)) ∗ owes (c : Thread nD τ) (Ofrom c l) W
            ∗ recvPay m c 1 5 ∗ (aM.view.loc (c : Thread nD τ) ↦[aM.view.set]{fullShare} Ablk m c) ∗ b16Holds m c
            ∗ ⌜r.2 = pv80 m c 3 1⌝)) := by
  subst hv591
  unfold b16Holds
  rw [recvPay80_open m c (p := 1) (by decide) rcvM1 rfl 2, recvPay80_open m c (p := 1) (by decide) rcvM1 rfl 5]
  iintro ⟨#HR, ⟨%f2, Hb2, %hf2⟩, ⟨%f5, Hb5, %hf5⟩, Hq, HtS, HtR, HO, HA, ⟨%f16, H16, %h16⟩⟩
  rw [k0_part21_eq_skeleton]; unfold atBufs k0_part21_skel
  sl_exec
  rw [peel_slot c 1 6 0 rfl]
  iapply (wp_send80' m K c (peer 0 c) 1 (by decide) 6 rfl (dev23_eq c) rcvM1 rfl ?hss ?hrs (rSlot80 rcvM1 2) ?hs ?hd _
    (land80_x3 m 1 (by decide) rcvM1 rfl c _ rfl f2) (back80_x3 m 1 (by decide) rcvM1 rfl c _ rfl f2) _ W) $$ HR [Hb2] Hq HO HtS HtR
  case hss | hrs | hs | hd => rfl
  · iexact Hb2
  iintro ⟨Hc, HO⟩
  sl_exec
  rw [wp_ret]; imodintro
  iframe
  isplitl [Hb5]; · iexists f5; iframe Hb5 %hf5
  isplitl [H16]; · iexists f16; iframe H16 %h16
  ipureintro; rfl

end Cert.KernelIdeal.Proto
-- ==== Proof.Part22.lean ====
import proofs.«900895_g7700000000000896_dist_matmul_mk_i_outk_m2048_n2048_k1024_v7x_i8_f32_1_alg».proof.Proof.PartDefs

namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part22 (K : CK → ℕ) (c : Dev nD) (W : Waits sig Unit) (v2 v495 : BitVec 32) (v618 : FVec F S80x2048 .bf16)
    (hv618 : v618 = pv80 m c 3 1) :
    iprop(records m K ∗ levAts L lv ∗ owes (c : Thread nD τ) (Ofrom c [Pay.slot 2 6]) W
        ∗ cred (tallyAt (recvCell c 2 2) () (Np 2)) ∗ atPos ER (recvCell c 2 2) 0 ∅ 0
        ∗ cred (tallyAt (recvCell c 2 5) () (Np 2)) ∗ atPos ER (recvCell c 2 5) 0 ∅ 0)
      ⊢ wp frame (wpE (defs₀ (F := F)) 𝒱₀ c none) Set.univ
          (atBufs k0_part22 v2 v495 v618)
          (fun r => iprop((∃ W', owes (c : Thread nD τ) (Ofrom c [Pay.slot 2 6]) W')
            ∗ semVal (recvCell c 2 2) 0 ∗ semVal (recvCell c 2 5) 0
            ∗ sendPay m c 2 6 ∗ recvPay m c 2 5)) := by
  subst hv618
  iintro ⟨#HR, #Hlev, HO, Hc22, Ha22, Hc25, Ha25⟩
  rw [k0_part22_eq_skeleton]; unfold atBufs k0_part22_skel
  sl_exec
  iapply (wp_waitRecv' m K c 2 2 _ W (mayWait_rest c (.dma (rSem 2 2)) [Pay.slot 2 6] (by rw [lv_recv_own]; decide)) ?hsm ?hcr) $$ HR Hc22 HO Hlev Ha22
  case hsm => rfl
  case hcr => rw [Np_of_ne (by decide)]
  rw [recvPay80_open m c (p := 2) (by decide) rcvM2 rfl 2]
  iintro ⟨HO, Hz22, ⟨%f2, Hs2, %hf2⟩⟩
  sl_exec
  iapply (wp_waitRecv' m K c 2 5 _ _ (mayWait_rest c (.dma (rSem 2 5)) [Pay.slot 2 6] (by rw [lv_recv_own]; decide)) ?hsm ?hcr) $$ HR Hc25 HO Hlev Ha25
  case hsm => rfl
  case hcr => rw [Np_of_ne (by decide)]
  rw [recvPay80_open m c (p := 2) (by decide) rcvM2 rfl 5]
  iintro ⟨HO, Hz25, ⟨%f5, Hs5, %hf5⟩⟩
  sl_exec
  sl_step
  iframe
  isplitl [HO]; · iexists _; iexact HO
  isplitl [Hs2]; · iapply (back80_x3 m 2 (by decide) rcvM2 rfl c _ rfl f2); iexact Hs2
  iexists f5; iframe Hs5 %hf5

end Cert.KernelIdeal.Proto
-- ==== Proof.Part23.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.StepsL

namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
local notation "𝕄" => MT nD τ sig Unit (Elt F) ℕ UU ℕ
variable (m : (ℓ : Loc nD τ sig) → Buf (Elt F) ℓ)

theorem part23 (K : CK → ℕ) (c : Dev nD) (W : Waits sig Unit) (v2 v248 v462 : BitVec 32) :
    iprop(records m K ∗ levAts L lv ∗ owes (c : Thread nD τ) (Ofrom c [Pay.slot 2 6]) W
        ∗ sendPay m c 2 6 ∗ rFree80 rcvM2 (peer 1 c) 6
        ∗ dutyTok ER (sendCell c 2 6) 0 (0 : Fin 3) ∗ dutyTok ER (recvCell (peer 1 c) 2 6) 0 (0 : Fin 3)
        ∗ cred (tallyAt (recvCell c 0 0) () (Np 0)) ∗ atPos ER (recvCell c 0 0) 0 ∅ 0
        ∗ (aM.view.loc (c : Thread nD τ) ↦[aM.view.set]{fullShare} Ablk m c)
        ∗ b16Holds m c)
      ⊢ wp frame (wpE (defs₀ (F := F)) 𝒱₀ c none) Set.univ
          (atBufs k0_part23 c v2 v248 v462)
          (fun r => iprop((∃ W', owes (c : Thread nD τ) (Ofrom c []) W')
            ∗ cred (tallyAt (sendCell c 2 6) () (Np 2))
            ∗ semVal (recvCell c 0 0) 0 ∗ recvPay m c 0 0
            ∗ (aM.view.loc (c : Thread nD τ) ↦[aM.view.set]{fullShare} Ablk m c) ∗ b16Holds m c
            ∗ ⌜r = pv96 m c 0⌝)) := by
  unfold b16Holds
  iintro ⟨#HR, #Hlev, HO, Hs, Hq, HtS, HtR, Hc00, Ha00, HA, ⟨%f16, H16, %hf16⟩⟩
  rw [k0_part23_eq_skeleton]; unfold atBufs k0_part23_skel
  sl_exec
  rw [peel_slot c 2 6 1 (by decide)]
  iapply (wp_sendH80r' m K c (peer 1 c) 2 (by decide) 2 6 (A2_80 m 2 c) rfl rcvM2 rfl (if_neg (by decide))
    (by show A2_80 m 2 c = A2_80 m 2 (peer (2 + 2) (peer 1 c)); rw [show ((2 : Fin 3) + 2) = 1 from by decide, peer_peer]) (dev24_eq c) ?hss ?hrs ?hs ?hd _ W) $$ HR Hs Hq HO HtS HtR
  case hss | hrs | hs | hd => rfl
  iintro ⟨HcS, HO⟩
  sl_exec
  iapply (wp_waitRecv' m K c 0 0 _ W (mayWait_rest c (.dma (rSem 0 0)) [] (by rw [lv_recv_own]; decide)) ?hsm ?hcr) $$ HR Hc00 HO Hlev Ha00
  case hsm => rfl
  case hcr => exact Np_zero.symm
  iintro ⟨HO, Hz00, Hp00⟩
  sl_exec
  sl_step
  iframe
  isplitl [HO]; · iexists _; iexact HO
  isplitl [H16]; · iexists f16; iframe H16 %hf16
  ipureintro; rfl

end Cert.KernelIdeal.Proto
-- ==== Proof.Part24.lean ====
import proofs.«900895_g7700000000000896_dist_matmul_mk_i_outk_m2048_n2048_k1024_v7x_i8_f32_1_alg».proof.Proof.PartDefs

namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part24 (K : CK → ℕ) (c : Dev nD) (W : Waits sig Unit) (v2 v272 : BitVec 32) (v664 : FVec F S96x2048 .bf16)
    (hv664 : v664 = pv96 m c 0) :
    iprop(records m K ∗ levAts L lv ∗ owes (c : Thread nD τ) (Ofrom c []) W
        ∗ cred (tallyAt (recvCell c 0 4) () (Np 0)) ∗ atPos ER (recvCell c 0 4) 0 ∅ 0
        ∗ recvPay m c 0 0
        ∗ (aM.view.loc (c : Thread nD τ) ↦[aM.view.set]{fullShare} Ablk m c)
        ∗ b16Holds m c)
      ⊢ wp frame (wpE (defs₀ (F := F)) 𝒱₀ c none) Set.univ
          (atBufs k0_part24 c v2 v272 v664)
          (fun r => iprop((∃ W', owes (c : Thread nD τ) (Ofrom c []) W')
            ∗ semVal (recvCell c 0 4) 0 ∗ recvPay m c 0 4 ∗ rHolds96 rcvM0 c 0 (A0_96 m c)
            ∗ (aM.view.loc (c : Thread nD τ) ↦[aM.view.set]{fullShare} Ablk m c) ∗ b16Holds m c
            ∗ ⌜r = pv80 m c 0 0⌝)) := by
  subst hv664
  rw [recvPay96_open m c 0]
  unfold b16Holds
  iintro ⟨#HR, #Hlev, HO, Hc04, Ha04, ⟨%f0, Hs0, %hf0⟩, HA, ⟨%f16, H16, %hf16⟩⟩
  rw [k0_part24_eq_skeleton]; unfold atBufs k0_part24_skel
  sl_exec
  iapply (wp_waitRecv' m K c 0 4 _ W (mayWait_rest c (.dma (rSem 0 4)) [] (by rw [lv_recv_own]; decide)) ?hsm ?hcr) $$ HR Hc04 HO Hlev Ha04
  case hsm => rfl
  case hcr => exact Np_zero.symm
  rw [recvPay96_open m c 4]
  iintro ⟨HO, Hz04, ⟨%f4, Hs4, %hf4⟩⟩
  sl_exec
  sl_step
  iframe
  isplitl [HO]; · iexists _; iexact HO
  isplitl [Hs4]; · iexists f4; iframe Hs4 %hf4
  isplitl [Hs0]; · iapply (back96_rr c 0 _ f0); iexact Hs0
  isplitl [H16]; · iexists f16; iframe H16 %hf16
  ipureintro; rfl

end Cert.KernelIdeal.Proto
-- ==== Proof.Part25.lean ====
import proofs.«900895_g7700000000000896_dist_matmul_mk_i_outk_m2048_n2048_k1024_v7x_i8_f32_1_alg».proof.Proof.PartDefs

namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part25 (K : CK → ℕ) (c : Dev nD) (W : Waits sig Unit) (v2 v484 : BitVec 32) (v699 : FVec F S80x2048 .bf16)
    (hv699 : v699 = pv80 m c 0 0) :
    iprop(records m K ∗ levAts L lv ∗ owes (c : Thread nD τ) (Ofrom c []) W
        ∗ cred (tallyAt (recvCell c 1 0) () (Np 1)) ∗ atPos ER (recvCell c 1 0) 0 ∅ 0
        ∗ cred (tallyAt (recvCell c 1 4) () (Np 1)) ∗ atPos ER (recvCell c 1 4) 0 ∅ 0
        ∗ (aM.view.loc (c : Thread nD τ) ↦[aM.view.set]{fullShare} Ablk m c)
        ∗ b16Holds m c)
      ⊢ wp frame (wpE (defs₀ (F := F)) 𝒱₀ c none) Set.univ
          (atBufs k0_part25 c v2 v484 v699)
          (fun r => iprop((∃ W', owes (c : Thread nD τ) (Ofrom c []) W')
            ∗ semVal (recvCell c 1 0) 0 ∗ semVal (recvCell c 1 4) 0 ∗ recvPay m c 1 4
            ∗ rHolds80 rcvM1 c 0 (A0_80 m 1 c)
            ∗ (aM.view.loc (c : Thread nD τ) ↦[aM.view.set]{fullShare} Ablk m c) ∗ b16Holds m c
            ∗ ⌜r = pv80 m c 0 1⌝)) := by
  subst hv699
  unfold b16Holds
  iintro ⟨#HR, #Hlev, HO, Hc10, Ha10, Hc14, Ha14, HA, ⟨%f16, H16, %hf16⟩⟩
  rw [k0_part25_eq_skeleton]; unfold atBufs k0_part25_skel
  sl_exec
  iapply (wp_waitRecv' m K c 1 0 _ W (mayWait_rest c (.dma (rSem 1 0)) [] (by rw [lv_recv_own]; decide)) ?hsm ?hcr) $$ HR Hc10 HO Hlev Ha10
  case hsm => rfl
  case hcr => rw [Np_of_ne (by decide)]
  rw [recvPay80_open m c (p := 1) (by decide) rcvM1 rfl 0]
  iintro ⟨HO, Hz10, ⟨%f0, Hs0, %hf0⟩⟩
  sl_exec
  iapply (wp_waitRecv' m K c 1 4 _ _ (mayWait_rest c (.dma (rSem 1 4)) [] (by rw [lv_recv_own]; decide)) ?hsm ?hcr) $$ HR Hc14 HO Hlev Ha14
  case hsm => rfl
  case hcr => rw [Np_of_ne (by decide)]
  rw [recvPay80_open m c (p := 1) (by decide) rcvM1 rfl 4]
  iintro ⟨HO, Hz14, ⟨%f4, Hs4, %hf4⟩⟩
  sl_exec
  sl_step
  iframe
  isplitl [HO]; · iexists _; iexact HO
  isplitl [Hs4]; · iexists f4; iframe Hs4 %hf4
  isplitl [Hs0]; · iapply (back80_rr rcvM1 c 0 _ f0); iexact Hs0
  isplitl [H16]; · iexists f16; iframe H16 %hf16
  ipureintro; rfl

end Cert.KernelIdeal.Proto
-- ==== Proof.Part26.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part26 (K : CK → ℕ) (c : Dev nD) (W : Waits sig Unit) (v296 v506 v552 : BitVec 32) (v734 : FVec F S80x2048 .bf16)
    (hv734 : v734 = pv80 m c 0 1) :
    iprop(records m K ∗ levAts L lv ∗ owes (c : Thread nD τ) (Ofrom c []) W
        ∗ cred (tallyAt (recvCell c 2 0) () (Np 2)) ∗ atPos ER (recvCell c 2 0) 0 ∅ 0
        ∗ cred (tallyAt (recvCell c 2 4) () (Np 2)) ∗ atPos ER (recvCell c 2 4) 0 ∅ 0)
      ⊢ wp frame (wpE (defs₀ (F := F)) 𝒱₀ c none) Set.univ
          (atBufs k0_part26 v296 v506 v552 v734)
          (fun r => iprop((∃ W', owes (c : Thread nD τ) (Ofrom c []) W')
            ∗ semVal (recvCell c 2 0) 0 ∗ semVal (recvCell c 2 4) 0
            ∗ rHolds80 rcvM2 c 0 (A0_80 m 2 c) ∗ recvPay m c 2 4)) := by
  subst hv734
  iintro ⟨#HR, #Hlev, HO, Hc0, Ha0, Hc4, Ha4⟩
  rw [k0_part26_eq_skeleton]; unfold atBufs k0_part26_skel
  sl_exec
  iapply (wp_waitRecv' m K c 2 0 _ W (mayWait_rest c (.dma (rSem 2 0)) [] nofun) ?hsm ?hcr) $$ HR Hc0 HO Hlev Ha0
  case hsm => rfl
  case hcr => rw [Np_of_ne (by decide)]
  rw [recvPay80_open m c (p := 2) (by decide) rcvM2 rfl 0]
  iintro ⟨HO, Hs0, ⟨%f0, Hb0, %hf0⟩⟩
  sl_exec
  iapply (wp_waitRecv' m K c 2 4 _ _ (mayWait_rest c (.dma (rSem 2 4)) [] nofun) ?hsm ?hcr) $$ HR Hc4 HO Hlev Ha4
  case hsm => rfl
  case hcr => rw [Np_of_ne (by decide)]
  rw [recvPay80_open m c (p := 2) (by decide) rcvM2 rfl 4]
  iintro ⟨HO, Hs4, ⟨%f4, Hb4, %hf4⟩⟩
  sl_exec
  rw [wp_ret]; imodintro
  iframe
  isplitl [HO]; · iexists _; iexact HO
  isplitl [Hb0]; · iapply (back80_rr rcvM2 c 0 (A0_80 m 2 c) f0); iexact Hb0
  iexists f4; iframe Hb4 %hf4

end Cert.KernelIdeal.Proto
-- ==== Proof.Part27.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part27 (K : CK → ℕ) (c : Dev nD) (W : Waits sig Unit) (v598 v760 : BitVec 32) :
    iprop(records m K ∗ levAts L lv ∗ owes (c : Thread nD τ) (Ofrom c []) W
        ∗ cred (tallyAt (recvCell c 0 6) () (Np 0)) ∗ atPos ER (recvCell c 0 6) 0 ∅ 0
        ∗ cred (tallyAt (recvCell c 1 6) () (Np 1)) ∗ atPos ER (recvCell c 1 6) 0 ∅ 0
        ∗ rHolds96 rcvM0 c 0 (A0_96 m c) ∗ rHolds80 rcvM1 c 0 (A0_80 m 1 c) ∗ freeBuf oM c)
      ⊢ wp frame (wpE (defs₀ (F := F)) 𝒱₀ c none) Set.univ
          (atBufs k0_part27 v598 v760)
          (fun r => iprop((∃ W', owes (c : Thread nD τ) (Ofrom c []) W')
            ∗ semVal (recvCell c 0 6) 0 ∗ semVal (recvCell c 1 6) 0
            ∗ rHolds96 rcvM0 c 0 (A0_96 m c) ∗ recvPay m c 0 6
            ∗ rHolds80 rcvM1 c 0 (A0_80 m 1 c) ∗ recvPay m c 1 6
            ∗ (∃ f, (oM.view.loc (c : Thread nD τ) ↦[oM.view.set]{fullShare} oM.view.writes (Elt F) f [⟨rO0, O96 m c⟩]))
            ∗ ⌜r.1 = k0_pay40 (A0_80 m 1 c) ∧ r.2 = k0_pay41 (A2_80 m 1 (peer (1 + 2) c))⌝)) := by
  unfold rHolds96 rHolds80 freeBuf
  iintro ⟨#HR, #Hlev, HO, Hc0, Ha0, Hc1, Ha1, ⟨%g0, Hg0, %hg0⟩, ⟨%g1, Hg1, %hg1⟩, ⟨%fo, Ho⟩⟩
  rw [k0_part27_eq_skeleton]; unfold atBufs k0_part27_skel
  sl_exec
  iapply (wp_waitRecv' m K c 0 6 _ W (mayWait_rest c (.dma (rSem 0 6)) [] nofun) ?hsm ?hcr) $$ HR Hc0 HO Hlev Ha0
  case hsm => rfl
  case hcr => exact Np_zero.symm
  rw [recvPay96_open m c 6]
  iintro ⟨HO, Hs0, ⟨%f6, Hb6, %hf6⟩⟩
  sl_exec
  iapply (wp_waitRecv' m K c 1 6 _ _ (mayWait_rest c (.dma (rSem 1 6)) [] nofun) ?hsm ?hcr) $$ HR Hc1 HO Hlev Ha1
  case hsm => rfl
  case hcr => rw [Np_of_ne (by decide)]
  rw [recvPay80_open m c (p := 1) (by decide) rcvM1 rfl 6]
  iintro ⟨HO, Hs1, ⟨%h6, Hd6, %hh6⟩⟩
  sl_exec
  rw [wp_ret]; imodintro
  iframe
  isplitl [HO]; · iexists _; iexact HO
  isplitl [Hg0]; · iexists g0; iframe Hg0 %hg0
  isplitl [Hb6]; · iexists f6; iframe Hb6 %hf6
  isplitl [Hg1]; · iexists g1; iframe Hg1 %hg1
  isplitl [Hd6]; · iexists h6; iframe Hd6 %hh6
  isplitl [Ho]; · iexists fo; iexact Ho
  ipureintro; exact ⟨rfl, rfl⟩

end Cert.KernelIdeal.Proto
-- ==== Proof.Part28.lean ====
import proofs.«900895_g7700000000000896_dist_matmul_mk_i_outk_m2048_n2048_k1024_v7x_i8_f32_1_alg».proof.Proof.PartDefs

namespace Cert.KernelIdeal.Proto

open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
local notation "𝕄" => MT nD τ sig Unit (Elt F) ℕ UU ℕ
variable (m : (ℓ : Loc nD τ sig) → Buf (Elt F) ℓ)

omit [FloatOps F] in

private theorem out_cover (w0 : rO0.shape.Idx → Elt F .f32) (w1 : rO1.shape.Idx → Elt F .f32) (w2 : rO2.shape.Idx → Elt F .f32) :
    ∀ y : S256x2048.Idx, ∃ p ∈ ([⟨rO2, w2⟩, ⟨rO1, w1⟩, ⟨rO0, w0⟩] : List (View.Piece (Elt F) S256x2048 .f32)), y ∈ p.1.set := by
  intro y
  have h0 : (y (0 : Fin 2) : ℕ) < 256 := (y (0 : Fin 2)).isLt
  have h1 : (y (1 : Fin 2) : ℕ) < 2048 := (y (1 : Fin 2)).isLt
  by_cases ha : (y (0 : Fin 2) : ℕ) < 96
  · refine ⟨⟨rO0, w0⟩, List.mem_cons_of_mem _ (List.mem_cons_of_mem _ List.mem_cons_self), ?_⟩
    show y ∈ (Rect.unit (s := S256x2048) ![0, 0] S96x2048.size inb_S256x2048_S96x2048_0_0).set
    refine Rect.mem_set_unit.mpr fun a => ?_
    fin_cases a
    · exact ⟨Nat.zero_le _, ha⟩
    · exact ⟨Nat.zero_le _, h1⟩
  by_cases hb : (y (0 : Fin 2) : ℕ) < 176
  · refine ⟨⟨rO1, w1⟩, List.mem_cons_of_mem _ List.mem_cons_self, ?_⟩
    show y ∈ (Rect.unit (s := S256x2048) ![96, 0] S80x2048.size inb_S256x2048_S80x2048_96_0).set
    refine Rect.mem_set_unit.mpr fun a => ?_
    fin_cases a
    · exact ⟨Nat.le_of_not_lt ha, hb⟩
    · exact ⟨Nat.zero_le _, h1⟩
  · refine ⟨⟨rO2, w2⟩, List.mem_cons_self, ?_⟩
    show y ∈ (Rect.unit (s := S256x2048) ![176, 0] S80x2048.size inb_S256x2048_S80x2048_176_0).set
    refine Rect.mem_set_unit.mpr fun a => ?_
    fin_cases a
    · exact ⟨Nat.le_of_not_lt hb, h0⟩
    · exact ⟨Nat.zero_le _, h1⟩

private theorem out_key (c : Dev nD) (f : oM.view.ty.Contents (Elt F)) :
    ∀ i ∈ oM.view.set, oM.view.writes (Elt F) f [⟨rO2, O80 m 2 c⟩, ⟨rO1, O80 m 1 c⟩, ⟨rO0, O96 m c⟩] i = outV m c i := by
  intro i hi
  obtain ⟨x, -, rfl⟩ := Finset.mem_map.mp hi
  have h := congrFun (View.read_writes_of_cover oM.view f oM.view (View.junk (Val := Elt F) oM.view) _ (out_cover (O96 m c) (O80 m 1 c) (O80 m 2 c))) x
  rw [View.read_apply, View.read_apply] at h
  exact (cast_inj _).mp h

private theorem out_done (c : Dev nD) (f : oM.view.ty.Contents (Elt F)) :
    (oM.view.loc (c : Thread nD τ) ↦[oM.view.set]{fullShare} oM.view.writes (Elt F) f [⟨rO2, O80 m 2 c⟩, ⟨rO1, O80 m 1 c⟩, ⟨rO0, O96 m c⟩] : sProp 𝕄)
      ⊢ (oM.view.loc (c : Thread nD τ) ↦[oM.view.set]{fullShare} outV m c) :=
  Entails.of_eq (pointsTo_congr (out_key m c f))

theorem part28 (K : CK → ℕ) (c : Dev nD) (W : Waits sig Unit) (v644 : BitVec 32) (v786 : FVec F S80x2048 .f32) (v788 : FVec F S80x2048 .bf16)
    (hv786 : v786 = k0_pay40 (A0_80 m 1 c)) (hv788 : v788 = k0_pay41 (A2_80 m 1 (peer (1 + 2) c))) :
    iprop(records m K ∗ levAts L lv ∗ owes (c : Thread nD τ) (Ofrom c []) W
        ∗ cred (tallyAt (recvCell c 2 6) () (Np 2)) ∗ atPos ER (recvCell c 2 6) 0 ∅ 0
        ∗ cred (tallyAt (sendCell c 0 0) () (Np 0)) ∗ atPos ER (sendCell c 0 0) 0 ∅ 0
        ∗ rHolds80 rcvM2 c 0 (A0_80 m 2 c)
        ∗ (∃ f, (oM.view.loc (c : Thread nD τ) ↦[oM.view.set]{fullShare} oM.view.writes (Elt F) f [⟨rO0, O96 m c⟩])))
      ⊢ wp frame (wpE (defs₀ (F := F)) 𝒱₀ c none) Set.univ
          (atBufs k0_part28 v644 v786 v788)
          (fun r => iprop((∃ W', owes (c : Thread nD τ) (Ofrom c []) W')
            ∗ semVal (recvCell c 2 6) 0 ∗ semVal (sendCell c 0 0) 0
            ∗ rHolds80 rcvM2 c 0 (A0_80 m 2 c) ∗ recvPay m c 2 6 ∗ sendPay m c 0 0
            ∗ (oM.view.loc (c : Thread nD τ) ↦[oM.view.set]{fullShare} outV m c))) := by
  subst hv786 hv788
  unfold rHolds80
  iintro ⟨#HR, #Hlev, HO, Hc6, Ha6, Hcs, Has, ⟨%g2, Hg2, %hg2⟩, ⟨%fo, Ho⟩⟩
  rw [k0_part28_eq_skeleton]; unfold atBufs k0_part28_skel
  sl_exec
  iapply (wp_waitRecv' m K c 2 6 _ W (mayWait_rest c (.dma (rSem 2 6)) [] nofun) ?hsm ?hcr) $$ HR Hc6 HO Hlev Ha6
  case hsm => rfl
  case hcr => rw [Np_of_ne (by decide)]
  rw [recvPay80_open m c (p := 2) (by decide) rcvM2 rfl 6]
  iintro ⟨HO, Hs6, ⟨%f6, Hb6, %hf6⟩⟩
  sl_exec
  rw [Ofrom_nil]
  iapply (wp_waitSend' m K c 0 0 _ ?hsm ?hcr) $$ HR Hcs HO Has
  case hsm => rfl
  case hcr => exact Np_zero.symm
  iintro ⟨HO, Hss, Hps⟩
  sl_exec
  rw [wp_ret]; imodintro
  iframe
  isplitl [HO]; · iexists _; iexact HO
  isplitl [Hg2]; · iexists g2; iframe Hg2 %hg2
  isplitl [Hb6]; · iexists f6; iframe Hb6 %hf6
  iapply (out_done m c fo); iexact Ho

end Cert.KernelIdeal.Proto
-- ==== Proof.Reassemble.lean ====
import proofs.«900895_g7700000000000896_dist_matmul_mk_i_outk_m2048_n2048_k1024_v7x_i8_f32_1_alg».proof.Proof.PartDefs
import proofs.«900895_g7700000000000896_dist_matmul_mk_i_outk_m2048_n2048_k1024_v7x_i8_f32_1_alg».proof.Proof.BodyDefs

namespace Cert.KernelIdeal.Proto
open Cert.KernelIdeal.Gen Cert.KernelIdeal.Mesh
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

/-- Contents of which a fact holds are in particular some contents. -/
private theorem held {α : Type} {Φ : α → sProp 𝕄} {P : α → Prop} : iprop(∃ f, Φ f ∗ ⌜P f⌝) ⊢ iprop(∃ f, Φ f) :=
  exists_mono fun _ => sep_elim_left

/-- Each payload is, by its definition at that part and slot, a slot held with a value; the cells' zeros pass through as they are. -/
theorem reassemble (c : Dev nD) :
    iprop(b16Holds m c ∗ sendPay m c 0 0 ∗ sendPay m c 0 1 ∗ sendPay m c 0 2 ∗ sendPay m c 0 3 ∗ sendPay m c 0 4
        ∗ sendPay m c 0 5 ∗ sendPay m c 0 6 ∗ sendPay m c 1 0 ∗ sendPay m c 1 1 ∗ sendPay m c 1 2 ∗ sendPay m c 1 3
        ∗ sendPay m c 1 4 ∗ sendPay m c 1 5 ∗ sendPay m c 1 6 ∗ sendPay m c 2 0 ∗ sendPay m c 2 1 ∗ sendPay m c 2 2
        ∗ sendPay m c 2 3 ∗ sendPay m c 2 4 ∗ sendPay m c 2 5 ∗ sendPay m c 2 6 ∗ rHolds96 rcvM0 c 0 (A0_96 m c)
        ∗ rHolds80 rcvM1 c 0 (A0_80 m 1 c) ∗ rHolds80 rcvM2 c 0 (A0_80 m 2 c) ∗ recvPay m c 0 4 ∗ recvPay m c 0 5
        ∗ recvPay m c 0 6 ∗ recvPay m c 1 4 ∗ recvPay m c 1 5 ∗ recvPay m c 1 6 ∗ recvPay m c 2 4 ∗ recvPay m c 2 5
        ∗ recvPay m c 2 6 ∗ semVal (sendCell c 0 0) 0 ∗ semVal (recvCell c 0 0) 0 ∗ semVal (sendCell c 0 1) 0
        ∗ semVal (recvCell c 0 1) 0 ∗ semVal (sendCell c 0 2) 0 ∗ semVal (recvCell c 0 2) 0 ∗ semVal (sendCell c 0 3) 0
        ∗ semVal (recvCell c 0 3) 0 ∗ semVal (sendCell c 0 4) 0 ∗ semVal (recvCell c 0 4) 0 ∗ semVal (sendCell c 0 5) 0
        ∗ semVal (recvCell c 0 5) 0 ∗ semVal (sendCell c 0 6) 0 ∗ semVal (recvCell c 0 6) 0 ∗ semVal (sendCell c 1 0) 0
        ∗ semVal (recvCell c 1 0) 0 ∗ semVal (sendCell c 1 1) 0 ∗ semVal (recvCell c 1 1) 0 ∗ semVal (sendCell c 1 2) 0
        ∗ semVal (recvCell c 1 2) 0 ∗ semVal (sendCell c 1 3) 0 ∗ semVal (recvCell c 1 3) 0 ∗ semVal (sendCell c 1 4) 0
        ∗ semVal (recvCell c 1 4) 0 ∗ semVal (sendCell c 1 5) 0 ∗ semVal (recvCell c 1 5) 0 ∗ semVal (sendCell c 1 6) 0
        ∗ semVal (recvCell c 1 6) 0 ∗ semVal (sendCell c 2 0) 0 ∗ semVal (recvCell c 2 0) 0 ∗ semVal (sendCell c 2 1) 0
        ∗ semVal (recvCell c 2 1) 0 ∗ semVal (sendCell c 2 2) 0 ∗ semVal (recvCell c 2 2) 0 ∗ semVal (sendCell c 2 3) 0
        ∗ semVal (recvCell c 2 3) 0 ∗ semVal (sendCell c 2 4) 0 ∗ semVal (recvCell c 2 4) 0 ∗ semVal (sendCell c 2 5) 0
        ∗ semVal (recvCell c 2 5) 0 ∗ semVal (sendCell c 2 6) 0 ∗ semVal (recvCell c 2 6) 0)
      ⊢ closedCore c := by
  show iprop(_ ∗ sHolds96 _ _ _ _ ∗ sHolds96 _ _ _ _ ∗ sHolds96 _ _ _ _ ∗ sHolds96 _ _ _ _ ∗ rHolds96 _ _ _ _ ∗ rHolds96 _ _ _ _ ∗ rHolds96 _ _ _ _
    ∗ sHolds80 _ _ _ _ ∗ sHolds80 _ _ _ _ ∗ sHolds80 _ _ _ _ ∗ sHolds80 _ _ _ _ ∗ rHolds80 _ _ _ _ ∗ rHolds80 _ _ _ _ ∗ rHolds80 _ _ _ _ ∗ sHolds80 _ _ _ _ ∗ sHolds80 _ _ _ _ ∗ sHolds80 _ _ _ _ ∗ sHolds80 _ _ _ _ ∗ rHolds80 _ _ _ _ ∗ rHolds80 _ _ _ _ ∗ rHolds80 _ _ _ _
    ∗ _ ∗ _ ∗ _ ∗ rHolds96 _ _ _ _ ∗ rHolds96 _ _ _ _ ∗ rHolds96 _ _ _ _ ∗ rHolds80 _ _ _ _ ∗ rHolds80 _ _ _ _ ∗ rHolds80 _ _ _ _ ∗ rHolds80 _ _ _ _ ∗ rHolds80 _ _ _ _ ∗ rHolds80 _ _ _ _ ∗ _) ⊢ _
  unfold closedCore b16Holds sHolds96 sHolds80 rHolds96 rHolds80 freeBuf sFree96 sFree80 rFree96 rFree80
  iintro ⟨Hb, S00, S01, S02, S03, S04, S05, S06, S10, S11, S12, S13, S14, S15, S16, S20, S21, S22, S23, S24, S25, S26, R00, R10, R20, P04, P05, P06, P14, P15, P16, P24, P25, P26, Z⟩
  isplitl [Hb]; · iapply held $$ Hb
  isplitl [S00]; · iapply held $$ S00
  isplitl [S01]; · iapply held $$ S01
  isplitl [S02]; · iapply held $$ S02
  isplitl [S03]; · iapply held $$ S03
  isplitl [S10]; · iapply held $$ S10
  isplitl [S11]; · iapply held $$ S11
  isplitl [S12]; · iapply held $$ S12
  isplitl [S13]; · iapply held $$ S13
  isplitl [S20]; · iapply held $$ S20
  isplitl [S21]; · iapply held $$ S21
  isplitl [S22]; · iapply held $$ S22
  isplitl [S23]; · iapply held $$ S23
  isplitl [R00]; · iapply held $$ R00
  isplitl [S04]; · iapply held $$ S04
  isplitl [S06]; · iapply held $$ S06
  isplitl [S05]; · iapply held $$ S05
  isplitl [P04]; · iapply held $$ P04
  isplitl [P05]; · iapply held $$ P05
  isplitl [P06]; · iapply held $$ P06
  isplitl [R10]; · iapply held $$ R10
  isplitl [S14]; · iapply held $$ S14
  isplitl [S16]; · iapply held $$ S16
  isplitl [S15]; · iapply held $$ S15
  isplitl [P14]; · iapply held $$ P14
  isplitl [P15]; · iapply held $$ P15
  isplitl [P16]; · iapply held $$ P16
  isplitl [R20]; · iapply held $$ R20
  isplitl [S24]; · iapply held $$ S24
  isplitl [S26]; · iapply held $$ S26
  isplitl [S25]; · iapply held $$ S25
  isplitl [P24]; · iapply held $$ P24
  isplitl [P25]; · iapply held $$ P25
  isplitl [P26]; · iapply held $$ P26
  iexact Z

end Cert.KernelIdeal.Proto
-- ==== Proof.Body.lean ====
import proofs.«900895_g7700000000000896_dist_matmul_mk_i_outk_m2048_n2048_k1024_v7x_i8_f32_1_alg».proof.Proof.BodyGlue
import proofs.«900895_g7700000000000896_dist_matmul_mk_i_outk_m2048_n2048_k1024_v7x_i8_f32_1_alg».proof.Proof.Part01
import proofs.«900895_g7700000000000896_dist_matmul_mk_i_outk_m2048_n2048_k1024_v7x_i8_f32_1_alg».proof.Proof.Part02
import proofs.«900895_g7700000000000896_dist_matmul_mk_i_outk_m2048_n2048_k1024_v7x_i8_f32_1_alg».proof.Proof.Part03
import proofs.«900895_g7700000000000896_dist_matmul_mk_i_outk_m2048_n2048_k1024_v7x_i8_f32_1_alg».proof.Proof.Part04
import proofs.«900895_g7700000000000896_dist_matmul_mk_i_outk_m2048_n2048_k1024_v7x_i8_f32_1_alg».proof.Proof.Part05
import proofs.«900895_g7700000000000896_dist_matmul_mk_i_outk_m2048_n2048_k1024_v7x_i8_f32_1_alg».proof.Proof.Part06
import proofs.«900895_g7700000000000896_dist_matmul_mk_i_outk_m2048_n2048_k1024_v7x_i8_f32_1_alg».proof.Proof.Part07
import proofs.«900895_g7700000000000896_dist_matmul_mk_i_outk_m2048_n2048_k1024_v7x_i8_f32_1_alg».proof.Proof.Part08
import proofs.«900895_g7700000000000896_dist_matmul_mk_i_outk_m2048_n2048_k1024_v7x_i8_f32_1_alg».proof.Proof.Part09
import proofs.«900895_g7700000000000896_dist_matmul_mk_i_outk_m2048_n2048_k1024_v7x_i8_f32_1_alg».proof.Proof.Part10
import proofs.«900895_g7700000000000896_dist_matmul_mk_i_outk_m2048_n2048_k1024_v7x_i8_f32_1_alg».proof.Proof.Part11
import proofs.«900895_g7700000000000896_dist_matmul_mk_i_outk_m2048_n2048_k1024_v7x_i8_f32_1_alg».proof.Proof.Part12
import proofs.«900895_g7700000000000896_dist_matmul_mk_i_outk_m2048_n2048_k1024_v7x_i8_f32_1_alg».proof.Proof.Part13
import proofs.«900895_g7700000000000896_dist_matmul_mk_i_outk_m2048_n2048_k1024_v7x_i8_f32_1_alg».proof.Proof.Part14
import proofs.«900895_g7700000000000896_dist_matmul_mk_i_outk_m2048_n2048_k1024_v7x_i8_f32_1_alg».proof.Proof.Part15
import proofs.«900895_g7700000000000896_dist_matmul_mk_i_outk_m2048_n2048_k1024_v7x_i8_f32_1_alg».proof.Proof.Part16
import proofs.«900895_g7700000000000896_dist_matmul_mk_i_outk_m2048_n2048_k1024_v7x_i8_f32_1_alg».proof.Proof.Part17
import proofs.«900895_g7700000000000896_dist_matmul_mk_i_outk_m2048_n2048_k1024_v7x_i8_f32_1_alg».proof.Proof.Part18
import proofs.«900895_g7700000000000896_dist_matmul_mk_i_outk_m2048_n2048_k1024_v7x_i8_f32_1_alg».proof.Proof.Part19
import proofs.«900895_g7700000000000896_dist_matmul_mk_i_outk_m2048_n2048_k1024_v7x_i8_f32_1_alg».proof.Proof.Part20
import proofs.«900895_g7700000000000896_dist_matmul_mk_i_outk_m2048_n2048_k1024_v7x_i8_f32_1_alg».proof.Proof.Part21
import proofs.«900895_g7700000000000896_dist_matmul_mk_i_outk_m2048_n2048_k1024_v7x_i8_f32_1_alg».proof.Proof.Part22
import proofs.«900895_g7700000000000896_dist_matmul_mk_i_outk_m2048_n2048_k1024_v7x_i8_f32_1_alg».proof.Proof.Part23
import proofs.«900895_g7700000000000896_dist_matmul_mk_i_outk_m2048_n2048_k1024_v7x_i8_f32_1_alg».proof.Proof.Part24
import proofs.«900895_g7700000000000896_dist_matmul_mk_i_outk_m2048_n2048_k1024_v7x_i8_f32_1_alg».proof.Proof.Part25
import proofs.«900895_g7700000000000896_dist_matmul_mk_i_outk_m2048_n2048_k1024_v7x_i8_f32_1_alg».proof.Proof.Part26
import proofs.«900895_g7700000000000896_dist_matmul_mk_i_outk_m2048_n2048_k1024_v7x_i8_f32_1_alg».proof.Proof.Part27
import proofs.«900895_g7700000000000896_dist_matmul_mk_i_outk_m2048_n2048_k1024_v7x_i8_f32_1_alg».proof.Proof.Part28
import proofs.«900895_g7700000000000896_dist_matmul_mk_i_outk_m2048_n2048_k1024_v7x_i8_f32_1_alg».proof.Proof.Reassemble

noncomputable section
namespace Cert.KernelIdeal.Proto
open Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (BodyObligation)
variable {F : FTy → Type} [FloatOps F]
local notation "𝕄" => MT nD τ sig Unit (Elt F) ℕ UU ℕ
variable (m : (ℓ : Loc nD τ sig) → Buf (Elt F) ℓ)

theorem sm_00 : slotMask 0 0 = 0 := by decide
theorem sm_01 : slotMask 0 1 = 0 := by decide
theorem sm_02 : slotMask 0 2 = 0 := by decide
theorem sm_03 : slotMask 0 3 = 0 := by decide
theorem sm_04 : slotMask 0 4 = 1 := by decide
theorem sm_05 : slotMask 0 5 = 1 := by decide
theorem sm_06 : slotMask 0 6 = 2 := by decide
theorem sm_10 : slotMask 1 0 = 1 := by decide
theorem sm_11 : slotMask 1 1 = 1 := by decide
theorem sm_12 : slotMask 1 2 = 1 := by decide
theorem sm_13 : slotMask 1 3 = 1 := by decide
theorem sm_14 : slotMask 1 4 = 2 := by decide
theorem sm_15 : slotMask 1 5 = 2 := by decide
theorem sm_16 : slotMask 1 6 = 0 := by decide
theorem sm_20 : slotMask 2 0 = 2 := by decide
theorem sm_21 : slotMask 2 1 = 2 := by decide
theorem sm_22 : slotMask 2 2 = 2 := by decide
theorem sm_23 : slotMask 2 3 = 2 := by decide
theorem sm_24 : slotMask 2 4 = 0 := by decide
theorem sm_25 : slotMask 2 5 = 0 := by decide
theorem sm_26 : slotMask 2 6 = 1 := by decide

private theorem held_of_recvPay_2_3 (c : Dev nD) : recvPay m c 2 3 ⊢ rFree80 rcvM2 c 3 := by
  have hr2 : rcvM80 (2 : Fin 3) = rcvM2 := if_pos rfl
  unfold recvPay
  rw [if_neg (by decide : ¬ ((2 : Fin 3) = 0)), hr2]
  unfold rHolds80 rFree80
  iintro ⟨%f, H, %hw⟩
  iexists f
  iexact H

set_option maxHeartbeats 8000000 in

theorem sound_body (K : CK → ℕ) (c : Dev nD) (W : Waits sig Unit) (Kt : PUnit → sProp 𝕄) :
    iprop(openedCore m K c ∗ owes (c : Thread nD τ) (Ofrom c payList) W
        ∗ (aM.view.loc (c : Thread nD τ) ↦[aM.view.set]{fullShare} Ablk m c)
        ∗ (bM.view.loc (c : Thread nD τ) ↦[bM.view.set]{fullShare} Bblk m c)
        ∗ freeBuf oM c
        ∗ ((closedCore c ∗ (∃ W', owes (c : Thread nD τ) 0 W')
            ∗ (aM.view.loc (c : Thread nD τ) ↦[aM.view.set]{fullShare} Ablk m c)
            ∗ (bM.view.loc (c : Thread nD τ) ↦[bM.view.set]{fullShare} Bblk m c)
            ∗ (oM.view.loc (c : Thread nD τ) ↦[oM.view.set]{fullShare} outV m c)) -∗ Kt ⟨⟩))
      ⊢ wp frame (wpE (defs₀ (F := F)) 𝒱₀ c none) Set.univ
          (atBufs cc0_body) Kt := by

  unfold openedCore perSlot
  simp only [sm_00, sm_01, sm_02, sm_03, sm_04, sm_05, sm_06, sm_10, sm_11, sm_12, sm_13, sm_14, sm_15, sm_16, sm_20, sm_21, sm_22,
    sm_23, sm_24, sm_25, sm_26]
  iintro ⟨⟨#HR, #Hlev, HatB, HcB, HtB0, HtB1, HtB2,
    ⟨AS00, AR00, CR00, TS00, TR00⟩, ⟨AS01, AR01, CR01, TS01, TR01⟩, ⟨AS02, AR02, CR02, TS02, TR02⟩, ⟨AS03, AR03, CR03, TS03, TR03⟩,
    ⟨AS04, AR04, CR04, TS04, TR04⟩, ⟨AS05, AR05, CR05, TS05, TR05⟩, ⟨AS06, AR06, CR06, TS06, TR06⟩,
    ⟨AS10, AR10, CR10, TS10, TR10⟩, ⟨AS11, AR11, CR11, TS11, TR11⟩, ⟨AS12, AR12, CR12, TS12, TR12⟩, ⟨AS13, AR13, CR13, TS13, TR13⟩,
    ⟨AS14, AR14, CR14, TS14, TR14⟩, ⟨AS15, AR15, CR15, TS15, TR15⟩, ⟨AS16, AR16, CR16, TS16, TR16⟩,
    ⟨AS20, AR20, CR20, TS20, TR20⟩, ⟨AS21, AR21, CR21, TS21, TR21⟩, ⟨AS22, AR22, CR22, TS22, TR22⟩, ⟨AS23, AR23, CR23, TS23, TR23⟩,
    ⟨AS24, AR24, CR24, TS24, TR24⟩, ⟨AS25, AR25, CR25, TS25, TR25⟩, ⟨AS26, AR26, CR26, TS26, TR26⟩,
    SF00, SF01, SF02, SF03, SF10, SF11, SF12, SF13, SF20, SF21, SF22, SF23,
    RF00, RF01, RF02, RF03, RF04, RF05, RF06, RF10, RF11, RF12, RF13, RF14, RF15, RF16, RF20, RF21, RF22, RF23, RF24, RF25, RF26,
    Hb16⟩, HO, HA, HB, Hout, Hk⟩
  rw [cc0_body_eq_skeleton]; unfold atBufs cc0_body_skel

  rw [wp_bind]
  iapply (wp_wand_r frame _ Set.univ)
  isplitl [HatB HcB HtB0 HtB1 HtB2 HO RF00 RF01 RF02 RF03 RF04 RF05 RF06 RF10 RF11 RF12 RF13 RF14 RF15 RF16 RF20 RF21 RF22 RF23 RF24
    RF25 RF26 Hb16 HA HB]
  · iapply (part01 m K c W)
    iframe
    isplitr
    · iexact HR
    iexact Hlev
  iintro %r H
  icases H with ⟨HO, NQ00, NQ01, NQ02, NQ03, NQ16, NQ24, NQ25, NQ04, NQ05, NQ10, NQ11, NQ12, NQ13, NQ26, NQ06, NQ14, NQ15, NQ20, NQ21,
    NQ22, NQ23, H16, HA, HB, ⟨%v2, %v25, %v26, %cst, %hr01⟩⟩
  obtain ⟨rfl, hv25, hv26, hcst⟩ := hr01
  rw [slotPays]

  rw [wp_bind]
  iapply (wp_wand_r frame _ Set.univ)
  isplitl [SF01 NQ01 HO TS01 TR01 HA H16 SF11]
  · iapply (part02 m K c (insert (SemLoc.reg barS, ()) W)
      _ _ _ _ _ hv25 hv26 hcst)
    iframe
    iexact HR
  iintro %r H
  obtain ⟨v32, v56⟩ := r
  icases H with ⟨CS01, HO, HA, H16, SP11⟩

  rw [wp_bind]
  iapply (wp_wand_r frame _ Set.univ)
  isplitl [SP11 NQ11 HO TS11 TR11 HA H16 SF21]
  · iapply (part03 m K c (insert (SemLoc.reg barS, ()) W)
      _ _ _)
    iframe
    iexact HR
  iintro %v80 H
  icases H with ⟨CS11, HO, HA, H16, SP21⟩

  rw [wp_bind]
  iapply (wp_wand_r frame _ Set.univ)
  isplitl [SP21 NQ21 HO TS21 TR21 TS03 TR03 HA H16 SF03 NQ03]
  · iapply (part04 m K c (insert (SemLoc.reg barS, ()) W)
      _ _)
    iframe
    iexact HR
  iintro %v104 H
  icases H with ⟨CS21, CS03, HO, HA, H16⟩

  rw [wp_bind]
  iapply (wp_wand_r frame _ Set.univ)
  isplitl [SF13 NQ13 HO TS13 TR13 HA H16]
  · iapply (part05 m K c (insert (SemLoc.reg barS, ()) W)
      _ _)
    iframe
    iexact HR
  iintro %r H
  obtain ⟨v128, v148⟩ := r
  icases H with ⟨CS13, HO, HA, H16, %hr05⟩

  rw [wp_bind]
  iapply (wp_wand_r frame _ Set.univ)
  isplitl [SF23 NQ23 HO TS23 TR23 HA H16 SF02]
  · iapply (part06 m K c (insert (SemLoc.reg barS, ()) W)
      _ _ _ hr05)
    iframe
    iexact HR
  iintro %r H
  obtain ⟨v152, v176, v177, c0_i32_144⟩ := r
  icases H with ⟨CS23, HO, HA, H16, SP02⟩

  rw [wp_bind]
  iapply (wp_wand_r frame _ Set.univ)
  isplitl [SP02 NQ02 HO TS02 TR02 HA H16 SF12]
  · iapply (part07 m K c (insert (SemLoc.reg barS, ()) W)
      _ _ _ _)
    iframe
    iexact HR
  iintro %v200 H
  icases H with ⟨CS02, HO, HA, H16, SP12⟩

  rw [wp_bind]
  iapply (wp_wand_r frame _ Set.univ)
  isplitl [SP12 NQ12 HO TS12 TR12 HA H16 SF22 NQ22 TS22 TR22]
  · iapply (part08 m K c (insert (SemLoc.reg barS, ()) W)
      _ _)
    iframe
    iexact HR
  iintro %r H
  obtain ⟨v224, v241⟩ := r
  icases H with ⟨CS12, CS22, HO, HA, H16, %hr08⟩

  rw [wp_bind]
  iapply (wp_wand_r frame _ Set.univ)
  isplitl [SF00 NQ00 HO TS00 TR00 HA H16 SF10]
  · iapply (part09 m K c (insert (SemLoc.reg barS, ()) W)
      _ _ _ hr08)
    iframe
    iexact HR
  iintro %r H
  obtain ⟨v248, c3_i32_222⟩ := r
  icases H with ⟨CS00, HO, HA, H16, SP10⟩

  rw [wp_bind]
  iapply (wp_wand_r frame _ Set.univ)
  isplitl [SP10 NQ10 HO TS10 TR10 HA H16 SF20]
  · iapply (part10 m K c (insert (SemLoc.reg barS, ()) W)
      _ _ _)
    iframe
    iexact HR
  iintro %r H
  obtain ⟨v272, v296⟩ := r
  icases H with ⟨CS10, HO, HA, H16, SP20⟩

  rw [wp_bind]
  iapply (wp_wand_r frame _ Set.univ)
  isplitl [HO SP20 NQ20 TS20 TR20 HA H16 CR01 AR01]
  · iapply (part11 m K c (insert (SemLoc.reg barS, ()) W)
      [Pay.slot 0 5, Pay.slot 0 4, Pay.slot 1 5, Pay.slot 1 4, Pay.slot 2 5, Pay.slot 2 4, Pay.slot 0 6, Pay.slot 1 6, Pay.slot 2 6]
      (by decide) _ _)
    iframe
    isplitr
    · iexact HR
    iexact Hlev
  iintro %v331 H
  icases H with ⟨⟨%W11, HO⟩, CS20, HA, H16, VR01, SP04, %hr11⟩

  rw [wp_bind]
  iapply (wp_wand_r frame _ Set.univ)
  isplitl [HO HA H16 CR11 AR11]
  · iapply (part12 m K c W11
      [Pay.slot 0 5, Pay.slot 0 4, Pay.slot 1 5, Pay.slot 1 4, Pay.slot 2 5, Pay.slot 2 4, Pay.slot 0 6, Pay.slot 1 6, Pay.slot 2 6]
      (by decide) _ _ _)
    iframe
    isplitr
    · iexact HR
    iexact Hlev
  iintro %v361 H
  icases H with ⟨⟨%W12, HO⟩, HA, H16, VR11, SP14, %hr12⟩

  rw [wp_bind]
  iapply (wp_wand_r frame _ Set.univ)
  isplitl [HO HA H16 CR21 AR21]
  · iapply (part13 m K c W12
      [Pay.slot 0 5, Pay.slot 0 4, Pay.slot 1 5, Pay.slot 1 4, Pay.slot 2 5, Pay.slot 2 4, Pay.slot 0 6, Pay.slot 1 6, Pay.slot 2 6]
      (by decide) _ _ _ _ hr12)
    iframe
    isplitr
    · iexact HR
    iexact Hlev
  iintro %r H
  obtain ⟨v388, v389, c0_i32_335⟩ := r
  icases H with ⟨⟨%W13, HO⟩, HA, H16, VR21, SP24, %hr13⟩

  rw [wp_bind]
  iapply (wp_wand_r frame _ Set.univ)
  isplitl [HO HA H16 CR03 AR03]
  · iapply (part14 m K c W13
      [Pay.slot 0 5, Pay.slot 0 4, Pay.slot 1 5, Pay.slot 1 4, Pay.slot 2 5, Pay.slot 2 4, Pay.slot 0 6, Pay.slot 1 6, Pay.slot 2 6]
      (by decide) _ _ _ _ _ hr13.1)
    iframe
    isplitr
    · iexact HR
    iexact Hlev
  iintro %v412 H
  icases H with ⟨⟨%W14, HO⟩, HA, H16, VR03, SP05, %hr14⟩

  rw [wp_bind]
  iapply (wp_wand_r frame _ Set.univ)
  isplitl [HO HA H16 CR13 AR13 CR23 AR23]
  · iapply (part15 m K c W14
      [Pay.slot 0 5, Pay.slot 0 4, Pay.slot 1 5, Pay.slot 1 4, Pay.slot 2 5, Pay.slot 2 4, Pay.slot 0 6, Pay.slot 1 6, Pay.slot 2 6]
      (by decide) _ _ _ hr14)
    iframe
    isplitr
    · iexact HR
    iexact Hlev
  iintro %r H
  obtain ⟨v447, v448⟩ := r
  icases H with ⟨⟨%W15, HO⟩, HA, H16, VR13, SP15, VR23, RP23, %hr15⟩

  have hS : k0_pay26 v447 = A3_80 m 2 c := by
    have h : v447 = _ := hr15.1
    subst h; rfl

  ihave RF23 := (held_of_recvPay_2_3 m c) $$ RP23
  rw [wp_bind]
  iapply (wp_wand_r frame _ Set.univ)
  isplitl [RF23 SP05 NQ05 TS05 TR05 SP04 NQ04 TS04 TR04 HO]
  · iapply (part16 m K c W15 _ v2 v447 v448 hS)
    iframe
    iexact HR
  iintro %r Hp
  obtain ⟨v451, v462, v473⟩ := r
  icases Hp with ⟨SP25, CS05, CS04, HO⟩

  rw [wp_bind]
  iapply (wp_wand_r frame _ Set.univ)
  isplitl [SP15 NQ15 TS15 TR15 SP14 NQ14 TS14 TR14 SP25 NQ25 TS25 TR25 HO]
  · iapply (part17 m K c W15 _ v2)
    iframe
    iexact HR
  iintro %r Hp
  obtain ⟨v484, v495, v506⟩ := r
  icases Hp with ⟨CS15, CS14, CS25, HO⟩

  rw [wp_bind]
  iapply (wp_wand_r frame _ Set.univ)
  isplitl [SP24 NQ24 TS24 TR24 HO HA H16 CR02 AR02]
  · iapply (part18 m K c W15 v2 v176 v506)
    iframe
    isplitr; · iexact HR
    iexact Hlev
  iintro %v526 Hp
  icases Hp with ⟨CS24, ⟨%W18, HO⟩, HA, H16, VR02, RP02, %hr18⟩

  rw [wp_bind]
  iapply (wp_wand_r frame _ Set.univ)
  isplitl [CR05 AR05 RP02 NQ06 TS06 TR06 HO]
  · iapply (part19 m K c W18 v2 v451 v526 hr18)
    iframe
    isplitr; · iexact HR
    iexact Hlev
  iintro %r Hp
  obtain ⟨v552, v563⟩ := r
  icases Hp with ⟨CS06, ⟨%W19, HO⟩, VR05, RP05⟩

  rw [wp_bind]
  iapply (wp_wand_r frame _ Set.univ)
  isplitl [HA H16 CR12 AR12 CR15 AR15 HO]
  · iapply (part20 m K c W19 v200 v473 v563)
    iframe
    isplitr; · iexact HR
    iexact Hlev
  iintro %v591 Hp
  icases Hp with ⟨HA, H16, VR12, VR15, RP12, RP15, ⟨%W20, HO⟩, %hr20⟩

  rw [wp_bind]
  iapply (wp_wand_r frame _ Set.univ)
  isplitl [RP12 RP15 NQ16 TS16 TR16 HO HA H16]
  · iapply (part21 m K c W20 _ v2 v224 v591 hr20)
    iframe
    iexact HR
  iintro %r Hp
  obtain ⟨v598, v618⟩ := r
  icases Hp with ⟨CS16, HO, RP15, HA, H16, %hr21⟩

  rw [wp_bind]
  iapply (wp_wand_r frame _ Set.univ)
  isplitl [HO CR22 AR22 CR25 AR25]
  · iapply (part22 m K c W20 v2 v495 v618 hr21)
    iframe
    isplitr; · iexact HR
    iexact Hlev
  iintro %v644 Hp
  icases Hp with ⟨⟨%W22, HO⟩, VR22, VR25, SP26, RP25⟩

  rw [wp_bind]
  iapply (wp_wand_r frame _ Set.univ)
  isplitl [HO SP26 NQ26 TS26 TR26 CR00 AR00 HA H16]
  · iapply (part23 m K c W22 v2 v248 v462)
    iframe
    isplitr; · iexact HR
    iexact Hlev
  iintro %v664 Hp
  icases Hp with ⟨⟨%W23, HO⟩, CS26, VR00, RP00, HA, H16, %hr23⟩

  rw [wp_bind]
  iapply (wp_wand_r frame _ Set.univ)
  isplitl [HO CR04 AR04 RP00 HA H16]
  · iapply (part24 m K c W23 v2 v272 v664 hr23)
    iframe
    isplitr; · iexact HR
    iexact Hlev
  iintro %v699 Hp
  icases Hp with ⟨⟨%W24, HO⟩, VR04, RP04, RH00, HA, H16, %hr24⟩

  rw [wp_bind]
  iapply (wp_wand_r frame _ Set.univ)
  isplitl [HO CR10 AR10 CR14 AR14 HA H16]
  · iapply (part25 m K c W24 v2 v484 v699 hr24)
    iframe
    isplitr; · iexact HR
    iexact Hlev
  iintro %v734 Hp
  icases Hp with ⟨⟨%W25, HO⟩, VR10, VR14, RP14, RH10, HA, H16, %hr25⟩

  rw [wp_bind]
  iapply (wp_wand_r frame _ Set.univ)
  isplitl [HO CR20 AR20 CR24 AR24]
  · iapply (part26 m K c W25 v296 v506 v552 v734 hr25)
    iframe
    isplitr; · iexact HR
    iexact Hlev
  iintro %v760 Hp
  icases Hp with ⟨⟨%W26, HO⟩, VR20, VR24, RH20, RP24⟩

  rw [wp_bind]
  iapply (wp_wand_r frame _ Set.univ)
  isplitl [HO CR06 AR06 CR16 AR16 RH00 RH10 Hout]
  · iapply (part27 m K c W26 v598 v760)
    iframe
    isplitr; · iexact HR
    iexact Hlev
  iintro %r Hp
  obtain ⟨v786, v788⟩ := r
  icases Hp with ⟨⟨%W27, HO⟩, VR06, VR16, RH00, RP06, RH10, RP16, Hout, %hr27⟩

  rw [wp_bind]
  iapply (wp_wand_r frame _ Set.univ)
  isplitl [HO CR26 AR26 CS00 AS00 RH20 Hout]
  · iapply (part28 m K c W27 v644 v786 v788 hr27.1 hr27.2)
    iframe
    isplitr; · iexact HR
    iexact Hlev
  iintro %u28 Hp
  icases Hp with ⟨⟨%W28, HO⟩, VR26, VS00, RH20, RP26, SP00, Hout⟩

  rw [Ofrom_nil]
  rw [k0_part29_eq_skeleton, k0_part30_eq_skeleton, k0_part31_eq_skeleton, k0_part32_eq_skeleton, k0_part33_eq_skeleton]
  unfold k0_part29_skel k0_part30_skel k0_part31_skel k0_part32_skel k0_part33_skel
  (first | sl_exec | skip)
  iapply (wp_waitSend' m K c 0 1 W28 ?hsm ?hcr) $$ HR CS01 HO AS01
  case hsm => rfl
  case hcr => exact Np_zero.symm
  iintro ⟨HO, VS01, SP01⟩
  (first | sl_exec | skip)
  iapply (wp_waitSend' m K c 0 2 _ ?hsm ?hcr) $$ HR CS02 HO AS02
  case hsm => rfl
  case hcr => exact Np_zero.symm
  iintro ⟨HO, VS02, SP02⟩
  (first | sl_exec | skip)
  iapply (wp_waitSend' m K c 0 3 _ ?hsm ?hcr) $$ HR CS03 HO AS03
  case hsm => rfl
  case hcr => exact Np_zero.symm
  iintro ⟨HO, VS03, SP03⟩
  (first | sl_exec | skip)
  iapply (wp_waitSend' m K c 0 4 _ ?hsm ?hcr) $$ HR CS04 HO AS04
  case hsm => rfl
  case hcr => exact Np_zero.symm
  iintro ⟨HO, VS04, SP04⟩
  (first | sl_exec | skip)
  iapply (wp_waitSend' m K c 0 5 _ ?hsm ?hcr) $$ HR CS05 HO AS05
  case hsm => rfl
  case hcr => exact Np_zero.symm
  iintro ⟨HO, VS05, SP05⟩
  (first | sl_exec | skip)
  iapply (wp_waitSend' m K c 0 6 _ ?hsm ?hcr) $$ HR CS06 HO AS06
  case hsm => rfl
  case hcr => exact Np_zero.symm
  iintro ⟨HO, VS06, SP06⟩
  (first | sl_exec | skip)
  iapply (wp_waitSend' m K c 1 0 _ ?hsm ?hcr) $$ HR CS10 HO AS10
  case hsm => rfl
  case hcr => rw [Np_of_ne (by decide)]
  iintro ⟨HO, VS10, SP10⟩
  (first | sl_exec | skip)
  iapply (wp_waitSend' m K c 1 1 _ ?hsm ?hcr) $$ HR CS11 HO AS11
  case hsm => rfl
  case hcr => rw [Np_of_ne (by decide)]
  iintro ⟨HO, VS11, SP11⟩
  (first | sl_exec | skip)
  iapply (wp_waitSend' m K c 1 2 _ ?hsm ?hcr) $$ HR CS12 HO AS12
  case hsm => rfl
  case hcr => rw [Np_of_ne (by decide)]
  iintro ⟨HO, VS12, SP12⟩
  (first | sl_exec | skip)
  iapply (wp_waitSend' m K c 1 3 _ ?hsm ?hcr) $$ HR CS13 HO AS13
  case hsm => rfl
  case hcr => rw [Np_of_ne (by decide)]
  iintro ⟨HO, VS13, SP13⟩
  (first | sl_exec | skip)
  iapply (wp_waitSend' m K c 1 4 _ ?hsm ?hcr) $$ HR CS14 HO AS14
  case hsm => rfl
  case hcr => rw [Np_of_ne (by decide)]
  iintro ⟨HO, VS14, SP14⟩
  (first | sl_exec | skip)
  iapply (wp_waitSend' m K c 1 5 _ ?hsm ?hcr) $$ HR CS15 HO AS15
  case hsm => rfl
  case hcr => rw [Np_of_ne (by decide)]
  iintro ⟨HO, VS15, SP15⟩
  (first | sl_exec | skip)
  iapply (wp_waitSend' m K c 1 6 _ ?hsm ?hcr) $$ HR CS16 HO AS16
  case hsm => rfl
  case hcr => rw [Np_of_ne (by decide)]
  iintro ⟨HO, VS16, SP16⟩
  (first | sl_exec | skip)
  iapply (wp_waitSend' m K c 2 0 _ ?hsm ?hcr) $$ HR CS20 HO AS20
  case hsm => rfl
  case hcr => rw [Np_of_ne (by decide)]
  iintro ⟨HO, VS20, SP20⟩
  (first | sl_exec | skip)
  iapply (wp_waitSend' m K c 2 1 _ ?hsm ?hcr) $$ HR CS21 HO AS21
  case hsm => rfl
  case hcr => rw [Np_of_ne (by decide)]
  iintro ⟨HO, VS21, SP21⟩
  (first | sl_exec | skip)
  iapply (wp_waitSend' m K c 2 2 _ ?hsm ?hcr) $$ HR CS22 HO AS22
  case hsm => rfl
  case hcr => rw [Np_of_ne (by decide)]
  iintro ⟨HO, VS22, SP22⟩
  (first | sl_exec | skip)
  iapply (wp_waitSend' m K c 2 3 _ ?hsm ?hcr) $$ HR CS23 HO AS23
  case hsm => rfl
  case hcr => rw [Np_of_ne (by decide)]
  iintro ⟨HO, VS23, SP23⟩
  (first | sl_exec | skip)
  iapply (wp_waitSend' m K c 2 4 _ ?hsm ?hcr) $$ HR CS24 HO AS24
  case hsm => rfl
  case hcr => rw [Np_of_ne (by decide)]
  iintro ⟨HO, VS24, SP24⟩
  (first | sl_exec | skip)
  iapply (wp_waitSend' m K c 2 5 _ ?hsm ?hcr) $$ HR CS25 HO AS25
  case hsm => rfl
  case hcr => rw [Np_of_ne (by decide)]
  iintro ⟨HO, VS25, SP25⟩
  (first | sl_exec | skip)
  iapply (wp_waitSend' m K c 2 6 _ ?hsm ?hcr) $$ HR CS26 HO AS26
  case hsm => rfl
  case hcr => rw [Np_of_ne (by decide)]
  iintro ⟨HO, VS26, SP26⟩
  (first | sl_exec | skip)
  (first | sl_step | (rw [wp_ret]; imodintro) | skip)
  ihave Hcc := (reassemble m c) $$ [H16 SP00 SP01 SP02 SP03 SP04 SP05 SP06 SP10 SP11 SP12 SP13 SP14 SP15 SP16 SP20 SP21 SP22 SP23 SP24 SP25 SP26
      RH00 RH10 RH20 RP04 RP05 RP06 RP14 RP15 RP16 RP24 RP25 RP26
      VS00 VR00 VS01 VR01 VS02 VR02 VS03 VR03 VS04 VR04 VS05 VR05 VS06 VR06
      VS10 VR10 VS11 VR11 VS12 VR12 VS13 VR13 VS14 VR14 VS15 VR15 VS16 VR16
      VS20 VR20 VS21 VR21 VS22 VR22 VS23 VR23 VS24 VR24 VS25 VR25 VS26 VR26]
  · iframe
  iapply Hk
  isplitl [Hcc]; · iexact Hcc
  isplitl [HO]
  · iexists _; iexact HO
  isplitl [HA]; · iexact HA
  isplitl [HB]; · iexact HB
  iexact Hout

set_option maxRecDepth 100000 in

theorem body_obligation (c : Dev nD) : BodyObligation (dats (F := F) m 0 c) (defs₀ (F := F)) 𝒱₀ () Set.univ :=
  body_obligation_of m (sound_body m) c

end Cert.KernelIdeal.Proto

end
-- ==== Proof.MeshW.lean ====
import proofs.«900895_g7700000000000896_dist_matmul_mk_i_outk_m2048_n2048_k1024_v7x_i8_f32_1_alg».proof.Proof.Gen.Kernel

noncomputable section

namespace Cert.Kernel.Mesh

open Idealize.ShloMosaic Cert.Kernel

def mask : Fin 3 → Nat := ![1, 3, 4]

/-- XOR of a device's position with the mask of index x. -/
def peer (x : Fin 3) (c : Dev nD) : Dev nD := ⟨(c.val ^^^ mask x) % 8, Nat.mod_lt _ (by decide)⟩

theorem peer_peer (x : Fin 3) (c : Dev nD) : peer x (peer x c) = c := by revert x c; decide

def peerEquiv (x : Fin 3) : Dev nD ≃ Dev nD := ⟨peer x, peer x, peer_peer x, peer_peer x⟩

/-- XOR of a device's position with a three-bit word. -/
def chunk (q : Fin 8) (c : Dev nD) : Dev nD := ⟨(c.val ^^^ q.val) % 8, Nat.mod_lt _ (by decide)⟩

/-- A device named by a position that is a neighbour's position is that neighbour. -/
theorem mk_eq {f : Dev nD → Nat} {x : Fin 3} (h : ∀ c, f c = (peer x c).val) (c : Dev nD) (hl : f c < nD) :
    (⟨f c, hl⟩ : Dev nD) = peer x c := Fin.ext (h c)

section
variable [Facts]
open Facts₀

theorem dev1_eq (c : Dev nD) : (⟨k0_dev1 c, k0_dev1_lt c⟩ : Dev nD) = peer 0 c := mk_eq (by decide) c _
theorem dev2_eq (c : Dev nD) : (⟨k0_dev2 c, k0_dev2_lt c⟩ : Dev nD) = peer 1 c := mk_eq (by decide) c _
theorem dev3_eq (c : Dev nD) : (⟨k0_dev3 c, k0_dev3_lt c⟩ : Dev nD) = peer 2 c := mk_eq (by decide) c _
theorem dev4_eq (c : Dev nD) : (⟨k0_dev4 c, k0_dev4_lt c⟩ : Dev nD) = peer 0 c := mk_eq (by decide) c _
theorem dev5_eq (c : Dev nD) : (⟨k0_dev5 c, k0_dev5_lt c⟩ : Dev nD) = peer 1 c := mk_eq (by decide) c _
theorem dev6_eq (c : Dev nD) : (⟨k0_dev6 c, k0_dev6_lt c⟩ : Dev nD) = peer 2 c := mk_eq (by decide) c _
theorem dev7_eq (c : Dev nD) : (⟨k0_dev7 c, k0_dev7_lt c⟩ : Dev nD) = peer 0 c := mk_eq (by decide) c _
theorem dev8_eq (c : Dev nD) : (⟨k0_dev8 c, k0_dev8_lt c⟩ : Dev nD) = peer 1 c := mk_eq (by decide) c _
theorem dev9_eq (c : Dev nD) : (⟨k0_dev9 c, k0_dev9_lt c⟩ : Dev nD) = peer 2 c := mk_eq (by decide) c _
theorem dev10_eq (c : Dev nD) : (⟨k0_dev10 c, k0_dev10_lt c⟩ : Dev nD) = peer 0 c := mk_eq (by decide) c _
theorem dev11_eq (c : Dev nD) : (⟨k0_dev11 c, k0_dev11_lt c⟩ : Dev nD) = peer 1 c := mk_eq (by decide) c _
theorem dev12_eq (c : Dev nD) : (⟨k0_dev12 c, k0_dev12_lt c⟩ : Dev nD) = peer 2 c := mk_eq (by decide) c _
theorem dev13_eq (c : Dev nD) : (⟨k0_dev13 c, k0_dev13_lt c⟩ : Dev nD) = peer 0 c := mk_eq (by decide) c _
theorem dev14_eq (c : Dev nD) : (⟨k0_dev14 c, k0_dev14_lt c⟩ : Dev nD) = peer 1 c := mk_eq (by decide) c _
theorem dev15_eq (c : Dev nD) : (⟨k0_dev15 c, k0_dev15_lt c⟩ : Dev nD) = peer 2 c := mk_eq (by decide) c _
theorem dev16_eq (c : Dev nD) : (⟨k0_dev16 c, k0_dev16_lt c⟩ : Dev nD) = peer 1 c := mk_eq (by decide) c _
theorem dev17_eq (c : Dev nD) : (⟨k0_dev17 c, k0_dev17_lt c⟩ : Dev nD) = peer 1 c := mk_eq (by decide) c _
theorem dev18_eq (c : Dev nD) : (⟨k0_dev18 c, k0_dev18_lt c⟩ : Dev nD) = peer 2 c := mk_eq (by decide) c _
theorem dev19_eq (c : Dev nD) : (⟨k0_dev19 c, k0_dev19_lt c⟩ : Dev nD) = peer 2 c := mk_eq (by decide) c _
theorem dev20_eq (c : Dev nD) : (⟨k0_dev20 c, k0_dev20_lt c⟩ : Dev nD) = peer 0 c := mk_eq (by decide) c _
theorem dev21_eq (c : Dev nD) : (⟨k0_dev21 c, k0_dev21_lt c⟩ : Dev nD) = peer 0 c := mk_eq (by decide) c _
theorem dev22_eq (c : Dev nD) : (⟨k0_dev22 c, k0_dev22_lt c⟩ : Dev nD) = peer 2 c := mk_eq (by decide) c _
theorem dev23_eq (c : Dev nD) : (⟨k0_dev23 c, k0_dev23_lt c⟩ : Dev nD) = peer 0 c := mk_eq (by decide) c _
theorem dev24_eq (c : Dev nD) : (⟨k0_dev24 c, k0_dev24_lt c⟩ : Dev nD) = peer 1 c := mk_eq (by decide) c _

end

end Cert.Kernel.Mesh

end
-- ==== Proof.ProtoW.lean ====
import proofs.«900895_g7700000000000896_dist_matmul_mk_i_outk_m2048_n2048_k1024_v7x_i8_f32_1_alg».proof.Proof.MeshW
import proofs.«900895_g7700000000000896_dist_matmul_mk_i_outk_m2048_n2048_k1024_v7x_i8_f32_1_alg».proof.Proof.Gen.Kernel.Skeleton
import proofs.«900895_g7700000000000896_dist_matmul_mk_i_outk_m2048_n2048_k1024_v7x_i8_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

def slotMask (p : Fin 3) (i : Fin 7) : Fin 3 :=
  if i.val < 4 then p else if i.val < 6 then p + 1 else p + 2

abbrev barS : Sem sig := (SemArray.scalar (sig.barrier 0 rfl) : Sems sig S_).sem

theorem sSem_lt (p : Fin 3) (i : Fin 7) : 3 + 14 * p.val + i.val < sig.nDmaSem := by revert p i; decide
theorem rSem_lt (p : Fin 3) (i : Fin 7) : 10 + 14 * p.val + i.val < sig.nDmaSem := by revert p i; decide

abbrev sSem (p : Fin 3) (i : Fin 7) : DmaSem sig := ⟨3 + 14 * p.val + i.val, sSem_lt p i⟩
abbrev rSem (p : Fin 3) (i : Fin 7) : DmaSem sig := ⟨10 + 14 * p.val + i.val, rSem_lt p i⟩

abbrev barCell (c : Dev nD) : GSem nD τ sig := ((c : Thread nD τ), .reg barS)
abbrev sendCell (c : Dev nD) (p : Fin 3) (i : Fin 7) : GSem nD τ sig := ((c : Thread nD τ), .dma (sSem p i))
abbrev recvCell (c : Dev nD) (p : Fin 3) (i : Fin 7) : GSem nD τ sig := ((c : Thread nD τ), .dma (rSem p i))

abbrev aM : Memref sig .tc .vmem S2048x1024 .f32 := Memref.whole cc0_stg0_0
abbrev bM : Memref sig .tc .vmem S1024x2048 .f32 := Memref.whole cc0_stg1_0
abbrev oM : Memref sig .tc .vmem S256x2048 .f32 := Memref.whole cc0_stg2_0
abbrev b16M : Memref sig .tc .vmem S1024x2048 .bf16 := Memref.whole cc0_scratch6
abbrev sndM0 : Memref sig .tc .vmem S4x96x2048 .bf16 := Memref.whole cc0_scratch0
abbrev rcvM0 : Memref sig .tc .vmem S7x96x2048 .bf16 := Memref.whole cc0_scratch1
abbrev sndM1 : Memref sig .tc .vmem S4x80x2048 .bf16 := Memref.whole cc0_scratch2
abbrev rcvM1 : Memref sig .tc .vmem S7x80x2048 .bf16 := Memref.whole cc0_scratch3
abbrev sndM2 : Memref sig .tc .vmem S4x80x2048 .bf16 := Memref.whole cc0_scratch4
abbrev rcvM2 : Memref sig .tc .vmem S7x80x2048 .bf16 := Memref.whole cc0_scratch5

/-- A part of the body applied to the device's own buffers, each whole, and its six semaphore arrays. -/

abbrev atBufs {α : Type 1} (p : (a0 : Memref sig .tc .vmem S2048x1024 .f32) → a0.IsWhole → (a1 : Memref sig .tc .vmem S1024x2048 .f32) → a1.IsWhole
    → (a2 : Memref sig .tc .vmem S256x2048 .f32) → a2.IsWhole → (a3 : Memref sig .tc .vmem S4x96x2048 .bf16) → a3.IsWhole
    → (a4 : Memref sig .tc .vmem S7x96x2048 .bf16) → a4.IsWhole → (a5 : Memref sig .tc .vmem S4x80x2048 .bf16) → a5.IsWhole
    → (a6 : Memref sig .tc .vmem S7x80x2048 .bf16) → a6.IsWhole → (a7 : Memref sig .tc .vmem S4x80x2048 .bf16) → a7.IsWhole
    → (a8 : Memref sig .tc .vmem S7x80x2048 .bf16) → a8.IsWhole → (a9 : Memref sig .tc .vmem S1024x2048 .bf16) → a9.IsWhole
    → DmaSems sig S7 → DmaSems sig S7 → DmaSems sig S7 → DmaSems sig S7 → DmaSems sig S7 → DmaSems sig S7 → α) : α :=
  p aM (Memref.isWhole_whole _) bM (Memref.isWhole_whole _) oM (Memref.isWhole_whole _) sndM0 (Memref.isWhole_whole _)
    rcvM0 (Memref.isWhole_whole _) sndM1 (Memref.isWhole_whole _) rcvM1 (Memref.isWhole_whole _) sndM2 (Memref.isWhole_whole _)
    rcvM2 (Memref.isWhole_whole _) b16M (Memref.isWhole_whole _) cc0_scratch7 cc0_scratch8 cc0_scratch9 cc0_scratch10 cc0_scratch11
    cc0_scratch12

theorem inbS96 : ∀ (i : Fin 4) a, (![i.val, 0, 0] : Fin 3 → Nat) a + S1x96x2048.size a ≤ S4x96x2048.size a := by decide
theorem inbR96 : ∀ (i : Fin 7) a, (![i.val, 0, 0] : Fin 3 → Nat) a + S1x96x2048.size a ≤ S7x96x2048.size a := by decide
theorem inbS80 : ∀ (i : Fin 4) a, (![i.val, 0, 0] : Fin 3 → Nat) a + S1x80x2048.size a ≤ S4x80x2048.size a := by decide
theorem inbR80 : ∀ (i : Fin 7) a, (![i.val, 0, 0] : Fin 3 → Nat) a + S1x80x2048.size a ≤ S7x80x2048.size a := by decide

abbrev sRect96 (i : Fin 4) : Rect S4x96x2048 := Rect.unit (s := S4x96x2048) ![i.val, 0, 0] S1x96x2048.size (inbS96 i)
abbrev rRect96 (i : Fin 7) : Rect S7x96x2048 := Rect.unit (s := S7x96x2048) ![i.val, 0, 0] S1x96x2048.size (inbR96 i)
abbrev sRect80 (i : Fin 4) : Rect S4x80x2048 := Rect.unit (s := S4x80x2048) ![i.val, 0, 0] S1x80x2048.size (inbS80 i)
abbrev rRect80 (i : Fin 7) : Rect S7x80x2048 := Rect.unit (s := S7x80x2048) ![i.val, 0, 0] S1x80x2048.size (inbR80 i)

abbrev sSlot96 {κ : Kind} (b : Memref sig κ .vmem S4x96x2048 .bf16) (i : Fin 4) : Memref sig κ .vmem S96x2048 .bf16 :=
  (b.slice (sRect96 i) (fun _ => rfl)).squeeze S96x2048 squeezes_S1x96x2048_S96x2048
abbrev rSlot96 {κ : Kind} (b : Memref sig κ .vmem S7x96x2048 .bf16) (i : Fin 7) : Memref sig κ .vmem S96x2048 .bf16 :=
  (b.slice (rRect96 i) (fun _ => rfl)).squeeze S96x2048 squeezes_S1x96x2048_S96x2048
abbrev sSlot80 {κ : Kind} (b : Memref sig κ .vmem S4x80x2048 .bf16) (i : Fin 4) : Memref sig κ .vmem S80x2048 .bf16 :=
  (b.slice (sRect80 i) (fun _ => rfl)).squeeze S80x2048 squeezes_S1x80x2048_S80x2048
abbrev rSlot80 {κ : Kind} (b : Memref sig κ .vmem S7x80x2048 .bf16) (i : Fin 7) : Memref sig κ .vmem S80x2048 .bf16 :=
  (b.slice (rRect80 i) (fun _ => rfl)).squeeze S80x2048 squeezes_S1x80x2048_S80x2048

variable (m : (ℓ : Loc nD τ sig) → Buf (Elt F) ℓ)

def Ablk (c : Dev nD) : (cc0_stg0_0 : Ref sig .tc).ty.Contents (Elt F) :=
  (win0_0.blk (0 : Fin 1)).view.read (Elt F) (m ((c : Thread nD τ).loc main_arg0))
def Bblk (c : Dev nD) : (cc0_stg1_0 : Ref sig .tc).ty.Contents (Elt F) :=
  (win0_1.blk (0 : Fin 1)).view.read (Elt F) (m ((c : Thread nD τ).loc main_arg1))

abbrev wholeB : Rect S1024x2048 := Rect.unit (s := S1024x2048) ![0, 0] S1024x2048.size inb_S1024x2048_S1024x2048_0_0

def b16V (c : Dev nD) : FVec F S1024x2048 .bf16 := k0_pay1 (bM.view.readAt (Elt F) wholeB.toLoadRect (Bblk m c))

def aRows96 (c : Dev nD) (q : Fin 8) : Vec F S96x1024 .f32 :=
  aM.view.readAt (Elt F) (Rect.unit (s := S2048x1024) (k0_off1 c (BitVec.ofNat 32 q.val)) S96x1024.size (k0_off1_inb c q)).toLoadRect (Ablk m c)
def aRows80 (c : Dev nD) (q : Fin 8) (r₂ : Fin 2) : Vec F S80x1024 .f32 :=
  aM.view.readAt (Elt F) (Rect.unit (s := S2048x1024) (k0_off2 c (BitVec.ofNat 32 q.val) (BitVec.ofNat 32 (96 + 80 * r₂.val))) S80x1024.size (k0_off2_inb c q r₂)).toLoadRect (Ablk m c)

def pv96 (c : Dev nD) (q : Fin 8) : FVec F S96x2048 .bf16 := k0_pay21 (aRows96 m c q) (b16V m c)
def pv80 (c : Dev nD) (q : Fin 8) (r₂ : Fin 2) : FVec F S80x2048 .bf16 := k0_pay23 (aRows80 m c q r₂) (b16V m c)

def qS : Fin 3 → Fin 4 → Fin 8 := ![![1, 2, 5, 6], ![3, 7, 2, 6], ![4, 5, 7, 6]]
def qA : Fin 3 → Fin 4 → Fin 8 := ![![0, 3, 4, 7], ![0, 4, 1, 5], ![0, 1, 3, 2]]
def r2 : Fin 3 → Fin 2 := ![0, 0, 1]

def sv96 (x : FVec F S96x2048 .bf16) : FVec F S1x96x2048 .bf16 := shapeCast S1x96x2048 x shapeCasts_S96x2048_S1x96x2048

def L96 (c : Dev nD) (j : Fin 4) : FVec F S1x96x2048 .bf16 := sv96 (pv96 m (peer 0 c) (qS 0 j))
def A1_96 (c : Dev nD) : FVec F S1x96x2048 .bf16 := k0_pay22 (pv96 m c (qA 0 1)) (L96 m c 1)
def A3_96 (c : Dev nD) : FVec F S1x96x2048 .bf16 := k0_pay22 (pv96 m c (qA 0 3)) (L96 m c 3)
def A2_96 (c : Dev nD) : FVec F S1x96x2048 .bf16 := k0_pay28 (pv96 m c (qA 0 2)) (L96 m c 2) (A3_96 m (peer 1 c))
def A0_96 (c : Dev nD) : FVec F S1x96x2048 .bf16 := k0_pay28 (pv96 m c (qA 0 0)) (L96 m c 0) (A1_96 m (peer 1 c))
def O96 (c : Dev nD) : FVec F S96x2048 .f32 := k0_pay39 (A0_96 m c) (A2_96 m (peer 2 c))

def L80 (p : Fin 3) (c : Dev nD) (j : Fin 4) : FVec F S1x80x2048 .bf16 := k0_pay9 (pv80 m (peer p c) (qS p j) (r2 p))
def A1_80 (p : Fin 3) (c : Dev nD) : FVec F S1x80x2048 .bf16 := k0_pay24 (pv80 m c (qA p 1) (r2 p)) (L80 m p c 1)
def A3_80 (p : Fin 3) (c : Dev nD) : FVec F S1x80x2048 .bf16 := k0_pay24 (pv80 m c (qA p 3) (r2 p)) (L80 m p c 3)
def A2_80 (p : Fin 3) (c : Dev nD) : FVec F S1x80x2048 .bf16 := k0_pay32 (pv80 m c (qA p 2) (r2 p)) (L80 m p c 2) (A3_80 m p (peer (p + 1) c))
def A0_80 (p : Fin 3) (c : Dev nD) : FVec F S1x80x2048 .bf16 := k0_pay32 (pv80 m c (qA p 0) (r2 p)) (L80 m p c 0) (A1_80 m p (peer (p + 1) c))
def O80 (p : Fin 3) (c : Dev nD) : FVec F S80x2048 .f32 := k0_pay43 (A0_80 m p c) (A2_80 m p (peer (p + 2) c))

def rFree96 (b : Memref sig .tc .vmem S7x96x2048 .bf16) (c : Dev nD) (i : Fin 7) : sProp 𝕄 :=
  iprop(∃ f, ((rSlot96 b i).view.loc (c : Thread nD τ) ↦[(rSlot96 b i).view.set]{fullShare} f))
def rFree80 (b : Memref sig .tc .vmem S7x80x2048 .bf16) (c : Dev nD) (i : Fin 7) : sProp 𝕄 :=
  iprop(∃ f, ((rSlot80 b i).view.loc (c : Thread nD τ) ↦[(rSlot80 b i).view.set]{fullShare} f))

def sFree96 (b : Memref sig .tc .vmem S4x96x2048 .bf16) (c : Dev nD) (i : Fin 4) : sProp 𝕄 :=
  iprop(∃ f, ((sSlot96 b i).view.loc (c : Thread nD τ) ↦[(sSlot96 b i).view.set]{fullShare} f))
def sFree80 (b : Memref sig .tc .vmem S4x80x2048 .bf16) (c : Dev nD) (i : Fin 4) : sProp 𝕄 :=
  iprop(∃ f, ((sSlot80 b i).view.loc (c : Thread nD τ) ↦[(sSlot80 b i).view.set]{fullShare} f))

def rHolds96 (b : Memref sig .tc .vmem S7x96x2048 .bf16) (c : Dev nD) (i : Fin 7) (w : Vec F S1x96x2048 .bf16) : sProp 𝕄 :=
  iprop(∃ f, ((rSlot96 b i).view.loc (c : Thread nD τ) ↦[(rSlot96 b i).view.set]{fullShare} f)
    ∗ ⌜b.view.readAt (Elt F) (rRect96 i).toLoadRect f = w⌝)
def rHolds80 (b : Memref sig .tc .vmem S7x80x2048 .bf16) (c : Dev nD) (i : Fin 7) (w : Vec F S1x80x2048 .bf16) : sProp 𝕄 :=
  iprop(∃ f, ((rSlot80 b i).view.loc (c : Thread nD τ) ↦[(rSlot80 b i).view.set]{fullShare} f)
    ∗ ⌜b.view.readAt (Elt F) (rRect80 i).toLoadRect f = w⌝)
def sHolds96 (b : Memref sig .tc .vmem S4x96x2048 .bf16) (c : Dev nD) (i : Fin 4) (w : Vec F S1x96x2048 .bf16) : sProp 𝕄 :=
  iprop(∃ f, ((sSlot96 b i).view.loc (c : Thread nD τ) ↦[(sSlot96 b i).view.set]{fullShare} f)
    ∗ ⌜b.view.readAt (Elt F) (sRect96 i).toLoadRect f = w⌝)
def sHolds80 (b : Memref sig .tc .vmem S4x80x2048 .bf16) (c : Dev nD) (i : Fin 4) (w : Vec F S1x80x2048 .bf16) : sProp 𝕄 :=
  iprop(∃ f, ((sSlot80 b i).view.loc (c : Thread nD τ) ↦[(sSlot80 b i).view.set]{fullShare} f)
    ∗ ⌜b.view.readAt (Elt F) (sRect80 i).toLoadRect f = w⌝)

abbrev rcvM80 (p : Fin 3) : Memref sig .tc .vmem S7x80x2048 .bf16 := if p = 2 then rcvM2 else rcvM1
abbrev sndM80 (p : Fin 3) : Memref sig .tc .vmem S4x80x2048 .bf16 := if p = 2 then sndM2 else sndM1

def decode (k : DmaSem sig) : Option (Bool × Fin 3 × Fin 7) :=
  if 3 ≤ k.val then
    some (decide (7 ≤ (k.val - 3) % 14), ⟨((k.val - 3) / 14) % 3, Nat.mod_lt _ (by decide)⟩, ⟨(k.val - 3) % 7, Nat.mod_lt _ (by decide)⟩)
  else none

theorem decode_sSem (p : Fin 3) (i : Fin 7) : decode (sSem p i) = some (false, p, i) := by revert p i; decide
theorem decode_rSem (p : Fin 3) (i : Fin 7) : decode (rSem p i) = some (true, p, i) := by revert p i; decide

abbrev N96 : ℕ := (rSlot96 rcvM0 0).view.dmaCredit
abbrev N80 : ℕ := (rSlot80 rcvM1 0).view.dmaCredit
theorem N96_pos : 0 < N96 := View.dmaCredit_pos _ (by decide)
theorem N80_pos : 0 < N80 := View.dmaCredit_pos _ (by decide)
def Np (p : Fin 3) : ℕ := if p = 0 then N96 else N80

def landed96 (c : Dev nD) : Fin 7 → FVec F S1x96x2048 .bf16 := fun
  | 0 => L96 m c 0 | 1 => L96 m c 1 | 2 => L96 m c 2 | 3 => L96 m c 3
  | 4 => A1_96 m (peer 1 c) | 5 => A3_96 m (peer 1 c) | 6 => A2_96 m (peer 2 c)
  | ⟨_ + 7, h⟩ => absurd h (Nat.not_lt.2 (Nat.le_add_left _ _))
def landed80 (p : Fin 3) (c : Dev nD) : Fin 7 → FVec F S1x80x2048 .bf16 := fun
  | 0 => L80 m p c 0 | 1 => L80 m p c 1 | 2 => L80 m p c 2 | 3 => L80 m p c 3
  | 4 => A1_80 m p (peer (p + 1) c) | 5 => A3_80 m p (peer (p + 1) c) | 6 => A2_80 m p (peer (p + 2) c)
  | ⟨_ + 7, h⟩ => absurd h (Nat.not_lt.2 (Nat.le_add_left _ _))

def recvPay (c : Dev nD) (p : Fin 3) (i : Fin 7) : sProp 𝕄 :=
  if p = 0 then rHolds96 rcvM0 c i (landed96 m c i) else rHolds80 (rcvM80 p) c i (landed80 m p c i)

def sendPay96 (c : Dev nD) : Fin 7 → sProp 𝕄 := fun
  | 0 => sHolds96 sndM0 c 0 (sv96 (pv96 m c (qS 0 0))) | 1 => sHolds96 sndM0 c 1 (sv96 (pv96 m c (qS 0 1)))
  | 2 => sHolds96 sndM0 c 2 (sv96 (pv96 m c (qS 0 2))) | 3 => sHolds96 sndM0 c 3 (sv96 (pv96 m c (qS 0 3)))
  | 4 => rHolds96 rcvM0 c 1 (A1_96 m c) | 5 => rHolds96 rcvM0 c 3 (A3_96 m c) | 6 => rHolds96 rcvM0 c 2 (A2_96 m c)
  | ⟨_ + 7, h⟩ => absurd h (Nat.not_lt.2 (Nat.le_add_left _ _))
def sendPay80 (p : Fin 3) (c : Dev nD) : Fin 7 → sProp 𝕄 := fun
  | 0 => sHolds80 (sndM80 p) c 0 (k0_pay9 (pv80 m c (qS p 0) (r2 p))) | 1 => sHolds80 (sndM80 p) c 1 (k0_pay9 (pv80 m c (qS p 1) (r2 p)))
  | 2 => sHolds80 (sndM80 p) c 2 (k0_pay9 (pv80 m c (qS p 2) (r2 p))) | 3 => sHolds80 (sndM80 p) c 3 (k0_pay9 (pv80 m c (qS p 3) (r2 p)))
  | 4 => rHolds80 (rcvM80 p) c 1 (A1_80 m p c) | 5 => rHolds80 (rcvM80 p) c 3 (A3_80 m p c) | 6 => rHolds80 (rcvM80 p) c 2 (A2_80 m p c)
  | ⟨_ + 7, h⟩ => absurd h (Nat.not_lt.2 (Nat.le_add_left _ _))
def sendPay (c : Dev nD) (p : Fin 3) (i : Fin 7) : sProp 𝕄 := if p = 0 then sendPay96 m c i else sendPay80 m p c i

def freeStage96 (b : Memref sig .tc .vmem S7x96x2048 .bf16) (e : Dev nD) : Fin 3 → sProp 𝕄 := fun
  | 0 => iprop(rFree96 b e 0 ∗ rFree96 b e 1 ∗ rFree96 b e 2 ∗ rFree96 b e 3)
  | 1 => iprop(rFree96 b e 4 ∗ rFree96 b e 5)
  | 2 => rFree96 b e 6
  | ⟨_ + 3, h⟩ => absurd h (Nat.not_lt.2 (Nat.le_add_left _ _))
def freeStage80 (b : Memref sig .tc .vmem S7x80x2048 .bf16) (e : Dev nD) : Fin 3 → sProp 𝕄 := fun
  | 0 => iprop(rFree80 b e 0 ∗ rFree80 b e 1 ∗ rFree80 b e 2 ∗ rFree80 b e 3)
  | 1 => iprop(rFree80 b e 4 ∗ rFree80 b e 5)
  | 2 => rFree80 b e 6
  | ⟨_ + 3, h⟩ => absurd h (Nat.not_lt.2 (Nat.le_add_left _ _))

def barPay (c : Dev nD) (x : Fin 3) : sProp 𝕄 :=
  iprop(freeStage96 rcvM0 (peer x c) x ∗ freeStage80 rcvM1 (peer x c) (x - 1) ∗ freeStage80 rcvM2 (peer x c) (x - 2))

def isXfer : SemLoc sig → Bool | .dma k => decide (3 ≤ k.val) | .reg _ => false

def Rd : Rounds.Schedule (GSem nD τ sig) (Fin 3) 𝕄 where
  duties g r := if r = 0 ∧ g.1.2 = .tc ∧ g.2 = .reg barS then Finset.univ else if r = 0 ∧ g.1.2 = .tc ∧ isXfer g.2 = true then {0} else ∅
  unitless _ := False
  amount g _ _ := match g.2 with | .reg _ => 1 | .dma k => if (k.val - 3) / 14 = 0 then N96 else N80
  payload g _ d := match g.2 with
    | .reg _ => barPay g.1.1 d
    | .dma k => match decode k with
      | some (false, p, i) => sendPay m g.1.1 p i
      | some (true, p, i) => recvPay m g.1.1 p i
      | none => iprop(emp)
  amount_pos g _ _ _ := by
    cases g.2 with
    | reg _ => exact Nat.one_pos
    | dma k => dsimp only; split; exact N96_pos; exact N80_pos

def O₀ (c : Dev nD) : CellTallies nD τ sig Unit :=
  (∑ x : Fin 3, tallyAt (barCell (peer x c)) () 1)
    + ∑ pi : Fin 3 × Fin 7, tallyAt (recvCell (peer (slotMask pi.1 pi.2) c) pi.1 pi.2) () (Np pi.1)

def L (g : GSem nD τ sig) : Finset Unit := if g.1.2 = .tc then {()} else ∅
def lv (g : GSem nD τ sig) (_ : Unit) : ℕ := match g.2 with
  | .reg s => if s = barS then 1 else 0
  | .dma k => match decode k with
    | some (true, _, i) => if i.val < 4 then 2 else if i.val < 6 then 3 else 4
    | _ => 0

abbrev CK : Type := Dev nD × Option (Bool × Fin 3 × Fin 7)
def ksem : Option (Bool × Fin 3 × Fin 7) → SemLoc sig
  | none => .reg barS
  | some (false, p, i) => .dma (sSem p i)
  | some (true, p, i) => .dma (rSem p i)
abbrev kcell (ck : CK) : GSem nD τ sig := ((ck.1 : Thread nD τ), ksem ck.2)

def records (K : CK → ℕ) : sProp 𝕄 :=
  iprop((bigSep Finset.univ fun ck : CK => cellInv ER (Rd m) (K ck) (kcell ck))
    ∗ bigSep Finset.univ fun ck : CK => reached ER (kcell ck) 0)

instance records_persistent (K : CK → ℕ) : BI.Persistent (records m K) := by unfold records; infer_instance

def payToks (c : Dev nD) : sProp 𝕄 :=
  iprop((bigSep Finset.univ fun x : Fin 3 => dutyTok ER (barCell (peer x c)) 0 x)
    ∗ bigSep Finset.univ fun pi : Fin 3 × Fin 7 =>
        iprop(dutyTok ER (sendCell c pi.1 pi.2) 0 (0 : Fin 3) ∗ dutyTok ER (recvCell (peer (slotMask pi.1 pi.2) c) pi.1 pi.2) 0 (0 : Fin 3)))
def positions (c : Dev nD) : sProp 𝕄 :=
  iprop(atPos ER (barCell c) 0 ∅ 0
    ∗ bigSep Finset.univ fun pi : Fin 3 × Fin 7 => iprop(atPos ER (sendCell c pi.1 pi.2) 0 ∅ 0 ∗ atPos ER (recvCell c pi.1 pi.2) 0 ∅ 0))
def ghost (K : CK → ℕ) (c : Dev nD) : sProp 𝕄 := iprop(records m K ∗ positions c ∗ payToks c)

def credits (c : Dev nD) : sProp 𝕄 :=
  iprop(cred (tallyAt (barCell c) () 3) ∗ bigSep Finset.univ fun pi : Fin 3 × Fin 7 => cred (tallyAt (recvCell c pi.1 pi.2) () (Np pi.1)))

def start (c : Dev nD) : sProp 𝕄 := iprop((∃ K, ghost m K c) ∗ credits c ∗ levAts L lv)

def freeBuf {s : Shape} {e : EltTy} (b : Memref sig .tc .vmem s e) (c : Dev nD) : sProp 𝕄 :=
  iprop(∃ f, (b.view.loc (c : Thread nD τ) ↦[b.view.set]{fullShare} f))
def scratch (c : Dev nD) : sProp 𝕄 :=
  iprop(freeBuf sndM0 c ∗ freeBuf rcvM0 c ∗ freeBuf sndM1 c ∗ freeBuf rcvM1 c ∗ freeBuf sndM2 c ∗ freeBuf rcvM2 c ∗ freeBuf b16M c)

def Φ₀ (c : Dev nD) : sProp 𝕄 := iprop(start m c ∗ scratch c)
def Φ₁ (c : Dev nD) : sProp 𝕄 :=
  iprop(scratch c ∗ bigSep Finset.univ fun pi : Fin 3 × Fin 7 => iprop(semVal (sendCell c pi.1 pi.2) 0 ∗ semVal (recvCell c pi.1 pi.2) 0))

abbrev rO0 : Rect S256x2048 := Rect.unit (s := S256x2048) ![0, 0] S96x2048.size inb_S256x2048_S96x2048_0_0
abbrev rO1 : Rect S256x2048 := Rect.unit (s := S256x2048) ![96, 0] S80x2048.size inb_S256x2048_S80x2048_96_0
abbrev rO2 : Rect S256x2048 := Rect.unit (s := S256x2048) ![176, 0] S80x2048.size inb_S256x2048_S80x2048_176_0

def outV (c : Dev nD) : (cc0_stg2_0 : Ref sig .tc).ty.Contents (Elt F) :=
  ((oM.access rO2 : View sig .tc _ _ _)).write (Elt F)
    (((oM.access rO1 : View sig .tc _ _ _)).write (Elt F)
      (((oM.access rO0 : View sig .tc _ _ _)).write (Elt F) (View.junk (Val := Elt F) oM.view) (O96 m c) Finset.univ)
      (O80 m 1 c) Finset.univ)
    (O80 m 2 c) Finset.univ

def dats (_ : Fin 1) (c : Dev nD) : Dat τ (Elt F) Unit ℕ UU ℕ cfg0 c where
  A w := m ((cfg0.win w).arr.view.loc (c : Thread nD τ))
  after w _ := match w with
    | ⟨0, _⟩ => Ablk m c
    | ⟨1, _⟩ => Bblk m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Proto

end
-- ==== Proof.TablesW.lean ====
import proofs.«900895_g7700000000000896_dist_matmul_mk_i_outk_m2048_n2048_k1024_v7x_i8_f32_1_alg».proof.Proof.ProtoW

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance rFree96_storable (b : Memref sig .tc .vmem S7x96x2048 .bf16) (c : Dev nD) (i : Fin 7) :
    BI.Storable (upEmb : UEmb _ 𝕄) (rFree96 (F := F) b c i) := by unfold rFree96; infer_instance
instance rFree80_storable (b : Memref sig .tc .vmem S7x80x2048 .bf16) (c : Dev nD) (i : Fin 7) :
    BI.Storable (upEmb : UEmb _ 𝕄) (rFree80 (F := F) b c i) := by unfold rFree80; infer_instance
instance sFree96_storable (b : Memref sig .tc .vmem S4x96x2048 .bf16) (c : Dev nD) (i : Fin 4) :
    BI.Storable (upEmb : UEmb _ 𝕄) (sFree96 (F := F) b c i) := by unfold sFree96; infer_instance
instance sFree80_storable (b : Memref sig .tc .vmem S4x80x2048 .bf16) (c : Dev nD) (i : Fin 4) :
    BI.Storable (upEmb : UEmb _ 𝕄) (sFree80 (F := F) b c i) := by unfold sFree80; infer_instance
instance rHolds96_storable (b : Memref sig .tc .vmem S7x96x2048 .bf16) (c : Dev nD) (i : Fin 7) (w : Vec F S1x96x2048 .bf16) :
    BI.Storable (upEmb : UEmb _ 𝕄) (rHolds96 b c i w) := by unfold rHolds96; infer_instance
instance rHolds80_storable (b : Memref sig .tc .vmem S7x80x2048 .bf16) (c : Dev nD) (i : Fin 7) (w : Vec F S1x80x2048 .bf16) :
    BI.Storable (upEmb : UEmb _ 𝕄) (rHolds80 b c i w) := by unfold rHolds80; infer_instance
instance sHolds96_storable (b : Memref sig .tc .vmem S4x96x2048 .bf16) (c : Dev nD) (i : Fin 4) (w : Vec F S1x96x2048 .bf16) :
    BI.Storable (upEmb : UEmb _ 𝕄) (sHolds96 b c i w) := by unfold sHolds96; infer_instance
instance sHolds80_storable (b : Memref sig .tc .vmem S4x80x2048 .bf16) (c : Dev nD) (i : Fin 4) (w : Vec F S1x80x2048 .bf16) :
    BI.Storable (upEmb : UEmb _ 𝕄) (sHolds80 b c i w) := by unfold sHolds80; infer_instance

instance freeStage96_storable (b : Memref sig .tc .vmem S7x96x2048 .bf16) (e : Dev nD) (x : Fin 3) :
    BI.Storable (upEmb : UEmb _ 𝕄) (freeStage96 (F := F) b e x) := by
  unfold freeStage96; split <;> first | infer_instance | (exfalso; omega)
instance freeStage80_storable (b : Memref sig .tc .vmem S7x80x2048 .bf16) (e : Dev nD) (x : Fin 3) :
    BI.Storable (upEmb : UEmb _ 𝕄) (freeStage80 (F := F) b e x) := by
  unfold freeStage80; split <;> first | infer_instance | (exfalso; omega)

instance barPay_storable (c : Dev nD) (x : Fin 3) : BI.Storable (upEmb : UEmb _ 𝕄) (barPay (F := F) c x) := by
  unfold barPay; infer_instance

variable (m : (ℓ : Loc nD τ sig) → Buf (Elt F) ℓ)

instance recvPay_storable (c : Dev nD) (p : Fin 3) (i : Fin 7) : BI.Storable (upEmb : UEmb _ 𝕄) (recvPay m c p i) := by
  unfold recvPay; split <;> infer_instance
instance sendPay96_storable (c : Dev nD) (i : Fin 7) : BI.Storable (upEmb : UEmb _ 𝕄) (sendPay96 m c i) := by
  unfold sendPay96; split <;> first | infer_instance | (exfalso; omega)
instance sendPay80_storable (p : Fin 3) (c : Dev nD) (i : Fin 7) : BI.Storable (upEmb : UEmb _ 𝕄) (sendPay80 m p c i) := by
  unfold sendPay80; split <;> first | infer_instance | (exfalso; omega)
instance sendPay_storable (c : Dev nD) (p : Fin 3) (i : Fin 7) : BI.Storable (upEmb : UEmb _ 𝕄) (sendPay m c p i) := by
  unfold sendPay; split <;> infer_instance

instance Rd_payload_storable (g : GSem nD τ sig) (r : ℕ) (d : Fin 3) :
    BI.Storable (upEmb : UEmb _ 𝕄) ((Rd (F := F) m).payload g r d) := by
  dsimp only [Rd]
  (repeat' split) <;> infer_instance

section Sched
variable (c : Dev nD) (p : Fin 3) (i : Fin 7)

theorem duties_bar : (Rd (F := F) m).duties (barCell c) 0 = Finset.univ := by dsimp only [Rd]; exact if_pos ⟨rfl, rfl, rfl⟩
theorem duties_send : (Rd (F := F) m).duties (sendCell c p i) 0 = {0} := by
  dsimp only [Rd]; rw [if_neg (fun h => by cases h.2.2)]; exact if_pos ⟨rfl, rfl, decide_eq_true (by show 3 ≤ 3 + 14 * p.val + i.val; omega)⟩
theorem duties_recv : (Rd (F := F) m).duties (recvCell c p i) 0 = {0} := by
  dsimp only [Rd]; rw [if_neg (fun h => by cases h.2.2)]; exact if_pos ⟨rfl, rfl, decide_eq_true (by show 3 ≤ 10 + 14 * p.val + i.val; omega)⟩
theorem duties_later (g : GSem nD τ sig) (r : ℕ) (hr : 1 ≤ r) : (Rd (F := F) m).duties g r = ∅ := by
  dsimp only [Rd]; rw [if_neg fun h => by omega, if_neg fun h => by omega]

theorem amount_bar (d : Fin 3) : (Rd (F := F) m).amount (barCell c) 0 d = 1 := rfl
theorem amount_send (d : Fin 3) : (Rd (F := F) m).amount (sendCell c p i) 0 d = Np p := if_congr (by revert p i; decide) rfl rfl
theorem amount_recv (d : Fin 3) : (Rd (F := F) m).amount (recvCell c p i) 0 d = Np p := if_congr (by revert p i; decide) rfl rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c p i) 0 = Np p := by
  unfold Schedule.expect Schedule.amountOf; rw [duties_send, Finset.sum_singleton, amount_send]
theorem expect_recv : (Rd (F := F) m).expect (recvCell c p i) 0 = Np p := by
  unfold Schedule.expect Schedule.amountOf; rw [duties_recv, Finset.sum_singleton, amount_recv]

theorem payload_bar (x : Fin 3) : (Rd (F := F) m).payload (barCell c) 0 x = barPay c x := rfl
theorem payload_send (d : Fin 3) : (Rd (F := F) m).payload (sendCell c p i) 0 d = sendPay m c p i := by
  dsimp only [Rd]; rw [decode_sSem]
theorem payload_recv (d : Fin 3) : (Rd (F := F) m).payload (recvCell c p i) 0 d = recvPay m c p i := by
  dsimp only [Rd]; rw [decode_rSem]

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd (F := F) m).duties (sendCell c p i) 0 \ ∅) (fun d => (Rd (F := F) m).payload (sendCell c p i) 0 d)
    = sendPay m c p i := by
  rw [Finset.sdiff_empty, duties_send, bigSep_singleton, payload_send]
theorem rest_recv : bigSep ((Rd (F := F) m).duties (recvCell c p i) 0 \ ∅) (fun d => (Rd (F := F) m).payload (recvCell c p i) 0 d)
    = recvPay m c p i := by
  rw [Finset.sdiff_empty, duties_recv, bigSep_singleton, payload_recv]

end Sched

end Cert.Kernel.Proto

end
-- ==== Proof.LaunchGhostW.lean ====
import proofs.«900895_g7700000000000896_dist_matmul_mk_i_outk_m2048_n2048_k1024_v7x_i8_f32_1_alg».proof.Proof.TablesW
import Idealize.ShloMosaic.Lib.SparseCore.Stream

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev SK : Type := Bool × Fin 3 × Fin 7

def kdec : SemLoc sig → Option SK
  | .reg _ => none
  | .dma k => decode k

theorem kdec_ksem (k : Option SK) : kdec (ksem k) = k := by
  rcases k with _ | ⟨b, p, i⟩
  · rfl
  · cases b
    · exact decode_sSem p i
    · exact decode_rSem p i

theorem ksem_injective : Function.Injective ksem := Function.LeftInverse.injective kdec_ksem

/-- A cell's key is read back from the cell: its device, and the key of its semaphore. -/
theorem kcell_injective : Function.Injective (kcell : CK → GSem nD τ sig) := fun a b h =>
  Prod.ext (congrArg (fun g : GSem nD τ sig => g.1.1) h) (ksem_injective (congrArg Prod.snd h))

theorem bigSep_bool (Φ : Bool → sProp 𝕄) : bigSep Finset.univ Φ = iprop(Φ false ∗ Φ true) :=
  bigSep_univ_eq_bigSepL [false, true] (by decide) (by decide) Φ

theorem bigSep_option {B : Type} [Fintype B] (Φ : Option B → sProp 𝕄) :
    bigSep Finset.univ Φ = iprop(Φ none ∗ bigSep Finset.univ fun b : B => Φ (some b)) := by
  rw [bigSep_univ_equiv ((Equiv.sumComm Unit B).trans (Equiv.optionEquivSumPUnit B).symm) Φ, bigSep_univ_sum, bigSep_univ_of_subsingleton ()]
  rfl

/-- A product over the cells of device `c`: the barrier cell's factor, then each part and slot's send and receive cells'. -/
abbrev onCells (c : Dev nD) (Φ : GSem nD τ sig → sProp 𝕄) : sProp 𝕄 := bigSep Finset.univ fun k : Option SK => Φ (kcell (c, k))

theorem bigSep_cells (c : Dev nD) (Φ : GSem nD τ sig → sProp 𝕄) :
    onCells c Φ
      = iprop(Φ (barCell c) ∗ bigSep Finset.univ fun pi : Fin 3 × Fin 7 => iprop(Φ (sendCell c pi.1 pi.2) ∗ Φ (recvCell c pi.1 pi.2))) := by
  unfold onCells; rw [bigSep_option, bigSep_univ_prod (α := Bool), bigSep_bool, ← bigSep_sep']
  rfl

def protoCells : Finset (GSem nD τ sig) := Finset.univ.map ⟨kcell, kcell_injective⟩

abbrev TK : Type := Dev nD × (Fin 3 ⊕ SK)
def tokOf (t : TK) : GSem nD τ sig × ℕ × Fin 3 := match t.2 with
  | .inl x => (kcell (t.1, none), 0, x)
  | .inr k => (kcell (t.1, some k), 0, 0)

/-- A token names its cell, hence its device and key, and its duty. -/
theorem tokOf_injective : Function.Injective tokOf := by
  rintro ⟨c, a⟩ ⟨c', a'⟩ h
  have h1 := congrArg Prod.fst h
  have h2 := congrArg (fun t : GSem nD τ sig × ℕ × Fin 3 => t.2.2) h
  rcases a with x | k <;> rcases a' with x' | k' <;> cases kcell_injective h1 <;> first | rfl | (cases h2; rfl)

/-- Who pays a token: the neighbour across the duty's mask for a barrier cell, across the slot's mask for a receive cell, the owner for a send cell. -/
def payer : Fin 3 ⊕ SK → Dev nD ≃ Dev nD
  | .inl x => peerEquiv x
  | .inr (true, p, i) => peerEquiv (slotMask p i)
  | .inr (false, _, _) => Equiv.refl _

/-- The tokens re-indexed by who pays them. -/
def deal : TK ≃ TK := (Equiv.prodComm _ _).trans ((Equiv.prodShear (Equiv.refl _) payer).trans (Equiv.prodComm _ _))

def protoToks : Finset (GSem nD τ sig × ℕ × Fin 3) := Finset.univ.map ⟨tokOf ∘ deal, tokOf_injective.comp deal.injective⟩

def u₀ : UU :=
  (initOf (Pipeline.cells cfgs cellOf_inj) (Pipeline.launchToks cfgs cellOf_inj), initOf protoCells protoToks)

def G (c : Dev nD) : sProp 𝕄 :=
  iprop(onCells c (fun g => roundState ER (Rd m) g 0) ∗ onCells c (fun g => reached ER g 0) ∗ onCells c (fun g => atPos ER g 0 ∅ 0) ∗ payToks c)

/-- After the global step's allocation: each cell's invariant at some name in place of its round state. -/
def G₁ (c : Dev nD) : sProp 𝕄 :=
  iprop(onCells c (fun g => iprop(∃ κ : ℕ, cellInv ER (Rd m) κ g)) ∗ onCells c (fun g => reached ER g 0) ∗ onCells c (fun g => atPos ER g 0 ∅ 0) ∗ payToks c)

def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => onCells c Φ := by
    unfold protoCells; rw [bigSep_map, bigSep_univ_prod]; rfl
  have hT : bigSep protoToks (fun x => (dutyTok ER x.1 x.2.1 x.2.2 : sProp 𝕄)) = bigSep Finset.univ fun c : Dev nD => payToks c := by
    unfold protoToks; rw [bigSep_map, bigSep_univ_prod]
    refine bigSep_congr fun c _ => ?_
    unfold payToks
    rw [bigSep_univ_sum, bigSep_univ_prod (α := Bool), bigSep_bool, ← bigSep_sep']
    rfl
  refine (Rounds.fund ER (Rd m) protoCells protoToks).trans (Laws.bupd_mono (Entails.of_eq ?_))
  unfold G
  rw [hX, hX, hX, hT, bigSep_sep', bigSep_sep', bigSep_sep']

abbrev osem : SK → SemLoc sig := fun k => ksem (some k)

theorem ownSemFacts : Pipeline.OwnSemFacts cfg0.spec osem := by decide

/-- The own semaphores of device `c` at zero. -/
abbrev os0 (c : Dev nD) : sProp 𝕄 := Pipeline.ownSems0 osem c

theorem ownSems0_eq (c : Dev nD) : (os0 c : sProp 𝕄)
    = bigSep Finset.univ fun pi : Fin 3 × Fin 7 => iprop(semVal (sendCell c pi.1 pi.2) 0 ∗ semVal (recvCell c pi.1 pi.2) 0) := by
  unfold os0 Pipeline.ownSems0
  rw [bigSep_univ_prod (α := Bool), bigSep_bool, ← bigSep_sep']
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(os0 c ∗ unscopedSems0 c)
      ⊢ (onCells c (fun g => semVal g 0) : sProp 𝕄) := by
  rw [ownSems0_eq, unscopedSems0_eq, bigSep_cells]
  iintro ⟨HS, HB⟩
  isplitl [HB] <;> iassumption

theorem core_alloc (c : Dev nD) :
    iprop(os0 c ∗ unscopedSems0 c ∗ G m c)
      ⊢ |={Set.univ}=> G₁ m c := by
  unfold G G₁
  iintro ⟨Hos, Hus, Hst, HR⟩
  ihave Hv := (sems0_eq (F := F) c) $$ [Hos Hus]
  · isplitl [Hos] <;> iassumption
  imod (show iprop(onCells c (fun g => semVal g 0) ∗ onCells c (fun g => roundState ER (Rd m) g 0))
      ⊢ (|={Set.univ}=> onCells c (fun g => iprop(∃ κ : ℕ, cellInv ER (Rd m) κ g)) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv] <;> iassumption

theorem ghost_intro (K : CK → ℕ) (c : Dev nD) : iprop(records m K ∗ positions c ∗ payToks c) ⊢ G' m c := by
  unfold G' ghost
  iintro H
  iexists K
  iexact H

/-- The names chosen cell by cell are one function of the cell; the records, persistent, go to every device. -/
theorem regroup : (bigSep Finset.univ (G₁ m) : sProp 𝕄) ⊢ bigSep Finset.univ (G' m) := by
  have hX (Φ : GSem nD τ sig → sProp 𝕄) : (bigSep Finset.univ fun c : Dev nD => onCells c Φ) = bigSep Finset.univ fun ck : CK => Φ (kcell ck) :=
    (bigSep_univ_prod fun ck : CK => Φ (kcell ck)).symm
  unfold G₁
  rw [bigSep_sep', bigSep_sep', bigSep_sep', hX, hX]
  iintro ⟨HI, #HR, Hat, Htok⟩
  ihave HK := (BI.bigSep_exists_pi Finset.univ (fun (ck : CK) (κ : ℕ) => (cellInv ER (Rd m) κ (kcell ck) : sProp 𝕄))) $$ HI
  icases HK with ⟨%K, #HI⟩
  iapply (Transfers.bigSep_mono_pers _ (records m K) _ _ fun c _ => ghost_intro m K c)
  isplitr
  · unfold records; isplitl; · iexact HI
    iexact HR
  · rw [bigSep_sep', show (positions : Dev nD → sProp 𝕄) = fun c => onCells c (fun g => atPos ER g 0 ∅ 0) from
      funext fun c => by unfold positions; rw [bigSep_cells]]
    isplitl [Hat] <;> iassumption

theorem glob : (bigSep Finset.univ fun c => iprop(os0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.OwesW.lean ====
import proofs.«900895_g7700000000000896_dist_matmul_mk_i_outk_m2048_n2048_k1024_v7x_i8_f32_1_alg».proof.Proof.ProtoW

noncomputable section

namespace Cert.Kernel.Proto

open Cert.Kernel Cert.Kernel.Gen Cert.Kernel.Mesh
open Idealize.ShloMosaic
open Idealize.ShloMosaic.TcCoe

inductive Pay where
  | bar (x : Fin 3)
  | slot (p : Fin 3) (i : Fin 7)
deriving DecidableEq

def payCell (c : Dev nD) : Pay → GSem nD τ sig
  | .bar x => barCell (peer x c)
  | .slot p i => recvCell (peer (slotMask p i) c) p i

def payAmt : Pay → ℕ
  | .bar _ => 1
  | .slot p _ => Np p

def payLv : Pay → ℕ
  | .bar _ => 1
  | .slot _ i => if i.val < 4 then 2 else if i.val < 6 then 3 else 4

def payList : List Pay :=
  [.bar 0, .bar 1, .bar 2,
   .slot 0 1, .slot 1 1, .slot 2 1, .slot 0 3, .slot 1 3, .slot 2 3, .slot 0 2, .slot 1 2, .slot 2 2, .slot 0 0, .slot 1 0, .slot 2 0,
   .slot 0 5, .slot 0 4, .slot 1 5, .slot 1 4, .slot 2 5, .slot 2 4,
   .slot 0 6, .slot 1 6, .slot 2 6]

def Ofrom (c : Dev nD) (l : List Pay) : CellTallies nD τ sig Unit :=
  l.foldr (fun t acc => acc + tallyAt (payCell c t) () (payAmt t)) 0

theorem Ofrom_nil (c : Dev nD) : Ofrom c [] = 0 := rfl
theorem Ofrom_cons (c : Dev nD) (t : Pay) (l : List Pay) : Ofrom c (t :: l) = Ofrom c l + tallyAt (payCell c t) () (payAmt t) := rfl

end Cert.Kernel.Proto

end
-- ==== Proof.LaunchCredW.lean ====
import proofs.«900895_g7700000000000896_dist_matmul_mk_i_outk_m2048_n2048_k1024_v7x_i8_f32_1_alg».proof.Proof.ProtoW
import proofs.«900895_g7700000000000896_dist_matmul_mk_i_outk_m2048_n2048_k1024_v7x_i8_f32_1_alg».proof.Proof.OwesW

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem O₀_eq (c : Dev nD) : O₀ c = Ofrom c payList := by
  unfold O₀
  simp only [payList, Ofrom_cons, Ofrom_nil, payCell, payAmt, Fintype.sum_prod_type, Fin.sum_univ_three, Fin.sum_univ_seven, zero_add]
  ac_rfl

/-- A fold of one-cell tallies is positive only at the cell of one of its payments. -/
theorem Ofrom_pos {c : Dev nD} {l : List Pay} {g : GSem nD τ sig} {u : Unit} (h : 0 < Ofrom c l g u) :
    ∃ t ∈ l, g = payCell c t := by
  induction l with
  | nil => exact absurd h (Nat.lt_irrefl 0)
  | cons t l ih =>
    rcases Pipeline.add_pos_cases h with h | h
    · obtain ⟨t', ht', hg⟩ := ih h
      exact ⟨t', List.mem_cons_of_mem _ ht', hg⟩
    · exact ⟨t, List.mem_cons_self, (Pipeline.tallyAt_pos h).1⟩

/-- Each payment crosses one mask, an involution of the devices, so the launch credit is dealt payment by payment. -/
theorem creds (c : Dev nD) : (Pipeline.launchCred O₀ c : sProp 𝕄) ⊢ credits c := by
  delta O₀
  rw [Pipeline.launchCred_add, Pipeline.launchCred_sum, Pipeline.launchCred_sum]
  refine BIClass.sep_mono ((bigSep_mono fun x _ => Pipeline.launchCred_tallyAt _ _ _ (peer_peer x) (peer_peer x) () 1 c).trans ?_)
    (bigSep_mono fun pi _ => Pipeline.launchCred_tallyAt _ _ _ (peer_peer _) (peer_peer _) () _ c)
  rw [← Pipeline.cred_finsetSum, Fin.sum_univ_three, tallyAt_add, tallyAt_add]
  exact BI.Entails.refl _

theorem L_tc (c : Dev nD) (sm : SemLoc sig) : L (((c : Thread nD τ), sm) : GSem nD τ sig) = {()} := if_pos rfl

theorem lv_bar_own (c : Dev nD) : lv (((c : Thread nD τ), .reg barS) : GSem nD τ sig) () = 1 := by
  unfold lv; exact if_pos rfl
theorem lv_recv_own (c : Dev nD) (p : Fin 3) (i : Fin 7) :
    lv (((c : Thread nD τ), .dma (rSem p i)) : GSem nD τ sig) () = if i.val < 4 then 2 else if i.val < 6 then 3 else 4 := by
  unfold lv; dsimp only; rw [decode_rSem]
theorem lv_stage_own (c : Dev nD) (q : DmaSem sig) (hq : q.val < 3) : lv (((c : Thread nD τ), .dma q) : GSem nD τ sig) () = 0 := by
  unfold lv; dsimp only; rw [show decode q = none from if_neg (by omega)]

theorem lv_pay (c : Dev nD) (t : Pay) : lv (payCell c t) () = payLv t := by
  cases t with
  | bar x => exact lv_bar_own _
  | slot p i => exact lv_recv_own _ p i

theorem payLv_pos (t : Pay) : 0 < payLv t := by
  cases t with
  | bar x => exact Nat.one_pos
  | slot p i => show 0 < if _ then 2 else if _ then 3 else 4; split <;> [decide; (split <;> decide)]

/-- A wait on an own cell while the payments `l` are still owed is allowed when each of them goes to a cell of a higher level. -/
theorem mayWait_rest (c : Dev nD) (sm : SemLoc sig) (l : List Pay)
    (h : ∀ t ∈ l, lv (((c : Thread nD τ), sm) : GSem nD τ sig) () < payLv t) :
    (levAts L lv : sProp 𝕄) ⊢ MayWait (c : Thread nD τ) sm () (Ofrom c l) :=
  Pipeline.mayWait_of_levAts (L_tc c sm ▸ Finset.mem_singleton_self _) fun g u hg => by
    cases u
    obtain ⟨t, ht, rfl⟩ := Ofrom_pos hg
    exact ⟨by cases t <;> exact L_tc _ _ ▸ Finset.mem_singleton_self _, lv_pay c t ▸ h t ht⟩

end Cert.Kernel.Proto

end
-- ==== Proof.LaunchW.lean ====
import proofs.«900895_g7700000000000896_dist_matmul_mk_i_outk_m2048_n2048_k1024_v7x_i8_f32_1_alg».proof.Proof.LaunchGhostW
import proofs.«900895_g7700000000000896_dist_matmul_mk_i_outk_m2048_n2048_k1024_v7x_i8_f32_1_alg».proof.Proof.LaunchCredW

noncomputable section

namespace Cert.Kernel.Proto

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem share_eq (c : Dev nD) (w : Fin cfg0.W) : (dats m 0 c).share w = fullShare := by unfold Dat.share; split <;> rfl

/-- The launch hands the scratch buffers over one by one, each whole with some contents. -/
theorem scratch_eq (c : Dev nD) : (Pipeline.scopedRest cfg0.spec c : sProp 𝕄) = scratch c := by
  rw [scopedRest0_eq]; unfold scratch freeBuf
  simp only [Memref.view_whole, View.set_whole]

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(emp ∗ os0 c ∗ Pipeline.scopedRest cfg0.spec c) := by
  rw [show (dats m 0 c).Φ (Fin.last cfg0.N) = Φ₁ c from rfl, scratch_eq, ownSems0_eq]
  unfold Φ₁
  iintro ⟨Hr, Hz⟩
  isplitr; · iempintro
  isplitl [Hz] <;> iassumption

/-- Level 0 lies below every payment's level; after the first step nothing is owed. -/
theorem waits (c : Dev nD) : (levAts L lv : sProp 𝕄) ⊢ Pipeline.cellsWaits cfgs (dats m) () 0 c :=
  Pipeline.cellsWaits_intro cfgs (dats m) () 0 c fun w s t => by
    have h0 := lv_stage_own c (((cfgs 0).win w).sem s) (by fin_cases w <;> fin_cases s <;> decide)
    rcases t with ⟨_ | _, ht⟩
    · have := mayWait_rest (F := F) c (.dma (((cfgs 0).win w).sem s)) payList fun t _ => h0.le.trans_lt (payLv_pos t)
      rw [← O₀_eq] at this; exact this
    · exact mayWait_rest c _ [] fun _ h => nomatch h

theorem run_main (hbody : ∀ c, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun _ h => if_neg h) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem arrAt_arg0 (c : Dev nD) : (dats (F := F) m 0 c).arrAt (0 : Fin 3) cfg0.N = m ((c : Thread nD τ).loc main_arg0) :=
  (dats (F := F) m 0 c).arrAt_in (0 : Fin 3) rfl _
theorem arrAt_arg1 (c : Dev nD) : (dats (F := F) m 0 c).arrAt (1 : Fin 3) cfg0.N = m ((c : Thread nD τ).loc main_arg1) :=
  (dats (F := F) m 0 c).arrAt_in (1 : Fin 3) rfl _

theorem arrAt_out (c : Dev nD) : (dats (F := F) m 0 c).arrAt 2 cfg0.N = outV (F := F) m c := by
  rw [show cfg0.N = (t0_0 : Fin cfg0.N).val + 1 from rfl, (dats (F := F) m 0 c).arrAt_succ (2 : Fin 3) t0_0]
  rw [show (cfg0.win (2 : Fin 3)).flush t0_0 = true from by decide, if_pos rfl]
  exact Memref.write_access_unit_zero_univ (Elt F) main_v1 (funext fun a => by fin_cases a <;> rfl) _ _ _

end Cert.Kernel.Proto

end
-- ==== Proof.BodyDefsW.lean ====
import proofs.«900895_g7700000000000896_dist_matmul_mk_i_outk_m2048_n2048_k1024_v7x_i8_f32_1_alg».proof.Proof.OwesW

noncomputable section

namespace Cert.Kernel.Proto

open Cert.Kernel.Gen Cert.Kernel.Mesh Idealize.ShloMosaic Idealize.ShloMosaic.TcCoe
open Idealize.SL Idealize.SL.RA Idealize.SL.BI
open scoped Idealize.SL.BI
open Idealize.SL.BI.BIBase Idealize.ShloMosaic.Rounds

variable {F : FTy → Type} [FloatOps F]
local notation "𝕄" => MT nD τ sig Unit (Elt F) ℕ UU ℕ
variable (m : (ℓ : Loc nD τ sig) → Buf (Elt F) ℓ)

def perSlot (c : Dev nD) (p : Fin 3) (i : Fin 7) : sProp 𝕄 :=
  iprop(atPos ER (sendCell c p i) 0 ∅ 0 ∗ atPos ER (recvCell c p i) 0 ∅ 0 ∗ cred (tallyAt (recvCell c p i) () (Np p))
    ∗ dutyTok ER (sendCell c p i) 0 (0 : Fin 3) ∗ dutyTok ER (recvCell (peer (slotMask p i) c) p i) 0 (0 : Fin 3))

def openedCore (K : CK → ℕ) (c : Dev nD) : sProp 𝕄 :=
  iprop(records m K ∗ levAts L lv
    ∗ atPos ER (barCell c) 0 ∅ 0 ∗ cred (tallyAt (barCell c) () 3)
    ∗ dutyTok ER (barCell (peer 0 c)) 0 (0 : Fin 3) ∗ dutyTok ER (barCell (peer 1 c)) 0 (1 : Fin 3) ∗ dutyTok ER (barCell (peer 2 c)) 0 (2 : Fin 3)
    ∗ perSlot c 0 0
    ∗ perSlot c 0 1
    ∗ perSlot c 0 2
    ∗ perSlot c 0 3
    ∗ perSlot c 0 4
    ∗ perSlot c 0 5
    ∗ perSlot c 0 6
    ∗ perSlot c 1 0
    ∗ perSlot c 1 1
    ∗ perSlot c 1 2
    ∗ perSlot c 1 3
    ∗ perSlot c 1 4
    ∗ perSlot c 1 5
    ∗ perSlot c 1 6
    ∗ perSlot c 2 0
    ∗ perSlot c 2 1
    ∗ perSlot c 2 2
    ∗ perSlot c 2 3
    ∗ perSlot c 2 4
    ∗ perSlot c 2 5
    ∗ perSlot c 2 6
    ∗ sFree96 sndM0 c 0
    ∗ sFree96 sndM0 c 1
    ∗ sFree96 sndM0 c 2
    ∗ sFree96 sndM0 c 3
    ∗ sFree80 sndM1 c 0
    ∗ sFree80 sndM1 c 1
    ∗ sFree80 sndM1 c 2
    ∗ sFree80 sndM1 c 3
    ∗ sFree80 sndM2 c 0
    ∗ sFree80 sndM2 c 1
    ∗ sFree80 sndM2 c 2
    ∗ sFree80 sndM2 c 3
    ∗ rFree96 rcvM0 c 0
    ∗ rFree96 rcvM0 c 1
    ∗ rFree96 rcvM0 c 2
    ∗ rFree96 rcvM0 c 3
    ∗ rFree96 rcvM0 c 4
    ∗ rFree96 rcvM0 c 5
    ∗ rFree96 rcvM0 c 6
    ∗ rFree80 rcvM1 c 0
    ∗ rFree80 rcvM1 c 1
    ∗ rFree80 rcvM1 c 2
    ∗ rFree80 rcvM1 c 3
    ∗ rFree80 rcvM1 c 4
    ∗ rFree80 rcvM1 c 5
    ∗ rFree80 rcvM1 c 6
    ∗ rFree80 rcvM2 c 0
    ∗ rFree80 rcvM2 c 1
    ∗ rFree80 rcvM2 c 2
    ∗ rFree80 rcvM2 c 3
    ∗ rFree80 rcvM2 c 4
    ∗ rFree80 rcvM2 c 5
    ∗ rFree80 rcvM2 c 6
    ∗ freeBuf b16M c)

def closedCore (c : Dev nD) : sProp 𝕄 :=
  iprop(freeBuf b16M c
    ∗ sFree96 sndM0 c 0
    ∗ sFree96 sndM0 c 1
    ∗ sFree96 sndM0 c 2
    ∗ sFree96 sndM0 c 3
    ∗ sFree80 sndM1 c 0
    ∗ sFree80 sndM1 c 1
    ∗ sFree80 sndM1 c 2
    ∗ sFree80 sndM1 c 3
    ∗ sFree80 sndM2 c 0
    ∗ sFree80 sndM2 c 1
    ∗ sFree80 sndM2 c 2
    ∗ sFree80 sndM2 c 3
    ∗ rFree96 rcvM0 c 0
    ∗ rFree96 rcvM0 c 1
    ∗ rFree96 rcvM0 c 2
    ∗ rFree96 rcvM0 c 3
    ∗ rFree96 rcvM0 c 4
    ∗ rFree96 rcvM0 c 5
    ∗ rFree96 rcvM0 c 6
    ∗ rFree80 rcvM1 c 0
    ∗ rFree80 rcvM1 c 1
    ∗ rFree80 rcvM1 c 2
    ∗ rFree80 rcvM1 c 3
    ∗ rFree80 rcvM1 c 4
    ∗ rFree80 rcvM1 c 5
    ∗ rFree80 rcvM1 c 6
    ∗ rFree80 rcvM2 c 0
    ∗ rFree80 rcvM2 c 1
    ∗ rFree80 rcvM2 c 2
    ∗ rFree80 rcvM2 c 3
    ∗ rFree80 rcvM2 c 4
    ∗ rFree80 rcvM2 c 5
    ∗ rFree80 rcvM2 c 6
    ∗ semVal (sendCell c 0 0) 0 ∗ semVal (recvCell c 0 0) 0
    ∗ semVal (sendCell c 0 1) 0 ∗ semVal (recvCell c 0 1) 0
    ∗ semVal (sendCell c 0 2) 0 ∗ semVal (recvCell c 0 2) 0
    ∗ semVal (sendCell c 0 3) 0 ∗ semVal (recvCell c 0 3) 0
    ∗ semVal (sendCell c 0 4) 0 ∗ semVal (recvCell c 0 4) 0
    ∗ semVal (sendCell c 0 5) 0 ∗ semVal (recvCell c 0 5) 0
    ∗ semVal (sendCell c 0 6) 0 ∗ semVal (recvCell c 0 6) 0
    ∗ semVal (sendCell c 1 0) 0 ∗ semVal (recvCell c 1 0) 0
    ∗ semVal (sendCell c 1 1) 0 ∗ semVal (recvCell c 1 1) 0
    ∗ semVal (sendCell c 1 2) 0 ∗ semVal (recvCell c 1 2) 0
    ∗ semVal (sendCell c 1 3) 0 ∗ semVal (recvCell c 1 3) 0
    ∗ semVal (sendCell c 1 4) 0 ∗ semVal (recvCell c 1 4) 0
    ∗ semVal (sendCell c 1 5) 0 ∗ semVal (recvCell c 1 5) 0
    ∗ semVal (sendCell c 1 6) 0 ∗ semVal (recvCell c 1 6) 0
    ∗ semVal (sendCell c 2 0) 0 ∗ semVal (recvCell c 2 0) 0
    ∗ semVal (sendCell c 2 1) 0 ∗ semVal (recvCell c 2 1) 0
    ∗ semVal (sendCell c 2 2) 0 ∗ semVal (recvCell c 2 2) 0
    ∗ semVal (sendCell c 2 3) 0 ∗ semVal (recvCell c 2 3) 0
    ∗ semVal (sendCell c 2 4) 0 ∗ semVal (recvCell c 2 4) 0
    ∗ semVal (sendCell c 2 5) 0 ∗ semVal (recvCell c 2 5) 0
    ∗ semVal (sendCell c 2 6) 0 ∗ semVal (recvCell c 2 6) 0)

end Cert.Kernel.Proto

end
-- ==== Proof.SlotsW.lean ====
import proofs.«900895_g7700000000000896_dist_matmul_mk_i_outk_m2048_n2048_k1024_v7x_i8_f32_1_alg».proof.Proof.ProtoW
import Idealize.ShloMosaic.Lib.Ring

namespace Cert.Kernel.Proto

open Cert.Kernel.Gen Idealize.ShloMosaic Idealize.ShloMosaic.TcCoe
open Idealize.SL Idealize.SL.RA Idealize.SL.BI
open scoped Idealize.SL.BI
open Idealize.SL.BI.BIBase Idealize.SL.BI.Laws

variable {F : FTy → Type}

local notation "𝕄" => MT nD τ sig Unit (Elt F) ℕ UU ℕ

section Cover

variable {sh : Shape} {e : EltTy} (b : Memref sig .tc .vmem sh e) (hb : b.view.set = Finset.univ)
  {T : Type} [Fintype T] [DecidableEq T] (r : T → Rect sh)
  (hd : ∀ t t', t ≠ t' → Disjoint (r t).set (r t').set)
  (hcov : (Finset.univ : Finset T).biUnion (fun t => (r t).set) = Finset.univ)

variable [FloatOps F]

include hb hd hcov in
/-- A buffer held whole is each rectangle of a disjoint cover held, and back. -/
theorem cover_eq (c : Dev nD) :
    (freeBuf b c : sProp 𝕄)
      = bigSep Finset.univ fun t => iprop(∃ f, (b.view.loc (c : Thread nD τ) ↦[(b.view.slice (r t)).set]{fullShare} f)) := by
  have hd' : ∀ t t', t ≠ t' → Disjoint (b.view.slice (r t)).set (b.view.slice (r t')).set := fun t t' h => by
    rw [View.set_slice, View.set_slice]; exact (Finset.disjoint_map _).mpr (hd t t' h)
  have hs : b.view.set = (Finset.univ : Finset T).biUnion fun t => (b.view.slice (r t)).set := by
    rw [View.set, Finset.map_eq_image, ← hcov, Finset.biUnion_image]
    simp only [View.set_slice, Finset.map_eq_image]
  unfold freeBuf
  refine equiv_iff.mp ⟨?_, ?_⟩
  · show (_ : sProp 𝕄) ⊢ _
    refine exists_elim fun f => ?_
    rw [hs, pointsTo_biUnion _ _ fun t _ t' _ h => hd' t t' h]
    exact bigSep_mono fun t _ => show (_ : sProp 𝕄) ⊢ _ from exists_intro f
  · rw [hb]
    exact Ring.pointsTo_blocks_join_exists (ℓ := b.view.loc (c : Thread nD τ)) _ hd' (hs.symm.trans hb) (View.junk (Val := Elt F) b.view)

end Cover

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A slot's view is its rectangle's, re-indexed: the same elements. -/
theorem rFree96_eq (b : Memref sig .tc .vmem S7x96x2048 .bf16) (c : Dev nD) (t : Fin 7) :
    (rFree96 b c t : sProp 𝕄) = iprop(∃ f, (b.view.loc (c : Thread nD τ) ↦[(b.view.slice (rRect96 t)).set]{fullShare} f)) := by
  unfold rFree96
  rw [Memref.set_view_squeeze]
theorem sFree96_eq (b : Memref sig .tc .vmem S4x96x2048 .bf16) (c : Dev nD) (t : Fin 4) :
    (sFree96 b c t : sProp 𝕄) = iprop(∃ f, (b.view.loc (c : Thread nD τ) ↦[(b.view.slice (sRect96 t)).set]{fullShare} f)) := by
  unfold sFree96
  rw [Memref.set_view_squeeze]
theorem rFree80_eq (b : Memref sig .tc .vmem S7x80x2048 .bf16) (c : Dev nD) (t : Fin 7) :
    (rFree80 b c t : sProp 𝕄) = iprop(∃ f, (b.view.loc (c : Thread nD τ) ↦[(b.view.slice (rRect80 t)).set]{fullShare} f)) := by
  unfold rFree80
  rw [Memref.set_view_squeeze]
theorem sFree80_eq (b : Memref sig .tc .vmem S4x80x2048 .bf16) (c : Dev nD) (t : Fin 4) :
    (sFree80 b c t : sProp 𝕄) = iprop(∃ f, (b.view.loc (c : Thread nD τ) ↦[(b.view.slice (sRect80 t)).set]{fullShare} f)) := by
  unfold sFree80
  rw [Memref.set_view_squeeze]

variable [FloatOps F]

/-- A receive buffer held whole is its seven slots held, a send buffer its four: the slots are the slabs along the leading axis. -/
theorem r96_eq (b : Memref sig .tc .vmem S7x96x2048 .bf16) (hb : b.view.set = Finset.univ) (c : Dev nD) :
    (freeBuf b c : sProp 𝕄) = iprop(rFree96 b c 0 ∗ rFree96 b c 1 ∗ rFree96 b c 2 ∗ rFree96 b c 3 ∗ rFree96 b c 4 ∗ rFree96 b c 5 ∗ rFree96 b c 6) := by
  rw [cover_eq b hb rRect96 (Ring.lead_disjoint 0 1 _ _ inbR96 (by decide) (by decide))
    (Ring.lead_cover 0 1 _ _ inbR96 (by decide) (by decide) (by decide) (by decide) (by decide)) c, bigSep_fin7]
  simp only [rFree96_eq]
theorem s96_eq (b : Memref sig .tc .vmem S4x96x2048 .bf16) (hb : b.view.set = Finset.univ) (c : Dev nD) :
    (freeBuf b c : sProp 𝕄) = iprop(sFree96 b c 0 ∗ sFree96 b c 1 ∗ sFree96 b c 2 ∗ sFree96 b c 3) := by
  rw [cover_eq b hb sRect96 (Ring.lead_disjoint 0 1 _ _ inbS96 (by decide) (by decide))
    (Ring.lead_cover 0 1 _ _ inbS96 (by decide) (by decide) (by decide) (by decide) (by decide)) c, bigSep_fin4']
  simp only [sFree96_eq]
theorem r80_eq (b : Memref sig .tc .vmem S7x80x2048 .bf16) (hb : b.view.set = Finset.univ) (c : Dev nD) :
    (freeBuf b c : sProp 𝕄) = iprop(rFree80 b c 0 ∗ rFree80 b c 1 ∗ rFree80 b c 2 ∗ rFree80 b c 3 ∗ rFree80 b c 4 ∗ rFree80 b c 5 ∗ rFree80 b c 6) := by
  rw [cover_eq b hb rRect80 (Ring.lead_disjoint 0 1 _ _ inbR80 (by decide) (by decide))
    (Ring.lead_cover 0 1 _ _ inbR80 (by decide) (by decide) (by decide) (by decide) (by decide)) c, bigSep_fin7]
  simp only [rFree80_eq]
theorem s80_eq (b : Memref sig .tc .vmem S4x80x2048 .bf16) (hb : b.view.set = Finset.univ) (c : Dev nD) :
    (freeBuf b c : sProp 𝕄) = iprop(sFree80 b c 0 ∗ sFree80 b c 1 ∗ sFree80 b c 2 ∗ sFree80 b c 3) := by
  rw [cover_eq b hb sRect80 (Ring.lead_disjoint 0 1 _ _ inbS80 (by decide) (by decide))
    (Ring.lead_cover 0 1 _ _ inbS80 (by decide) (by decide) (by decide) (by decide) (by decide)) c, bigSep_fin4']
  simp only [sFree80_eq]

end Cert.Kernel.Proto
-- ==== Proof.BodyGlueW.lean ====
import proofs.«900895_g7700000000000896_dist_matmul_mk_i_outk_m2048_n2048_k1024_v7x_i8_f32_1_alg».proof.Proof.Gen.Kernel.Points
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.BodyDefsW
import proofs.«900895_g7700000000000896_dist_matmul_mk_i_outk_m2048_n2048_k1024_v7x_i8_f32_1_alg».proof.Proof.SlotsW

noncomputable section

namespace Cert.Kernel.Proto

open Cert.Kernel.Gen Cert.Kernel.Mesh Idealize.ShloMosaic Idealize.ShloMosaic.TcCoe
open Idealize.SL Idealize.SL.RA Idealize.SL.BI
open scoped Idealize.SL.BI
open Idealize.SL.BI.BIBase Idealize.SL.Sem Idealize.ShloMosaic.Rounds
open Idealize.ShloMosaic.Pipeline (Dat BodyObligation)

variable {F : FTy → Type} [FloatOps F]
local notation "𝕄" => MT nD τ sig Unit (Elt F) ℕ UU ℕ

theorem bigSep_slots (Φ : Fin 3 → Fin 7 → sProp 𝕄) :
    (bigSep Finset.univ fun pi : Fin 3 × Fin 7 => Φ pi.1 pi.2) = iprop(Φ 0 0 ∗ Φ 0 1 ∗ Φ 0 2 ∗ Φ 0 3 ∗ Φ 0 4 ∗ Φ 0 5 ∗ Φ 0 6 ∗ Φ 1 0 ∗ Φ 1 1 ∗ Φ 1 2 ∗ Φ 1 3 ∗ Φ 1 4 ∗ Φ 1 5 ∗ Φ 1 6 ∗ Φ 2 0 ∗ Φ 2 1 ∗ Φ 2 2 ∗ Φ 2 3 ∗ Φ 2 4 ∗ Φ 2 5 ∗ Φ 2 6) :=
  bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] (by decide) (by decide) _

theorem slots_intro (c : Dev nD) :
    iprop((bigSep Finset.univ fun pi : Fin 3 × Fin 7 => iprop(atPos ER (sendCell c pi.1 pi.2) 0 ∅ 0 ∗ atPos ER (recvCell c pi.1 pi.2) 0 ∅ 0))
      ∗ (bigSep Finset.univ fun pi : Fin 3 × Fin 7 => cred (tallyAt (recvCell c pi.1 pi.2) () (Np pi.1)))
      ∗ (bigSep Finset.univ fun pi : Fin 3 × Fin 7 =>
          iprop(dutyTok ER (sendCell c pi.1 pi.2) 0 (0 : Fin 3) ∗ dutyTok ER (recvCell (peer (slotMask pi.1 pi.2) c) pi.1 pi.2) 0 (0 : Fin 3))))
      ⊢ (bigSep Finset.univ fun pi : Fin 3 × Fin 7 => perSlot c pi.1 pi.2 : sProp 𝕄) := by
  rw [← bigSep_sep', ← bigSep_sep']
  refine bigSep_mono fun pi _ => ?_
  show (_ : sProp 𝕄) ⊢ _
  unfold perSlot
  iintro ⟨⟨H1, H2⟩, H3, H4, H5⟩
  iframe

variable (m : (ℓ : Loc nD τ sig) → Buf (Elt F) ℓ)

theorem open_core (c : Dev nD) : iprop(start m c ∗ scratch c) ⊢ iprop(∃ K, openedCore m K c) := by
  unfold start ghost positions payToks credits scratch
  rw [bigSep_W0, s96_eq sndM0 (View.set_whole _) c, r96_eq rcvM0 (View.set_whole _) c, s80_eq sndM1 (View.set_whole _) c,
    r80_eq rcvM1 (View.set_whole _) c, s80_eq sndM2 (View.set_whole _) c, r80_eq rcvM2 (View.set_whole _) c]
  iintro ⟨⟨⟨%K, Hrec, ⟨HatB, HatS⟩, ⟨Ht0, Ht1, Ht2⟩, HtS⟩, ⟨HcB, HcS⟩, Hlev⟩, ⟨A0, A1, A2, A3⟩, ⟨D0, D1, D2, D3, D4, D5, D6⟩, ⟨B0, B1, B2, B3⟩,
    ⟨E0, E1, E2, E3, E4, E5, E6⟩, ⟨C0, C1, C2, C3⟩, ⟨G0, G1, G2, G3, G4, G5, G6⟩, Hb16⟩
  ihave HS := (slots_intro (F := F) c) $$ [HatS HcS HtS]
  · iframe
  ihave HS' := (Entails.of_eq (bigSep_slots (F := F) (perSlot c))) $$ HS
  icases HS' with ⟨P00, P01, P02, P03, P04, P05, P06, P10, P11, P12, P13, P14, P15, P16, P20, P21, P22, P23, P24, P25, P26⟩
  iexists K
  unfold openedCore
  iframe

theorem close_core (c : Dev nD) : (closedCore c : sProp 𝕄) ⊢ Φ₁ c := by
  unfold closedCore Φ₁ scratch
  rw [bigSep_slots (F := F) (fun p i => iprop(semVal (sendCell c p i) 0 ∗ semVal (recvCell c p i) 0)),
    s96_eq sndM0 (View.set_whole _) c, r96_eq rcvM0 (View.set_whole _) c, s80_eq sndM1 (View.set_whole _) c,
    r80_eq rcvM1 (View.set_whole _) c, s80_eq sndM2 (View.set_whole _) c, r80_eq rcvM2 (View.set_whole _) c]
  iintro ⟨Hb16, A0, A1, A2, A3, B0, B1, B2, B3, C0, C1, C2, C3, D0, D1, D2, D3, D4, D5, D6, E0, E1, E2, E3, E4, E5, E6, G0, G1, G2, G3, G4, G5, G6, VS00, VR00, VS01, VR01, VS02, VR02, VS03, VR03, VS04, VR04, VS05, VR05, VS06, VR06, VS10, VR10, VS11, VR11, VS12, VR12, VS13, VR13, VS14, VR14, VS15, VR15, VS16, VR16, VS20, VR20, VS21, VR21, VS22, VR22, VS23, VR23, VS24, VR24, VS25, VR25, VS26, VR26⟩
  iframe

abbrev t₀ : Fin cfg0.N := t0_0

def bodyPre' (c : Dev nD) : sProp 𝕄 :=
  iprop(Φ₀ m c ∗ (dats (F := F) m 0 c).owesAt () t₀.castSucc
    ∗ (∃ d, owns (c : Thread nD τ) aM fullShare ((dats (F := F) m 0 c).before (0 : Fin 3) t₀ d))
    ∗ (∃ d, owns (c : Thread nD τ) bM fullShare ((dats (F := F) m 0 c).before (1 : Fin 3) t₀ d))
    ∗ (∃ d, owns (c : Thread nD τ) oM fullShare ((dats (F := F) m 0 c).before (2 : Fin 3) t₀ d)))

def bodyPost (c : Dev nD) : sProp 𝕄 :=
  iprop(Φ₁ c ∗ (dats (F := F) m 0 c).owesAt () t₀.succ
    ∗ owns (c : Thread nD τ) aM fullShare (Ablk m c)
    ∗ owns (c : Thread nD τ) bM fullShare (Bblk m c)
    ∗ owns (c : Thread nD τ) oM fullShare (outV m c))

set_option maxRecDepth 100000 in
theorem body_obligation_of
    (hsound : ∀ (K : CK → ℕ) (c : Dev nD) (W : Waits sig Unit) (Kt : PUnit → sProp 𝕄),
      iprop(openedCore m K c ∗ owes (c : Thread nD τ) (Ofrom c payList) W
        ∗ (aM.view.loc (c : Thread nD τ) ↦[aM.view.set]{fullShare} Ablk m c)
        ∗ (bM.view.loc (c : Thread nD τ) ↦[bM.view.set]{fullShare} Bblk m c)
        ∗ freeBuf oM c
        ∗ ((closedCore c ∗ (∃ W', owes (c : Thread nD τ) 0 W')
            ∗ (aM.view.loc (c : Thread nD τ) ↦[aM.view.set]{fullShare} Ablk m c)
            ∗ (bM.view.loc (c : Thread nD τ) ↦[bM.view.set]{fullShare} Bblk m c)
            ∗ (oM.view.loc (c : Thread nD τ) ↦[oM.view.set]{fullShare} outV m c)) -∗ Kt ⟨⟩))
      ⊢ wp frame (wpE (defs₀ (F := F)) 𝒱₀ c none) Set.univ (atBufs cc0_body) Kt)
    (c : Dev nD) : BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ c none) Set.univ (atBufs cc0_body) (fun _ => bodyPost m c)
  unfold bodyPre' Φ₀ owns
  iintro ⟨⟨Hstart, Hscr⟩, Ho, ⟨%d0, %g0, %hg0, Ha⟩, ⟨%d1, %g1, %hg1, Hb⟩, ⟨%d2, %g2, %hg2, Hout⟩⟩
  have ha : g0 = Ablk m c := hg0.trans (by unfold Dat.before; rw [if_pos (fetch0_0 t₀)]; rfl)
  have hb : g1 = Bblk m c := hg1.trans (by unfold Dat.before; rw [if_pos (fetch0_1 t₀)]; rfl)
  subst ha; subst hb
  ihave HK := (open_core m c) $$ [Hstart Hscr]
  · iframe
  icases HK with ⟨%K, Hcore⟩
  unfold Dat.owesAt Pipeline.owesWithin
  icases Ho with ⟨%W, %hW, HO⟩
  rw [show (dats (F := F) m 0 c).owed t₀.castSucc = Ofrom c payList from O₀_eq c]
  iapply (hsound K c W fun _ => bodyPost m c)
  iframe Hcore HO Ha Hb
  isplitl [Hout]
  · unfold freeBuf; iexists g2; iexact Hout
  iintro ⟨Hcl, ⟨%W', HO'⟩, Ha, Hb, Hout⟩
  unfold bodyPost Dat.owesAt Pipeline.owesWithin owns
  rw [show (dats (F := F) m 0 c).owed t₀.succ = 0 from rfl]
  isplitl [Hcl]
  · iapply (close_core (F := F) c); iexact Hcl
  isplitl [HO']
  · iexists W'; iframe HO'; ipureintro; exact fun _ _ => Or.inl trivial
  isplitl [Ha]
  · iexists (Ablk m c); iframe Ha; ipureintro; rfl
  isplitl [Hb]
  · iexists (Bblk m c); iframe Hb; ipureintro; rfl
  iexists (outV m c); iframe Hout; ipureintro; rfl

end Cert.Kernel.Proto

end
-- ==== Proof.StepsW.lean ====
import proofs.«900895_g7700000000000896_dist_matmul_mk_i_outk_m2048_n2048_k1024_v7x_i8_f32_1_alg».proof.Proof.ProtoW
import proofs.«900895_g7700000000000896_dist_matmul_mk_i_outk_m2048_n2048_k1024_v7x_i8_f32_1_alg».proof.Proof.TablesW

namespace Cert.Kernel.Proto

open Cert.Kernel.Gen Cert.Kernel.Mesh
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The records hold every keyed cell's invariant, and that its round 0 is reached. -/
theorem inv_at (ck : CK) : (records m K : sProp 𝕄) ⊢ cellInv ER (Rd m) (K ck) (kcell ck) := by
  unfold records; exact sep_elim_left.trans (bigSep_elim (Finset.mem_univ ck))
theorem reached_at (ck : CK) : (records m K : sProp 𝕄) ⊢ reached ER (kcell ck) 0 := by
  unfold records; exact sep_elim_right.trans (bigSep_elim (Finset.mem_univ ck))

omit [FloatOps F] in
theorem Np_zero : Np 0 = N96 := if_pos rfl
omit [FloatOps F] in
theorem Np_of_ne {p : Fin 3} (hp : p ≠ 0) : Np p = N80 := if_neg hp

omit [FloatOps F] in
/-- A slot's credit counts its rows only, so it is the same in every slot of either 80-row buffer. -/
theorem credit80 (p : Fin 3) (i : Fin 7) : (rSlot80 (rcvM80 p) i).view.dmaCredit = N80 := by
  unfold rcvM80; split <;> rfl

end Cert.Kernel.Proto
-- ==== Proof.StepsGW.lean ====
import proofs.«900895_g7700000000000896_dist_matmul_mk_i_outk_m2048_n2048_k1024_v7x_i8_f32_1_alg».proof.Proof.StepsW

namespace Cert.Kernel.Proto

open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The copy of a 96-row slot into slot i of the neighbour's receive buffer pays both cells' duties. -/
theorem wp_send96' (c n : Dev nD) (i : Fin 7) (hn : n = peer (slotMask 0 i) c) {n₀ : Dev nD} (hn₀ : n₀ = n)
    {ss rs : DmaSem sig} (hss : ss = sSem 0 i) (hrs : rs = rSem 0 i)
    (src : Memref sig .tc .vmem S96x2048 .bf16) {src₀ : Memref sig .tc .vmem S96x2048 .bf16} (hs : src₀ = src)
    {dst : Memref sig (Dev.tc n₀ : Thread nD τ).2.kind .vmem S96x2048 .bf16} (hd : dst = rSlot96 rcvM0 i)
    (fs : Buf (Elt F) (src.view.loc (c : Thread nD τ)))
    (hland : ∀ fd, rcvM0.view.readAt (Elt F) (rRect96 i).toLoadRect ((rSlot96 rcvM0 i).view.write (Elt F) fd (src.view.read (Elt F) fs) Finset.univ) = landed96 m n i)
    (hback : (src.view.loc (c : Thread nD τ) ↦[src.view.set]{fullShare} fs : sProp 𝕄) ⊢ sendPay m c 0 i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop((src.view.loc (c : Thread nD τ) ↦[src.view.set]{fullShare} fs) -∗ rFree96 rcvM0 n i
      -∗ owes (c : Thread nD τ) (O + tallyAt (recvCell n 0 i) () (Np 0)) W
      -∗ dutyTok ER (sendCell c 0 i) 0 (0 : Fin 3) -∗ dutyTok ER (recvCell n 0 i) 0 (0 : Fin 3)
      -∗ ((cred (tallyAt (sendCell c 0 i) () (Np 0)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hn₀ hss hrs hd hs
  unfold rFree96
  iintro #HR Hsrc ⟨%fd, Hdst⟩ HO HtS HtR Hk
  iapply (Rounds.wp_send_pointsTo 𝒱₀ ER (Rd m) (c : Thread nD τ) none (κ₁ := K (c, some (false, 0, i))) (κ₂ := K (n₀, some (true, 0, i))) (sem := .dma (rSem 0 i)) (fd := fd)
      (by rw [duties_send]; exact Finset.mem_singleton_self _) (by rw [duties_recv]; exact Finset.mem_singleton_self _)
      () () (Np 0) Np_zero.symm (amount_send m c 0 i 0) (amount_recv m n₀ 0 i 0) O rfl (W := W)
      (by rw [payload_send]; exact hback)
      (by
        rw [payload_recv]; unfold recvPay; rw [if_pos rfl]; unfold rHolds96
        iintro H; iexists _; iframe
        ipureintro; exact hland fd)) $$ [$Hsrc $Hdst $HO $HtS $HtR] Hk
  isplitr; · iapply (inv_at m K _) $$ HR
  isplitr; · iapply (inv_at m K _) $$ HR
  isplitr; · iapply (reached_at m K (c, some (false, 0, i))) $$ HR
  iapply (reached_at m K (n₀, some (true, 0, i))) $$ HR

/-- The same for an 80-row slot of part p, whose credit is the same in every slot. -/
theorem wp_send80' (c n : Dev nD) (p : Fin 3) (hp : p ≠ 0) (i : Fin 7) (hn : n = peer (slotMask p i) c) {n₀ : Dev nD} (hn₀ : n₀ = n)
    (rb : Memref sig .tc .vmem S7x80x2048 .bf16) (hrb : rb = rcvM80 p)
    {ss rs : DmaSem sig} (hss : ss = sSem p i) (hrs : rs = rSem p i)
    (src : Memref sig .tc .vmem S80x2048 .bf16) {src₀ : Memref sig .tc .vmem S80x2048 .bf16} (hs : src₀ = src)
    {dst : Memref sig (Dev.tc n₀ : Thread nD τ).2.kind .vmem S80x2048 .bf16} (hd : dst = rSlot80 rb i)
    (fs : Buf (Elt F) (src.view.loc (c : Thread nD τ)))
    (hland : ∀ fd, rb.view.readAt (Elt F) (rRect80 i).toLoadRect ((rSlot80 rb i).view.write (Elt F) fd (src.view.read (Elt F) fs) Finset.univ) = landed80 m p n i)
    (hback : (src.view.loc (c : Thread nD τ) ↦[src.view.set]{fullShare} fs : sProp 𝕄) ⊢ sendPay m c p i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop((src.view.loc (c : Thread nD τ) ↦[src.view.set]{fullShare} fs) -∗ rFree80 rb n i
      -∗ owes (c : Thread nD τ) (O + tallyAt (recvCell n p i) () (Np p)) W
      -∗ dutyTok ER (sendCell c p i) 0 (0 : Fin 3) -∗ dutyTok ER (recvCell n p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hn₀ hss hrs hd hs hrb
  unfold rFree80
  iintro #HR Hsrc ⟨%fd, Hdst⟩ HO HtS HtR Hk
  iapply (Rounds.wp_send_pointsTo 𝒱₀ ER (Rd m) (c : Thread nD τ) none (κ₁ := K (c, some (false, p, i))) (κ₂ := K (n₀, some (true, p, i))) (sem := .dma (rSem p i)) (fd := fd)
      (by rw [duties_send]; exact Finset.mem_singleton_self _) (by rw [duties_recv]; exact Finset.mem_singleton_self _)
      () () (Np p) ((credit80 p i).trans (Np_of_ne hp).symm) (amount_send m c p i 0) (amount_recv m n₀ p i 0) O rfl (W := W)
      (by rw [payload_send]; exact hback)
      (by
        rw [payload_recv]; unfold recvPay; rw [if_neg hp]; unfold rHolds80
        iintro H; iexists _; iframe
        ipureintro; exact hland fd)) $$ [$Hsrc $Hdst $HO $HtS $HtR] Hk
  isplitr; · iapply (inv_at m K _) $$ HR
  isplitr; · iapply (inv_at m K _) $$ HR
  isplitr; · iapply (reached_at m K (c, some (false, p, i))) $$ HR
  iapply (reached_at m K (n₀, some (true, p, i))) $$ HR

/-- The wait on a receive cell takes the round's one payload, the slot holding what landed, and closes the cell at zero. -/
theorem wp_waitRecv' (c : Dev nD) (p : Fin 3) (i : Fin 7) (O : CellTallies nD τ sig Unit) (W : Waits sig Unit)
    (hMW : (levAts L lv : sProp 𝕄) ⊢ MayWait (c : Thread nD τ) (.dma (rSem p i)) () O)
    {sm : DmaSem sig} (hsm : sm = rSem p i)
    {sp' : Space} {s' s'' : Shape} {e' e'' : EltTy} {src : Memref sig .tc sp' s' e'} {κ' : Kind} {dst : Memref sig κ' .vmem s'' e''}
    (hcr : dst.view.dmaCredit = Np p) {hsrc : src.view.WordExact} {hdst : dst.view.WordExact}
    {α : Type} {Q : α → sProp 𝕄} {k : PUnit → Prog (TpuEff nD τ sig (Elt F) Λ₀ .tc) α} :
    (records m K : sProp 𝕄) ⊢ iprop(cred (tallyAt (recvCell c p i) () (Np p)) -∗ owes (c : Thread nD τ) O W -∗ levAts L lv
      -∗ atPos ER (recvCell c p i) 0 ∅ 0
      -∗ ((owes (c : Thread nD τ) O (insert (SemLoc.dma (rSem p i), ()) W) ∗ semVal (recvCell c p i) 0 ∗ recvPay m c p i) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src dst hsrc hdst) k) Q) := by
  subst hsm
  rw [← hcr]
  iintro #HR Hc HO #Hlev Hat Hk
  iapply (Rounds.wp_wait_rest_token 𝒱₀ ER (Rd m) (c : Thread nD τ) none (κ := K (c, some (true, p, i)))
      (wpE_waitDma2_eq 𝒱₀ (c : Thread nD τ) none Set.univ) (Set.mem_univ _) () (O := O) (W := W) (R := 0) (m := 0) (T := ∅)
      (by rw [Nat.zero_add, expect_recv, hcr])) $$ [$Hc $HO $Hat]
  · isplitr; · iapply (inv_at m K _) $$ HR
    iapply hMW; iexact Hlev
  rw [rest_recv]
  iintro ⟨HO, Hat, -, Hp⟩
  imod (Rounds.cell_close ER (Rd m) (Set.mem_univ (K (c, some (true, p, i)))) id (R := 0 + 1) (duties_later m _)) $$ [$Hat] with Hz
  · iapply (inv_at m K _) $$ HR
  iapply Hk
  iframe

/-- The wait on a send cell, owing nothing, takes the copy's source back and closes the cell at zero. -/
theorem wp_waitSend' (c : Dev nD) (p : Fin 3) (i : Fin 7) (W : Waits sig Unit)
    {sm : DmaSem sig} (hsm : sm = sSem p i)
    {sp' : Space} {s' s'' : Shape} {e' e'' : EltTy} {src : Memref sig .tc sp' s' e'} {κ' : Kind} {dst : Memref sig κ' .vmem s'' e''}
    (hcr : dst.view.dmaCredit = Np p) {hsrc : src.view.WordExact} {hdst : dst.view.WordExact}
    {α : Type} {Q : α → sProp 𝕄} {k : PUnit → Prog (TpuEff nD τ sig (Elt F) Λ₀ .tc) α} :
    (records m K : sProp 𝕄) ⊢ iprop(cred (tallyAt (sendCell c p i) () (Np p)) -∗ owes (c : Thread nD τ) 0 W
      -∗ atPos ER (sendCell c p i) 0 ∅ 0
      -∗ ((owes (c : Thread nD τ) 0 (insert (SemLoc.dma (sSem p i), ()) W) ∗ semVal (sendCell c p i) 0 ∗ sendPay m c p i) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src dst hsrc hdst) k) Q) := by
  subst hsm
  rw [← hcr]
  iintro #HR Hc HO Hat Hk
  iapply (Rounds.wp_wait_rest_token 𝒱₀ ER (Rd m) (c : Thread nD τ) none (κ := K (c, some (false, p, i)))
      (wpE_waitDma2_eq 𝒱₀ (c : Thread nD τ) none Set.univ) (Set.mem_univ _) () (O := 0) (W := W) (R := 0) (m := 0) (T := ∅)
      (by rw [Nat.zero_add, expect_send, hcr])) $$ [$Hc $HO $Hat]
  · isplitr; · iapply (inv_at m K _) $$ HR
    rw [MayWait_zero]; iempintro
  rw [rest_send]
  iintro ⟨HO, Hat, -, Hp⟩
  imod (Rounds.cell_close ER (Rd m) (Set.mem_univ (K (c, some (false, p, i)))) id (R := 0 + 1) (duties_later m _)) $$ [$Hat] with Hz
  · iapply (inv_at m K _) $$ HR
  iapply Hk
  iframe

end Cert.Kernel.Proto
-- ==== Proof.StepsBarW.lean ====
import proofs.«900895_g7700000000000896_dist_matmul_mk_i_outk_m2048_n2048_k1024_v7x_i8_f32_1_alg».proof.Proof.BodyDefsW
import proofs.«900895_g7700000000000896_dist_matmul_mk_i_outk_m2048_n2048_k1024_v7x_i8_f32_1_alg».proof.Proof.StepsW
import proofs.«900895_g7700000000000896_dist_matmul_mk_i_outk_m2048_n2048_k1024_v7x_i8_f32_1_alg».proof.Proof.LaunchCredW

namespace Cert.Kernel.Proto
open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

theorem freeStage96_0 (b : Memref sig .tc .vmem S7x96x2048 .bf16) (e : Dev nD) :
    freeStage96 (F := F) b e 0 = iprop(rFree96 b e 0 ∗ rFree96 b e 1 ∗ rFree96 b e 2 ∗ rFree96 b e 3) := rfl
theorem freeStage96_1 (b : Memref sig .tc .vmem S7x96x2048 .bf16) (e : Dev nD) :
    freeStage96 (F := F) b e 1 = iprop(rFree96 b e 4 ∗ rFree96 b e 5) := rfl
theorem freeStage96_2 (b : Memref sig .tc .vmem S7x96x2048 .bf16) (e : Dev nD) :
    freeStage96 (F := F) b e 2 = rFree96 b e 6 := rfl
theorem freeStage80_0 (b : Memref sig .tc .vmem S7x80x2048 .bf16) (e : Dev nD) :
    freeStage80 (F := F) b e 0 = iprop(rFree80 b e 0 ∗ rFree80 b e 1 ∗ rFree80 b e 2 ∗ rFree80 b e 3) := rfl
theorem freeStage80_1 (b : Memref sig .tc .vmem S7x80x2048 .bf16) (e : Dev nD) :
    freeStage80 (F := F) b e 1 = iprop(rFree80 b e 4 ∗ rFree80 b e 5) := rfl
theorem freeStage80_2 (b : Memref sig .tc .vmem S7x80x2048 .bf16) (e : Dev nD) :
    freeStage80 (F := F) b e 2 = rFree80 b e 6 := rfl
theorem peel_bar (c : Dev nD) (x : Fin 3) (l : List Pay) :
    Ofrom c (Pay.bar x :: l) = Ofrom c l + tallyAt (barCell (peer x c)) () 1 := rfl
theorem peel_slot (c : Dev nD) (p : Fin 3) (i : Fin 7) (x : Fin 3) (hx : slotMask p i = x) (l : List Pay) :
    Ofrom c (Pay.slot p i :: l) = Ofrom c l + tallyAt (recvCell (peer x c) p i) () (Np p) := by subst hx; rfl
theorem f3_01 : (0 - 1 : Fin 3) = 2 := by decide
theorem f3_02 : (0 - 2 : Fin 3) = 1 := by decide
theorem f3_11 : (1 - 1 : Fin 3) = 0 := by decide
theorem f3_12 : (1 - 2 : Fin 3) = 2 := by decide
theorem f3_21 : (2 - 1 : Fin 3) = 1 := by decide
theorem f3_22 : (2 - 2 : Fin 3) = 0 := by decide

/-- The signal to the neighbour across mask x pays duty x of its barrier cell with this device's receive slots that the neighbour writes. -/
theorem wp_sigBar (K : CK → ℕ) (c n : Dev nD) (x : Fin 3) (hn : n = peer x c) (O : CellTallies nD τ sig Unit) (W : Waits sig Unit)
    {k' : ℕ} (hk' : k' = 1) {α : Type} {Q : α → sProp 𝕄} {k : PUnit → Prog (TpuEff nD τ sig (Elt F) Λ₀ .tc) α} :
    records m K ⊢ iprop(owes (c : Thread nD τ) (O + tallyAt (barCell n) () 1) W -∗ dutyTok ER (barCell n) 0 x
      -∗ iprop(freeStage96 rcvM0 c x ∗ freeStage80 rcvM1 c (x - 1) ∗ freeStage80 rcvM2 c (x - 2))
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  subst hn; subst hk'
  iintro #HR HO Htok Hpay Hk
  iapply (Rounds.wp_signal 𝒱₀ ER (Rd m) (c : Thread nD τ) none (dst := (peer x c : Thread nD τ)) (κ := K (peer x c, none))
      (d := x) (by rw [duties_bar]; exact Finset.mem_univ _) (amount_bar m (peer x c) x) () O rfl) $$ [$HO $Htok Hpay] Hk
  isplitr; · iapply (inv_at m K _) $$ HR
  isplitl [Hpay]
  · rw [payload_bar]; unfold barPay; rw [peer_peer]; iexact Hpay
  iapply (reached_at m K (peer x c, none)) $$ HR

/-- The wait on the device's own barrier cell takes the three neighbours' payloads: from each, its receive slots this device writes. -/
theorem wp_waitBar (K : CK → ℕ) (c : Dev nD) (O : CellTallies nD τ sig Unit) (W : Waits sig Unit) {k' : ℕ} (hk' : k' = 3)
    (hMW : (levAts L lv : sProp 𝕄) ⊢ MayWait (c : Thread nD τ) (.reg barS) () O)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) k' Kk)
    {α : Type} {Q : α → sProp 𝕄} {k : PUnit → Prog (TpuEff nD τ sig (Elt F) Λ₀ .tc) α} :
    records m K ⊢ iprop(levAts L lv -∗ cred (tallyAt (barCell c) () 3) -∗ owes (c : Thread nD τ) O W -∗ atPos ER (barCell c) 0 ∅ 0
      -∗ (iprop(owes (c : Thread nD τ) O (insert (SemLoc.reg barS, ()) W)
              ∗ (rFree96 rcvM0 (peer 0 c) 0 ∗ rFree96 rcvM0 (peer 0 c) 1 ∗ rFree96 rcvM0 (peer 0 c) 2 ∗ rFree96 rcvM0 (peer 0 c) 3
                  ∗ rFree80 rcvM1 (peer 0 c) 6 ∗ rFree80 rcvM2 (peer 0 c) 4 ∗ rFree80 rcvM2 (peer 0 c) 5)
              ∗ (rFree96 rcvM0 (peer 1 c) 4 ∗ rFree96 rcvM0 (peer 1 c) 5
                  ∗ rFree80 rcvM1 (peer 1 c) 0 ∗ rFree80 rcvM1 (peer 1 c) 1 ∗ rFree80 rcvM1 (peer 1 c) 2 ∗ rFree80 rcvM1 (peer 1 c) 3
                  ∗ rFree80 rcvM2 (peer 1 c) 6)
              ∗ (rFree96 rcvM0 (peer 2 c) 6 ∗ rFree80 rcvM1 (peer 2 c) 4 ∗ rFree80 rcvM1 (peer 2 c) 5
                  ∗ rFree80 rcvM2 (peer 2 c) 0 ∗ rFree80 rcvM2 (peer 2 c) 1 ∗ rFree80 rcvM2 (peer 2 c) 2 ∗ rFree80 rcvM2 (peer 2 c) 3))
            -∗ wp frame (wpE (defs₀ (F := F)) 𝒱₀ (c : Thread nD τ) none) Set.univ (k ⟨⟩) Q)
      -∗ wp frame (wpE (defs₀ (F := F)) 𝒱₀ (c : Thread nD τ) none) Set.univ (.op w k) Q) := by
  subst hk'
  iintro #HR #Hlev Hc HO Hat Hk
  iapply (Rounds.wp_wait_rest_token 𝒱₀ ER (Rd m) (c : Thread nD τ) none (κ := K (c, none)) hw (Set.mem_univ _) ()
      (O := O) (W := W) (R := 0) (m := 0) (T := ∅) (by rw [expect_bar])) $$ [$Hc $HO $Hat]
  · isplitr; · iapply (inv_at m K _) $$ HR
    iapply hMW; iexact Hlev
  rw [rest_bar]
  iintro ⟨HO, -, -, Hp⟩
  iapply Hk
  unfold barPay
  simp only [freeStage96_0, freeStage96_1, freeStage96_2, freeStage80_0, freeStage80_1, freeStage80_2, f3_01, f3_02, f3_11, f3_12, f3_21, f3_22]
  icases Hp with ⟨⟨⟨a0, a1, a2, a3⟩, a4, a5, a6⟩, ⟨⟨b0, b1⟩, ⟨b2, b3, b4, b5⟩, b6⟩, c0, ⟨c1, c2⟩, c3, c4, c5, c6⟩
  iframe

end Cert.Kernel.Proto
-- ==== Proof.SlotReadW.lean ====
import proofs.«900895_g7700000000000896_dist_matmul_mk_i_outk_m2048_n2048_k1024_v7x_i8_f32_1_alg».proof.Proof.ProtoW

namespace Cert.Kernel.Proto

open Cert.Kernel.Gen Idealize.ShloMosaic

variable {F : FTy → Type}

section Read

variable {κ κ' : Kind} {sp sp' : Space} {s s' : Shape} {e : EltTy}

theorem readAt_write_rect (v : View sig κ sp s e) (r : Rect s) (f : v.ty.Contents (Elt F)) (w : r.shape.Idx → Elt F e) :
    v.readAt (Elt F) r.toLoadRect ((v.slice r).write (Elt F) f w Finset.univ) = w :=
  View.read_write_univ (v := v.slice r) f w

theorem land_reshape (v : View sig κ sp s e) (v₂ : View sig κ' sp' s e) (h h' : s'.numel = s.numel)
    (fd : v.ty.Contents (Elt F)) (fs : v₂.ty.Contents (Elt F)) :
    v.read (Elt F) ((v.reshape s' h).write (Elt F) fd ((v₂.reshape s' h').read (Elt F) fs) Finset.univ) = v₂.read (Elt F) fs := by
  rw [View.write_reshape_univ, View.read_write_univ]
  funext x
  exact congrArg (v₂.read (Elt F) fs) (Equiv.apply_symm_apply (Shape.reshapeEquiv h) x)

end Read

section Slots

variable {κ κ' : Kind}

theorem readAt_write_r96 (b : Memref sig κ .vmem S7x96x2048 .bf16) (i : Fin 7) (f : b.view.ty.Contents (Elt F)) (w : Vec F S1x96x2048 .bf16) :
    b.view.readAt (Elt F) (rRect96 i).toLoadRect (View.write (Elt F) (b.access (rRect96 i)) f w Finset.univ) = w :=
  readAt_write_rect b.view (rRect96 i) f w
theorem readAt_write_r80 (b : Memref sig κ .vmem S7x80x2048 .bf16) (i : Fin 7) (f : b.view.ty.Contents (Elt F)) (w : Vec F S1x80x2048 .bf16) :
    b.view.readAt (Elt F) (rRect80 i).toLoadRect (View.write (Elt F) (b.access (rRect80 i)) f w Finset.univ) = w :=
  readAt_write_rect b.view (rRect80 i) f w
theorem land96 (b : Memref sig κ .vmem S7x96x2048 .bf16) (b' : Memref sig κ' .vmem S4x96x2048 .bf16) (i : Fin 7) (j : Fin 4)
    (fd : (rSlot96 b i).view.ty.Contents (Elt F)) (fs : (sSlot96 b' j).view.ty.Contents (Elt F)) :
    b.view.readAt (Elt F) (rRect96 i).toLoadRect ((rSlot96 b i).view.write (Elt F) fd ((sSlot96 b' j).view.read (Elt F) fs) Finset.univ)
      = b'.view.readAt (Elt F) (sRect96 j).toLoadRect fs :=
  land_reshape (b.view.slice (rRect96 i)) (b'.view.slice (sRect96 j)) _ _ fd fs
theorem land96r (b : Memref sig κ .vmem S7x96x2048 .bf16) (b' : Memref sig κ' .vmem S7x96x2048 .bf16) (i j : Fin 7)
    (fd : (rSlot96 b i).view.ty.Contents (Elt F)) (fs : (rSlot96 b' j).view.ty.Contents (Elt F)) :
    b.view.readAt (Elt F) (rRect96 i).toLoadRect ((rSlot96 b i).view.write (Elt F) fd ((rSlot96 b' j).view.read (Elt F) fs) Finset.univ)
      = b'.view.readAt (Elt F) (rRect96 j).toLoadRect fs :=
  land_reshape (b.view.slice (rRect96 i)) (b'.view.slice (rRect96 j)) _ _ fd fs
theorem land80 (b : Memref sig κ .vmem S7x80x2048 .bf16) (b' : Memref sig κ' .vmem S4x80x2048 .bf16) (i : Fin 7) (j : Fin 4)
    (fd : (rSlot80 b i).view.ty.Contents (Elt F)) (fs : (sSlot80 b' j).view.ty.Contents (Elt F)) :
    b.view.readAt (Elt F) (rRect80 i).toLoadRect ((rSlot80 b i).view.write (Elt F) fd ((sSlot80 b' j).view.read (Elt F) fs) Finset.univ)
      = b'.view.readAt (Elt F) (sRect80 j).toLoadRect fs :=
  land_reshape (b.view.slice (rRect80 i)) (b'.view.slice (sRect80 j)) _ _ fd fs
theorem land80r (b : Memref sig κ .vmem S7x80x2048 .bf16) (b' : Memref sig κ' .vmem S7x80x2048 .bf16) (i j : Fin 7)
    (fd : (rSlot80 b i).view.ty.Contents (Elt F)) (fs : (rSlot80 b' j).view.ty.Contents (Elt F)) :
    b.view.readAt (Elt F) (rRect80 i).toLoadRect ((rSlot80 b i).view.write (Elt F) fd ((rSlot80 b' j).view.read (Elt F) fs) Finset.univ)
      = b'.view.readAt (Elt F) (rRect80 j).toLoadRect fs :=
  land_reshape (b.view.slice (rRect80 i)) (b'.view.slice (rRect80 j)) _ _ fd fs

end Slots

end Cert.Kernel.Proto
-- ==== Proof.FactsW.lean ====
import proofs.«900895_g7700000000000896_dist_matmul_mk_i_outk_m2048_n2048_k1024_v7x_i8_f32_1_alg».proof.Proof.SlotReadW

namespace Cert.Kernel.Proto

open Cert.Kernel.Gen Cert.Kernel.Mesh Idealize.ShloMosaic Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

variable (m : (ℓ : Loc nD τ sig) → Buf (Elt F) ℓ)

theorem landed96_lt4 (n : Dev nD) (j : Fin 4) (i : Fin 7) (hi : i.val = j.val) : landed96 m n i = L96 m n j := by
  obtain rfl : i = j.castLE (by decide) := Fin.ext hi
  fin_cases j <;> rfl
theorem landed80_lt4 (p : Fin 3) (n : Dev nD) (j : Fin 4) (i : Fin 7) (hi : i.val = j.val) : landed80 m p n i = L80 m p n j := by
  obtain rfl : i = j.castLE (by decide) := Fin.ext hi
  fin_cases j <;> rfl
theorem sendPay96_lt4 (c : Dev nD) (j : Fin 4) (i : Fin 7) (hi : i.val = j.val) :
    sendPay96 m c i = sHolds96 sndM0 c j (sv96 (pv96 m c (qS 0 j))) := by
  obtain rfl : i = j.castLE (by decide) := Fin.ext hi
  fin_cases j <;> rfl
theorem sendPay80_lt4 (p : Fin 3) (c : Dev nD) (j : Fin 4) (i : Fin 7) (hi : i.val = j.val) :
    sendPay80 m p c i = sHolds80 (sndM80 p) c j (k0_pay9 (pv80 m c (qS p j) (r2 p))) := by
  obtain rfl : i = j.castLE (by decide) := Fin.ext hi
  fin_cases j <;> rfl

theorem sendPay_zero (c : Dev nD) (i : Fin 7) : sendPay m c 0 i = sendPay96 m c i := if_pos rfl
theorem sendPay_of_ne (c : Dev nD) {p : Fin 3} (hp : p ≠ 0) (i : Fin 7) : sendPay m c p i = sendPay80 m p c i := if_neg hp

theorem land96_x1 (c : Dev nD) (j : Fin 4) (i : Fin 7) (hi : i.val = j.val) (S : Vec F S1x96x2048 .bf16) (hS : S = sv96 (pv96 m c (qS 0 j)))
    (fs0 : sndM0.view.ty.Contents (Elt F)) (fd : (rSlot96 rcvM0 i).view.ty.Contents (Elt F)) :
    rcvM0.view.readAt (Elt F) (rRect96 i).toLoadRect ((rSlot96 rcvM0 i).view.write (Elt F) fd
        ((sSlot96 sndM0 j).view.read (Elt F) (View.write (Elt F) (sndM0.access (sRect96 j)) fs0 S Finset.univ)) Finset.univ)
      = landed96 m (peer 0 c) i :=
  (land96 rcvM0 sndM0 i j fd _).trans ((readAt_write_rect sndM0.view (sRect96 j) fs0 S).trans (by
    rw [hS, landed96_lt4 m (peer 0 c) j i hi, L96, peer_peer]))

theorem back96_x1 (c : Dev nD) (j : Fin 4) (i : Fin 7) (hi : i.val = j.val) (S : Vec F S1x96x2048 .bf16) (hS : S = sv96 (pv96 m c (qS 0 j)))
    (fs0 : sndM0.view.ty.Contents (Elt F)) :
    ((sSlot96 sndM0 j).view.loc (c : Thread nD τ) ↦[(sSlot96 sndM0 j).view.set]{fullShare}
        View.write (Elt F) (sndM0.access (sRect96 j)) fs0 S Finset.univ : sProp 𝕄) ⊢ sendPay m c 0 i := by
  rw [sendPay_zero, sendPay96_lt4 m c j i hi]
  unfold sHolds96
  iintro H; iexists _; iframe H; ipureintro; exact (readAt_write_rect sndM0.view (sRect96 j) fs0 S).trans hS

theorem land80_x1 (p : Fin 3) (hp : p ≠ 0) (sb : Memref sig .tc .vmem S4x80x2048 .bf16) (hsb : sb = sndM80 p)
    (rb : Memref sig .tc .vmem S7x80x2048 .bf16) (hrb : rb = rcvM80 p)
    (c : Dev nD) (j : Fin 4) (i : Fin 7) (hi : i.val = j.val) (S : Vec F S1x80x2048 .bf16) (hS : S = k0_pay9 (pv80 m c (qS p j) (r2 p)))
    (fs0 : sb.view.ty.Contents (Elt F)) (fd : (rSlot80 rb i).view.ty.Contents (Elt F)) :
    rb.view.readAt (Elt F) (rRect80 i).toLoadRect ((rSlot80 rb i).view.write (Elt F) fd
        ((sSlot80 sb j).view.read (Elt F) (View.write (Elt F) (sb.access (sRect80 j)) fs0 S Finset.univ)) Finset.univ)
      = landed80 m p (peer p c) i :=
  (land80 rb sb i j fd _).trans ((readAt_write_rect sb.view (sRect80 j) fs0 S).trans (by
    rw [hS, landed80_lt4 m p (peer p c) j i hi, L80, peer_peer]))

theorem back80_x1 (p : Fin 3) (hp : p ≠ 0) (sb : Memref sig .tc .vmem S4x80x2048 .bf16) (hsb : sb = sndM80 p)
    (c : Dev nD) (j : Fin 4) (i : Fin 7) (hi : i.val = j.val) (S : Vec F S1x80x2048 .bf16) (hS : S = k0_pay9 (pv80 m c (qS p j) (r2 p)))
    (fs0 : sb.view.ty.Contents (Elt F)) :
    ((sSlot80 sb j).view.loc (c : Thread nD τ) ↦[(sSlot80 sb j).view.set]{fullShare}
        View.write (Elt F) (sb.access (sRect80 j)) fs0 S Finset.univ : sProp 𝕄) ⊢ sendPay m c p i := by
  subst hsb
  rw [sendPay_of_ne m c hp, sendPay80_lt4 m p c j i hi]
  unfold sHolds80
  iintro H; iexists _; iframe H; ipureintro; exact (readAt_write_rect (sndM80 p).view (sRect80 j) fs0 S).trans hS

theorem back96_rr (c : Dev nD) (s : Fin 7) (S : Vec F S1x96x2048 .bf16) (f0 : rcvM0.view.ty.Contents (Elt F)) :
    ((rSlot96 rcvM0 s).view.loc (c : Thread nD τ) ↦[(rSlot96 rcvM0 s).view.set]{fullShare}
        View.write (Elt F) (rcvM0.access (rRect96 s)) f0 S Finset.univ : sProp 𝕄) ⊢ rHolds96 rcvM0 c s S := by
  unfold rHolds96
  iintro H; iexists _; iframe H; ipureintro; exact readAt_write_r96 rcvM0 s f0 S
theorem back80_rr (rb : Memref sig .tc .vmem S7x80x2048 .bf16) (c : Dev nD) (s : Fin 7) (S : Vec F S1x80x2048 .bf16) (f0 : rb.view.ty.Contents (Elt F)) :
    ((rSlot80 rb s).view.loc (c : Thread nD τ) ↦[(rSlot80 rb s).view.set]{fullShare}
        View.write (Elt F) (rb.access (rRect80 s)) f0 S Finset.univ : sProp 𝕄) ⊢ rHolds80 rb c s S := by
  unfold rHolds80
  iintro H; iexists _; iframe H; ipureintro; exact readAt_write_r80 rb s f0 S

theorem back96_x2 (c : Dev nD) (s i : Fin 7) (hsi : (s = 3 ∧ i = 5) ∨ (s = 1 ∧ i = 4)) (S : Vec F S1x96x2048 .bf16)
    (hS : S = if s = 3 then A3_96 m c else A1_96 m c) (f0 : rcvM0.view.ty.Contents (Elt F)) :
    ((rSlot96 rcvM0 s).view.loc (c : Thread nD τ) ↦[(rSlot96 rcvM0 s).view.set]{fullShare}
        View.write (Elt F) (rcvM0.access (rRect96 s)) f0 S Finset.univ : sProp 𝕄) ⊢ sendPay m c 0 i := by
  refine (back96_rr c s S f0).trans (Entails.of_eq ?_)
  rw [sendPay_zero]
  rcases hsi with ⟨rfl, rfl⟩ | ⟨rfl, rfl⟩
  · rw [hS, if_pos rfl]; rfl
  · rw [hS, if_neg (by decide)]; rfl

theorem land96_x3 (c : Dev nD) (S : Vec F S1x96x2048 .bf16) (hS : S = A2_96 m c) (f0 : rcvM0.view.ty.Contents (Elt F))
    (fd : (rSlot96 rcvM0 6).view.ty.Contents (Elt F)) :
    rcvM0.view.readAt (Elt F) (rRect96 6).toLoadRect ((rSlot96 rcvM0 6).view.write (Elt F) fd
        ((rSlot96 rcvM0 2).view.read (Elt F) (View.write (Elt F) (rcvM0.access (rRect96 2)) f0 S Finset.univ)) Finset.univ)
      = landed96 m (peer 2 c) 6 := by
  refine ((land96r rcvM0 rcvM0 6 2 fd _).trans (readAt_write_r96 rcvM0 2 f0 S)).trans ?_
  rw [hS]; show A2_96 m c = A2_96 m (peer 2 (peer 2 c)); rw [peer_peer]
theorem back96_x3 (c : Dev nD) (S : Vec F S1x96x2048 .bf16) (hS : S = A2_96 m c) (f0 : rcvM0.view.ty.Contents (Elt F)) :
    ((rSlot96 rcvM0 2).view.loc (c : Thread nD τ) ↦[(rSlot96 rcvM0 2).view.set]{fullShare}
        View.write (Elt F) (rcvM0.access (rRect96 2)) f0 S Finset.univ : sProp 𝕄) ⊢ sendPay m c 0 6 := by
  refine (back96_rr c 2 S f0).trans (Entails.of_eq ?_)
  rw [sendPay_zero, hS]; rfl

theorem back80_x2 (p : Fin 3) (hp : p ≠ 0) (rb : Memref sig .tc .vmem S7x80x2048 .bf16) (hrb : rb = rcvM80 p)
    (c : Dev nD) (s i : Fin 7) (hsi : (s = 3 ∧ i = 5) ∨ (s = 1 ∧ i = 4)) (S : Vec F S1x80x2048 .bf16)
    (hS : S = if s = 3 then A3_80 m p c else A1_80 m p c) (f0 : rb.view.ty.Contents (Elt F)) :
    ((rSlot80 rb s).view.loc (c : Thread nD τ) ↦[(rSlot80 rb s).view.set]{fullShare}
        View.write (Elt F) (rb.access (rRect80 s)) f0 S Finset.univ : sProp 𝕄) ⊢ sendPay m c p i := by
  subst hrb
  refine (back80_rr (rcvM80 p) c s S f0).trans (Entails.of_eq ?_)
  rw [sendPay_of_ne m c hp]
  rcases hsi with ⟨rfl, rfl⟩ | ⟨rfl, rfl⟩
  · rw [hS, if_pos rfl]; rfl
  · rw [hS, if_neg (by decide)]; rfl
theorem land80_x3 (p : Fin 3) (hp : p ≠ 0) (rb : Memref sig .tc .vmem S7x80x2048 .bf16) (hrb : rb = rcvM80 p)
    (c : Dev nD) (S : Vec F S1x80x2048 .bf16) (hS : S = A2_80 m p c) (f0 : rb.view.ty.Contents (Elt F)) (fd : (rSlot80 rb 6).view.ty.Contents (Elt F)) :
    rb.view.readAt (Elt F) (rRect80 6).toLoadRect ((rSlot80 rb 6).view.write (Elt F) fd
        ((rSlot80 rb 2).view.read (Elt F) (View.write (Elt F) (rb.access (rRect80 2)) f0 S Finset.univ)) Finset.univ)
      = landed80 m p (peer (p + 2) c) 6 := by
  refine ((land80r rb rb 6 2 fd _).trans (readAt_write_r80 rb 2 f0 S)).trans ?_
  rw [hS]; show A2_80 m p c = A2_80 m p (peer (p + 2) (peer (p + 2) c)); rw [peer_peer]
theorem back80_x3 (p : Fin 3) (hp : p ≠ 0) (rb : Memref sig .tc .vmem S7x80x2048 .bf16) (hrb : rb = rcvM80 p)
    (c : Dev nD) (S : Vec F S1x80x2048 .bf16) (hS : S = A2_80 m p c) (f0 : rb.view.ty.Contents (Elt F)) :
    ((rSlot80 rb 2).view.loc (c : Thread nD τ) ↦[(rSlot80 rb 2).view.set]{fullShare}
        View.write (Elt F) (rb.access (rRect80 2)) f0 S Finset.univ : sProp 𝕄) ⊢ sendPay m c p 6 := by
  subst hrb
  refine (back80_rr (rcvM80 p) c 2 S f0).trans (Entails.of_eq ?_)
  rw [sendPay_of_ne m c hp, hS]; rfl

end Cert.Kernel.Proto
-- ==== Proof.PartDefsW.lean ====
import proofs.«900895_g7700000000000896_dist_matmul_mk_i_outk_m2048_n2048_k1024_v7x_i8_f32_1_alg».proof.Proof.StepsGW
import proofs.«900895_g7700000000000896_dist_matmul_mk_i_outk_m2048_n2048_k1024_v7x_i8_f32_1_alg».proof.Proof.StepsBarW
import proofs.«900895_g7700000000000896_dist_matmul_mk_i_outk_m2048_n2048_k1024_v7x_i8_f32_1_alg».proof.Proof.FactsW

noncomputable section

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

def b16Holds (c : Dev nD) : sProp 𝕄 :=
  iprop(∃ f, (b16M.view.loc (c : Thread nD τ) ↦[b16M.view.set]{fullShare} f)
    ∗ ⌜b16M.view.readAt (Elt F) wholeB.toLoadRect f = b16V m c⌝)

def v2w (c : Dev nD) : BitVec 32 := Scalar.remsi (Scalar.divsi (Dev.word c) 1#32) 8#32

/-- What has landed in a receive slot, spelt as the slot's contents and the value read from them. -/
theorem recvPay96_open (c : Dev nD) (i : Fin 7) :
    recvPay m c 0 i = iprop(∃ f, ((rSlot96 rcvM0 i).view.loc (c : Thread nD τ) ↦[(rSlot96 rcvM0 i).view.set]{fullShare} f)
      ∗ ⌜rcvM0.view.readAt (Elt F) (rRect96 i).toLoadRect f = landed96 m c i⌝) := by
  unfold recvPay; rw [if_pos rfl]; rfl

theorem recvPay80_open (c : Dev nD) {p : Fin 3} (hp : p ≠ 0) (rb : Memref sig .tc .vmem S7x80x2048 .bf16) (hrb : rb = rcvM80 p) (i : Fin 7) :
    recvPay m c p i = iprop(∃ f, ((rSlot80 rb i).view.loc (c : Thread nD τ) ↦[(rSlot80 rb i).view.set]{fullShare} f)
      ∗ ⌜rb.view.readAt (Elt F) (rRect80 i).toLoadRect f = landed80 m p c i⌝) := by
  subst hrb; unfold recvPay; rw [if_neg hp]; rfl

end Cert.Kernel.Proto

end
-- ==== Proof.Part01W.lean ====
import proofs.«900895_g7700000000000896_dist_matmul_mk_i_outk_m2048_n2048_k1024_v7x_i8_f32_1_alg».proof.Proof.PartDefsW
import Idealize.ShloMosaic.Lib.Pipeline.Value

noncomputable section

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

local macro "stages" : tactic => `(tactic| simp only [freeStage96_0, freeStage96_1, freeStage96_2, freeStage80_0, freeStage80_1, freeStage80_2, f3_01, f3_02, f3_11, f3_12, f3_21, f3_22])

def slotPays : List Pay :=
  [.slot 0 1, .slot 1 1, .slot 2 1, .slot 0 3, .slot 1 3, .slot 2 3, .slot 0 2, .slot 1 2, .slot 2 2, .slot 0 0, .slot 1 0, .slot 2 0,
   .slot 0 5, .slot 0 4, .slot 1 5, .slot 1 4, .slot 2 5, .slot 2 4,
   .slot 0 6, .slot 1 6, .slot 2 6]
theorem payList_slots : payList = .bar 0 :: .bar 1 :: .bar 2 :: slotPays := rfl

theorem part01_b16 (c : Dev nD) (f16 : Buf (Elt F) (b16M.view.loc (c : Thread nD τ))) :
    (b16M.view.loc (c : Thread nD τ) ↦[b16M.view.set]{fullShare} b16M.view.writes (Elt F) f16
        [⟨wholeB, k0_pay1 (bM.view.readAt (Elt F) wholeB.toLoadRect (Bblk m c))⟩] : sProp 𝕄) ⊢ b16Holds m c := by
  unfold b16Holds
  iintro H
  iexists _
  iframe H
  ipureintro
  rw [View.writes_singleton]
  exact readAt_write_rect b16M.view wholeB f16 (k0_pay1 (bM.view.readAt (Elt F) wholeB.toLoadRect (Bblk m c)))

theorem part01_v26 (c : Dev nD) :
    b16M.view.readCov [(⟨wholeB, k0_pay1 (bM.view.readAt (Elt F) wholeB.toLoadRect (Bblk m c))⟩ : View.Piece (Elt F) S1024x2048 .bf16)]
        wholeB.toLoadRect = b16V m c :=
  View.readCov_unit_zero (Val := Elt F) b16M.view (funext fun a => by fin_cases a <;> rfl) inb_S1024x2048_S1024x2048_0_0
    (k0_pay1 (bM.view.readAt (Elt F) wholeB.toLoadRect (Bblk m c)))

theorem part01_v25 (c : Dev nD) :
    k0_pay2 (aM.view.readAt (Elt F) (Rect.unit (s := S2048x1024) (k0_off1 c 2#32) S96x1024.size (k0_off1_inb c 2)).toLoadRect (Ablk m c))
      = k0_pay2 (aRows96 m c 2) := rfl

theorem part01 (K : CK → ℕ) (c : Dev nD) (W : Waits sig Unit) :
    iprop(records m K ∗ levAts L lv ∗ atPos ER (barCell c) 0 ∅ 0 ∗ cred (tallyAt (barCell c) () 3)
        ∗ dutyTok ER (barCell (peer 0 c)) 0 (0 : Fin 3) ∗ dutyTok ER (barCell (peer 1 c)) 0 (1 : Fin 3) ∗ dutyTok ER (barCell (peer 2 c)) 0 (2 : Fin 3)
        ∗ owes (c : Thread nD τ) (Ofrom c payList) W
        ∗ rFree96 rcvM0 c 0 ∗ rFree96 rcvM0 c 1 ∗ rFree96 rcvM0 c 2 ∗ rFree96 rcvM0 c 3 ∗ rFree96 rcvM0 c 4 ∗ rFree96 rcvM0 c 5 ∗ rFree96 rcvM0 c 6 ∗ rFree80 rcvM1 c 0 ∗ rFree80 rcvM1 c 1 ∗ rFree80 rcvM1 c 2 ∗ rFree80 rcvM1 c 3 ∗ rFree80 rcvM1 c 4 ∗ rFree80 rcvM1 c 5 ∗ rFree80 rcvM1 c 6 ∗ rFree80 rcvM2 c 0 ∗ rFree80 rcvM2 c 1 ∗ rFree80 rcvM2 c 2 ∗ rFree80 rcvM2 c 3 ∗ rFree80 rcvM2 c 4 ∗ rFree80 rcvM2 c 5 ∗ rFree80 rcvM2 c 6
        ∗ freeBuf b16M c
        ∗ (aM.view.loc (c : Thread nD τ) ↦[aM.view.set]{fullShare} Ablk m c)
        ∗ (bM.view.loc (c : Thread nD τ) ↦[bM.view.set]{fullShare} Bblk m c))
      ⊢ wp frame (wpE (defs₀ (F := F)) 𝒱₀ c none) Set.univ
          (atBufs k0_part1)
          (fun r => iprop(owes (c : Thread nD τ) (Ofrom c slotPays) (insert (SemLoc.reg barS, ()) W)
            ∗ rFree96 rcvM0 (peer 0 c) 0 ∗ rFree96 rcvM0 (peer 0 c) 1 ∗ rFree96 rcvM0 (peer 0 c) 2 ∗ rFree96 rcvM0 (peer 0 c) 3 ∗ rFree80 rcvM1 (peer 0 c) 6 ∗ rFree80 rcvM2 (peer 0 c) 4 ∗ rFree80 rcvM2 (peer 0 c) 5 ∗ rFree96 rcvM0 (peer 1 c) 4 ∗ rFree96 rcvM0 (peer 1 c) 5 ∗ rFree80 rcvM1 (peer 1 c) 0 ∗ rFree80 rcvM1 (peer 1 c) 1 ∗ rFree80 rcvM1 (peer 1 c) 2 ∗ rFree80 rcvM1 (peer 1 c) 3 ∗ rFree80 rcvM2 (peer 1 c) 6 ∗ rFree96 rcvM0 (peer 2 c) 6 ∗ rFree80 rcvM1 (peer 2 c) 4 ∗ rFree80 rcvM1 (peer 2 c) 5 ∗ rFree80 rcvM2 (peer 2 c) 0 ∗ rFree80 rcvM2 (peer 2 c) 1 ∗ rFree80 rcvM2 (peer 2 c) 2 ∗ rFree80 rcvM2 (peer 2 c) 3
            ∗ b16Holds m c
            ∗ (aM.view.loc (c : Thread nD τ) ↦[aM.view.set]{fullShare} Ablk m c)
            ∗ (bM.view.loc (c : Thread nD τ) ↦[bM.view.set]{fullShare} Bblk m c)
            ∗ (∃ (v2' : BitVec 32) (v25' : FVec F S96x1024 .bf16) (v26' : Vec F S1024x2048 .bf16) (cst' : FVec F S96x2048 .f32), ⌜r = ⟨c, v2', v25', v26', cst'⟩ ∧ v25' = k0_pay2 (aRows96 m c 2) ∧ v26' = b16V m c ∧ cst' = constant S96x2048 .f32 0x00000000#32⌝))) := by
  unfold freeBuf
  iintro ⟨#HR, #Hlev, HatB, HcB, HtB0, HtB1, HtB2, HO, Hr00, Hr01, Hr02, Hr03, Hr04, Hr05, Hr06, Hr10, Hr11, Hr12, Hr13, Hr14, Hr15, Hr16, Hr20, Hr21, Hr22, Hr23, Hr24, Hr25, Hr26, ⟨%f16, H16⟩, HA, HB⟩
  rw [k0_part1_eq_skeleton]; unfold atBufs k0_part1_skel
  sl_exec
  sl_rw [dev1_eq c]
  rw [payList_slots, peel_bar]
  iapply (wp_sigBar m K c (peer 0 c) 0 rfl _ W rfl) $$ HR HO HtB0 [Hr00 Hr01 Hr02 Hr03 Hr16 Hr24 Hr25]
  · stages; iframe
  iintro HO
  sl_exec
  sl_rw [dev2_eq c]
  rw [peel_bar]
  iapply (wp_sigBar m K c (peer 1 c) 1 rfl _ W rfl) $$ HR HO HtB1 [Hr04 Hr05 Hr10 Hr11 Hr12 Hr13 Hr26]
  · stages; iframe
  iintro HO
  sl_exec
  sl_rw [dev3_eq c]
  rw [peel_bar]
  iapply (wp_sigBar m K c (peer 2 c) 2 rfl _ W rfl) $$ HR HO HtB2 [Hr06 Hr14 Hr15 Hr20 Hr21 Hr22 Hr23]
  · stages; iframe
  iintro HO
  sl_exec
  iapply (wp_waitBar m K c _ W rfl (mayWait_rest c (.reg barS) _ (by rw [lv_bar_own]; decide)) (wpE_semWait_eq 𝒱₀ (c : Thread nD τ) none Set.univ)) $$ HR Hlev HcB HO HatB
  iintro ⟨HO, ⟨Hq00, Hq01, Hq02, Hq03, Hq16, Hq24, Hq25⟩, ⟨Hq04, Hq05, Hq10, Hq11, Hq12, Hq13, Hq26⟩, Hq06, Hq14, Hq15, Hq20, Hq21, Hq22, Hq23⟩
  sl_exec
  rw [wp_ret]; imodintro
  ihave Hb := (part01_b16 m c f16) $$ H16
  iframe
  iexists (part01.sl.v2 c), _, (part01.sl.v26 m c), (part01.sl.cst)
  ipureintro
  exact ⟨rfl, part01_v25 m c, part01_v26 m c, rfl⟩

end Cert.Kernel.Proto

end
-- ==== Proof.Part02W.lean ====
import proofs.«900895_g7700000000000896_dist_matmul_mk_i_outk_m2048_n2048_k1024_v7x_i8_f32_1_alg».proof.Proof.PartDefsW

namespace Cert.Kernel.Proto
open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part02 (K : CK → ℕ) (c : Dev nD) (W : Waits sig Unit) (l : List Pay) (v2 : BitVec 32) (v25 : FVec F S96x1024 .bf16)
    (v26 : Vec F S1024x2048 .bf16) (cst : FVec F S96x2048 .f32) (hv25 : v25 = k0_pay2 (aRows96 m c 2)) (hv26 : v26 = b16V m c)
    (hcst : cst = constant S96x2048 .f32 0x00000000#32) :
    iprop(records m K ∗ sFree96 sndM0 c 1 ∗ rFree96 rcvM0 (peer 0 c) 1 ∗ owes (c : Thread nD τ) (Ofrom c (Pay.slot 0 1 :: l)) W
        ∗ dutyTok ER (sendCell c 0 1) 0 (0 : Fin 3) ∗ dutyTok ER (recvCell (peer 0 c) 0 1) 0 (0 : Fin 3)
        ∗ (aM.view.loc (c : Thread nD τ) ↦[aM.view.set]{fullShare} Ablk m c) ∗ b16Holds m c ∗ sFree80 sndM1 c 1)
      ⊢ wp frame (wpE (defs₀ (F := F)) 𝒱₀ c none) Set.univ
          (atBufs k0_part2 c v2 v25 v26 cst)
          (fun r => iprop(cred (tallyAt (sendCell c 0 1) () (Np 0)) ∗ owes (c : Thread nD τ) (Ofrom c l) W
            ∗ (aM.view.loc (c : Thread nD τ) ↦[aM.view.set]{fullShare} Ablk m c) ∗ b16Holds m c ∗ sendPay m c 1 1)) := by
  unfold sFree96 sFree80 b16Holds
  iintro ⟨#HR, ⟨%fs, Hs⟩, Hq, HO, HtS, HtR, HA, ⟨%f16, H16, %h16⟩, ⟨%fs1, Hs1⟩⟩
  rw [k0_part2_eq_skeleton]; unfold atBufs k0_part2_skel
  sl_exec

  have hS : k0_pay3 v25 v26 cst = sv96 (pv96 m c (qS 0 1)) := by subst hv25 hv26 hcst; rfl
  rw [peel_slot c 0 1 0 rfl]
  iapply (wp_send96' m K c (peer 0 c) 1 rfl (dev4_eq c) rfl rfl (sSlot96 sndM0 1) rfl rfl _ (land96_x1 m c 1 1 rfl _ hS fs) (back96_x1 m c 1 1 rfl _ hS fs) _ W) $$ HR [Hs] Hq HO HtS HtR
  · iexact Hs
  iintro ⟨HcS, HO⟩
  sl_exec

  ihave Hsp1 := (back80_x1 m 1 (by decide) sndM1 rfl c 1 1 rfl _ rfl fs1) $$ [Hs1]
  · iexact Hs1
  rw [wp_ret]; imodintro
  iframe
  iexists f16; iframe H16 %h16

end Cert.Kernel.Proto
-- ==== Proof.StepsHW.lean ====
import proofs.«900895_g7700000000000896_dist_matmul_mk_i_outk_m2048_n2048_k1024_v7x_i8_f32_1_alg».proof.Proof.StepsGW
import proofs.«900895_g7700000000000896_dist_matmul_mk_i_outk_m2048_n2048_k1024_v7x_i8_f32_1_alg».proof.Proof.FactsW

namespace Cert.Kernel.Proto

open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

/-- The first exchange of an 80-row part: the source is send slot j = i, holding the product the neighbour's slot i is to hold. -/
theorem wp_sendH80x1' (c : Dev nD) (p : Fin 3) (hp : p ≠ 0) (j : Fin 4) (i : Fin 7) (hi : i.val = j.val) {n₀ : Dev nD} (hn₀ : n₀ = peer p c)
    (sb : Memref sig .tc .vmem S4x80x2048 .bf16) (hsb : sb = sndM80 p) (rb : Memref sig .tc .vmem S7x80x2048 .bf16) (hrb : rb = rcvM80 p)
    {ss rs : DmaSem sig} (hss : ss = sSem p i) (hrs : rs = rSem p i)
    {src₀ : Memref sig .tc .vmem S80x2048 .bf16} (hs : src₀ = sSlot80 sb j)
    {dst : Memref sig (Dev.tc n₀ : Thread nD τ).2.kind .vmem S80x2048 .bf16} (hd : dst = rSlot80 rb i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c p i -∗ rFree80 rb (peer p c) i
      -∗ owes (c : Thread nD τ) (O + tallyAt (recvCell (peer p c) p i) () (Np p)) W
      -∗ dutyTok ER (sendCell c p i) 0 (0 : Fin 3) -∗ dutyTok ER (recvCell (peer p c) p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  subst hsb
  have hm : slotMask p i = p := by
    unfold slotMask; rw [if_pos (by have := j.isLt; omega)]
  have hpay : sendPay m c p i = sHolds80 (sndM80 p) c j (k0_pay9 (pv80 m c (qS p j) (r2 p))) := by
    rw [sendPay_of_ne m c hp, sendPay80_lt4 m p c j i hi]
  rw [hpay]
  unfold sHolds80
  iintro #HR ⟨%fs, Hsrc, %h⟩
  iapply (wp_send80' m K c (peer p c) p hp i (by rw [hm]) hn₀ rb hrb hss hrs (sSlot80 (sndM80 p) j) hs hd fs
    (fun fd => (land80 rb (sndM80 p) i j fd fs).trans (h.trans (by rw [landed80_lt4 m p (peer p c) j i hi, L80, peer_peer])))
    (by
      rw [hpay]; unfold sHolds80
      iintro H; iexists fs; iframe
      ipureintro; exact h) O W) $$ HR Hsrc

end Cert.Kernel.Proto
-- ==== Proof.Part03W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.StepsHW

namespace Cert.Kernel.Proto
open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part03 (K : CK → ℕ) (c : Dev nD) (W : Waits sig Unit) (l : List Pay) (v2 v56 : BitVec 32) :
    iprop(records m K ∗ sendPay m c 1 1 ∗ rFree80 rcvM1 (peer 1 c) 1 ∗ owes (c : Thread nD τ) (Ofrom c (Pay.slot 1 1 :: l)) W
        ∗ dutyTok ER (sendCell c 1 1) 0 (0 : Fin 3) ∗ dutyTok ER (recvCell (peer 1 c) 1 1) 0 (0 : Fin 3)
        ∗ (aM.view.loc (c : Thread nD τ) ↦[aM.view.set]{fullShare} Ablk m c) ∗ b16Holds m c ∗ sFree80 sndM2 c 1)
      ⊢ wp frame (wpE (defs₀ (F := F)) 𝒱₀ c none) Set.univ
          (atBufs k0_part3 c v2 v56)
          (fun r => iprop(cred (tallyAt (sendCell c 1 1) () (Np 1)) ∗ owes (c : Thread nD τ) (Ofrom c l) W
            ∗ (aM.view.loc (c : Thread nD τ) ↦[aM.view.set]{fullShare} Ablk m c) ∗ b16Holds m c ∗ sendPay m c 2 1)) := by
  unfold sFree80 b16Holds
  iintro ⟨#HR, Hsp, Hq, HO, HtS, HtR, HA, ⟨%f16, H16, %h16⟩, ⟨%fs2, Hs2⟩⟩
  rw [k0_part3_eq_skeleton]; unfold atBufs k0_part3_skel
  sl_exec
  rw [peel_slot c 1 1 1 rfl]
  iapply (wp_sendH80x1' m K c 1 (by decide) 1 1 rfl (dev5_eq c) sndM1 rfl rcvM1 rfl rfl rfl rfl rfl _ W) $$ HR Hsp Hq HO HtS HtR
  iintro ⟨HcS, HO⟩
  sl_exec

  ihave Hsp2 := (back80_x1 m 2 (by decide) sndM2 rfl c 1 1 rfl _ rfl fs2) $$ [Hs2]
  · iexact Hs2
  rw [wp_ret]; imodintro
  iframe
  iexists f16; iframe H16 %h16

end Cert.Kernel.Proto
-- ==== Proof.Part04W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.StepsHW

namespace Cert.Kernel.Proto
open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds
variable {F : FTy → Type} [FloatOps F]
variable (m : (ℓ : Loc nD τ sig) → Buf (Elt F) ℓ)

theorem part04 (K : CK → ℕ) (c : Dev nD) (W : Waits sig Unit) (l : List Pay) (v2 : BitVec 32) :
    iprop(records m K ∗ sendPay m c 2 1 ∗ rFree80 rcvM2 (peer 2 c) 1 ∗ owes (c : Thread nD τ) (Ofrom c (Pay.slot 2 1 :: Pay.slot 0 3 :: l)) W
        ∗ dutyTok ER (sendCell c 2 1) 0 (0 : Fin 3) ∗ dutyTok ER (recvCell (peer 2 c) 2 1) 0 (0 : Fin 3)
        ∗ dutyTok ER (sendCell c 0 3) 0 (0 : Fin 3) ∗ dutyTok ER (recvCell (peer 0 c) 0 3) 0 (0 : Fin 3)
        ∗ (aM.view.loc (c : Thread nD τ) ↦[aM.view.set]{fullShare} Ablk m c) ∗ b16Holds m c ∗ sFree96 sndM0 c 3 ∗ rFree96 rcvM0 (peer 0 c) 3)
      ⊢ wp frame (wpE (defs₀ (F := F)) 𝒱₀ c none) Set.univ
          (atBufs k0_part4 c v2)
          (fun r => iprop(cred (tallyAt (sendCell c 2 1) () (Np 2)) ∗ cred (tallyAt (sendCell c 0 3) () (Np 0))
            ∗ owes (c : Thread nD τ) (Ofrom c l) W
            ∗ (aM.view.loc (c : Thread nD τ) ↦[aM.view.set]{fullShare} Ablk m c) ∗ b16Holds m c)) := by
  unfold sFree96 b16Holds
  iintro ⟨#HR, Hsp, Hq, HO, HtS, HtR, HtS3, HtR3, HA, ⟨%f16, H16, %h16⟩, ⟨%fs3, Hs3⟩, Hq3⟩
  rw [k0_part4_eq_skeleton]; unfold atBufs k0_part4_skel
  sl_exec
  rw [peel_slot c 2 1 2 rfl]
  iapply (wp_sendH80x1' m K c 2 (by decide) 1 1 rfl (dev6_eq c) sndM2 rfl rcvM2 rfl rfl rfl rfl rfl _ W) $$ HR Hsp Hq HO HtS HtR
  iintro ⟨HcS, HO⟩
  sl_exec

  rw [peel_slot c 0 3 0 rfl]
  iapply (wp_send96' m K c (peer 0 c) 3 rfl (dev7_eq c) rfl rfl (sSlot96 sndM0 3) rfl rfl _ (land96_x1 m c 3 3 rfl _ rfl fs3)
      (back96_x1 m c 3 3 rfl _ rfl fs3) _ W) $$ HR [Hs3] Hq3 HO HtS3 HtR3
  · iexact Hs3
  iintro ⟨HcS3, HO⟩
  sl_exec
  rw [wp_ret]; imodintro
  iframe
  iexists f16; iframe H16 %h16

end Cert.Kernel.Proto
-- ==== Proof.Part05W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part05 (K : CK → ℕ) (c : Dev nD) (W : Waits sig Unit) (l : List Pay) (v2 : BitVec 32) :
    iprop(records m K ∗ sFree80 sndM1 c 3 ∗ rFree80 rcvM1 (peer 1 c) 3 ∗ owes (c : Thread nD τ) (Ofrom c (Pay.slot 1 3 :: l)) W
        ∗ dutyTok ER (sendCell c 1 3) 0 (0 : Fin 3) ∗ dutyTok ER (recvCell (peer 1 c) 1 3) 0 (0 : Fin 3)
        ∗ (aM.view.loc (c : Thread nD τ) ↦[aM.view.set]{fullShare} Ablk m c) ∗ b16Holds m c)
      ⊢ wp frame (wpE (defs₀ (F := F)) 𝒱₀ c none) Set.univ
          (atBufs k0_part5 c v2)
          (fun r => iprop(cred (tallyAt (sendCell c 1 3) () (Np 1)) ∗ owes (c : Thread nD τ) (Ofrom c l) W
            ∗ (aM.view.loc (c : Thread nD τ) ↦[aM.view.set]{fullShare} Ablk m c) ∗ b16Holds m c
            ∗ ⌜r.2 = pv80 m c 6 1⌝)) := by
  unfold sFree80 b16Holds
  iintro ⟨#HR, ⟨%fs, Hs⟩, Hq, HO, HtS, HtR, HA, ⟨%f16, H16, %h16⟩⟩
  rw [k0_part5_eq_skeleton]; unfold atBufs k0_part5_skel
  sl_exec
  rw [peel_slot c 1 3 1 rfl]
  iapply (wp_send80' m K c (peer 1 c) 1 (by decide) 3 rfl (dev8_eq c) rcvM1 rfl rfl rfl (sSlot80 sndM1 3) rfl rfl _
      (land80_x1 m 1 (by decide) sndM1 rfl rcvM1 rfl c 3 3 rfl _ rfl fs) (back80_x1 m 1 (by decide) sndM1 rfl c 3 3 rfl _ rfl fs) _ W) $$ HR [Hs] Hq HO HtS HtR
  · iexact Hs
  iintro ⟨HcS, HO⟩
  sl_exec
  rw [wp_ret]; imodintro
  iframe
  isplitl [H16]; · iexists f16; iframe H16 %h16
  ipureintro; rfl

end Cert.Kernel.Proto
-- ==== Proof.Part06W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part06 (K : CK → ℕ) (c : Dev nD) (W : Waits sig Unit) (l : List Pay) (v2 : BitVec 32) (v148 : FVec F S80x2048 .bf16)
    (hv148 : v148 = pv80 m c 6 1) :
    iprop(records m K ∗ sFree80 sndM2 c 3 ∗ rFree80 rcvM2 (peer 2 c) 3 ∗ owes (c : Thread nD τ) (Ofrom c (Pay.slot 2 3 :: l)) W
        ∗ dutyTok ER (sendCell c 2 3) 0 (0 : Fin 3) ∗ dutyTok ER (recvCell (peer 2 c) 2 3) 0 (0 : Fin 3)
        ∗ (aM.view.loc (c : Thread nD τ) ↦[aM.view.set]{fullShare} Ablk m c) ∗ b16Holds m c ∗ sFree96 sndM0 c 2)
      ⊢ wp frame (wpE (defs₀ (F := F)) 𝒱₀ c none) Set.univ
          (atBufs k0_part6 c v2 v148)
          (fun r => iprop(cred (tallyAt (sendCell c 2 3) () (Np 2)) ∗ owes (c : Thread nD τ) (Ofrom c l) W
            ∗ (aM.view.loc (c : Thread nD τ) ↦[aM.view.set]{fullShare} Ablk m c) ∗ b16Holds m c ∗ sendPay m c 0 2)) := by
  unfold sFree80 sFree96 b16Holds
  iintro ⟨#HR, ⟨%fs, Hs⟩, Hq, HO, HtS, HtR, HA, ⟨%f16, H16, %h16⟩, ⟨%fs0, Hs0⟩⟩
  rw [k0_part6_eq_skeleton]; unfold atBufs k0_part6_skel
  sl_exec
  have hS : k0_pay9 v148 = k0_pay9 (pv80 m c (qS 2 3) (r2 2)) := by subst hv148; rfl
  rw [peel_slot c 2 3 2 rfl]
  iapply (wp_send80' m K c (peer 2 c) 2 (by decide) 3 rfl (dev9_eq c) rcvM2 rfl rfl rfl (sSlot80 sndM2 3) rfl rfl _
      (land80_x1 m 2 (by decide) sndM2 rfl rcvM2 rfl c 3 3 rfl _ hS fs) (back80_x1 m 2 (by decide) sndM2 rfl c 3 3 rfl _ hS fs) _ W) $$ HR [Hs] Hq HO HtS HtR
  · iexact Hs
  iintro ⟨HcS, HO⟩
  sl_exec
  ihave Hsp0 := (back96_x1 m c 2 2 rfl _ rfl fs0) $$ [Hs0]
  · iexact Hs0
  rw [wp_ret]; imodintro
  iframe
  iexists f16; iframe H16 %h16

end Cert.Kernel.Proto
-- ==== Proof.Part07W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part07 (K : CK → ℕ) (c : Dev nD) (W : Waits sig Unit) (l : List Pay) (v2 v177 c0 : BitVec 32) :
    iprop(records m K ∗ sendPay m c 0 2 ∗ rFree96 rcvM0 (peer 0 c) 2 ∗ owes (c : Thread nD τ) (Ofrom c (Pay.slot 0 2 :: l)) W
        ∗ dutyTok ER (sendCell c 0 2) 0 (0 : Fin 3) ∗ dutyTok ER (recvCell (peer 0 c) 0 2) 0 (0 : Fin 3)
        ∗ (aM.view.loc (c : Thread nD τ) ↦[aM.view.set]{fullShare} Ablk m c) ∗ b16Holds m c ∗ sFree80 sndM1 c 2)
      ⊢ wp frame (wpE (defs₀ (F := F)) 𝒱₀ c none) Set.univ
          (atBufs k0_part7 c v2 v177 c0)
          (fun r => iprop(cred (tallyAt (sendCell c 0 2) () (Np 0)) ∗ owes (c : Thread nD τ) (Ofrom c l) W
            ∗ (aM.view.loc (c : Thread nD τ) ↦[aM.view.set]{fullShare} Ablk m c) ∗ b16Holds m c ∗ sendPay m c 1 2)) := by
  rw [sendPay_zero, sendPay96_lt4 m c 2 2 rfl]
  unfold sHolds96 sFree80 b16Holds
  iintro ⟨#HR, ⟨%fs, Hs, %hfs⟩, Hq, HO, HtS, HtR, HA, ⟨%f16, H16, %h16⟩, ⟨%fs1, Hs1⟩⟩
  rw [k0_part7_eq_skeleton]; unfold atBufs k0_part7_skel
  sl_exec

  have hland : ∀ fd, rcvM0.view.readAt (Elt F) (rRect96 2).toLoadRect ((rSlot96 rcvM0 2).view.write (Elt F) fd
      ((sSlot96 sndM0 2).view.read (Elt F) fs) Finset.univ) = landed96 m (peer 0 c) 2 := fun fd =>
    (land96 rcvM0 sndM0 2 2 fd fs).trans (hfs.trans (by rw [landed96_lt4 m (peer 0 c) 2 2 rfl, L96, peer_peer]))
  have hback : ((sSlot96 sndM0 2).view.loc (c : Thread nD τ) ↦[(sSlot96 sndM0 2).view.set]{fullShare} fs : sProp 𝕄) ⊢ sendPay m c 0 2 := by
    rw [sendPay_zero, sendPay96_lt4 m c 2 2 rfl]; unfold sHolds96
    iintro H; iexists fs
    isplitl [H]; · iexact H
    ipureintro; exact hfs
  rw [peel_slot c 0 2 0 rfl]
  iapply (wp_send96' m K c (peer 0 c) 2 rfl (dev10_eq c) rfl rfl (sSlot96 sndM0 2) rfl rfl fs hland hback _ W) $$ HR Hs Hq HO HtS HtR
  iintro ⟨HcS, HO⟩
  sl_exec

  ihave Hsp1 := (back80_x1 m 1 (by decide) sndM1 rfl c 2 2 rfl _ rfl fs1) $$ [Hs1]
  · iexact Hs1
  rw [wp_ret]; imodintro
  iframe
  iexists f16; iframe H16 %h16

end Cert.Kernel.Proto
-- ==== Proof.Part08W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part08_src (c : Dev nD) : sendPay m c 1 2
    = iprop(∃ f, ((sSlot80 sndM1 2).view.loc (c : Thread nD τ) ↦[(sSlot80 sndM1 2).view.set]{fullShare} f)
        ∗ ⌜sndM1.view.readAt (Elt F) (sRect80 2).toLoadRect f = k0_pay9 (pv80 m c (qS 1 2) (r2 1))⌝) := by
  rw [sendPay_of_ne m c (by decide), sendPay80_lt4 m 1 c 2 2 rfl]; rfl

theorem part08 (K : CK → ℕ) (c : Dev nD) (W : Waits sig Unit) (l : List Pay) (v2 : BitVec 32) :
    iprop(records m K ∗ sendPay m c 1 2 ∗ rFree80 rcvM1 (peer 1 c) 2 ∗ owes (c : Thread nD τ) (Ofrom c (Pay.slot 1 2 :: Pay.slot 2 2 :: l)) W
        ∗ dutyTok ER (sendCell c 1 2) 0 (0 : Fin 3) ∗ dutyTok ER (recvCell (peer 1 c) 1 2) 0 (0 : Fin 3)
        ∗ (aM.view.loc (c : Thread nD τ) ↦[aM.view.set]{fullShare} Ablk m c) ∗ b16Holds m c ∗ sFree80 sndM2 c 2 ∗ rFree80 rcvM2 (peer 2 c) 2
        ∗ dutyTok ER (sendCell c 2 2) 0 (0 : Fin 3) ∗ dutyTok ER (recvCell (peer 2 c) 2 2) 0 (0 : Fin 3))
      ⊢ wp frame (wpE (defs₀ (F := F)) 𝒱₀ c none) Set.univ
          (atBufs k0_part8 c v2)
          (fun r => iprop(cred (tallyAt (sendCell c 1 2) () (Np 1)) ∗ cred (tallyAt (sendCell c 2 2) () (Np 2))
            ∗ owes (c : Thread nD τ) (Ofrom c l) W
            ∗ (aM.view.loc (c : Thread nD τ) ↦[aM.view.set]{fullShare} Ablk m c) ∗ b16Holds m c
            ∗ ⌜r.2 = k0_pay13 (aRows96 m c 1)⌝)) := by
  rw [part08_src]
  unfold sFree80 b16Holds
  iintro ⟨#HR, ⟨%fs, Hs, %hfs⟩, Hq, HO, HtS, HtR, HA, ⟨%f16, H16, %h16⟩, ⟨%fs2, Hs2⟩, Hq2, HtS2, HtR2⟩
  rw [k0_part8_eq_skeleton]; unfold atBufs k0_part8_skel
  sl_exec

  have hland : ∀ fd, rcvM1.view.readAt (Elt F) (rRect80 2).toLoadRect ((rSlot80 rcvM1 2).view.write (Elt F) fd
      ((sSlot80 sndM1 2).view.read (Elt F) fs) Finset.univ) = landed80 m 1 (peer 1 c) 2 := fun fd =>
    (land80 rcvM1 sndM1 2 2 fd fs).trans (hfs.trans (by rw [landed80_lt4 m 1 (peer 1 c) 2 2 rfl, L80, peer_peer]))
  have hback : ((sSlot80 sndM1 2).view.loc (c : Thread nD τ) ↦[(sSlot80 sndM1 2).view.set]{fullShare} fs : sProp 𝕄) ⊢ sendPay m c 1 2 := by
    rw [part08_src]
    iintro H; iexists fs
    isplitl [H]; · iexact H
    ipureintro; exact hfs
  rw [peel_slot c 1 2 1 rfl]
  iapply (wp_send80' m K c (peer 1 c) 1 (by decide) 2 rfl (dev11_eq c) rcvM1 rfl rfl rfl (sSlot80 sndM1 2) rfl rfl fs hland hback _ W) $$ HR Hs Hq HO HtS HtR
  iintro ⟨HcS, HO⟩
  sl_exec

  rw [peel_slot c 2 2 2 rfl]
  iapply (wp_send80' m K c (peer 2 c) 2 (by decide) 2 rfl (dev12_eq c) rcvM2 rfl rfl rfl (sSlot80 sndM2 2) rfl rfl _
    (land80_x1 m 2 (by decide) sndM2 rfl rcvM2 rfl c 2 2 rfl _ rfl fs2) (back80_x1 m 2 (by decide) sndM2 rfl c 2 2 rfl _ rfl fs2) _ W) $$ HR [Hs2] Hq2 HO HtS2 HtR2
  · iexact Hs2
  iintro ⟨HcS2, HO⟩
  sl_exec
  rw [wp_ret]; imodintro
  iframe
  isplitl [H16]; · iexists f16; iframe H16 %h16
  ipureintro; rfl

end Cert.Kernel.Proto
-- ==== Proof.Part09W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part09 (K : CK → ℕ) (c : Dev nD) (W : Waits sig Unit) (l : List Pay) (v2 : BitVec 32) (v241 : FVec F S96x1024 .bf16)
    (hv241 : v241 = k0_pay13 (aRows96 m c 1)) :
    iprop(records m K ∗ sFree96 sndM0 c 0 ∗ rFree96 rcvM0 (peer 0 c) 0 ∗ owes (c : Thread nD τ) (Ofrom c (Pay.slot 0 0 :: l)) W
        ∗ dutyTok ER (sendCell c 0 0) 0 (0 : Fin 3) ∗ dutyTok ER (recvCell (peer 0 c) 0 0) 0 (0 : Fin 3)
        ∗ (aM.view.loc (c : Thread nD τ) ↦[aM.view.set]{fullShare} Ablk m c) ∗ b16Holds m c ∗ sFree80 sndM1 c 0)
      ⊢ wp frame (wpE (defs₀ (F := F)) 𝒱₀ c none) Set.univ
          (atBufs k0_part9 c v2 v241)
          (fun r => iprop(cred (tallyAt (sendCell c 0 0) () (Np 0)) ∗ owes (c : Thread nD τ) (Ofrom c l) W
            ∗ (aM.view.loc (c : Thread nD τ) ↦[aM.view.set]{fullShare} Ablk m c) ∗ b16Holds m c ∗ sendPay m c 1 0)) := by
  unfold sFree96 sFree80 b16Holds
  iintro ⟨#HR, ⟨%fs, Hs⟩, Hq, HO, HtS, HtR, HA, ⟨%f16, H16, %h16⟩, ⟨%fs1, Hs1⟩⟩
  rw [k0_part9_eq_skeleton]; unfold atBufs k0_part9_skel
  sl_exec

  have hS : k0_pay14 v241 (b16V m c) = sv96 (pv96 m c (qS 0 0)) := by subst hv241; rfl
  rw [peel_slot c 0 0 0 rfl]
  iapply (wp_send96' m K c (peer 0 c) 0 rfl (dev13_eq c) rfl rfl (sSlot96 sndM0 0) rfl rfl _ (land96_x1 m c 0 0 rfl _ hS fs) (back96_x1 m c 0 0 rfl _ hS fs) _ W) $$ HR [Hs] Hq HO HtS HtR
  · iexact Hs
  iintro ⟨HcS, HO⟩
  sl_exec

  ihave Hsp1 := (back80_x1 m 1 (by decide) sndM1 rfl c 0 0 rfl _ rfl fs1) $$ [Hs1]
  · iexact Hs1
  rw [wp_ret]; imodintro
  iframe
  iexists f16; iframe H16 %h16

end Cert.Kernel.Proto
-- ==== Proof.Part10W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem part10_src (c : Dev nD) : sendPay m c 1 0
    = iprop(∃ f, ((sSlot80 sndM1 0).view.loc (c : Thread nD τ) ↦[(sSlot80 sndM1 0).view.set]{fullShare} f)
        ∗ ⌜sndM1.view.readAt (Elt F) (sRect80 0).toLoadRect f = k0_pay9 (pv80 m c (qS 1 0) (r2 1))⌝) := by
  rw [sendPay_of_ne m c (by decide), sendPay80_lt4 m 1 c 0 0 rfl]; rfl

theorem part10 (K : CK → ℕ) (c : Dev nD) (W : Waits sig Unit) (l : List Pay) (v2 c3 : BitVec 32) :
    iprop(records m K ∗ sendPay m c 1 0 ∗ rFree80 rcvM1 (peer 1 c) 0 ∗ owes (c : Thread nD τ) (Ofrom c (Pay.slot 1 0 :: l)) W
        ∗ dutyTok ER (sendCell c 1 0) 0 (0 : Fin 3) ∗ dutyTok ER (recvCell (peer 1 c) 1 0) 0 (0 : Fin 3)
        ∗ (aM.view.loc (c : Thread nD τ) ↦[aM.view.set]{fullShare} Ablk m c) ∗ b16Holds m c ∗ sFree80 sndM2 c 0)
      ⊢ wp frame (wpE (defs₀ (F := F)) 𝒱₀ c none) Set.univ
          (atBufs k0_part10 c v2 c3)
          (fun r => iprop(cred (tallyAt (sendCell c 1 0) () (Np 1)) ∗ owes (c : Thread nD τ) (Ofrom c l) W
            ∗ (aM.view.loc (c : Thread nD τ) ↦[aM.view.set]{fullShare} Ablk m c) ∗ b16Holds m c ∗ sendPay m c 2 0)) := by
  rw [part10_src]
  unfold sFree80 b16Holds
  iintro ⟨#HR, ⟨%fs, Hs, %hfs⟩, Hq, HO, HtS, HtR, HA, ⟨%f16, H16, %h16⟩, ⟨%fs2, Hs2⟩⟩
  rw [k0_part10_eq_skeleton]; unfold atBufs k0_part10_skel
  sl_exec

  have hland : ∀ fd, rcvM1.view.readAt (Elt F) (rRect80 0).toLoadRect ((rSlot80 rcvM1 0).view.write (Elt F) fd
      ((sSlot80 sndM1 0).view.read (Elt F) fs) Finset.univ) = landed80 m 1 (peer 1 c) 0 := fun fd =>
    (land80 rcvM1 sndM1 0 0 fd fs).trans (hfs.trans (by rw [landed80_lt4 m 1 (peer 1 c) 0 0 rfl, L80, peer_peer]))
  have hback : ((sSlot80 sndM1 0).view.loc (c : Thread nD τ) ↦[(sSlot80 sndM1 0).view.set]{fullShare} fs : sProp 𝕄) ⊢ sendPay m c 1 0 := by
    rw [part10_src]
    iintro H; iexists fs
    isplitl [H]; · iexact H
    ipureintro; exact hfs
  rw [peel_slot c 1 0 1 rfl]
  iapply (wp_send80' m K c (peer 1 c) 1 (by decide) 0 rfl (dev14_eq c) rcvM1 rfl rfl rfl (sSlot80 sndM1 0) rfl rfl fs hland hback _ W) $$ HR Hs Hq HO HtS HtR
  iintro ⟨HcS, HO⟩
  sl_exec

  ihave Hsp2 := (back80_x1 m 2 (by decide) sndM2 rfl c 0 0 rfl _ rfl fs2) $$ [Hs2]
  · iexact Hs2
  rw [wp_ret]; imodintro
  iframe
  iexists f16; iframe H16 %h16

end Cert.Kernel.Proto
-- ==== Proof.Part11W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.StepsHW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part11 (K : CK → ℕ) (c : Dev nD) (W : Waits sig Unit) (l : List Pay) (hl : ∀ t ∈ l, 2 < payLv t) (v2 v32 : BitVec 32) :
    iprop(records m K ∗ levAts L lv
        ∗ owes (c : Thread nD τ) (Ofrom c (Pay.slot 2 0 :: l)) W
        ∗ sendPay m c 2 0 ∗ rFree80 rcvM2 (peer 2 c) 0
        ∗ dutyTok ER (sendCell c 2 0) 0 (0 : Fin 3) ∗ dutyTok ER (recvCell (peer 2 c) 2 0) 0 (0 : Fin 3)
        ∗ (aM.view.loc (c : Thread nD τ) ↦[aM.view.set]{fullShare} Ablk m c)
        ∗ b16Holds m c
        ∗ cred (tallyAt (recvCell c 0 1) () (Np 0)) ∗ atPos ER (recvCell c 0 1) 0 ∅ 0)
      ⊢ wp frame (wpE (defs₀ (F := F)) 𝒱₀ c none) Set.univ
          (atBufs k0_part11 c v2 v32)
          (fun r => iprop((∃ W', owes (c : Thread nD τ) (Ofrom c l) W')
            ∗ cred (tallyAt (sendCell c 2 0) () (Np 2))
            ∗ (aM.view.loc (c : Thread nD τ) ↦[aM.view.set]{fullShare} Ablk m c)
            ∗ b16Holds m c
            ∗ semVal (recvCell c 0 1) 0 ∗ sendPay m c 0 4
            ∗ ⌜r = Scalar.xori v2 4#32⌝)) := by
  unfold b16Holds
  iintro ⟨#HR, #Hlev, HO, Hsp0, Hfree, HtS, HtR, HA, ⟨%f16, H16, %h16⟩, Hc, Hat⟩
  rw [k0_part11_eq_skeleton]; unfold atBufs k0_part11_skel
  sl_exec
  rw [peel_slot c 2 0 2 rfl]
  iapply (wp_sendH80x1' m K c 2 (by decide) 0 0 rfl (dev15_eq c) sndM2 rfl rcvM2 rfl rfl rfl rfl rfl (Ofrom c l) W) $$ HR Hsp0 Hfree HO HtS HtR
  iintro ⟨HcS, HO⟩
  sl_exec
  iapply (wp_waitRecv' m K c 0 1 (Ofrom c l) W (mayWait_rest c (.dma (rSem 0 1)) l (fun t ht => by rw [lv_recv_own]; exact hl t ht)) ?hsm ?hcr) $$ HR Hc HO Hlev Hat
  case hsm => rfl
  case hcr => exact Np_zero.symm
  iintro ⟨HO, Hz, Hrp⟩
  icases (Entails.of_eq (recvPay96_open m c 1)) $$ Hrp with ⟨%fr, Hr, %hfr⟩
  sl_exec
  ihave Hsp := (back96_x2 m c 1 4 (Or.inr ⟨rfl, rfl⟩) (A1_96 m c) (if_neg (by decide)).symm fr) $$ [Hr]
  · iexact Hr
  rw [wp_ret]; imodintro
  iframe
  isplitl [HO]; · iexists _; iexact HO
  isplitl [H16]; · iexists f16; iframe H16 %h16
  ipureintro; rfl

end Cert.Kernel.Proto
-- ==== Proof.Part12W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part12 (K : CK → ℕ) (c : Dev nD) (W : Waits sig Unit) (l : List Pay) (hl : ∀ t ∈ l, 2 < payLv t) (v2 v56 v331 : BitVec 32) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 1 1) () (Np 1)) ∗ atPos ER (recvCell c 1 1) 0 ∅ 0)
      ⊢ wp frame (wpE (defs₀ (F := F)) 𝒱₀ c none) Set.univ
          (atBufs k0_part12 c v2 v56 v331)
          (fun r => iprop((∃ W', owes (c : Thread nD τ) (Ofrom c l) W')
            ∗ (aM.view.loc (c : Thread nD τ) ↦[aM.view.set]{fullShare} Ablk m c)
            ∗ b16Holds m c
            ∗ semVal (recvCell c 1 1) 0 ∗ sendPay m c 1 4
            ∗ ⌜r = k0_pay19 (aRows80 m c 1 1)⌝)) := by
  unfold b16Holds
  iintro ⟨#HR, #Hlev, HO, HA, ⟨%f16, H16, %h16⟩, Hc, Hat⟩
  rw [k0_part12_eq_skeleton]; unfold atBufs k0_part12_skel
  sl_exec
  iapply (wp_waitRecv' m K c 1 1 (Ofrom c l) W (mayWait_rest c (.dma (rSem 1 1)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM1 rfl 1)) $$ Hrp with ⟨%fr, Hr, %hfr⟩
  sl_exec
  ihave Hsp := (back80_x2 m 1 (by decide) rcvM1 rfl c 1 4 (Or.inr ⟨rfl, rfl⟩) (A1_80 m 1 c) (if_neg (by decide)).symm fr) $$ [Hr]
  · iexact Hr
  rw [wp_ret]; imodintro
  iframe
  isplitl [HO]; · iexists _; iexact HO
  isplitl [H16]; · iexists f16; iframe H16 %h16
  ipureintro; rfl

end Cert.Kernel.Proto
-- ==== Proof.Part13W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part13 (K : CK → ℕ) (c : Dev nD) (W : Waits sig Unit) (l : List Pay) (hl : ∀ t ∈ l, 2 < payLv t) (v2 v80 v104 : BitVec 32)
    (v361 : FVec F S80x1024 .bf16) (hv361 : v361 = k0_pay19 (aRows80 m c 1 1)) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 2 1) () (Np 2)) ∗ atPos ER (recvCell c 2 1) 0 ∅ 0)
      ⊢ wp frame (wpE (defs₀ (F := F)) 𝒱₀ c none) Set.univ
          (atBufs k0_part13 c v2 v80 v104 v361)
          (fun r => iprop((∃ W', owes (c : Thread nD τ) (Ofrom c l) W')
            ∗ (aM.view.loc (c : Thread nD τ) ↦[aM.view.set]{fullShare} Ablk m c)
            ∗ b16Holds m c
            ∗ semVal (recvCell c 2 1) 0 ∗ sendPay m c 2 4
            ∗ ⌜r.1 = pv96 m c 7 ∧ r.2.1 = Scalar.muli v104 1#32 ∧ r.2.2 = 0#32⌝)) := by
  subst hv361
  unfold b16Holds
  iintro ⟨#HR, #Hlev, HO, HA, ⟨%f16, H16, %h16⟩, Hc, Hat⟩
  rw [k0_part13_eq_skeleton]; unfold atBufs k0_part13_skel
  sl_exec
  iapply (wp_waitRecv' m K c 2 1 (Ofrom c l) W (mayWait_rest c (.dma (rSem 2 1)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM2 rfl 1)) $$ Hrp with ⟨%fr, Hr, %hfr⟩
  sl_exec
  ihave Hsp := (back80_x2 m 2 (by decide) rcvM2 rfl c 1 4 (Or.inr ⟨rfl, rfl⟩) (A1_80 m 2 c) (if_neg (by decide)).symm fr) $$ [Hr]
  · iexact Hr
  rw [wp_ret]; imodintro
  iframe
  isplitl [HO]; · iexists _; iexact HO
  isplitl [H16]; · iexists f16; iframe H16 %h16
  ipureintro; exact ⟨rfl, rfl, rfl⟩

end Cert.Kernel.Proto
-- ==== Proof.Part14W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part14 (K : CK → ℕ) (c : Dev nD) (W : Waits sig Unit) (l : List Pay) (hl : ∀ t ∈ l, 2 < payLv t) (v2 v128 v389 c0_i32_335 : BitVec 32)
    (v388 : FVec F S96x2048 .bf16) (hv388 : v388 = pv96 m c 7) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 0 3) () (Np 0)) ∗ atPos ER (recvCell c 0 3) 0 ∅ 0)
      ⊢ wp frame (wpE (defs₀ (F := F)) 𝒱₀ c none) Set.univ
          (atBufs k0_part14 c v2 v128 v388 v389 c0_i32_335)
          (fun r => iprop((∃ W', owes (c : Thread nD τ) (Ofrom c l) W')
            ∗ (aM.view.loc (c : Thread nD τ) ↦[aM.view.set]{fullShare} Ablk m c)
            ∗ b16Holds m c
            ∗ semVal (recvCell c 0 3) 0 ∗ sendPay m c 0 5
            ∗ ⌜r = pv80 m c 5 0⌝)) := by
  subst hv388
  unfold b16Holds
  iintro ⟨#HR, #Hlev, HO, HA, ⟨%f16, H16, %h16⟩, Hc, Hat⟩
  rw [k0_part14_eq_skeleton]; unfold atBufs k0_part14_skel
  sl_exec
  iapply (wp_waitRecv' m K c 0 3 (Ofrom c l) W (mayWait_rest c (.dma (rSem 0 3)) l (fun t ht => by rw [lv_recv_own]; exact hl t ht)) ?hsm ?hcr) $$ HR Hc HO Hlev Hat
  case hsm => rfl
  case hcr => exact Np_zero.symm
  iintro ⟨HO, Hz, Hrp⟩
  icases (Entails.of_eq (recvPay96_open m c 3)) $$ Hrp with ⟨%fr, Hr, %hfr⟩
  sl_exec
  ihave Hsp := (back96_x2 m c 3 5 (Or.inl ⟨rfl, rfl⟩) (A3_96 m c) (if_pos rfl).symm fr) $$ [Hr]
  · iexact Hr
  rw [wp_ret]; imodintro
  iframe
  isplitl [HO]; · iexists _; iexact HO
  isplitl [H16]; · iexists f16; iframe H16 %h16
  ipureintro; rfl

end Cert.Kernel.Proto
-- ==== Proof.Part15W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL.RA Idealize.SL.BI
open Idealize.SL.BI.BIBase Idealize.SL.ProofMode Idealize.SL.Sem
open Idealize.ShloMosaic.Rounds

variable {F : FTy → Type} [FloatOps F]
variable (m : (ℓ : Loc nD τ sig) → Buf (Elt F) ℓ)

theorem part15 (K : CK → ℕ) (c : Dev nD) (W : Waits sig Unit) (l : List Pay) (hl : ∀ t ∈ l, 2 < payLv t) (v2 v152 : BitVec 32)
    (v412 : FVec F S80x2048 .bf16) (hv412 : v412 = pv80 m c 5 0) :
    iprop(records m K ∗ levAts L lv
        ∗ owes (c : Thread nD τ) (Ofrom c l) W
        ∗ (aM.view.loc (c : Thread nD τ) ↦[aM.view.set]{fullShare} Ablk m c)
        ∗ b16Holds m c
        ∗ cred (tallyAt (recvCell c 1 3) () (Np 1)) ∗ atPos ER (recvCell c 1 3) 0 ∅ 0
        ∗ cred (tallyAt (recvCell c 2 3) () (Np 2)) ∗ atPos ER (recvCell c 2 3) 0 ∅ 0)
      ⊢ wp frame (wpE (defs₀ (F := F)) 𝒱₀ c none) Set.univ
          (atBufs k0_part15 c v2 v152 v412)
          (fun r => iprop((∃ W', owes (c : Thread nD τ) (Ofrom c l) W')
            ∗ (aM.view.loc (c : Thread nD τ) ↦[aM.view.set]{fullShare} Ablk m c)
            ∗ b16Holds m c
            ∗ semVal (recvCell c 1 3) 0 ∗ sendPay m c 1 5
            ∗ semVal (recvCell c 2 3) 0 ∗ recvPay m c 2 3
            ∗ ⌜r.1 = k0_pay25 (aRows80 m c 2 1) (b16V m c) (landed80 m 2 c 3) ∧ r.2 = landed80 m 2 c 3⌝)) := by
  subst hv412
  unfold b16Holds
  iintro ⟨#HR, #Hlev, HO, HA, ⟨%f16, H16, %h16⟩, Hc, Hat, Hc2, Hat2⟩
  rw [k0_part15_eq_skeleton]; unfold atBufs k0_part15_skel
  sl_exec
  iapply (wp_waitRecv' m K c 1 3 (Ofrom c l) W (mayWait_rest c (.dma (rSem 1 3)) l (fun t ht => by rw [lv_recv_own]; exact hl t ht)) rfl (by rw [Np_of_ne (by decide)])) $$ HR Hc HO Hlev Hat
  iintro ⟨HO, Hz, Hrp⟩
  icases (Entails.of_eq (recvPay80_open m c (by decide) rcvM1 rfl 3)) $$ Hrp with ⟨%fr, Hr, %hfr⟩
  sl_exec
  iapply (wp_waitRecv' m K c 2 3 (Ofrom c l) _ (mayWait_rest c (.dma (rSem 2 3)) l (fun t ht => by rw [lv_recv_own]; exact hl t ht)) rfl (by rw [Np_of_ne (by decide)])) $$ HR Hc2 HO Hlev Hat2
  iintro ⟨HO, Hz2, Hrp2⟩
  icases (Entails.of_eq (recvPay80_open m c (by decide) rcvM2 rfl 3)) $$ Hrp2 with ⟨%fr2, Hr2, %hfr2⟩
  sl_exec
  ihave Hsp := (back80_x2 m 1 (by decide) rcvM1 rfl c 3 5 (Or.inl ⟨rfl, rfl⟩) (A3_80 m 1 c) (if_pos rfl).symm fr) $$ [Hr]
  · iexact Hr
  rw [wp_ret]; imodintro
  iframe
  isplitl [HO]; · iexists _; iexact HO
  isplitl [H16]; · iexists f16; iframe H16 %h16
  isplitl [Hr2]; · iapply (Entails.of_eq (recvPay80_open m c (by decide) rcvM2 rfl 3).symm); iexists fr2; iframe Hr2 %hfr2
  ipureintro; exact ⟨rfl, rfl⟩

end Cert.Kernel.Proto
-- ==== Proof.StepsLW.lean ====
import proofs.«900895_g7700000000000896_dist_matmul_mk_i_outk_m2048_n2048_k1024_v7x_i8_f32_1_alg».proof.Proof.StepsHW

namespace Cert.Kernel.Proto

open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ)

theorem sendPay_0_4 (c : Dev nD) : sendPay m c 0 4 = rHolds96 rcvM0 c 1 (A1_96 m c) := by rw [sendPay_zero]; rfl
theorem sendPay_0_5 (c : Dev nD) : sendPay m c 0 5 = rHolds96 rcvM0 c 3 (A3_96 m c) := by rw [sendPay_zero]; rfl
theorem sendPay_p_4 (c : Dev nD) {p : Fin 3} (hp : p ≠ 0) : sendPay m c p 4 = rHolds80 (rcvM80 p) c 1 (A1_80 m p c) := by
  rw [sendPay_of_ne m c hp]; rfl
theorem sendPay_p_5 (c : Dev nD) {p : Fin 3} (hp : p ≠ 0) : sendPay m c p 5 = rHolds80 (rcvM80 p) c 3 (A3_80 m p c) := by
  rw [sendPay_of_ne m c hp]; rfl

/-- A later exchange: the source is receive slot s holding the partial sum V, which is what the neighbour's slot i is to hold. -/
theorem wp_sendH96r' (c n : Dev nD) (s i : Fin 7) (V : Vec F S1x96x2048 .bf16) (hn : n = peer (slotMask 0 i) c)
    (hpay : sendPay m c 0 i = rHolds96 rcvM0 c s V) (hV : V = landed96 m n i) {n₀ : Dev nD} (hn₀ : n₀ = n)
    {ss rs : DmaSem sig} (hss : ss = sSem 0 i) (hrs : rs = rSem 0 i)
    {src₀ : Memref sig .tc .vmem S96x2048 .bf16} (hs : src₀ = rSlot96 rcvM0 s)
    {dst : Memref sig (Dev.tc n₀ : Thread nD τ).2.kind .vmem S96x2048 .bf16} (hd : dst = rSlot96 rcvM0 i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c 0 i -∗ rFree96 rcvM0 n i
      -∗ owes (c : Thread nD τ) (O + tallyAt (recvCell n 0 i) () (Np 0)) W
      -∗ dutyTok ER (sendCell c 0 i) 0 (0 : Fin 3) -∗ dutyTok ER (recvCell n 0 i) 0 (0 : Fin 3)
      -∗ ((cred (tallyAt (sendCell c 0 i) () (Np 0)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  rw [hpay]
  unfold rHolds96
  iintro #HR ⟨%fs, Hsrc, %h⟩
  iapply (wp_send96' m K c n i hn hn₀ hss hrs (rSlot96 rcvM0 s) hs hd fs
    (fun fd => (land96r rcvM0 rcvM0 i s fd fs).trans (h.trans hV))
    (by
      rw [hpay]; unfold rHolds96
      iintro H; iexists fs; iframe
      ipureintro; exact h) O W) $$ HR Hsrc

theorem wp_sendH80r' (c n : Dev nD) (p : Fin 3) (hp : p ≠ 0) (s i : Fin 7) (V : Vec F S1x80x2048 .bf16) (hn : n = peer (slotMask p i) c)
    (rb : Memref sig .tc .vmem S7x80x2048 .bf16) (hrb : rb = rcvM80 p)
    (hpay : sendPay m c p i = rHolds80 rb c s V) (hV : V = landed80 m p n i) {n₀ : Dev nD} (hn₀ : n₀ = n)
    {ss rs : DmaSem sig} (hss : ss = sSem p i) (hrs : rs = rSem p i)
    {src₀ : Memref sig .tc .vmem S80x2048 .bf16} (hs : src₀ = rSlot80 rb s)
    {dst : Memref sig (Dev.tc n₀ : Thread nD τ).2.kind .vmem S80x2048 .bf16} (hd : dst = rSlot80 rb i)
    (O : CellTallies nD τ sig Unit) (W : Waits sig Unit)
    {hsc : dst.view.ref.isScScratch = false}
    {hsrc : src₀.view.WordExact} {hdst : dst.view.WordExact}
    {hsem : DmaTarget.Typed .vmem (.dma rs) (.remote (Dev.tc n₀ : Thread nD τ) dst (.dma ss) hsc)}
    {α : Type} {Q : α → sProp 𝕄} {k : PUnit → Prog (TpuEff nD τ sig (Elt F) Λ₀ .tc) α} :
    (records m K : sProp 𝕄) ⊢ iprop(sendPay m c p i -∗ rFree80 rb n i
      -∗ owes (c : Thread nD τ) (O + tallyAt (recvCell n p i) () (Np p)) W
      -∗ dutyTok ER (sendCell c p i) 0 (0 : Fin 3) -∗ dutyTok ER (recvCell n p i) 0 (0 : Fin 3)
      -∗ ((cred (tallyAt (sendCell c p i) () (Np p)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src₀ (.remote (Dev.tc n₀ : Thread nD τ) dst (.dma ss) hsc) (.dma rs) hsrc hdst hsem) k) Q) := by
  rw [hpay]
  unfold rHolds80
  iintro #HR ⟨%fs, Hsrc, %h⟩
  iapply (wp_send80' m K c n p hp i hn hn₀ rb hrb hss hrs (rSlot80 rb s) hs hd fs
    (fun fd => (land80r rb rb i s fd fs).trans (h.trans hV))
    (by
      rw [hpay]; unfold rHolds80
      iintro H; iexists fs; iframe
      ipureintro; exact h) O W) $$ HR Hsrc

end Cert.Kernel.Proto
-- ==== Proof.Part16W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto
open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part16 (K : CK → ℕ) (c : Dev nD) (W : Waits sig Unit) (l : List Pay) (v2 : BitVec 32)
    (v447 : FVec F S80x2048 .bf16) (v448 : Vec F S1x80x2048 .bf16) (hS : k0_pay26 v447 = A3_80 m 2 c) :
    iprop(records m K ∗ rFree80 rcvM2 c 3
        ∗ sendPay m c 0 5 ∗ rFree96 rcvM0 (peer 1 c) 5 ∗ dutyTok ER (sendCell c 0 5) 0 (0 : Fin 3) ∗ dutyTok ER (recvCell (peer 1 c) 0 5) 0 (0 : Fin 3)
        ∗ sendPay m c 0 4 ∗ rFree96 rcvM0 (peer 1 c) 4 ∗ dutyTok ER (sendCell c 0 4) 0 (0 : Fin 3) ∗ dutyTok ER (recvCell (peer 1 c) 0 4) 0 (0 : Fin 3)
        ∗ owes (c : Thread nD τ) (Ofrom c (Pay.slot 0 5 :: Pay.slot 0 4 :: l)) W)
      ⊢ wp frame (wpE (defs₀ (F := F)) 𝒱₀ c none) Set.univ
          (atBufs k0_part16 c v2 v447 v448)
          (fun r => iprop(sendPay m c 2 5 ∗ cred (tallyAt (sendCell c 0 5) () (Np 0)) ∗ cred (tallyAt (sendCell c 0 4) () (Np 0))
            ∗ owes (c : Thread nD τ) (Ofrom c l) W)) := by
  unfold rFree80
  iintro ⟨#HR, ⟨%f0, Hq0⟩, Hs1, Hq1, HtS1, HtR1, Hs2, Hq2, HtS2, HtR2, HO⟩
  rw [k0_part16_eq_skeleton]; unfold atBufs k0_part16_skel
  sl_exec
  ihave Hsp := (back80_rr rcvM2 c 3 (k0_pay26 v447) f0) $$ [Hq0]
  · iexact Hq0
  rw [hS]
  rw [peel_slot c 0 5 1 rfl]
  iapply (wp_sendH96r' m K c (peer 1 c) 3 5 (A3_96 m c) rfl (sendPay_0_5 m c)
    (congrArg _ (peer_peer 1 c).symm) (dev16_eq c) ?hss ?hrs ?hs ?hd _ W) $$ HR Hs1 Hq1 HO HtS1 HtR1
  case hss | hrs | hs | hd => rfl
  iintro ⟨Hc1, HO⟩
  sl_exec
  rw [peel_slot c 0 4 1 rfl]
  iapply (wp_sendH96r' m K c (peer 1 c) 1 4 (A1_96 m c) rfl (sendPay_0_4 m c)
    (congrArg _ (peer_peer 1 c).symm) (dev17_eq c) ?hss ?hrs ?hs ?hd _ W) $$ HR Hs2 Hq2 HO HtS2 HtR2
  case hss | hrs | hs | hd => rfl
  iintro ⟨Hc2, HO⟩
  sl_exec
  rw [wp_ret]; imodintro
  iframe
  rw [sendPay_p_5 m c (by decide : (2 : Fin 3) ≠ 0)]
  iexact Hsp

end Cert.Kernel.Proto
-- ==== Proof.Part17W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto
open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part17 (K : CK → ℕ) (c : Dev nD) (W : Waits sig Unit) (l : List Pay) (v2 : BitVec 32) :
    iprop(records m K
        ∗ sendPay m c 1 5 ∗ rFree80 rcvM1 (peer 2 c) 5 ∗ dutyTok ER (sendCell c 1 5) 0 (0 : Fin 3) ∗ dutyTok ER (recvCell (peer 2 c) 1 5) 0 (0 : Fin 3)
        ∗ sendPay m c 1 4 ∗ rFree80 rcvM1 (peer 2 c) 4 ∗ dutyTok ER (sendCell c 1 4) 0 (0 : Fin 3) ∗ dutyTok ER (recvCell (peer 2 c) 1 4) 0 (0 : Fin 3)
        ∗ sendPay m c 2 5 ∗ rFree80 rcvM2 (peer 0 c) 5 ∗ dutyTok ER (sendCell c 2 5) 0 (0 : Fin 3) ∗ dutyTok ER (recvCell (peer 0 c) 2 5) 0 (0 : Fin 3)
        ∗ owes (c : Thread nD τ) (Ofrom c (Pay.slot 1 5 :: Pay.slot 1 4 :: Pay.slot 2 5 :: l)) W)
      ⊢ wp frame (wpE (defs₀ (F := F)) 𝒱₀ c none) Set.univ
          (atBufs k0_part17 c v2)
          (fun r => iprop(cred (tallyAt (sendCell c 1 5) () (Np 1)) ∗ cred (tallyAt (sendCell c 1 4) () (Np 1))
            ∗ cred (tallyAt (sendCell c 2 5) () (Np 2)) ∗ owes (c : Thread nD τ) (Ofrom c l) W)) := by
  iintro ⟨#HR, Hs1, Hq1, HtS1, HtR1, Hs2, Hq2, HtS2, HtR2, Hs3, Hq3, HtS3, HtR3, HO⟩
  rw [k0_part17_eq_skeleton]; unfold atBufs k0_part17_skel
  sl_exec
  rw [peel_slot c 1 5 2 rfl]
  iapply (wp_sendH80r' m K c (peer 2 c) 1 (by decide) 3 5 (A3_80 m 1 c) rfl rcvM1 rfl (sendPay_p_5 m c (by decide))
    (congrArg _ (peer_peer 2 c).symm) (dev18_eq c) ?hss ?hrs ?hs ?hd _ W) $$ HR Hs1 Hq1 HO HtS1 HtR1
  case hss | hrs | hs | hd => rfl
  iintro ⟨Hc1, HO⟩
  sl_exec
  rw [peel_slot c 1 4 2 rfl]
  iapply (wp_sendH80r' m K c (peer 2 c) 1 (by decide) 1 4 (A1_80 m 1 c) rfl rcvM1 rfl (sendPay_p_4 m c (by decide))
    (congrArg _ (peer_peer 2 c).symm) (dev19_eq c) ?hss ?hrs ?hs ?hd _ W) $$ HR Hs2 Hq2 HO HtS2 HtR2
  case hss | hrs | hs | hd => rfl
  iintro ⟨Hc2, HO⟩
  sl_exec
  rw [peel_slot c 2 5 0 rfl]
  iapply (wp_sendH80r' m K c (peer 0 c) 2 (by decide) 3 5 (A3_80 m 2 c) rfl rcvM2 rfl (sendPay_p_5 m c (by decide))
    (congrArg _ (peer_peer 0 c).symm) (dev20_eq c) ?hss ?hrs ?hs ?hd _ W) $$ HR Hs3 Hq3 HO HtS3 HtR3
  case hss | hrs | hs | hd => rfl
  iintro ⟨Hc3, HO⟩
  sl_exec
  rw [wp_ret]; imodintro
  iframe

end Cert.Kernel.Proto
-- ==== Proof.Part18W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part18 (K : CK → ℕ) (c : Dev nD) (W : Waits sig Unit) (v2 v176 v506 : BitVec 32) :
    iprop(records m K ∗ levAts L lv
        ∗ sendPay m c 2 4 ∗ rFree80 rcvM2 (peer 0 c) 4 ∗ dutyTok ER (sendCell c 2 4) 0 (0 : Fin 3) ∗ dutyTok ER (recvCell (peer 0 c) 2 4) 0 (0 : Fin 3)
        ∗ owes (c : Thread nD τ) (Ofrom c [Pay.slot 2 4, Pay.slot 0 6, Pay.slot 1 6, Pay.slot 2 6]) W
        ∗ (aM.view.loc (c : Thread nD τ) ↦[aM.view.set]{fullShare} Ablk m c) ∗ b16Holds m c
        ∗ cred (tallyAt (recvCell c 0 2) () (Np 0)) ∗ atPos ER (recvCell c 0 2) 0 ∅ 0)
      ⊢ wp frame (wpE (defs₀ (F := F)) 𝒱₀ c none) Set.univ
          (atBufs k0_part18 c v2 v176 v506)
          (fun r => iprop(cred (tallyAt (sendCell c 2 4) () (Np 2))
            ∗ (∃ W', owes (c : Thread nD τ) (Ofrom c [Pay.slot 0 6, Pay.slot 1 6, Pay.slot 2 6]) W')
            ∗ (aM.view.loc (c : Thread nD τ) ↦[aM.view.set]{fullShare} Ablk m c) ∗ b16Holds m c
            ∗ semVal (recvCell c 0 2) 0 ∗ recvPay m c 0 2 ∗ ⌜r = pv96 m c 4⌝)) := by
  unfold b16Holds
  iintro ⟨#HR, #Hlev, Hs1, Hq1, HtS1, HtR1, HO, HA, ⟨%f16, H16, %h16⟩, Hcr, Hat⟩
  rw [k0_part18_eq_skeleton]; unfold atBufs k0_part18_skel
  sl_exec
  rw [peel_slot c 2 4 0 rfl]
  iapply (wp_sendH80r' m K c (peer 0 c) 2 (by decide) 1 4 (A1_80 m 2 c) rfl rcvM2 rfl (sendPay_p_4 m c (by decide))
    (congrArg _ (peer_peer 0 c).symm) (dev21_eq c) ?hss ?hrs ?hs ?hd _ W) $$ HR Hs1 Hq1 HO HtS1 HtR1
  case hss | hrs | hs | hd => rfl
  iintro ⟨Hc1, HO⟩
  sl_exec
  iapply (wp_waitRecv' m K c 0 2 _ W (mayWait_rest c (.dma (rSem 0 2)) [Pay.slot 0 6, Pay.slot 1 6, Pay.slot 2 6] (by rw [lv_recv_own]; decide)) ?hsm ?hcr) $$ HR Hcr HO Hlev Hat
  case hsm => rfl
  case hcr => exact Np_zero.symm
  iintro ⟨HO, Hz, Hpay⟩
  sl_exec
  rw [wp_ret]; imodintro
  iframe
  isplitl [HO]; · iexists _; iexact HO
  isplitl [H16]; · iexists f16; iframe H16 %h16
  ipureintro; rfl

end Cert.Kernel.Proto
-- ==== Proof.Part19W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto
open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
local notation "𝕄" => MT nD τ sig Unit (Elt F) ℕ UU ℕ
variable (m : (ℓ : Loc nD τ sig) → Buf (Elt F) ℓ)

theorem part19 (K : CK → ℕ) (c : Dev nD) (W : Waits sig Unit) (v2 v451 : BitVec 32) (v526 : FVec F S96x2048 .bf16)
    (hv526 : v526 = pv96 m c 4) :
    iprop(records m K ∗ levAts L lv
        ∗ cred (tallyAt (recvCell c 0 5) () (Np 0)) ∗ atPos ER (recvCell c 0 5) 0 ∅ 0
        ∗ recvPay m c 0 2 ∗ rFree96 rcvM0 (peer 2 c) 6 ∗ dutyTok ER (sendCell c 0 6) 0 (0 : Fin 3) ∗ dutyTok ER (recvCell (peer 2 c) 0 6) 0 (0 : Fin 3)
        ∗ owes (c : Thread nD τ) (Ofrom c [Pay.slot 0 6, Pay.slot 1 6, Pay.slot 2 6]) W)
      ⊢ wp frame (wpE (defs₀ (F := F)) 𝒱₀ c none) Set.univ
          (atBufs k0_part19 c v2 v451 v526)
          (fun r => iprop(cred (tallyAt (sendCell c 0 6) () (Np 0))
            ∗ (∃ W', owes (c : Thread nD τ) (Ofrom c [Pay.slot 1 6, Pay.slot 2 6]) W')
            ∗ semVal (recvCell c 0 5) 0 ∗ recvPay m c 0 5)) := by
  rw [recvPay96_open m c 2]
  iintro ⟨#HR, #Hlev, Hcr, Hat, ⟨%f2, H2, %h2⟩, Hq, HtS, HtR, HO⟩
  rw [k0_part19_eq_skeleton]; unfold atBufs k0_part19_skel
  sl_exec
  iapply (wp_waitRecv' m K c 0 5 _ W (mayWait_rest c (.dma (rSem 0 5)) [Pay.slot 0 6, Pay.slot 1 6, Pay.slot 2 6] (by rw [lv_recv_own]; decide)) ?hsm ?hcr) $$ HR Hcr HO Hlev Hat
  case hsm => rfl
  case hcr => exact Np_zero.symm
  rw [recvPay96_open m c 5]
  iintro ⟨HO, Hz, ⟨%f5, H5, %h5⟩⟩
  sl_exec
  have hS : k0_pay28 v526 (landed96 m c 2) (landed96 m c 5) = A2_96 m c := by subst hv526; rfl
  rw [peel_slot c 0 6 2 rfl]
  iapply (wp_send96' m K c (peer 2 c) 6 rfl (dev22_eq c) ?hss ?hrs (rSlot96 rcvM0 2) ?hs ?hd _ (land96_x3 m c _ hS f2) (back96_x3 m c _ hS f2) _ _) $$ HR [H2] Hq HO HtS HtR
  case hss | hrs | hs | hd => rfl
  · iexact H2
  iintro ⟨Hc1, HO⟩
  sl_exec
  rw [wp_ret]; imodintro
  iframe
  isplitl [HO]; · iexists _; iexact HO
  iexists f5; iframe H5 %h5

end Cert.Kernel.Proto
-- ==== Proof.Part20W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto

open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part20 (K : CK → ℕ) (c : Dev nD) (W : Waits sig Unit) (v200 v473 v563 : BitVec 32) :
    iprop(records m K ∗ levAts L lv
        ∗ (aM.view.loc (c : Thread nD τ) ↦[aM.view.set]{fullShare} Ablk m c) ∗ b16Holds m c
        ∗ cred (tallyAt (recvCell c 1 2) () (Np 1)) ∗ atPos ER (recvCell c 1 2) 0 ∅ 0
        ∗ cred (tallyAt (recvCell c 1 5) () (Np 1)) ∗ atPos ER (recvCell c 1 5) 0 ∅ 0
        ∗ owes (c : Thread nD τ) (Ofrom c [Pay.slot 1 6, Pay.slot 2 6]) W)
      ⊢ wp frame (wpE (defs₀ (F := F)) 𝒱₀ c none) Set.univ
          (atBufs k0_part20 c v200 v473 v563)
          (fun r => iprop((aM.view.loc (c : Thread nD τ) ↦[aM.view.set]{fullShare} Ablk m c) ∗ b16Holds m c
            ∗ semVal (recvCell c 1 2) 0 ∗ semVal (recvCell c 1 5) 0 ∗ recvPay m c 1 2 ∗ recvPay m c 1 5
            ∗ (∃ W', owes (c : Thread nD τ) (Ofrom c [Pay.slot 1 6, Pay.slot 2 6]) W')
            ∗ ⌜r = k0_pay29 (aRows80 m c 1 0) (b16V m c) (landed80 m 1 c 2)⌝)) := by
  unfold b16Holds
  iintro ⟨#HR, #Hlev, HA, ⟨%f16, H16, %h16⟩, Hc2, Ha2, Hc5, Ha5, HO⟩
  rw [k0_part20_eq_skeleton]; unfold atBufs k0_part20_skel
  sl_exec
  iapply (wp_waitRecv' m K c 1 2 _ W (mayWait_rest c (.dma (rSem 1 2)) [Pay.slot 1 6, Pay.slot 2 6] (by rw [lv_recv_own]; decide)) ?hsm ?hcr) $$ HR Hc2 HO Hlev Ha2
  case hsm => rfl
  case hcr => rw [Np_of_ne (by decide)]
  rw [recvPay80_open m c (p := 1) (by decide) rcvM1 rfl 2]
  iintro ⟨HO, Hs2, ⟨%f2, Hb2, %hf2⟩⟩
  sl_exec
  iapply (wp_waitRecv' m K c 1 5 _ _ (mayWait_rest c (.dma (rSem 1 5)) [Pay.slot 1 6, Pay.slot 2 6] (by rw [lv_recv_own]; decide)) ?hsm ?hcr) $$ HR Hc5 HO Hlev Ha5
  case hsm => rfl
  case hcr => rw [Np_of_ne (by decide)]
  iintro ⟨HO, Hs5, Hp5⟩
  sl_exec
  rw [wp_ret]; imodintro
  iframe
  isplitl [H16]; · iexists f16; iframe H16 %h16
  isplitl [Hb2]; · iexists f2; iframe Hb2 %hf2
  isplitl [HO]; · iexists _; iexact HO
  ipureintro; rfl

end Cert.Kernel.Proto
-- ==== Proof.Part21W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.TablesW
import proofs.«900895_g7700000000000896_dist_matmul_mk_i_outk_m2048_n2048_k1024_v7x_i8_f32_1_alg».proof.Proof.LaunchCredW
import proofs.«900895_g7700000000000896_dist_matmul_mk_i_outk_m2048_n2048_k1024_v7x_i8_f32_1_alg».proof.Proof.StepsLW

namespace Cert.Kernel.Proto

open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part21 (K : CK → ℕ) (c : Dev nD) (W : Waits sig Unit) (l : List Pay) (v2 v224 : BitVec 32) (v591 : FVec F S80x2048 .bf16)
    (hv591 : v591 = k0_pay29 (aRows80 m c 1 0) (b16V m c) (landed80 m 1 c 2)) :
    iprop(records m K ∗ recvPay m c 1 2 ∗ recvPay m c 1 5 ∗ rFree80 rcvM1 (peer 0 c) 6
        ∗ dutyTok ER (sendCell c 1 6) 0 (0 : Fin 3) ∗ dutyTok ER (recvCell (peer 0 c) 1 6) 0 (0 : Fin 3)
        ∗ owes (c : Thread nD τ) (Ofrom c (Pay.slot 1 6 :: l)) W
        ∗ (aM.view.loc (c : Thread nD τ) ↦[aM.view.set]{fullShare} Ablk m c) ∗ b16Holds m c)
      ⊢ wp frame (wpE (defs₀ (F := F)) 𝒱₀ c none) Set.univ
          (atBufs k0_part21 c v2 v224 v591)
          (fun r => iprop(cred (tallyAt (sendCell c 1 6) () (Np 1)) ∗ owes (c : Thread nD τ) (Ofrom c l) W
            ∗ recvPay m c 1 5 ∗ (aM.view.loc (c : Thread nD τ) ↦[aM.view.set]{fullShare} Ablk m c) ∗ b16Holds m c
            ∗ ⌜r.2 = pv80 m c 3 1⌝)) := by
  subst hv591
  unfold b16Holds
  rw [recvPay80_open m c (p := 1) (by decide) rcvM1 rfl 2, recvPay80_open m c (p := 1) (by decide) rcvM1 rfl 5]
  iintro ⟨#HR, ⟨%f2, Hb2, %hf2⟩, ⟨%f5, Hb5, %hf5⟩, Hq, HtS, HtR, HO, HA, ⟨%f16, H16, %h16⟩⟩
  rw [k0_part21_eq_skeleton]; unfold atBufs k0_part21_skel
  sl_exec
  rw [peel_slot c 1 6 0 rfl]
  iapply (wp_send80' m K c (peer 0 c) 1 (by decide) 6 rfl (dev23_eq c) rcvM1 rfl ?hss ?hrs (rSlot80 rcvM1 2) ?hs ?hd _
    (land80_x3 m 1 (by decide) rcvM1 rfl c _ rfl f2) (back80_x3 m 1 (by decide) rcvM1 rfl c _ rfl f2) _ W) $$ HR [Hb2] Hq HO HtS HtR
  case hss | hrs | hs | hd => rfl
  · iexact Hb2
  iintro ⟨Hc, HO⟩
  sl_exec
  rw [wp_ret]; imodintro
  iframe
  isplitl [Hb5]; · iexists f5; iframe Hb5 %hf5
  isplitl [H16]; · iexists f16; iframe H16 %h16
  ipureintro; rfl

end Cert.Kernel.Proto
-- ==== Proof.Part22W.lean ====
import proofs.«900895_g7700000000000896_dist_matmul_mk_i_outk_m2048_n2048_k1024_v7x_i8_f32_1_alg».proof.Proof.PartDefsW

namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part22 (K : CK → ℕ) (c : Dev nD) (W : Waits sig Unit) (v2 v495 : BitVec 32) (v618 : FVec F S80x2048 .bf16)
    (hv618 : v618 = pv80 m c 3 1) :
    iprop(records m K ∗ levAts L lv ∗ owes (c : Thread nD τ) (Ofrom c [Pay.slot 2 6]) W
        ∗ cred (tallyAt (recvCell c 2 2) () (Np 2)) ∗ atPos ER (recvCell c 2 2) 0 ∅ 0
        ∗ cred (tallyAt (recvCell c 2 5) () (Np 2)) ∗ atPos ER (recvCell c 2 5) 0 ∅ 0)
      ⊢ wp frame (wpE (defs₀ (F := F)) 𝒱₀ c none) Set.univ
          (atBufs k0_part22 v2 v495 v618)
          (fun r => iprop((∃ W', owes (c : Thread nD τ) (Ofrom c [Pay.slot 2 6]) W')
            ∗ semVal (recvCell c 2 2) 0 ∗ semVal (recvCell c 2 5) 0
            ∗ sendPay m c 2 6 ∗ recvPay m c 2 5)) := by
  subst hv618
  iintro ⟨#HR, #Hlev, HO, Hc22, Ha22, Hc25, Ha25⟩
  rw [k0_part22_eq_skeleton]; unfold atBufs k0_part22_skel
  sl_exec
  iapply (wp_waitRecv' m K c 2 2 _ W (mayWait_rest c (.dma (rSem 2 2)) [Pay.slot 2 6] (by rw [lv_recv_own]; decide)) ?hsm ?hcr) $$ HR Hc22 HO Hlev Ha22
  case hsm => rfl
  case hcr => rw [Np_of_ne (by decide)]
  rw [recvPay80_open m c (p := 2) (by decide) rcvM2 rfl 2]
  iintro ⟨HO, Hz22, ⟨%f2, Hs2, %hf2⟩⟩
  sl_exec
  iapply (wp_waitRecv' m K c 2 5 _ _ (mayWait_rest c (.dma (rSem 2 5)) [Pay.slot 2 6] (by rw [lv_recv_own]; decide)) ?hsm ?hcr) $$ HR Hc25 HO Hlev Ha25
  case hsm => rfl
  case hcr => rw [Np_of_ne (by decide)]
  rw [recvPay80_open m c (p := 2) (by decide) rcvM2 rfl 5]
  iintro ⟨HO, Hz25, ⟨%f5, Hs5, %hf5⟩⟩
  sl_exec
  sl_step
  iframe
  isplitl [HO]; · iexists _; iexact HO
  isplitl [Hs2]; · iapply (back80_x3 m 2 (by decide) rcvM2 rfl c _ rfl f2); iexact Hs2
  iexists f5; iframe Hs5 %hf5

end Cert.Kernel.Proto
-- ==== Proof.Part23W.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.StepsLW

namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
local notation "𝕄" => MT nD τ sig Unit (Elt F) ℕ UU ℕ
variable (m : (ℓ : Loc nD τ sig) → Buf (Elt F) ℓ)

theorem part23 (K : CK → ℕ) (c : Dev nD) (W : Waits sig Unit) (v2 v248 v462 : BitVec 32) :
    iprop(records m K ∗ levAts L lv ∗ owes (c : Thread nD τ) (Ofrom c [Pay.slot 2 6]) W
        ∗ sendPay m c 2 6 ∗ rFree80 rcvM2 (peer 1 c) 6
        ∗ dutyTok ER (sendCell c 2 6) 0 (0 : Fin 3) ∗ dutyTok ER (recvCell (peer 1 c) 2 6) 0 (0 : Fin 3)
        ∗ cred (tallyAt (recvCell c 0 0) () (Np 0)) ∗ atPos ER (recvCell c 0 0) 0 ∅ 0
        ∗ (aM.view.loc (c : Thread nD τ) ↦[aM.view.set]{fullShare} Ablk m c)
        ∗ b16Holds m c)
      ⊢ wp frame (wpE (defs₀ (F := F)) 𝒱₀ c none) Set.univ
          (atBufs k0_part23 c v2 v248 v462)
          (fun r => iprop((∃ W', owes (c : Thread nD τ) (Ofrom c []) W')
            ∗ cred (tallyAt (sendCell c 2 6) () (Np 2))
            ∗ semVal (recvCell c 0 0) 0 ∗ recvPay m c 0 0
            ∗ (aM.view.loc (c : Thread nD τ) ↦[aM.view.set]{fullShare} Ablk m c) ∗ b16Holds m c
            ∗ ⌜r = pv96 m c 0⌝)) := by
  unfold b16Holds
  iintro ⟨#HR, #Hlev, HO, Hs, Hq, HtS, HtR, Hc00, Ha00, HA, ⟨%f16, H16, %hf16⟩⟩
  rw [k0_part23_eq_skeleton]; unfold atBufs k0_part23_skel
  sl_exec
  rw [peel_slot c 2 6 1 (by decide)]
  iapply (wp_sendH80r' m K c (peer 1 c) 2 (by decide) 2 6 (A2_80 m 2 c) rfl rcvM2 rfl (if_neg (by decide))
    (by show A2_80 m 2 c = A2_80 m 2 (peer (2 + 2) (peer 1 c)); rw [show ((2 : Fin 3) + 2) = 1 from by decide, peer_peer]) (dev24_eq c) ?hss ?hrs ?hs ?hd _ W) $$ HR Hs Hq HO HtS HtR
  case hss | hrs | hs | hd => rfl
  iintro ⟨HcS, HO⟩
  sl_exec
  iapply (wp_waitRecv' m K c 0 0 _ W (mayWait_rest c (.dma (rSem 0 0)) [] (by rw [lv_recv_own]; decide)) ?hsm ?hcr) $$ HR Hc00 HO Hlev Ha00
  case hsm => rfl
  case hcr => exact Np_zero.symm
  iintro ⟨HO, Hz00, Hp00⟩
  sl_exec
  sl_step
  iframe
  isplitl [HO]; · iexists _; iexact HO
  isplitl [H16]; · iexists f16; iframe H16 %hf16
  ipureintro; rfl

end Cert.Kernel.Proto
-- ==== Proof.Part24W.lean ====
import proofs.«900895_g7700000000000896_dist_matmul_mk_i_outk_m2048_n2048_k1024_v7x_i8_f32_1_alg».proof.Proof.PartDefsW

namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part24 (K : CK → ℕ) (c : Dev nD) (W : Waits sig Unit) (v2 v272 : BitVec 32) (v664 : FVec F S96x2048 .bf16)
    (hv664 : v664 = pv96 m c 0) :
    iprop(records m K ∗ levAts L lv ∗ owes (c : Thread nD τ) (Ofrom c []) W
        ∗ cred (tallyAt (recvCell c 0 4) () (Np 0)) ∗ atPos ER (recvCell c 0 4) 0 ∅ 0
        ∗ recvPay m c 0 0
        ∗ (aM.view.loc (c : Thread nD τ) ↦[aM.view.set]{fullShare} Ablk m c)
        ∗ b16Holds m c)
      ⊢ wp frame (wpE (defs₀ (F := F)) 𝒱₀ c none) Set.univ
          (atBufs k0_part24 c v2 v272 v664)
          (fun r => iprop((∃ W', owes (c : Thread nD τ) (Ofrom c []) W')
            ∗ semVal (recvCell c 0 4) 0 ∗ recvPay m c 0 4 ∗ rHolds96 rcvM0 c 0 (A0_96 m c)
            ∗ (aM.view.loc (c : Thread nD τ) ↦[aM.view.set]{fullShare} Ablk m c) ∗ b16Holds m c
            ∗ ⌜r = pv80 m c 0 0⌝)) := by
  subst hv664
  rw [recvPay96_open m c 0]
  unfold b16Holds
  iintro ⟨#HR, #Hlev, HO, Hc04, Ha04, ⟨%f0, Hs0, %hf0⟩, HA, ⟨%f16, H16, %hf16⟩⟩
  rw [k0_part24_eq_skeleton]; unfold atBufs k0_part24_skel
  sl_exec
  iapply (wp_waitRecv' m K c 0 4 _ W (mayWait_rest c (.dma (rSem 0 4)) [] (by rw [lv_recv_own]; decide)) ?hsm ?hcr) $$ HR Hc04 HO Hlev Ha04
  case hsm => rfl
  case hcr => exact Np_zero.symm
  rw [recvPay96_open m c 4]
  iintro ⟨HO, Hz04, ⟨%f4, Hs4, %hf4⟩⟩
  sl_exec
  sl_step
  iframe
  isplitl [HO]; · iexists _; iexact HO
  isplitl [Hs4]; · iexists f4; iframe Hs4 %hf4
  isplitl [Hs0]; · iapply (back96_rr c 0 _ f0); iexact Hs0
  isplitl [H16]; · iexists f16; iframe H16 %hf16
  ipureintro; rfl

end Cert.Kernel.Proto
-- ==== Proof.Part25W.lean ====
import proofs.«900895_g7700000000000896_dist_matmul_mk_i_outk_m2048_n2048_k1024_v7x_i8_f32_1_alg».proof.Proof.PartDefsW

namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic
variable {F : FTy → Type} [FloatOps F]
variable (m : (ℓ : Loc nD τ sig) → Buf (Elt F) ℓ)

theorem part25 (K : CK → ℕ) (c : Dev nD) (W : Waits sig Unit) (v2 v484 : BitVec 32) (v699 : FVec F S80x2048 .bf16)
    (hv699 : v699 = pv80 m c 0 0) :
    iprop(records m K ∗ levAts L lv ∗ owes (c : Thread nD τ) (Ofrom c []) W
        ∗ cred (tallyAt (recvCell c 1 0) () (Np 1)) ∗ atPos ER (recvCell c 1 0) 0 ∅ 0
        ∗ cred (tallyAt (recvCell c 1 4) () (Np 1)) ∗ atPos ER (recvCell c 1 4) 0 ∅ 0
        ∗ (aM.view.loc (c : Thread nD τ) ↦[aM.view.set]{fullShare} Ablk m c)
        ∗ b16Holds m c)
      ⊢ wp frame (wpE (defs₀ (F := F)) 𝒱₀ c none) Set.univ
          (atBufs k0_part25 c v2 v484 v699)
          (fun r => iprop((∃ W', owes (c : Thread nD τ) (Ofrom c []) W')
            ∗ semVal (recvCell c 1 0) 0 ∗ semVal (recvCell c 1 4) 0 ∗ recvPay m c 1 4
            ∗ rHolds80 rcvM1 c 0 (A0_80 m 1 c)
            ∗ (aM.view.loc (c : Thread nD τ) ↦[aM.view.set]{fullShare} Ablk m c) ∗ b16Holds m c
            ∗ ⌜r = pv80 m c 0 1⌝)) := by
  subst hv699
  unfold b16Holds
  iintro ⟨#HR, #Hlev, HO, Hc10, Ha10, Hc14, Ha14, HA, ⟨%f16, H16, %hf16⟩⟩
  rw [k0_part25_eq_skeleton]; unfold atBufs k0_part25_skel
  sl_exec
  iapply (wp_waitRecv' m K c 1 0 _ W (mayWait_rest c (.dma (rSem 1 0)) [] (by rw [lv_recv_own]; decide)) ?hsm ?hcr) $$ HR Hc10 HO Hlev Ha10
  case hsm => rfl
  case hcr => rw [Np_of_ne (by decide)]
  rw [recvPay80_open m c (p := 1) (by decide) rcvM1 rfl 0]
  iintro ⟨HO, Hz10, ⟨%f0, Hs0, %hf0⟩⟩
  sl_exec
  iapply (wp_waitRecv' m K c 1 4 _ _ (mayWait_rest c (.dma (rSem 1 4)) [] (by rw [lv_recv_own]; decide)) ?hsm ?hcr) $$ HR Hc14 HO Hlev Ha14
  case hsm => rfl
  case hcr => rw [Np_of_ne (by decide)]
  rw [recvPay80_open m c (p := 1) (by decide) rcvM1 rfl 4]
  iintro ⟨HO, Hz14, ⟨%f4, Hs4, %hf4⟩⟩
  sl_exec
  sl_step
  iframe
  isplitl [HO]; · iexists _; iexact HO
  isplitl [Hs4]; · iexists f4; iframe Hs4 %hf4
  isplitl [Hs0]; · iapply (back80_rr rcvM1 c 0 _ f0); iexact Hs0
  isplitl [H16]; · iexists f16; iframe H16 %hf16
  ipureintro; rfl

end Cert.Kernel.Proto
-- ==== Proof.Part26W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part26 (K : CK → ℕ) (c : Dev nD) (W : Waits sig Unit) (v296 v506 v552 : BitVec 32) (v734 : FVec F S80x2048 .bf16)
    (hv734 : v734 = pv80 m c 0 1) :
    iprop(records m K ∗ levAts L lv ∗ owes (c : Thread nD τ) (Ofrom c []) W
        ∗ cred (tallyAt (recvCell c 2 0) () (Np 2)) ∗ atPos ER (recvCell c 2 0) 0 ∅ 0
        ∗ cred (tallyAt (recvCell c 2 4) () (Np 2)) ∗ atPos ER (recvCell c 2 4) 0 ∅ 0)
      ⊢ wp frame (wpE (defs₀ (F := F)) 𝒱₀ c none) Set.univ
          (atBufs k0_part26 v296 v506 v552 v734)
          (fun r => iprop((∃ W', owes (c : Thread nD τ) (Ofrom c []) W')
            ∗ semVal (recvCell c 2 0) 0 ∗ semVal (recvCell c 2 4) 0
            ∗ rHolds80 rcvM2 c 0 (A0_80 m 2 c) ∗ recvPay m c 2 4)) := by
  subst hv734
  iintro ⟨#HR, #Hlev, HO, Hc0, Ha0, Hc4, Ha4⟩
  rw [k0_part26_eq_skeleton]; unfold atBufs k0_part26_skel
  sl_exec
  iapply (wp_waitRecv' m K c 2 0 _ W (mayWait_rest c (.dma (rSem 2 0)) [] nofun) ?hsm ?hcr) $$ HR Hc0 HO Hlev Ha0
  case hsm => rfl
  case hcr => rw [Np_of_ne (by decide)]
  rw [recvPay80_open m c (p := 2) (by decide) rcvM2 rfl 0]
  iintro ⟨HO, Hs0, ⟨%f0, Hb0, %hf0⟩⟩
  sl_exec
  iapply (wp_waitRecv' m K c 2 4 _ _ (mayWait_rest c (.dma (rSem 2 4)) [] nofun) ?hsm ?hcr) $$ HR Hc4 HO Hlev Ha4
  case hsm => rfl
  case hcr => rw [Np_of_ne (by decide)]
  rw [recvPay80_open m c (p := 2) (by decide) rcvM2 rfl 4]
  iintro ⟨HO, Hs4, ⟨%f4, Hb4, %hf4⟩⟩
  sl_exec
  rw [wp_ret]; imodintro
  iframe
  isplitl [HO]; · iexists _; iexact HO
  isplitl [Hb0]; · iapply (back80_rr rcvM2 c 0 (A0_80 m 2 c) f0); iexact Hb0
  iexists f4; iframe Hb4 %hf4

end Cert.Kernel.Proto
-- ==== Proof.Part27W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
variable (m : (ℓ : Loc nD τ sig) → Buf (Elt F) ℓ)

theorem part27 (K : CK → ℕ) (c : Dev nD) (W : Waits sig Unit) (v598 v760 : BitVec 32) :
    iprop(records m K ∗ levAts L lv ∗ owes (c : Thread nD τ) (Ofrom c []) W
        ∗ cred (tallyAt (recvCell c 0 6) () (Np 0)) ∗ atPos ER (recvCell c 0 6) 0 ∅ 0
        ∗ cred (tallyAt (recvCell c 1 6) () (Np 1)) ∗ atPos ER (recvCell c 1 6) 0 ∅ 0
        ∗ rHolds96 rcvM0 c 0 (A0_96 m c) ∗ rHolds80 rcvM1 c 0 (A0_80 m 1 c) ∗ freeBuf oM c)
      ⊢ wp frame (wpE (defs₀ (F := F)) 𝒱₀ c none) Set.univ
          (atBufs k0_part27 v598 v760)
          (fun r => iprop((∃ W', owes (c : Thread nD τ) (Ofrom c []) W')
            ∗ semVal (recvCell c 0 6) 0 ∗ semVal (recvCell c 1 6) 0
            ∗ rHolds96 rcvM0 c 0 (A0_96 m c) ∗ recvPay m c 0 6
            ∗ rHolds80 rcvM1 c 0 (A0_80 m 1 c) ∗ recvPay m c 1 6
            ∗ (∃ f, (oM.view.loc (c : Thread nD τ) ↦[oM.view.set]{fullShare} oM.view.writes (Elt F) f [⟨rO0, O96 m c⟩]))
            ∗ ⌜r.1 = k0_pay40 (A0_80 m 1 c) ∧ r.2 = k0_pay41 (A2_80 m 1 (peer (1 + 2) c))⌝)) := by
  unfold rHolds96 rHolds80 freeBuf
  iintro ⟨#HR, #Hlev, HO, Hc0, Ha0, Hc1, Ha1, ⟨%g0, Hg0, %hg0⟩, ⟨%g1, Hg1, %hg1⟩, ⟨%fo, Ho⟩⟩
  rw [k0_part27_eq_skeleton]; unfold atBufs k0_part27_skel
  sl_exec
  iapply (wp_waitRecv' m K c 0 6 _ W (mayWait_rest c (.dma (rSem 0 6)) [] nofun) ?hsm ?hcr) $$ HR Hc0 HO Hlev Ha0
  case hsm => rfl
  case hcr => exact Np_zero.symm
  rw [recvPay96_open m c 6]
  iintro ⟨HO, Hs0, ⟨%f6, Hb6, %hf6⟩⟩
  sl_exec
  iapply (wp_waitRecv' m K c 1 6 _ _ (mayWait_rest c (.dma (rSem 1 6)) [] nofun) ?hsm ?hcr) $$ HR Hc1 HO Hlev Ha1
  case hsm => rfl
  case hcr => rw [Np_of_ne (by decide)]
  rw [recvPay80_open m c (p := 1) (by decide) rcvM1 rfl 6]
  iintro ⟨HO, Hs1, ⟨%h6, Hd6, %hh6⟩⟩
  sl_exec
  rw [wp_ret]; imodintro
  iframe
  isplitl [HO]; · iexists _; iexact HO
  isplitl [Hg0]; · iexists g0; iframe Hg0 %hg0
  isplitl [Hb6]; · iexists f6; iframe Hb6 %hf6
  isplitl [Hg1]; · iexists g1; iframe Hg1 %hg1
  isplitl [Hd6]; · iexists h6; iframe Hd6 %hh6
  isplitl [Ho]; · iexists fo; iexact Ho
  ipureintro; exact ⟨rfl, rfl⟩

end Cert.Kernel.Proto
-- ==== Proof.Part28W.lean ====
import proofs.«900895_g7700000000000896_dist_matmul_mk_i_outk_m2048_n2048_k1024_v7x_i8_f32_1_alg».proof.Proof.PartDefsW

namespace Cert.Kernel.Proto

open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Tactic

variable {F : FTy → Type} [FloatOps F]
local notation "𝕄" => MT nD τ sig Unit (Elt F) ℕ UU ℕ
variable (m : (ℓ : Loc nD τ sig) → Buf (Elt F) ℓ)

omit [FloatOps F] in

private theorem out_cover (w0 : rO0.shape.Idx → Elt F .f32) (w1 : rO1.shape.Idx → Elt F .f32) (w2 : rO2.shape.Idx → Elt F .f32) :
    ∀ y : S256x2048.Idx, ∃ p ∈ ([⟨rO2, w2⟩, ⟨rO1, w1⟩, ⟨rO0, w0⟩] : List (View.Piece (Elt F) S256x2048 .f32)), y ∈ p.1.set := by
  intro y
  have h0 : (y (0 : Fin 2) : ℕ) < 256 := (y (0 : Fin 2)).isLt
  have h1 : (y (1 : Fin 2) : ℕ) < 2048 := (y (1 : Fin 2)).isLt
  by_cases ha : (y (0 : Fin 2) : ℕ) < 96
  · refine ⟨⟨rO0, w0⟩, List.mem_cons_of_mem _ (List.mem_cons_of_mem _ List.mem_cons_self), ?_⟩
    show y ∈ (Rect.unit (s := S256x2048) ![0, 0] S96x2048.size inb_S256x2048_S96x2048_0_0).set
    refine Rect.mem_set_unit.mpr fun a => ?_
    fin_cases a
    · exact ⟨Nat.zero_le _, ha⟩
    · exact ⟨Nat.zero_le _, h1⟩
  by_cases hb : (y (0 : Fin 2) : ℕ) < 176
  · refine ⟨⟨rO1, w1⟩, List.mem_cons_of_mem _ List.mem_cons_self, ?_⟩
    show y ∈ (Rect.unit (s := S256x2048) ![96, 0] S80x2048.size inb_S256x2048_S80x2048_96_0).set
    refine Rect.mem_set_unit.mpr fun a => ?_
    fin_cases a
    · exact ⟨Nat.le_of_not_lt ha, hb⟩
    · exact ⟨Nat.zero_le _, h1⟩
  · refine ⟨⟨rO2, w2⟩, List.mem_cons_self, ?_⟩
    show y ∈ (Rect.unit (s := S256x2048) ![176, 0] S80x2048.size inb_S256x2048_S80x2048_176_0).set
    refine Rect.mem_set_unit.mpr fun a => ?_
    fin_cases a
    · exact ⟨Nat.le_of_not_lt hb, h0⟩
    · exact ⟨Nat.zero_le _, h1⟩

private theorem out_key (c : Dev nD) (f : oM.view.ty.Contents (Elt F)) :
    ∀ i ∈ oM.view.set, oM.view.writes (Elt F) f [⟨rO2, O80 m 2 c⟩, ⟨rO1, O80 m 1 c⟩, ⟨rO0, O96 m c⟩] i = outV m c i := by
  intro i hi
  obtain ⟨x, -, rfl⟩ := Finset.mem_map.mp hi
  have h := congrFun (View.read_writes_of_cover oM.view f oM.view (View.junk (Val := Elt F) oM.view) _ (out_cover (O96 m c) (O80 m 1 c) (O80 m 2 c))) x
  rw [View.read_apply, View.read_apply] at h
  exact (cast_inj _).mp h

private theorem out_done (c : Dev nD) (f : oM.view.ty.Contents (Elt F)) :
    (oM.view.loc (c : Thread nD τ) ↦[oM.view.set]{fullShare} oM.view.writes (Elt F) f [⟨rO2, O80 m 2 c⟩, ⟨rO1, O80 m 1 c⟩, ⟨rO0, O96 m c⟩] : sProp 𝕄)
      ⊢ (oM.view.loc (c : Thread nD τ) ↦[oM.view.set]{fullShare} outV m c) :=
  Entails.of_eq (pointsTo_congr (out_key m c f))

theorem part28 (K : CK → ℕ) (c : Dev nD) (W : Waits sig Unit) (v644 : BitVec 32) (v786 : FVec F S80x2048 .f32) (v788 : FVec F S80x2048 .bf16)
    (hv786 : v786 = k0_pay40 (A0_80 m 1 c)) (hv788 : v788 = k0_pay41 (A2_80 m 1 (peer (1 + 2) c))) :
    iprop(records m K ∗ levAts L lv ∗ owes (c : Thread nD τ) (Ofrom c []) W
        ∗ cred (tallyAt (recvCell c 2 6) () (Np 2)) ∗ atPos ER (recvCell c 2 6) 0 ∅ 0
        ∗ cred (tallyAt (sendCell c 0 0) () (Np 0)) ∗ atPos ER (sendCell c 0 0) 0 ∅ 0
        ∗ rHolds80 rcvM2 c 0 (A0_80 m 2 c)
        ∗ (∃ f, (oM.view.loc (c : Thread nD τ) ↦[oM.view.set]{fullShare} oM.view.writes (Elt F) f [⟨rO0, O96 m c⟩])))
      ⊢ wp frame (wpE (defs₀ (F := F)) 𝒱₀ c none) Set.univ
          (atBufs k0_part28 v644 v786 v788)
          (fun r => iprop((∃ W', owes (c : Thread nD τ) (Ofrom c []) W')
            ∗ semVal (recvCell c 2 6) 0 ∗ semVal (sendCell c 0 0) 0
            ∗ rHolds80 rcvM2 c 0 (A0_80 m 2 c) ∗ recvPay m c 2 6 ∗ sendPay m c 0 0
            ∗ (oM.view.loc (c : Thread nD τ) ↦[oM.view.set]{fullShare} outV m c))) := by
  subst hv786 hv788
  unfold rHolds80
  iintro ⟨#HR, #Hlev, HO, Hc6, Ha6, Hcs, Has, ⟨%g2, Hg2, %hg2⟩, ⟨%fo, Ho⟩⟩
  rw [k0_part28_eq_skeleton]; unfold atBufs k0_part28_skel
  sl_exec
  iapply (wp_waitRecv' m K c 2 6 _ W (mayWait_rest c (.dma (rSem 2 6)) [] nofun) ?hsm ?hcr) $$ HR Hc6 HO Hlev Ha6
  case hsm => rfl
  case hcr => rw [Np_of_ne (by decide)]
  rw [recvPay80_open m c (p := 2) (by decide) rcvM2 rfl 6]
  iintro ⟨HO, Hs6, ⟨%f6, Hb6, %hf6⟩⟩
  sl_exec
  rw [Ofrom_nil]
  iapply (wp_waitSend' m K c 0 0 _ ?hsm ?hcr) $$ HR Hcs HO Has
  case hsm => rfl
  case hcr => exact Np_zero.symm
  iintro ⟨HO, Hss, Hps⟩
  sl_exec
  rw [wp_ret]; imodintro
  iframe
  isplitl [HO]; · iexists _; iexact HO
  isplitl [Hg2]; · iexists g2; iframe Hg2 %hg2
  isplitl [Hb6]; · iexists f6; iframe Hb6 %hf6
  iapply (out_done m c fo); iexact Ho

end Cert.Kernel.Proto
-- ==== Proof.ReassembleW.lean ====
import proofs.«900895_g7700000000000896_dist_matmul_mk_i_outk_m2048_n2048_k1024_v7x_i8_f32_1_alg».proof.Proof.PartDefsW
import proofs.«900895_g7700000000000896_dist_matmul_mk_i_outk_m2048_n2048_k1024_v7x_i8_f32_1_alg».proof.Proof.BodyDefsW

namespace Cert.Kernel.Proto
open Cert.Kernel.Gen Cert.Kernel.Mesh
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

/-- Contents of which a fact holds are in particular some contents. -/
private theorem held {α : Type} {Φ : α → sProp 𝕄} {P : α → Prop} : iprop(∃ f, Φ f ∗ ⌜P f⌝) ⊢ iprop(∃ f, Φ f) :=
  exists_mono fun _ => sep_elim_left

/-- Each payload is, by its definition at that part and slot, a slot held with a value; the cells' zeros pass through as they are. -/
theorem reassemble (c : Dev nD) :
    iprop(b16Holds m c ∗ sendPay m c 0 0 ∗ sendPay m c 0 1 ∗ sendPay m c 0 2 ∗ sendPay m c 0 3 ∗ sendPay m c 0 4
        ∗ sendPay m c 0 5 ∗ sendPay m c 0 6 ∗ sendPay m c 1 0 ∗ sendPay m c 1 1 ∗ sendPay m c 1 2 ∗ sendPay m c 1 3
        ∗ sendPay m c 1 4 ∗ sendPay m c 1 5 ∗ sendPay m c 1 6 ∗ sendPay m c 2 0 ∗ sendPay m c 2 1 ∗ sendPay m c 2 2
        ∗ sendPay m c 2 3 ∗ sendPay m c 2 4 ∗ sendPay m c 2 5 ∗ sendPay m c 2 6 ∗ rHolds96 rcvM0 c 0 (A0_96 m c)
        ∗ rHolds80 rcvM1 c 0 (A0_80 m 1 c) ∗ rHolds80 rcvM2 c 0 (A0_80 m 2 c) ∗ recvPay m c 0 4 ∗ recvPay m c 0 5
        ∗ recvPay m c 0 6 ∗ recvPay m c 1 4 ∗ recvPay m c 1 5 ∗ recvPay m c 1 6 ∗ recvPay m c 2 4 ∗ recvPay m c 2 5
        ∗ recvPay m c 2 6 ∗ semVal (sendCell c 0 0) 0 ∗ semVal (recvCell c 0 0) 0 ∗ semVal (sendCell c 0 1) 0
        ∗ semVal (recvCell c 0 1) 0 ∗ semVal (sendCell c 0 2) 0 ∗ semVal (recvCell c 0 2) 0 ∗ semVal (sendCell c 0 3) 0
        ∗ semVal (recvCell c 0 3) 0 ∗ semVal (sendCell c 0 4) 0 ∗ semVal (recvCell c 0 4) 0 ∗ semVal (sendCell c 0 5) 0
        ∗ semVal (recvCell c 0 5) 0 ∗ semVal (sendCell c 0 6) 0 ∗ semVal (recvCell c 0 6) 0 ∗ semVal (sendCell c 1 0) 0
        ∗ semVal (recvCell c 1 0) 0 ∗ semVal (sendCell c 1 1) 0 ∗ semVal (recvCell c 1 1) 0 ∗ semVal (sendCell c 1 2) 0
        ∗ semVal (recvCell c 1 2) 0 ∗ semVal (sendCell c 1 3) 0 ∗ semVal (recvCell c 1 3) 0 ∗ semVal (sendCell c 1 4) 0
        ∗ semVal (recvCell c 1 4) 0 ∗ semVal (sendCell c 1 5) 0 ∗ semVal (recvCell c 1 5) 0 ∗ semVal (sendCell c 1 6) 0
        ∗ semVal (recvCell c 1 6) 0 ∗ semVal (sendCell c 2 0) 0 ∗ semVal (recvCell c 2 0) 0 ∗ semVal (sendCell c 2 1) 0
        ∗ semVal (recvCell c 2 1) 0 ∗ semVal (sendCell c 2 2) 0 ∗ semVal (recvCell c 2 2) 0 ∗ semVal (sendCell c 2 3) 0
        ∗ semVal (recvCell c 2 3) 0 ∗ semVal (sendCell c 2 4) 0 ∗ semVal (recvCell c 2 4) 0 ∗ semVal (sendCell c 2 5) 0
        ∗ semVal (recvCell c 2 5) 0 ∗ semVal (sendCell c 2 6) 0 ∗ semVal (recvCell c 2 6) 0)
      ⊢ closedCore c := by
  show iprop(_ ∗ sHolds96 _ _ _ _ ∗ sHolds96 _ _ _ _ ∗ sHolds96 _ _ _ _ ∗ sHolds96 _ _ _ _ ∗ rHolds96 _ _ _ _ ∗ rHolds96 _ _ _ _ ∗ rHolds96 _ _ _ _
    ∗ sHolds80 _ _ _ _ ∗ sHolds80 _ _ _ _ ∗ sHolds80 _ _ _ _ ∗ sHolds80 _ _ _ _ ∗ rHolds80 _ _ _ _ ∗ rHolds80 _ _ _ _ ∗ rHolds80 _ _ _ _ ∗ sHolds80 _ _ _ _ ∗ sHolds80 _ _ _ _ ∗ sHolds80 _ _ _ _ ∗ sHolds80 _ _ _ _ ∗ rHolds80 _ _ _ _ ∗ rHolds80 _ _ _ _ ∗ rHolds80 _ _ _ _
    ∗ _ ∗ _ ∗ _ ∗ rHolds96 _ _ _ _ ∗ rHolds96 _ _ _ _ ∗ rHolds96 _ _ _ _ ∗ rHolds80 _ _ _ _ ∗ rHolds80 _ _ _ _ ∗ rHolds80 _ _ _ _ ∗ rHolds80 _ _ _ _ ∗ rHolds80 _ _ _ _ ∗ rHolds80 _ _ _ _ ∗ _) ⊢ _
  unfold closedCore b16Holds sHolds96 sHolds80 rHolds96 rHolds80 freeBuf sFree96 sFree80 rFree96 rFree80
  iintro ⟨Hb, S00, S01, S02, S03, S04, S05, S06, S10, S11, S12, S13, S14, S15, S16, S20, S21, S22, S23, S24, S25, S26, R00, R10, R20, P04, P05, P06, P14, P15, P16, P24, P25, P26, Z⟩
  isplitl [Hb]; · iapply held $$ Hb
  isplitl [S00]; · iapply held $$ S00
  isplitl [S01]; · iapply held $$ S01
  isplitl [S02]; · iapply held $$ S02
  isplitl [S03]; · iapply held $$ S03
  isplitl [S10]; · iapply held $$ S10
  isplitl [S11]; · iapply held $$ S11
  isplitl [S12]; · iapply held $$ S12
  isplitl [S13]; · iapply held $$ S13
  isplitl [S20]; · iapply held $$ S20
  isplitl [S21]; · iapply held $$ S21
  isplitl [S22]; · iapply held $$ S22
  isplitl [S23]; · iapply held $$ S23
  isplitl [R00]; · iapply held $$ R00
  isplitl [S04]; · iapply held $$ S04
  isplitl [S06]; · iapply held $$ S06
  isplitl [S05]; · iapply held $$ S05
  isplitl [P04]; · iapply held $$ P04
  isplitl [P05]; · iapply held $$ P05
  isplitl [P06]; · iapply held $$ P06
  isplitl [R10]; · iapply held $$ R10
  isplitl [S14]; · iapply held $$ S14
  isplitl [S16]; · iapply held $$ S16
  isplitl [S15]; · iapply held $$ S15
  isplitl [P14]; · iapply held $$ P14
  isplitl [P15]; · iapply held $$ P15
  isplitl [P16]; · iapply held $$ P16
  isplitl [R20]; · iapply held $$ R20
  isplitl [S24]; · iapply held $$ S24
  isplitl [S26]; · iapply held $$ S26
  isplitl [S25]; · iapply held $$ S25
  isplitl [P24]; · iapply held $$ P24
  isplitl [P25]; · iapply held $$ P25
  isplitl [P26]; · iapply held $$ P26
  iexact Z

end Cert.Kernel.Proto
-- ==== Proof.BodyW.lean ====
import proofs.«900895_g7700000000000896_dist_matmul_mk_i_outk_m2048_n2048_k1024_v7x_i8_f32_1_alg».proof.Proof.BodyGlueW
import proofs.«900895_g7700000000000896_dist_matmul_mk_i_outk_m2048_n2048_k1024_v7x_i8_f32_1_alg».proof.Proof.Part01W
import proofs.«900895_g7700000000000896_dist_matmul_mk_i_outk_m2048_n2048_k1024_v7x_i8_f32_1_alg».proof.Proof.Part02W
import proofs.«900895_g7700000000000896_dist_matmul_mk_i_outk_m2048_n2048_k1024_v7x_i8_f32_1_alg».proof.Proof.Part03W
import proofs.«900895_g7700000000000896_dist_matmul_mk_i_outk_m2048_n2048_k1024_v7x_i8_f32_1_alg».proof.Proof.Part04W
import proofs.«900895_g7700000000000896_dist_matmul_mk_i_outk_m2048_n2048_k1024_v7x_i8_f32_1_alg».proof.Proof.Part05W
import proofs.«900895_g7700000000000896_dist_matmul_mk_i_outk_m2048_n2048_k1024_v7x_i8_f32_1_alg».proof.Proof.Part06W
import proofs.«900895_g7700000000000896_dist_matmul_mk_i_outk_m2048_n2048_k1024_v7x_i8_f32_1_alg».proof.Proof.Part07W
import proofs.«900895_g7700000000000896_dist_matmul_mk_i_outk_m2048_n2048_k1024_v7x_i8_f32_1_alg».proof.Proof.Part08W
import proofs.«900895_g7700000000000896_dist_matmul_mk_i_outk_m2048_n2048_k1024_v7x_i8_f32_1_alg».proof.Proof.Part09W
import proofs.«900895_g7700000000000896_dist_matmul_mk_i_outk_m2048_n2048_k1024_v7x_i8_f32_1_alg».proof.Proof.Part10W
import proofs.«900895_g7700000000000896_dist_matmul_mk_i_outk_m2048_n2048_k1024_v7x_i8_f32_1_alg».proof.Proof.Part11W
import proofs.«900895_g7700000000000896_dist_matmul_mk_i_outk_m2048_n2048_k1024_v7x_i8_f32_1_alg».proof.Proof.Part12W
import proofs.«900895_g7700000000000896_dist_matmul_mk_i_outk_m2048_n2048_k1024_v7x_i8_f32_1_alg».proof.Proof.Part13W
import proofs.«900895_g7700000000000896_dist_matmul_mk_i_outk_m2048_n2048_k1024_v7x_i8_f32_1_alg».proof.Proof.Part14W
import proofs.«900895_g7700000000000896_dist_matmul_mk_i_outk_m2048_n2048_k1024_v7x_i8_f32_1_alg».proof.Proof.Part15W
import proofs.«900895_g7700000000000896_dist_matmul_mk_i_outk_m2048_n2048_k1024_v7x_i8_f32_1_alg».proof.Proof.Part16W
import proofs.«900895_g7700000000000896_dist_matmul_mk_i_outk_m2048_n2048_k1024_v7x_i8_f32_1_alg».proof.Proof.Part17W
import proofs.«900895_g7700000000000896_dist_matmul_mk_i_outk_m2048_n2048_k1024_v7x_i8_f32_1_alg».proof.Proof.Part18W
import proofs.«900895_g7700000000000896_dist_matmul_mk_i_outk_m2048_n2048_k1024_v7x_i8_f32_1_alg».proof.Proof.Part19W
import proofs.«900895_g7700000000000896_dist_matmul_mk_i_outk_m2048_n2048_k1024_v7x_i8_f32_1_alg».proof.Proof.Part20W
import proofs.«900895_g7700000000000896_dist_matmul_mk_i_outk_m2048_n2048_k1024_v7x_i8_f32_1_alg».proof.Proof.Part21W
import proofs.«900895_g7700000000000896_dist_matmul_mk_i_outk_m2048_n2048_k1024_v7x_i8_f32_1_alg».proof.Proof.Part22W
import proofs.«900895_g7700000000000896_dist_matmul_mk_i_outk_m2048_n2048_k1024_v7x_i8_f32_1_alg».proof.Proof.Part23W
import proofs.«900895_g7700000000000896_dist_matmul_mk_i_outk_m2048_n2048_k1024_v7x_i8_f32_1_alg».proof.Proof.Part24W
import proofs.«900895_g7700000000000896_dist_matmul_mk_i_outk_m2048_n2048_k1024_v7x_i8_f32_1_alg».proof.Proof.Part25W
import proofs.«900895_g7700000000000896_dist_matmul_mk_i_outk_m2048_n2048_k1024_v7x_i8_f32_1_alg».proof.Proof.Part26W
import proofs.«900895_g7700000000000896_dist_matmul_mk_i_outk_m2048_n2048_k1024_v7x_i8_f32_1_alg».proof.Proof.Part27W
import proofs.«900895_g7700000000000896_dist_matmul_mk_i_outk_m2048_n2048_k1024_v7x_i8_f32_1_alg».proof.Proof.Part28W
import proofs.«900895_g7700000000000896_dist_matmul_mk_i_outk_m2048_n2048_k1024_v7x_i8_f32_1_alg».proof.Proof.ReassembleW

noncomputable section
namespace Cert.Kernel.Proto
open Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (BodyObligation)
variable {F : FTy → Type} [FloatOps F]
local notation "𝕄" => MT nD τ sig Unit (Elt F) ℕ UU ℕ
variable (m : (ℓ : Loc nD τ sig) → Buf (Elt F) ℓ)

theorem sm_00 : slotMask 0 0 = 0 := by decide
theorem sm_01 : slotMask 0 1 = 0 := by decide
theorem sm_02 : slotMask 0 2 = 0 := by decide
theorem sm_03 : slotMask 0 3 = 0 := by decide
theorem sm_04 : slotMask 0 4 = 1 := by decide
theorem sm_05 : slotMask 0 5 = 1 := by decide
theorem sm_06 : slotMask 0 6 = 2 := by decide
theorem sm_10 : slotMask 1 0 = 1 := by decide
theorem sm_11 : slotMask 1 1 = 1 := by decide
theorem sm_12 : slotMask 1 2 = 1 := by decide
theorem sm_13 : slotMask 1 3 = 1 := by decide
theorem sm_14 : slotMask 1 4 = 2 := by decide
theorem sm_15 : slotMask 1 5 = 2 := by decide
theorem sm_16 : slotMask 1 6 = 0 := by decide
theorem sm_20 : slotMask 2 0 = 2 := by decide
theorem sm_21 : slotMask 2 1 = 2 := by decide
theorem sm_22 : slotMask 2 2 = 2 := by decide
theorem sm_23 : slotMask 2 3 = 2 := by decide
theorem sm_24 : slotMask 2 4 = 0 := by decide
theorem sm_25 : slotMask 2 5 = 0 := by decide
theorem sm_26 : slotMask 2 6 = 1 := by decide

private theorem held_of_recvPay_2_3 (c : Dev nD) : recvPay m c 2 3 ⊢ rFree80 rcvM2 c 3 := by
  have hr2 : rcvM80 (2 : Fin 3) = rcvM2 := if_pos rfl
  unfold recvPay
  rw [if_neg (by decide : ¬ ((2 : Fin 3) = 0)), hr2]
  unfold rHolds80 rFree80
  iintro ⟨%f, H, %hw⟩
  iexists f
  iexact H

set_option maxHeartbeats 8000000 in

theorem sound_body (K : CK → ℕ) (c : Dev nD) (W : Waits sig Unit) (Kt : PUnit → sProp 𝕄) :
    iprop(openedCore m K c ∗ owes (c : Thread nD τ) (Ofrom c payList) W
        ∗ (aM.view.loc (c : Thread nD τ) ↦[aM.view.set]{fullShare} Ablk m c)
        ∗ (bM.view.loc (c : Thread nD τ) ↦[bM.view.set]{fullShare} Bblk m c)
        ∗ freeBuf oM c
        ∗ ((closedCore c ∗ (∃ W', owes (c : Thread nD τ) 0 W')
            ∗ (aM.view.loc (c : Thread nD τ) ↦[aM.view.set]{fullShare} Ablk m c)
            ∗ (bM.view.loc (c : Thread nD τ) ↦[bM.view.set]{fullShare} Bblk m c)
            ∗ (oM.view.loc (c : Thread nD τ) ↦[oM.view.set]{fullShare} outV m c)) -∗ Kt ⟨⟩))
      ⊢ wp frame (wpE (defs₀ (F := F)) 𝒱₀ c none) Set.univ
          (atBufs cc0_body) Kt := by

  unfold openedCore perSlot
  simp only [sm_00, sm_01, sm_02, sm_03, sm_04, sm_05, sm_06, sm_10, sm_11, sm_12, sm_13, sm_14, sm_15, sm_16, sm_20, sm_21, sm_22,
    sm_23, sm_24, sm_25, sm_26]
  iintro ⟨⟨#HR, #Hlev, HatB, HcB, HtB0, HtB1, HtB2,
    ⟨AS00, AR00, CR00, TS00, TR00⟩, ⟨AS01, AR01, CR01, TS01, TR01⟩, ⟨AS02, AR02, CR02, TS02, TR02⟩, ⟨AS03, AR03, CR03, TS03, TR03⟩,
    ⟨AS04, AR04, CR04, TS04, TR04⟩, ⟨AS05, AR05, CR05, TS05, TR05⟩, ⟨AS06, AR06, CR06, TS06, TR06⟩,
    ⟨AS10, AR10, CR10, TS10, TR10⟩, ⟨AS11, AR11, CR11, TS11, TR11⟩, ⟨AS12, AR12, CR12, TS12, TR12⟩, ⟨AS13, AR13, CR13, TS13, TR13⟩,
    ⟨AS14, AR14, CR14, TS14, TR14⟩, ⟨AS15, AR15, CR15, TS15, TR15⟩, ⟨AS16, AR16, CR16, TS16, TR16⟩,
    ⟨AS20, AR20, CR20, TS20, TR20⟩, ⟨AS21, AR21, CR21, TS21, TR21⟩, ⟨AS22, AR22, CR22, TS22, TR22⟩, ⟨AS23, AR23, CR23, TS23, TR23⟩,
    ⟨AS24, AR24, CR24, TS24, TR24⟩, ⟨AS25, AR25, CR25, TS25, TR25⟩, ⟨AS26, AR26, CR26, TS26, TR26⟩,
    SF00, SF01, SF02, SF03, SF10, SF11, SF12, SF13, SF20, SF21, SF22, SF23,
    RF00, RF01, RF02, RF03, RF04, RF05, RF06, RF10, RF11, RF12, RF13, RF14, RF15, RF16, RF20, RF21, RF22, RF23, RF24, RF25, RF26,
    Hb16⟩, HO, HA, HB, Hout, Hk⟩
  rw [cc0_body_eq_skeleton]; unfold atBufs cc0_body_skel

  rw [wp_bind]
  iapply (wp_wand_r frame _ Set.univ)
  isplitl [HatB HcB HtB0 HtB1 HtB2 HO RF00 RF01 RF02 RF03 RF04 RF05 RF06 RF10 RF11 RF12 RF13 RF14 RF15 RF16 RF20 RF21 RF22 RF23 RF24
    RF25 RF26 Hb16 HA HB]
  · iapply (part01 m K c W)
    iframe
    isplitr
    · iexact HR
    iexact Hlev
  iintro %r H
  icases H with ⟨HO, NQ00, NQ01, NQ02, NQ03, NQ16, NQ24, NQ25, NQ04, NQ05, NQ10, NQ11, NQ12, NQ13, NQ26, NQ06, NQ14, NQ15, NQ20, NQ21,
    NQ22, NQ23, H16, HA, HB, ⟨%v2, %v25, %v26, %cst, %hr01⟩⟩
  obtain ⟨rfl, hv25, hv26, hcst⟩ := hr01
  rw [slotPays]

  rw [wp_bind]
  iapply (wp_wand_r frame _ Set.univ)
  isplitl [SF01 NQ01 HO TS01 TR01 HA H16 SF11]
  · iapply (part02 m K c (insert (SemLoc.reg barS, ()) W)
      _ _ _ _ _ hv25 hv26 hcst)
    iframe
    iexact HR
  iintro %r H
  obtain ⟨v32, v56⟩ := r
  icases H with ⟨CS01, HO, HA, H16, SP11⟩

  rw [wp_bind]
  iapply (wp_wand_r frame _ Set.univ)
  isplitl [SP11 NQ11 HO TS11 TR11 HA H16 SF21]
  · iapply (part03 m K c (insert (SemLoc.reg barS, ()) W)
      _ _ _)
    iframe
    iexact HR
  iintro %v80 H
  icases H with ⟨CS11, HO, HA, H16, SP21⟩

  rw [wp_bind]
  iapply (wp_wand_r frame _ Set.univ)
  isplitl [SP21 NQ21 HO TS21 TR21 TS03 TR03 HA H16 SF03 NQ03]
  · iapply (part04 m K c (insert (SemLoc.reg barS, ()) W)
      _ _)
    iframe
    iexact HR
  iintro %v104 H
  icases H with ⟨CS21, CS03, HO, HA, H16⟩

  rw [wp_bind]
  iapply (wp_wand_r frame _ Set.univ)
  isplitl [SF13 NQ13 HO TS13 TR13 HA H16]
  · iapply (part05 m K c (insert (SemLoc.reg barS, ()) W)
      _ _)
    iframe
    iexact HR
  iintro %r H
  obtain ⟨v128, v148⟩ := r
  icases H with ⟨CS13, HO, HA, H16, %hr05⟩

  rw [wp_bind]
  iapply (wp_wand_r frame _ Set.univ)
  isplitl [SF23 NQ23 HO TS23 TR23 HA H16 SF02]
  · iapply (part06 m K c (insert (SemLoc.reg barS, ()) W)
      _ _ _ hr05)
    iframe
    iexact HR
  iintro %r H
  obtain ⟨v152, v176, v177, c0_i32_144⟩ := r
  icases H with ⟨CS23, HO, HA, H16, SP02⟩

  rw [wp_bind]
  iapply (wp_wand_r frame _ Set.univ)
  isplitl [SP02 NQ02 HO TS02 TR02 HA H16 SF12]
  · iapply (part07 m K c (insert (SemLoc.reg barS, ()) W)
      _ _ _ _)
    iframe
    iexact HR
  iintro %v200 H
  icases H with ⟨CS02, HO, HA, H16, SP12⟩

  rw [wp_bind]
  iapply (wp_wand_r frame _ Set.univ)
  isplitl [SP12 NQ12 HO TS12 TR12 HA H16 SF22 NQ22 TS22 TR22]
  · iapply (part08 m K c (insert (SemLoc.reg barS, ()) W)
      _ _)
    iframe
    iexact HR
  iintro %r H
  obtain ⟨v224, v241⟩ := r
  icases H with ⟨CS12, CS22, HO, HA, H16, %hr08⟩

  rw [wp_bind]
  iapply (wp_wand_r frame _ Set.univ)
  isplitl [SF00 NQ00 HO TS00 TR00 HA H16 SF10]
  · iapply (part09 m K c (insert (SemLoc.reg barS, ()) W)
      _ _ _ hr08)
    iframe
    iexact HR
  iintro %r H
  obtain ⟨v248, c3_i32_222⟩ := r
  icases H with ⟨CS00, HO, HA, H16, SP10⟩

  rw [wp_bind]
  iapply (wp_wand_r frame _ Set.univ)
  isplitl [SP10 NQ10 HO TS10 TR10 HA H16 SF20]
  · iapply (part10 m K c (insert (SemLoc.reg barS, ()) W)
      _ _ _)
    iframe
    iexact HR
  iintro %r H
  obtain ⟨v272, v296⟩ := r
  icases H with ⟨CS10, HO, HA, H16, SP20⟩

  rw [wp_bind]
  iapply (wp_wand_r frame _ Set.univ)
  isplitl [HO SP20 NQ20 TS20 TR20 HA H16 CR01 AR01]
  · iapply (part11 m K c (insert (SemLoc.reg barS, ()) W)
      [Pay.slot 0 5, Pay.slot 0 4, Pay.slot 1 5, Pay.slot 1 4, Pay.slot 2 5, Pay.slot 2 4, Pay.slot 0 6, Pay.slot 1 6, Pay.slot 2 6]
      (by decide) _ _)
    iframe
    isplitr
    · iexact HR
    iexact Hlev
  iintro %v331 H
  icases H with ⟨⟨%W11, HO⟩, CS20, HA, H16, VR01, SP04, %hr11⟩

  rw [wp_bind]
  iapply (wp_wand_r frame _ Set.univ)
  isplitl [HO HA H16 CR11 AR11]
  · iapply (part12 m K c W11
      [Pay.slot 0 5, Pay.slot 0 4, Pay.slot 1 5, Pay.slot 1 4, Pay.slot 2 5, Pay.slot 2 4, Pay.slot 0 6, Pay.slot 1 6, Pay.slot 2 6]
      (by decide) _ _ _)
    iframe
    isplitr
    · iexact HR
    iexact Hlev
  iintro %v361 H
  icases H with ⟨⟨%W12, HO⟩, HA, H16, VR11, SP14, %hr12⟩

  rw [wp_bind]
  iapply (wp_wand_r frame _ Set.univ)
  isplitl [HO HA H16 CR21 AR21]
  · iapply (part13 m K c W12
      [Pay.slot 0 5, Pay.slot 0 4, Pay.slot 1 5, Pay.slot 1 4, Pay.slot 2 5, Pay.slot 2 4, Pay.slot 0 6, Pay.slot 1 6, Pay.slot 2 6]
      (by decide) _ _ _ _ hr12)
    iframe
    isplitr
    · iexact HR
    iexact Hlev
  iintro %r H
  obtain ⟨v388, v389, c0_i32_335⟩ := r
  icases H with ⟨⟨%W13, HO⟩, HA, H16, VR21, SP24, %hr13⟩

  rw [wp_bind]
  iapply (wp_wand_r frame _ Set.univ)
  isplitl [HO HA H16 CR03 AR03]
  · iapply (part14 m K c W13
      [Pay.slot 0 5, Pay.slot 0 4, Pay.slot 1 5, Pay.slot 1 4, Pay.slot 2 5, Pay.slot 2 4, Pay.slot 0 6, Pay.slot 1 6, Pay.slot 2 6]
      (by decide) _ _ _ _ _ hr13.1)
    iframe
    isplitr
    · iexact HR
    iexact Hlev
  iintro %v412 H
  icases H with ⟨⟨%W14, HO⟩, HA, H16, VR03, SP05, %hr14⟩

  rw [wp_bind]
  iapply (wp_wand_r frame _ Set.univ)
  isplitl [HO HA H16 CR13 AR13 CR23 AR23]
  · iapply (part15 m K c W14
      [Pay.slot 0 5, Pay.slot 0 4, Pay.slot 1 5, Pay.slot 1 4, Pay.slot 2 5, Pay.slot 2 4, Pay.slot 0 6, Pay.slot 1 6, Pay.slot 2 6]
      (by decide) _ _ _ hr14)
    iframe
    isplitr
    · iexact HR
    iexact Hlev
  iintro %r H
  obtain ⟨v447, v448⟩ := r
  icases H with ⟨⟨%W15, HO⟩, HA, H16, VR13, SP15, VR23, RP23, %hr15⟩

  have hS : k0_pay26 v447 = A3_80 m 2 c := by
    have h : v447 = _ := hr15.1
    subst h; rfl

  ihave RF23 := (held_of_recvPay_2_3 m c) $$ RP23
  rw [wp_bind]
  iapply (wp_wand_r frame _ Set.univ)
  isplitl [RF23 SP05 NQ05 TS05 TR05 SP04 NQ04 TS04 TR04 HO]
  · iapply (part16 m K c W15 _ v2 v447 v448 hS)
    iframe
    iexact HR
  iintro %r Hp
  obtain ⟨v451, v462, v473⟩ := r
  icases Hp with ⟨SP25, CS05, CS04, HO⟩

  rw [wp_bind]
  iapply (wp_wand_r frame _ Set.univ)
  isplitl [SP15 NQ15 TS15 TR15 SP14 NQ14 TS14 TR14 SP25 NQ25 TS25 TR25 HO]
  · iapply (part17 m K c W15 _ v2)
    iframe
    iexact HR
  iintro %r Hp
  obtain ⟨v484, v495, v506⟩ := r
  icases Hp with ⟨CS15, CS14, CS25, HO⟩

  rw [wp_bind]
  iapply (wp_wand_r frame _ Set.univ)
  isplitl [SP24 NQ24 TS24 TR24 HO HA H16 CR02 AR02]
  · iapply (part18 m K c W15 v2 v176 v506)
    iframe
    isplitr; · iexact HR
    iexact Hlev
  iintro %v526 Hp
  icases Hp with ⟨CS24, ⟨%W18, HO⟩, HA, H16, VR02, RP02, %hr18⟩

  rw [wp_bind]
  iapply (wp_wand_r frame _ Set.univ)
  isplitl [CR05 AR05 RP02 NQ06 TS06 TR06 HO]
  · iapply (part19 m K c W18 v2 v451 v526 hr18)
    iframe
    isplitr; · iexact HR
    iexact Hlev
  iintro %r Hp
  obtain ⟨v552, v563⟩ := r
  icases Hp with ⟨CS06, ⟨%W19, HO⟩, VR05, RP05⟩

  rw [wp_bind]
  iapply (wp_wand_r frame _ Set.univ)
  isplitl [HA H16 CR12 AR12 CR15 AR15 HO]
  · iapply (part20 m K c W19 v200 v473 v563)
    iframe
    isplitr; · iexact HR
    iexact Hlev
  iintro %v591 Hp
  icases Hp with ⟨HA, H16, VR12, VR15, RP12, RP15, ⟨%W20, HO⟩, %hr20⟩

  rw [wp_bind]
  iapply (wp_wand_r frame _ Set.univ)
  isplitl [RP12 RP15 NQ16 TS16 TR16 HO HA H16]
  · iapply (part21 m K c W20 _ v2 v224 v591 hr20)
    iframe
    iexact HR
  iintro %r Hp
  obtain ⟨v598, v618⟩ := r
  icases Hp with ⟨CS16, HO, RP15, HA, H16, %hr21⟩

  rw [wp_bind]
  iapply (wp_wand_r frame _ Set.univ)
  isplitl [HO CR22 AR22 CR25 AR25]
  · iapply (part22 m K c W20 v2 v495 v618 hr21)
    iframe
    isplitr; · iexact HR
    iexact Hlev
  iintro %v644 Hp
  icases Hp with ⟨⟨%W22, HO⟩, VR22, VR25, SP26, RP25⟩

  rw [wp_bind]
  iapply (wp_wand_r frame _ Set.univ)
  isplitl [HO SP26 NQ26 TS26 TR26 CR00 AR00 HA H16]
  · iapply (part23 m K c W22 v2 v248 v462)
    iframe
    isplitr; · iexact HR
    iexact Hlev
  iintro %v664 Hp
  icases Hp with ⟨⟨%W23, HO⟩, CS26, VR00, RP00, HA, H16, %hr23⟩

  rw [wp_bind]
  iapply (wp_wand_r frame _ Set.univ)
  isplitl [HO CR04 AR04 RP00 HA H16]
  · iapply (part24 m K c W23 v2 v272 v664 hr23)
    iframe
    isplitr; · iexact HR
    iexact Hlev
  iintro %v699 Hp
  icases Hp with ⟨⟨%W24, HO⟩, VR04, RP04, RH00, HA, H16, %hr24⟩

  rw [wp_bind]
  iapply (wp_wand_r frame _ Set.univ)
  isplitl [HO CR10 AR10 CR14 AR14 HA H16]
  · iapply (part25 m K c W24 v2 v484 v699 hr24)
    iframe
    isplitr; · iexact HR
    iexact Hlev
  iintro %v734 Hp
  icases Hp with ⟨⟨%W25, HO⟩, VR10, VR14, RP14, RH10, HA, H16, %hr25⟩

  rw [wp_bind]
  iapply (wp_wand_r frame _ Set.univ)
  isplitl [HO CR20 AR20 CR24 AR24]
  · iapply (part26 m K c W25 v296 v506 v552 v734 hr25)
    iframe
    isplitr; · iexact HR
    iexact Hlev
  iintro %v760 Hp
  icases Hp with ⟨⟨%W26, HO⟩, VR20, VR24, RH20, RP24⟩

  rw [wp_bind]
  iapply (wp_wand_r frame _ Set.univ)
  isplitl [HO CR06 AR06 CR16 AR16 RH00 RH10 Hout]
  · iapply (part27 m K c W26 v598 v760)
    iframe
    isplitr; · iexact HR
    iexact Hlev
  iintro %r Hp
  obtain ⟨v786, v788⟩ := r
  icases Hp with ⟨⟨%W27, HO⟩, VR06, VR16, RH00, RP06, RH10, RP16, Hout, %hr27⟩

  rw [wp_bind]
  iapply (wp_wand_r frame _ Set.univ)
  isplitl [HO CR26 AR26 CS00 AS00 RH20 Hout]
  · iapply (part28 m K c W27 v644 v786 v788 hr27.1 hr27.2)
    iframe
    isplitr; · iexact HR
    iexact Hlev
  iintro %u28 Hp
  icases Hp with ⟨⟨%W28, HO⟩, VR26, VS00, RH20, RP26, SP00, Hout⟩

  rw [Ofrom_nil]
  rw [k0_part29_eq_skeleton, k0_part30_eq_skeleton, k0_part31_eq_skeleton, k0_part32_eq_skeleton, k0_part33_eq_skeleton]
  unfold k0_part29_skel k0_part30_skel k0_part31_skel k0_part32_skel k0_part33_skel
  (first | sl_exec | skip)
  iapply (wp_waitSend' m K c 0 1 W28 ?hsm ?hcr) $$ HR CS01 HO AS01
  case hsm => rfl
  case hcr => exact Np_zero.symm
  iintro ⟨HO, VS01, SP01⟩
  (first | sl_exec | skip)
  iapply (wp_waitSend' m K c 0 2 _ ?hsm ?hcr) $$ HR CS02 HO AS02
  case hsm => rfl
  case hcr => exact Np_zero.symm
  iintro ⟨HO, VS02, SP02⟩
  (first | sl_exec | skip)
  iapply (wp_waitSend' m K c 0 3 _ ?hsm ?hcr) $$ HR CS03 HO AS03
  case hsm => rfl
  case hcr => exact Np_zero.symm
  iintro ⟨HO, VS03, SP03⟩
  (first | sl_exec | skip)
  iapply (wp_waitSend' m K c 0 4 _ ?hsm ?hcr) $$ HR CS04 HO AS04
  case hsm => rfl
  case hcr => exact Np_zero.symm
  iintro ⟨HO, VS04, SP04⟩
  (first | sl_exec | skip)
  iapply (wp_waitSend' m K c 0 5 _ ?hsm ?hcr) $$ HR CS05 HO AS05
  case hsm => rfl
  case hcr => exact Np_zero.symm
  iintro ⟨HO, VS05, SP05⟩
  (first | sl_exec | skip)
  iapply (wp_waitSend' m K c 0 6 _ ?hsm ?hcr) $$ HR CS06 HO AS06
  case hsm => rfl
  case hcr => exact Np_zero.symm
  iintro ⟨HO, VS06, SP06⟩
  (first | sl_exec | skip)
  iapply (wp_waitSend' m K c 1 0 _ ?hsm ?hcr) $$ HR CS10 HO AS10
  case hsm => rfl
  case hcr => rw [Np_of_ne (by decide)]
  iintro ⟨HO, VS10, SP10⟩
  (first | sl_exec | skip)
  iapply (wp_waitSend' m K c 1 1 _ ?hsm ?hcr) $$ HR CS11 HO AS11
  case hsm => rfl
  case hcr => rw [Np_of_ne (by decide)]
  iintro ⟨HO, VS11, SP11⟩
  (first | sl_exec | skip)
  iapply (wp_waitSend' m K c 1 2 _ ?hsm ?hcr) $$ HR CS12 HO AS12
  case hsm => rfl
  case hcr => rw [Np_of_ne (by decide)]
  iintro ⟨HO, VS12, SP12⟩
  (first | sl_exec | skip)
  iapply (wp_waitSend' m K c 1 3 _ ?hsm ?hcr) $$ HR CS13 HO AS13
  case hsm => rfl
  case hcr => rw [Np_of_ne (by decide)]
  iintro ⟨HO, VS13, SP13⟩
  (first | sl_exec | skip)
  iapply (wp_waitSend' m K c 1 4 _ ?hsm ?hcr) $$ HR CS14 HO AS14
  case hsm => rfl
  case hcr => rw [Np_of_ne (by decide)]
  iintro ⟨HO, VS14, SP14⟩
  (first | sl_exec | skip)
  iapply (wp_waitSend' m K c 1 5 _ ?hsm ?hcr) $$ HR CS15 HO AS15
  case hsm => rfl
  case hcr => rw [Np_of_ne (by decide)]
  iintro ⟨HO, VS15, SP15⟩
  (first | sl_exec | skip)
  iapply (wp_waitSend' m K c 1 6 _ ?hsm ?hcr) $$ HR CS16 HO AS16
  case hsm => rfl
  case hcr => rw [Np_of_ne (by decide)]
  iintro ⟨HO, VS16, SP16⟩
  (first | sl_exec | skip)
  iapply (wp_waitSend' m K c 2 0 _ ?hsm ?hcr) $$ HR CS20 HO AS20
  case hsm => rfl
  case hcr => rw [Np_of_ne (by decide)]
  iintro ⟨HO, VS20, SP20⟩
  (first | sl_exec | skip)
  iapply (wp_waitSend' m K c 2 1 _ ?hsm ?hcr) $$ HR CS21 HO AS21
  case hsm => rfl
  case hcr => rw [Np_of_ne (by decide)]
  iintro ⟨HO, VS21, SP21⟩
  (first | sl_exec | skip)
  iapply (wp_waitSend' m K c 2 2 _ ?hsm ?hcr) $$ HR CS22 HO AS22
  case hsm => rfl
  case hcr => rw [Np_of_ne (by decide)]
  iintro ⟨HO, VS22, SP22⟩
  (first | sl_exec | skip)
  iapply (wp_waitSend' m K c 2 3 _ ?hsm ?hcr) $$ HR CS23 HO AS23
  case hsm => rfl
  case hcr => rw [Np_of_ne (by decide)]
  iintro ⟨HO, VS23, SP23⟩
  (first | sl_exec | skip)
  iapply (wp_waitSend' m K c 2 4 _ ?hsm ?hcr) $$ HR CS24 HO AS24
  case hsm => rfl
  case hcr => rw [Np_of_ne (by decide)]
  iintro ⟨HO, VS24, SP24⟩
  (first | sl_exec | skip)
  iapply (wp_waitSend' m K c 2 5 _ ?hsm ?hcr) $$ HR CS25 HO AS25
  case hsm => rfl
  case hcr => rw [Np_of_ne (by decide)]
  iintro ⟨HO, VS25, SP25⟩
  (first | sl_exec | skip)
  iapply (wp_waitSend' m K c 2 6 _ ?hsm ?hcr) $$ HR CS26 HO AS26
  case hsm => rfl
  case hcr => rw [Np_of_ne (by decide)]
  iintro ⟨HO, VS26, SP26⟩
  (first | sl_exec | skip)
  (first | sl_step | (rw [wp_ret]; imodintro) | skip)
  ihave Hcc := (reassemble m c) $$ [H16 SP00 SP01 SP02 SP03 SP04 SP05 SP06 SP10 SP11 SP12 SP13 SP14 SP15 SP16 SP20 SP21 SP22 SP23 SP24 SP25 SP26
      RH00 RH10 RH20 RP04 RP05 RP06 RP14 RP15 RP16 RP24 RP25 RP26
      VS00 VR00 VS01 VR01 VS02 VR02 VS03 VR03 VS04 VR04 VS05 VR05 VS06 VR06
      VS10 VR10 VS11 VR11 VS12 VR12 VS13 VR13 VS14 VR14 VS15 VR15 VS16 VR16
      VS20 VR20 VS21 VR21 VS22 VR22 VS23 VR23 VS24 VR24 VS25 VR25 VS26 VR26]
  · iframe
  iapply Hk
  isplitl [Hcc]; · iexact Hcc
  isplitl [HO]
  · iexists _; iexact HO
  isplitl [HA]; · iexact HA
  isplitl [HB]; · iexact HB
  iexact Hout

set_option maxRecDepth 100000 in

theorem body_obligation (c : Dev nD) : BodyObligation (dats (F := F) m 0 c) (defs₀ (F := F)) 𝒱₀ () Set.univ :=
  body_obligation_of m (sound_body m) c

end Cert.Kernel.Proto

end
-- ==== Proof.PayValue.lean ====
import proofs.«900895_g7700000000000896_dist_matmul_mk_i_outk_m2048_n2048_k1024_v7x_i8_f32_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-- With accumulator zero the block product at (r, col) is Σₖ a(r, k) · b(k, col), whatever the number R of rows. -/
theorem mm {R : Nat} (d : DotDims ⟨2, ![R, 1024]⟩ S1024x2048 ⟨2, ![R, 2048]⟩) (hd : d = DotDims.plain R 1024 2048)
    (a : FVec Ideal ⟨2, ![R, 1024]⟩ .bf16) (b : FVec Ideal S1024x2048 .bf16) (r : Fin R) (col : Fin 2048) :
    matmul d none a b (constant (F := Ideal) ⟨2, ![R, 2048]⟩ .f32 0x00000000#32) (ix2 r col)
      = ∑ k : Fin 1024, a (ix2 r k) * b (ix2 k col) := by
  subst hd
  simp only [matmul]
  rw [Ideal.matmul_constant_zero_apply, ← Equiv.sum_comp (contrEquiv1 (DotDims.plain R 1024 2048) 1024 rfl rfl).symm]
  refine Finset.sum_congr rfl fun k _ => ?_
  have hk := contrEquiv1_symm_val (DotDims.plain R 1024 2048) 1024 rfl rfl k
  have el : (DotDims.plain R 1024 2048).lhsIdx (ix2 r col) ((contrEquiv1 _ 1024 rfl rfl).symm k) = ix2 r k :=
    funext fun x => Fin.ext (by match x with | ⟨0, _⟩ => rfl | ⟨1, _⟩ => exact hk)
  have er : (DotDims.plain R 1024 2048).rhsIdx (ix2 r col) ((contrEquiv1 _ 1024 rfl rfl).symm k) = ix2 k col :=
    funext fun x => Fin.ext (by match x with | ⟨0, _⟩ => exact hk | ⟨1, _⟩ => rfl)
  rw [el, er]

theorem pay1_apply (v : S1024x2048.Idx → EReal) (i : S1024x2048.Idx) : k0_pay1 (F := Ideal) v i = v i := by
  unfold k0_pay1
  simp only [truncf_apply, shapeCast_self]

theorem pay21_apply (a : S96x1024.Idx → EReal) (b : S1024x2048.Idx → EReal) (r : Fin 96) (col : Fin 2048) :
    k0_pay21 (F := Ideal) a b (ix2 r col) = ∑ k : Fin 1024, a (ix2 r k) * b (ix2 k col) := by
  unfold k0_pay21
  simp only [truncf_apply, shapeCast_self, mm dot_S96x1024_S1024x2048_S96x2048_1_0_0_1_n_n rfl]

theorem pay23_apply (a : S80x1024.Idx → EReal) (b : S1024x2048.Idx → EReal) (r : Fin 80) (col : Fin 2048) :
    k0_pay23 (F := Ideal) a b (ix2 r col) = ∑ k : Fin 1024, a (ix2 r k) * b (ix2 k col) := by
  unfold k0_pay23
  simp only [truncf_apply, shapeCast_self, mm dot_S80x1024_S1024x2048_S80x2048_1_0_0_1_n_n rfl]

end Cert.KernelIdeal.PayValue

end
-- ==== Proof.MeshSum.lean ====
import proofs.«900895_g7700000000000896_dist_matmul_mk_i_outk_m2048_n2048_k1024_v7x_i8_f32_1_alg».proof.Proof.Mesh
import Idealize.ShloMosaic.PureOps.Ideal

noncomputable section

open scoped BigOperators

namespace Cert.KernelIdeal.MeshSum

open Idealize.ShloMosaic Cert.KernelIdeal Cert.KernelIdeal.Mesh

/-- The masks p, p + 1, p + 2 span the three-bit words, so the tree of exchanges meets each of the eight devices once. -/
theorem tree_sum (p : Fin 3) (c : Dev nD) (P : Dev nD → EReal) :
    (P (peer p c) + P c + (P (peer p (peer (p + 1) c)) + P (peer (p + 1) c)))
      + (P (peer p (peer (p + 2) c)) + P (peer (p + 2) c)
          + (P (peer p (peer (p + 1) (peer (p + 2) c))) + P (peer (p + 1) (peer (p + 2) c))))
      = ∑ e : Dev nD, P e := by
  have hb : Function.Bijective (![peer p c, c, peer p (peer (p + 1) c), peer (p + 1) c, peer p (peer (p + 2) c), peer (p + 2) c,
      peer p (peer (p + 1) (peer (p + 2) c)), peer (p + 1) (peer (p + 2) c)] : Fin 8 → Dev nD) := by revert p c; decide
  rw [← hb.sum_comp P, Fin.sum_univ_eight]
  simp only [add_assoc]
  rfl

end Cert.KernelIdeal.MeshSum

end
-- ==== Proof.Spec.lean ====
import Idealize.ShloMosaic.PureOps.Ideal
import Idealize.ShloMosaic.Lib.ValueIdx
import Idealize.ShloMosaic.Lib.Layout

noncomputable section

open scoped BigOperators

namespace Cert.MatSpec

open Idealize.ShloMosaic Idealize.ShloMosaic.ValueIdx

variable (A : (⟨2, ![2048, 8192]⟩ : Shape).Idx → EReal) (B : (⟨2, ![8192, 2048]⟩ : Shape).Idx → EReal)

/-- G(row, col) = Σₖ A(row, k) · B(k, col). -/
def G : (⟨2, ![2048, 2048]⟩ : Shape).Idx → EReal :=
  fun i => ∑ k : Fin 8192, A (ix2 (⟨(i 0).val, idx2_lt0 i⟩ : Fin 2048) k) * B (ix2 k (⟨(i 1).val, idx2_lt1 i⟩ : Fin 2048))

theorem G_apply (row col : Fin 2048) : G A B (ix2 row col) = ∑ k : Fin 8192, A (ix2 row k) * B (ix2 k col) := rfl

/-- The same sum over one stretch of 1024 values of k. -/
def part (a : (⟨2, ![2048, 1024]⟩ : Shape).Idx → EReal) (b : (⟨2, ![1024, 2048]⟩ : Shape).Idx → EReal)
    (row col : Fin 2048) : EReal :=
  ∑ k : Fin 1024, a (ix2 row k) * b (ix2 k col)

/-- k ↦ (k / 1024, k mod 1024), a bijection. -/
def splitK : Fin 8 × Fin 1024 ≃ Fin 8192 where
  toFun p := ⟨p.1.val * 1024 + p.2.val, by omega⟩
  invFun j := (⟨j.val / 1024, by omega⟩, ⟨j.val % 1024, by omega⟩)
  left_inv p := Prod.ext (Fin.ext (by show (p.1.val * 1024 + p.2.val) / 1024 = p.1.val; omega))
    (Fin.ext (by show (p.1.val * 1024 + p.2.val) % 1024 = p.2.val; omega))
  right_inv j := Fin.ext (by show j.val / 1024 * 1024 + j.val % 1024 = j.val; omega)

/-- Summing over pairs (e, k) in place of e · 1024 + k splits the whole product into the eight partial ones. -/
theorem sum_part_eq_G (row col : Fin 2048) :
    ∑ e : Fin 8, part (Layout.block ⟨2, ![2048, 1024]⟩ ⟨2, ![2048, 8192]⟩ 1 8 e A)
        (Layout.block ⟨2, ![1024, 2048]⟩ ⟨2, ![8192, 2048]⟩ 0 8 e B) row col
      = G A B (ix2 row col) := by
  rw [G_apply, ← Equiv.sum_comp splitK fun j => A (ix2 row j) * B (ix2 j col), Fintype.sum_prod_type]
  exact Finset.sum_congr rfl fun e _ => Finset.sum_congr rfl fun k _ =>
    congrArg₂ (· * ·) (congrArg A (eq_ix2 _)) (congrArg B (eq_ix2 _))

/-- Row r of row block c is row 256 c + r. -/
theorem blockG_apply (c : Fin 8) (r : Fin 256) (col : Fin 2048) :
    (Layout.block ⟨2, ![256, 2048]⟩ ⟨2, ![2048, 2048]⟩ 0 8 c (G A B)) (ix2 r col)
      = G A B (ix2 (⟨256 * c.val + r.val, by omega⟩ : Fin 2048) col) :=
  congrArg (G A B) ((eq_ix2 _).trans (congrArg (ix2 · col) (Fin.ext (show c.val * 256 + r.val = 256 * c.val + r.val by omega))))

end Cert.MatSpec

end
-- ==== Proof.Bridge.lean ====
import proofs.«900895_g7700000000000896_dist_matmul_mk_i_outk_m2048_n2048_k1024_v7x_i8_f32_1_alg».proof.Proof.Proto
import proofs.«900895_g7700000000000896_dist_matmul_mk_i_outk_m2048_n2048_k1024_v7x_i8_f32_1_alg».proof.Proof.PayValue
import proofs.«900895_g7700000000000896_dist_matmul_mk_i_outk_m2048_n2048_k1024_v7x_i8_f32_1_alg».proof.Proof.MeshSum
import proofs.«900895_g7700000000000896_dist_matmul_mk_i_outk_m2048_n2048_k1024_v7x_i8_f32_1_alg».proof.Proof.Spec
import Idealize.ShloMosaic.Lib.Pipeline.Value

noncomputable section

open scoped BigOperators

namespace Cert.KernelIdeal.Bridge

open Cert.KernelIdeal Cert.KernelIdeal.Gen Cert.KernelIdeal.Mesh Cert.KernelIdeal.Proto Cert.KernelIdeal.PayValue Cert.KernelIdeal.MeshSum Cert.MatSpec
open Idealize.ShloMosaic Idealize.ShloMosaic.TcCoe Idealize.ShloMosaic.ValueIdx Idealize.SL.Sem

/-- Σ over device e's 1024 values of k of A(256 q + ρ, k) · B(k, col). -/
def P (A : (⟨2, ![2048, 8192]⟩ : Shape).Idx → EReal) (B : (⟨2, ![8192, 2048]⟩ : Shape).Idx → EReal) (e q : Dev nD) (ρ : Fin 256) (col : Fin 2048) : EReal :=
  part (Layout.block ⟨2, ![2048, 1024]⟩ ⟨2, ![2048, 8192]⟩ 1 8 e A) (Layout.block ⟨2, ![1024, 2048]⟩ ⟨2, ![8192, 2048]⟩ 0 8 e B)
    (⟨256 * q.val + ρ.val, by have : q.val < 8 := q.isLt; omega⟩ : Fin 2048) col

/-- The eight devices' stretches of k together are the whole contracted axis. -/
theorem sum_P (A : (⟨2, ![2048, 8192]⟩ : Shape).Idx → EReal) (B : (⟨2, ![8192, 2048]⟩ : Shape).Idx → EReal) (c : Dev nD) (ρ : Fin 256) (col : Fin 2048) :
    ∑ e : Dev nD, P A B e c ρ col = (Layout.block ⟨2, ![256, 2048]⟩ ⟨2, ![2048, 2048]⟩ 0 8 c (G A B)) (ix2 ρ col) :=
  (sum_part_eq_G A B _ col).trans (blockG_apply A B c ρ col).symm

section Values

variable (m : (ℓ : Loc nD τ sig) → Buf (Elt Ideal) ℓ)

/-- The embedding is the identity, so entry i is read at i. -/
theorem Ablk_apply (c : Dev nD) (i : S2048x1024.Idx) :
    (Ablk (F := Ideal) m c : S2048x1024.Idx → EReal) i = (m ((c : Thread nD τ).loc main_arg0) : S2048x1024.Idx → EReal) i := by
  unfold Ablk
  rw [View.read_apply, show (win0_0.blk (0 : Fin 1)).view.emb i = i from funext fun a => Fin.ext (by
    show (win0_0.rect (0 : Fin 1)).off a + 1 * (i a).val = (i a).val
    rw [(by decide : ∀ a, (win0_0.rect (0 : Fin 1)).off a = 0) a]; omega)]
  rfl

theorem Bblk_apply (c : Dev nD) (i : S1024x2048.Idx) :
    (Bblk (F := Ideal) m c : S1024x2048.Idx → EReal) i = (m ((c : Thread nD τ).loc main_arg1) : S1024x2048.Idx → EReal) i := by
  unfold Bblk
  rw [View.read_apply, show (win0_1.blk (0 : Fin 1)).view.emb i = i from funext fun a => Fin.ext (by
    show (win0_1.rect (0 : Fin 1)).off a + 1 * (i a).val = (i a).val
    rw [(by decide : ∀ a, (win0_1.rect (0 : Fin 1)).off a = 0) a]; omega)]
  rfl

theorem b16V_apply (c : Dev nD) (i : S1024x2048.Idx) :
    (b16V (F := Ideal) m c : S1024x2048.Idx → EReal) i = (Bblk (F := Ideal) m c : S1024x2048.Idx → EReal) i := by
  unfold b16V
  rw [pay1_apply]
  exact congrFun (Memref.readAt_unit_zero (Elt Ideal) cc0_stg1_0 (funext fun a => by match a with | ⟨0, _⟩ => rfl | ⟨1, _⟩ => rfl) _ (Bblk (F := Ideal) m c)) i

/-- The row offset computed from the word q is 256 (c XOR q), then 96 + 80 r₂ further for the later parts; the column offset is 0. -/
theorem off1_val (c : Dev nD) (q : Fin 8) :
    k0_off1 c (BitVec.ofNat 32 q.val) 0 = 256 * (chunk q c).val ∧ k0_off1 c (BitVec.ofNat 32 q.val) 1 = 0 := by
  revert c q; decide

theorem off2_val (c : Dev nD) (q : Fin 8) (r₂ : Fin 2) :
    k0_off2 c (BitVec.ofNat 32 q.val) (BitVec.ofNat 32 (96 + 80 * r₂.val)) 0 = 256 * (chunk q c).val + (96 + 80 * r₂.val)
      ∧ k0_off2 c (BitVec.ofNat 32 q.val) (BitVec.ofNat 32 (96 + 80 * r₂.val)) 1 = 0 := by
  revert c q r₂; decide

theorem aRows96_apply (c : Dev nD) (q : Fin 8) (r : Fin 96) (k : Fin 1024) :
    (aRows96 (F := Ideal) m c q : S96x1024.Idx → EReal) (ix2 r k)
      = (Ablk (F := Ideal) m c : S2048x1024.Idx → EReal) (ix2 (⟨256 * (chunk q c).val + r.val, by have : (chunk q c).val < 8 := (chunk q c).isLt; omega⟩ : Fin 2048) k) := by
  unfold aRows96
  rw [View.readAt_apply]
  show (Ablk (F := Ideal) m c : S2048x1024.Idx → EReal) _ = _
  congr 1
  funext a
  apply Fin.ext
  match a with
  | ⟨0, _⟩ =>
    show k0_off1 c (BitVec.ofNat 32 q.val) 0 + 1 * r.val = 256 * (chunk q c).val + r.val
    rw [(off1_val c q).1, one_mul]
  | ⟨1, _⟩ =>
    show k0_off1 c (BitVec.ofNat 32 q.val) 1 + 1 * k.val = k.val
    rw [(off1_val c q).2, one_mul, zero_add]

theorem aRows80_apply (c : Dev nD) (q : Fin 8) (r₂ : Fin 2) (r : Fin 80) (k : Fin 1024) :
    (aRows80 (F := Ideal) m c q r₂ : S80x1024.Idx → EReal) (ix2 r k)
      = (Ablk (F := Ideal) m c : S2048x1024.Idx → EReal) (ix2 (⟨256 * (chunk q c).val + (96 + 80 * r₂.val + r.val), by have : (chunk q c).val < 8 := (chunk q c).isLt; omega⟩ : Fin 2048) k) := by
  unfold aRows80
  rw [View.readAt_apply]
  show (Ablk (F := Ideal) m c : S2048x1024.Idx → EReal) _ = _
  congr 1
  funext a
  apply Fin.ext
  match a with
  | ⟨0, _⟩ =>
    show k0_off2 c (BitVec.ofNat 32 q.val) (BitVec.ofNat 32 (96 + 80 * r₂.val)) 0 + 1 * r.val = 256 * (chunk q c).val + (96 + 80 * r₂.val + r.val)
    rw [(off2_val c q r₂).1]; omega
  | ⟨1, _⟩ =>
    show k0_off2 c (BitVec.ofNat 32 q.val) (BitVec.ofNat 32 (96 + 80 * r₂.val)) 1 + 1 * k.val = k.val
    rw [(off2_val c q r₂).2, one_mul, zero_add]

theorem L96_apply (c : Dev nD) (j : Fin 4) (u : Fin 1) (r : Fin 96) (col : Fin 2048) :
    (L96 (F := Ideal) m c j : S1x96x2048.Idx → EReal) (ix3 u r col)
      = (pv96 (F := Ideal) m (peer 0 c) (qS 0 j) : S96x2048.Idx → EReal) (ix2 r col) := by
  unfold L96 sv96
  exact shapeCast_ab_1ab_apply _ _ u r col

theorem L80_apply (p : Fin 3) (c : Dev nD) (j : Fin 4) (u : Fin 1) (r : Fin 80) (col : Fin 2048) :
    (L80 (F := Ideal) m p c j : S1x80x2048.Idx → EReal) (ix3 u r col)
      = (pv80 (F := Ideal) m (peer p c) (qS p j) (r2 p) : S80x2048.Idx → EReal) (ix2 r col) := by
  unfold L80 k0_pay9
  exact shapeCast_ab_1ab_apply _ _ u r col

/-- Each of the eight products device c adds up for part p was computed for c's own row block (y, z: the part's second and third masks). -/
theorem ch (p y z : Fin 3) (c : Dev nD) (hy : y = p + 1) (hz : z = p + 2) :
    chunk (qS p 0) (peer p c) = c ∧ chunk (qA p 0) c = c
      ∧ chunk (qS p 1) (peer p (peer y c)) = c ∧ chunk (qA p 1) (peer y c) = c
      ∧ chunk (qS p 2) (peer p (peer z c)) = c ∧ chunk (qA p 2) (peer z c) = c
      ∧ chunk (qS p 3) (peer p (peer y (peer z c))) = c ∧ chunk (qA p 3) (peer y (peer z c)) = c := by
  revert p y z c; decide

section Store

variable {R : Nat} (off : Nat) (inb : ∀ a, (![off, 0] : Fin 2 → Nat) a + (![R, 2048] : Fin 2 → Nat) a ≤ S256x2048.size a)
  (f : (cc0_stg2_0 : Ref sig .tc).ty.Contents (Elt Ideal)) (w : (⟨2, ![R, 2048]⟩ : Shape).Idx → EReal) (ρ : Fin 256) (col : Fin 2048)

/-- After rows off … off + R − 1 are overwritten, row off + r holds row r of what was written; -/
theorem store_in (r : Fin R) (hρ : ρ.val = off + r.val) :
    (((oM.access (Rect.unit ![off, 0] ![R, 2048] inb) : View sig .tc _ _ _)).write (Elt Ideal) f w Finset.univ : S256x2048.Idx → EReal) (ix2 ρ col)
      = w (ix2 r col) := by
  refine (congrFun (View.write_whole_slice_unit (Val := Elt Ideal) cc0_stg2_0 ![off, 0] ![R, 2048] inb f w) (ix2 ρ col)).trans ?_
  unfold updateSlice
  rw [dif_pos (fun a => by
    match a with
    | ⟨0, _⟩ => exact (show off ≤ ρ.val ∧ ρ.val < off + R from ⟨by omega, by omega⟩)
    | ⟨1, _⟩ => exact (show 0 ≤ col.val ∧ col.val < 0 + 2048 from ⟨Nat.zero_le _, by omega⟩))]
  congr 1
  funext b
  apply Fin.ext
  match b with
  | ⟨0, _⟩ => show ρ.val - off = r.val; omega
  | ⟨1, _⟩ => show col.val - 0 = col.val; omega

/-- the rows above off are untouched. -/
theorem store_out (hρ : ρ.val < off) :
    (((oM.access (Rect.unit ![off, 0] ![R, 2048] inb) : View sig .tc _ _ _)).write (Elt Ideal) f w Finset.univ : S256x2048.Idx → EReal) (ix2 ρ col)
      = (f : S256x2048.Idx → EReal) (ix2 ρ col) := by
  refine (congrFun (View.write_whole_slice_unit (Val := Elt Ideal) cc0_stg2_0 ![off, 0] ![R, 2048] inb f w) (ix2 ρ col)).trans ?_
  unfold updateSlice
  rw [dif_neg]
  intro hin
  have h0 := hin ⟨0, by decide⟩
  have h0' : off ≤ ρ.val ∧ ρ.val < off + R := h0
  omega

end Store

variable (A : (⟨2, ![2048, 8192]⟩ : Shape).Idx → EReal) (B : (⟨2, ![8192, 2048]⟩ : Shape).Idx → EReal)
  (hA : ∀ e : Dev nD, (m ((e : Thread nD τ).loc main_arg0) : S2048x1024.Idx → EReal) = Layout.block ⟨2, ![2048, 1024]⟩ ⟨2, ![2048, 8192]⟩ 1 8 e A)
  (hB : ∀ e : Dev nD, (m ((e : Thread nD τ).loc main_arg1) : S1024x2048.Idx → EReal) = Layout.block ⟨2, ![1024, 2048]⟩ ⟨2, ![8192, 2048]⟩ 0 8 e B)

include hA hB

theorem pv96_apply (e : Dev nD) (q : Fin 8) (r : Fin 96) (col : Fin 2048) :
    (pv96 (F := Ideal) m e q : S96x2048.Idx → EReal) (ix2 r col)
      = P A B e (chunk q e) (⟨r.val, by omega⟩ : Fin 256) col := by
  unfold pv96
  rw [pay21_apply]
  unfold P part
  refine Finset.sum_congr rfl fun k _ => ?_
  rw [aRows96_apply, b16V_apply, Ablk_apply, Bblk_apply, hA e, hB e]

theorem pv80_apply (e : Dev nD) (q : Fin 8) (r₂ : Fin 2) (r : Fin 80) (col : Fin 2048) :
    (pv80 (F := Ideal) m e q r₂ : S80x2048.Idx → EReal) (ix2 r col)
      = P A B e (chunk q e) (⟨96 + 80 * r₂.val + r.val, by omega⟩ : Fin 256) col := by
  unfold pv80
  rw [pay23_apply]
  unfold P part
  refine Finset.sum_congr rfl fun k _ => ?_
  rw [aRows80_apply, b16V_apply, Ablk_apply, Bblk_apply, hA e, hB e]

/-- Rows 0–95: the eight partial products for row block c, summed along the tree. -/
theorem O96_apply (c : Dev nD) (r : Fin 96) (col : Fin 2048) (ρ : Fin 256) (hρ : ρ.val = r.val) :
    (O96 (F := Ideal) m c : S96x2048.Idx → EReal) (ix2 r col) = (Layout.block ⟨2, ![256, 2048]⟩ ⟨2, ![2048, 2048]⟩ 0 8 c (G A B)) (ix2 ρ col) := by
  rw [show ρ = ⟨r.val, by omega⟩ from Fin.ext hρ]
  simp only [O96, A0_96, A2_96, A1_96, A3_96, k0_pay39, k0_pay28, k0_pay22, extf_apply, addf_apply, shapeCast_1ab_ab_apply, shapeCast_ab_1ab_apply, L96_apply, pv96_apply m A B hA hB, ch 0 1 2 _ rfl rfl]
  exact (tree_sum 0 c fun e => P A B e c _ col).trans (sum_P A B c _ col)

/-- Rows 96–175 (p = 1) and 176–255 (p = 2), likewise. -/
theorem O80_apply (p : Fin 3) (c : Dev nD) (r : Fin 80) (col : Fin 2048) (ρ : Fin 256) (hρ : ρ.val = 96 + 80 * (r2 p).val + r.val) :
    (O80 (F := Ideal) m p c : S80x2048.Idx → EReal) (ix2 r col) = (Layout.block ⟨2, ![256, 2048]⟩ ⟨2, ![2048, 2048]⟩ 0 8 c (G A B)) (ix2 ρ col) := by
  rw [show ρ = ⟨96 + 80 * (r2 p).val + r.val, by omega⟩ from Fin.ext hρ]
  simp only [O80, A0_80, A2_80, A1_80, A3_80, k0_pay43, k0_pay32, k0_pay24, extf_apply, addf_apply, shapeCast_1ab_ab_apply, shapeCast_ab_1ab_apply, L80_apply, pv80_apply m A B hA hB, ch p _ _ _ rfl rfl]
  exact (tree_sum p c fun e => P A B e c _ col).trans (sum_P A B c _ col)

/-- 256 = 96 + 80 + 80: every row lies in exactly one of the three stored stretches. -/
theorem outV_block (c : Dev nD) :
    (outV (F := Ideal) m c : S256x2048.Idx → EReal) = Layout.block ⟨2, ![256, 2048]⟩ ⟨2, ![2048, 2048]⟩ 0 8 c (G A B) := by
  funext i
  obtain ⟨ρ, col, rfl⟩ : ∃ (ρ : Fin 256) (col : Fin 2048), i = ix2 ρ col := ⟨i 0, i 1, eq_ix2 i⟩
  unfold outV
  by_cases h1 : ρ.val < 96
  · rw [store_out 176 inb_S256x2048_S80x2048_176_0 _ _ ρ col (by omega),
      store_out 96 inb_S256x2048_S80x2048_96_0 _ _ ρ col h1,
      store_in 0 inb_S256x2048_S96x2048_0_0 _ _ ρ col ⟨ρ.val, h1⟩ (Nat.zero_add _).symm]
    exact O96_apply m A B hA hB c _ col ρ rfl
  · by_cases h2 : ρ.val < 176
    · rw [store_out 176 inb_S256x2048_S80x2048_176_0 _ _ ρ col h2,
        store_in 96 inb_S256x2048_S80x2048_96_0 _ _ ρ col ⟨ρ.val - 96, by omega⟩ (by show ρ.val = 96 + (ρ.val - 96); omega)]
      exact O80_apply m A B hA hB 1 c _ col ρ (by show ρ.val = 96 + 80 * 0 + (ρ.val - 96); omega)
    · rw [store_in 176 inb_S256x2048_S80x2048_176_0 _ _ ρ col ⟨ρ.val - 176, by omega⟩ (by show ρ.val = 176 + (ρ.val - 176); omega)]
      exact O80_apply m A B hA hB 2 c _ col ρ (by show ρ.val = 96 + 80 * 1 + (ρ.val - 176); omega)

end Values

end Cert.KernelIdeal.Bridge

end
-- ==== Proof.RefValue.lean ====
import proofs.«900895_g7700000000000896_dist_matmul_mk_i_outk_m2048_n2048_k1024_v7x_i8_f32_1_alg».proof.Defs
import proofs.«900895_g7700000000000896_dist_matmul_mk_i_outk_m2048_n2048_k1024_v7x_i8_f32_1_alg».proof.Proof.Gen.Pre_finite_inputs_ReferenceIdeal
import proofs.«900895_g7700000000000896_dist_matmul_mk_i_outk_m2048_n2048_k1024_v7x_i8_f32_1_alg».proof.Proof.Gen.ReferenceIdeal.Read
import proofs.«900895_g7700000000000896_dist_matmul_mk_i_outk_m2048_n2048_k1024_v7x_i8_f32_1_alg».proof.Proof.Spec

noncomputable section

open scoped BigOperators

namespace Cert.RefValue

open Idealize.ShloMosaic Idealize.SL.Sem Idealize.ShloMosaic.ValueIdx Cert.ReferenceIdeal Cert.ReferenceIdeal.Gen

theorem frame : Cert.frame_ReferenceIdeal := fun m ρ _ =>
  (θ_run Cert.ReferenceIdeal.defs _ _).mono (fun _ h c => (h c).2) (Cert.ReferenceIdeal.Value.run (F := Ideal) m ρ)

/-- Both sides are Σₖ x0(row, k) · x1(k, col). -/
theorem dot_eq_G (x0 : (⟨S2048x8192, .f32⟩ : BufTy).Contents (Elt Ideal)) (x1 : (⟨S8192x2048, .f32⟩ : BufTy).Contents (Elt Ideal)) :
    Host.dotGeneral (F := Ideal) (φ₁ := .f32) (φ₂ := .f32) dot_S2048x8192_S8192x2048_S2048x2048_1_0_0_1_n_n none x0 x1
      = Cert.MatSpec.G x0 x1 :=
  funext fun i => (Cert.ReferenceIdeal.Read.val_main_v0_apply x0 x1 i).trans
    (Finset.sum_congr rfl fun k _ => congrArg₂ (· * ·) (congrArg x0 (eq_ix2 _)) (congrArg x1 (eq_ix2 _)))

/-- The result is G of the two arguments, which stay as they were. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v0) = Cert.MatSpec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono (fun _ h c => ⟨(h c).1.trans (dot_eq_G _ _), (h c).2⟩)
    (Cert.ReferenceIdeal.Value.run (F := Ideal) m ρ)

end Cert.RefValue

end
-- ==== Proof.Claims.lean ====
import proofs.«900895_g7700000000000896_dist_matmul_mk_i_outk_m2048_n2048_k1024_v7x_i8_f32_1_alg».proof.Proof.Gen.Pre_finite_inputs_Kernel
import proofs.«900895_g7700000000000896_dist_matmul_mk_i_outk_m2048_n2048_k1024_v7x_i8_f32_1_alg».proof.Proof.Launch
import proofs.«900895_g7700000000000896_dist_matmul_mk_i_outk_m2048_n2048_k1024_v7x_i8_f32_1_alg».proof.Proof.Body
import proofs.«900895_g7700000000000896_dist_matmul_mk_i_outk_m2048_n2048_k1024_v7x_i8_f32_1_alg».proof.Proof.LaunchW
import proofs.«900895_g7700000000000896_dist_matmul_mk_i_outk_m2048_n2048_k1024_v7x_i8_f32_1_alg».proof.Proof.BodyW
import proofs.«900895_g7700000000000896_dist_matmul_mk_i_outk_m2048_n2048_k1024_v7x_i8_f32_1_alg».proof.Proof.Bridge
import proofs.«900895_g7700000000000896_dist_matmul_mk_i_outk_m2048_n2048_k1024_v7x_i8_f32_1_alg».proof.Proof.RefValue

noncomputable section

namespace Cert.Claims

open Idealize.ShloMosaic Idealize.SL.Sem

theorem frame_k : Cert.frame_Kernel := fun m g _ =>
  (θ_run (Cert.Kernel.defs (F := Bits)) _ _).mono
    (fun _ h c => ⟨(h c 0).trans (Cert.Kernel.Proto.arrAt_arg0 m c), (h c 1).trans (Cert.Kernel.Proto.arrAt_arg1 m c)⟩)
    (Cert.Kernel.Proto.run_main (F := Bits) m (fun c => Cert.Kernel.Proto.body_obligation m c) g)

theorem frame_ki : Cert.frame_KernelIdeal := fun m g _ =>
  (θ_run (Cert.KernelIdeal.defs (F := Ideal)) _ _).mono
    (fun _ h c => ⟨(h c 0).trans (Cert.KernelIdeal.Proto.arrAt_arg0 m c), (h c 1).trans (Cert.KernelIdeal.Proto.arrAt_arg1 m c)⟩)
    (Cert.KernelIdeal.Proto.run_main (F := Ideal) m (fun c => Cert.KernelIdeal.Proto.body_obligation m c) g)

theorem frame_ri : Cert.frame_ReferenceIdeal := Cert.RefValue.frame

theorem preserves : Cert.preserves_Kernel_KernelIdeal := trivial

theorem algebraic : Cert.algebraic_KernelIdeal_ReferenceIdeal := fun m g m' g' _ hagree =>
  ⟨Cert.MatSpec.G (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h c 2).trans ((Cert.KernelIdeal.Proto.arrAt_out m c).trans
          (Cert.KernelIdeal.Bridge.outV_block m _ _ (fun e => (hagree e).1) (fun e => (hagree e).2) c)),
        (h c 0).trans (Cert.KernelIdeal.Proto.arrAt_arg0 m c), (h c 1).trans (Cert.KernelIdeal.Proto.arrAt_arg1 m c)⟩)
      (Cert.KernelIdeal.Proto.run_main (F := Ideal) m (fun c => Cert.KernelIdeal.Proto.body_obligation m c) g),
    (θ_run (Cert.ReferenceIdeal.defs (F := Ideal)) _ _).mono (fun _ h => h 0) (Cert.RefValue.run m' g')⟩

end Cert.Claims

end
-- ==== Proof.lean ====
/-
  The claim: the side conditions each program and each precondition states, then the five conjuncts. Device e multiplies its
  stretch of 1024 of the contracted axis; for each row block the eight partial products are added along three exchanges, across
  the masks p, p + 1, p + 2, which meet each device once, so the nested sum is the sum over the eight devices, and the eight
  stretches make up the whole contraction: device c ends with block c of the product.
-/
import proofs.«900895_g7700000000000896_dist_matmul_mk_i_outk_m2048_n2048_k1024_v7x_i8_f32_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Claims.frame_k, Cert.Claims.frame_ki, Cert.Claims.frame_ri, Cert.Claims.preserves, Cert.Claims.algebraic⟩

end Cert.Proof

end
